-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v196)) (v1 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_v204) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_v319) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S5x64x64 : Shape := ⟨3, ![5, 64, 64]⟩
abbrev S5x64 : Shape := ⟨2, ![5, 64]⟩
abbrev S320x320 : Shape := ⟨2, ![320, 320]⟩
abbrev S320 : Shape := ⟨1, ![320]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S320x320 : S_.BroadcastsInDim S320x320 (![] : Fin 0 → Fin S320x320.rank)
  reducesTo_S320x320_S_d0_1 : S320x320.ReducesTo [0, 1] S_
  bcast_S_S320 : S_.BroadcastsInDim S320 (![] : Fin 0 → Fin S320.rank)
  reducesTo_S320_S_d0 : S320.ReducesTo [0] S_

variable [Facts]

def fn_part3 {F : FTy → Type} [FloatOps F] (main_arg13 : FVec F S320x320 .f32) (main_arg14 : FVec F S320 .f32) (main_v48 : IVec S_ 1) (main_v49 : FVec F S320 .f32) (main_v50 : FVec F S320 .f32) : IVec S_ 1 :=
  let main_v51 : IVec S320 1 := cmpf .olt main_v49 main_v50
  let main_c_19 : IVec S_ 1 := constantI S_ 1 1#1
  let main_v52 : IVec S_ 1 := (fun x v => Host.reduce IntOp.andi x v reducesTo_S320_S_d0 h_S_) main_v51 main_c_19
  let main_v53 : IVec S_ 1 := andi main_v48 main_v52
  let main_v54 : FVec F S320x320 .f32 := Host.absf main_arg13
  let main_cst_20 : FVec F S_ .f32 := constant S_ .f32 0x7F800000#32
  let main_v55 : FVec F S320x320 .f32 := broadcastInDim S320x320 ![] bcast_S_S320x320 main_cst_20
  let main_v56 : IVec S320x320 1 := cmpf .olt main_v54 main_v55
  let main_c_21 : IVec S_ 1 := constantI S_ 1 1#1
  let main_v57 : IVec S_ 1 := (fun x v => Host.reduce IntOp.andi x v reducesTo_S320x320_S_d0_1 h_S_) main_v56 main_c_21
  let main_v58 : IVec S_ 1 := andi main_v53 main_v57
  let main_v59 : FVec F S320 .f32 := Host.absf main_arg14
  let main_cst_22 : FVec F S_ .f32 := constant S_ .f32 0x7F800000#32
  let main_v60 : FVec F S320 .f32 := broadcastInDim S320 ![] bcast_S_S320 main_cst_22
  let main_v61 : IVec S320 1 := cmpf .olt main_v59 main_v60
  let main_c_23 : IVec S_ 1 := constantI S_ 1 1#1
  let main_v62 : IVec S_ 1 := (fun x v => Host.reduce IntOp.andi x v reducesTo_S320_S_d0 h_S_) main_v61 main_c_23
  let main_v63 : IVec S_ 1 := andi main_v58 main_v62
  main_v63

def fn_part2 {F : FTy → Type} [FloatOps F] (main_arg9 : FVec F S5x64 .f32) (main_arg10 : FVec F S5x64 .f32) (main_arg11 : FVec F S320x320 .f32) (main_arg12 : FVec F S320 .f32) (main_arg13 : FVec F S320x320 .f32) (main_arg14 : FVec F S320 .f32) (main_v33 : IVec S_ 1) : IVec S_ 1 :=
  let main_v34 : FVec F S5x64 .f32 := Host.absf main_arg9
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x64 .f32 := Host.absf main_arg10
  let main_cst_14 : FVec F S_ .f32 := constant S_ .f32 0x7F800000#32
  let main_v40 : FVec F S5x64 .f32 := broadcastInDim S5x64 ![] bcast_S_S5x64 main_cst_14
  let main_v41 : IVec S5x64 1 := cmpf .olt main_v39 main_v40
  let main_c_15 : IVec S_ 1 := constantI S_ 1 1#1
  let main_v42 : IVec S_ 1 := (fun x v => Host.reduce IntOp.andi x v reducesTo_S5x64_S_d0_1 h_S_) main_v41 main_c_15
  let main_v43 : IVec S_ 1 := andi main_v38 main_v42
  let main_v44 : FVec F S320x320 .f32 := Host.absf main_arg11
  let main_cst_16 : FVec F S_ .f32 := constant S_ .f32 0x7F800000#32
  let main_v45 : FVec F S320x320 .f32 := broadcastInDim S320x320 ![] bcast_S_S320x320 main_cst_16
  let main_v46 : IVec S320x320 1 := cmpf .olt main_v44 main_v45
  let main_c_17 : IVec S_ 1 := constantI S_ 1 1#1
  let main_v47 : IVec S_ 1 := (fun x v => Host.reduce IntOp.andi x v reducesTo_S320x320_S_d0_1 h_S_) main_v46 main_c_17
  let main_v48 : IVec S_ 1 := andi main_v43 main_v47
  let main_v49 : FVec F S320 .f32 := Host.absf main_arg12
  let main_cst_18 : FVec F S_ .f32 := constant S_ .f32 0x7F800000#32
  let main_v50 : FVec F S320 .f32 := broadcastInDim S320 ![] bcast_S_S320 main_cst_18
  fn_part3 (F := F) main_arg13 main_arg14 main_v48 main_v49 main_v50

def fn_part1 {F : FTy → Type} [FloatOps F] (main_arg6 : FVec F S5x64 .f32) (main_arg7 : FVec F S5x64x64 .f32) (main_arg8 : FVec F S5x64 .f32) (main_arg9 : FVec F S5x64 .f32) (main_arg10 : FVec F S5x64 .f32) (main_arg11 : FVec F S320x320 .f32) (main_arg12 : FVec F S320 .f32) (main_arg13 : FVec F S320x320 .f32) (main_arg14 : FVec F S320 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64 .f32 := Host.absf main_arg6
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S5x64x64 .f32 := Host.absf main_arg7
  let main_cst_8 : FVec F S_ .f32 := constant S_ .f32 0x7F800000#32
  let main_v25 : FVec F S5x64x64 .f32 := broadcastInDim S5x64x64 ![] bcast_S_S5x64x64 main_cst_8
  let main_v26 : IVec S5x64x64 1 := cmpf .olt main_v24 main_v25
  let main_c_9 : IVec S_ 1 := constantI S_ 1 1#1
  let main_v27 : IVec S_ 1 := (fun x v => Host.reduce IntOp.andi x v reducesTo_S5x64x64_S_d0_1_2 h_S_) main_v26 main_c_9
  let main_v28 : IVec S_ 1 := andi main_v23 main_v27
  let main_v29 : FVec F S5x64 .f32 := Host.absf main_arg8
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S5x64x64 .f32) (main_arg6 : FVec F S5x64 .f32) (main_arg7 : FVec F S5x64x64 .f32) (main_arg8 : FVec F S5x64 .f32) (main_arg9 : FVec F S5x64 .f32) (main_arg10 : FVec F S5x64 .f32) (main_arg11 : FVec F S320x320 .f32) (main_arg12 : FVec F S320 .f32) (main_arg13 : FVec F S320x320 .f32) (main_arg14 : FVec F S320 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5x64x64 .f32 := Host.absf main_arg5
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S5x64x64 : Shape := ⟨3, ![5, 64, 64]⟩
abbrev S5x64 : Shape := ⟨2, ![5, 64]⟩
abbrev S320x320 : Shape := ⟨2, ![320, 320]⟩
abbrev S320 : Shape := ⟨1, ![320]⟩
abbrev S1x1200000 : Shape := ⟨2, ![1, 1200000]⟩
abbrev S1200000 : Shape := ⟨1, ![1200000]⟩
abbrev S1x64 : Shape := ⟨2, ![1, 64]⟩
abbrev S5000x64 : Shape := ⟨2, ![5000, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S100000x320 : Shape := ⟨2, ![100000, 320]⟩
abbrev S100000x1 : Shape := ⟨2, ![100000, 1]⟩
abbrev S128 : Shape := ⟨1, ![128]⟩
abbrev S1x128 : Shape := ⟨2, ![1, 128]⟩
abbrev S100000x128 : Shape := ⟨2, ![100000, 128]⟩
abbrev S128x320 : Shape := ⟨2, ![128, 320]⟩
abbrev S5000x128 : Shape := ⟨2, ![5000, 128]⟩
abbrev S5000x320 : Shape := ⟨2, ![5000, 320]⟩
abbrev S1x320 : Shape := ⟨2, ![1, 320]⟩
abbrev S128x1 : Shape := ⟨2, ![128, 1]⟩

abbrev nBuf : Space → Nat
  | .hbm => 359
  | .vmem => 107
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S5x64x64, .f32⟩
  | 6 => ⟨S5x64, .f32⟩
  | 7 => ⟨S5x64x64, .f32⟩
  | 8 => ⟨S5x64, .f32⟩
  | 9 => ⟨S5x64, .f32⟩
  | 10 => ⟨S5x64, .f32⟩
  | 11 => ⟨S320x320, .f32⟩
  | 12 => ⟨S320, .f32⟩
  | 13 => ⟨S320x320, .f32⟩
  | 14 => ⟨S320, .f32⟩
  | 15 => ⟨S1x1200000, .i32⟩
  | 16 => ⟨S1200000, .i32⟩
  | 17 => ⟨S1x1200000, .i32⟩
  | 18 => ⟨S1200000, .i32⟩
  | 19 => ⟨S1x64, .f32⟩
  | 20 => ⟨S100000x64, .f32⟩
  | 21 => ⟨S_, .i32⟩
  | 22 => ⟨S1200000, .i32⟩
  | 23 => ⟨S1200000, .i1⟩
  | 24 => ⟨S_, .i32⟩
  | 25 => ⟨S1200000, .i32⟩
  | 26 => ⟨S1200000, .i32⟩
  | 27 => ⟨S1200000, .i32⟩
  | 28 => ⟨S1200000x1, .i32⟩
  | 29 => ⟨S1200000x64, .f32⟩
  | 30 => ⟨S_, .f32⟩
  | 31 => ⟨S100000x64, .f32⟩
  | 32 => ⟨S1200000x1, .i32⟩
  | 33 => ⟨S100000x64, .f32⟩
  | 34 => ⟨S1x64x64, .f32⟩
  | 35 => ⟨S64x64, .f32⟩
  | 36 => ⟨S1x64, .f32⟩
  | 37 => ⟨S64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S1x64, .f32⟩
  | 44 => ⟨S100000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S1x64, .f32⟩
  | 79 => ⟨S1x64, .f32⟩
  | 80 => ⟨S1x64, .f32⟩
  | 81 => ⟨S100000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S_, .f32⟩
  | 92 => ⟨S100000x64, .f32⟩
  | 93 => ⟨S1200000x1, .i32⟩
  | 94 => ⟨S100000x64, .f32⟩
  | 95 => ⟨S1x64x64, .f32⟩
  | 96 => ⟨S64x64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x64, .f32⟩
  | 104 => ⟨S1x64, .f32⟩
  | 105 => ⟨S100000x64, .f32⟩
  | 106 => ⟨S_, .f32⟩
  | 107 => ⟨S64, .f32⟩
  | 108 => ⟨S_, .f32⟩
  | 109 => ⟨S64, .f32⟩
  | 110 => ⟨S64, .f32⟩
  | 111 => ⟨S_, .i32⟩
  | 112 => ⟨S_, .f32⟩
  | 113 => ⟨S64, .f32⟩
  | 114 => ⟨S1x64, .f32⟩
  | 115 => ⟨S_, .f32⟩
  | 116 => ⟨S1x64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S_, .f32⟩
  | 123 => ⟨S_, .f32⟩
  | 124 => ⟨S_, .f32⟩
  | 125 => ⟨S64, .f32⟩
  | 126 => ⟨S64, .f32⟩
  | 127 => ⟨S64, .f32⟩
  | _ => ⟨S100000x64, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S64, .f32⟩
  | 5 => ⟨S64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S1x64, .f32⟩
  | 12 => ⟨S1x64, .f32⟩
  | 13 => ⟨S1x64, .f32⟩
  | 14 => ⟨S100000x64, .f32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S1x64x64, .f32⟩
  | 33 => ⟨S64x64, .f32⟩
  | 34 => ⟨S1x64, .f32⟩
  | 35 => ⟨S64, .f32⟩
  | 36 => ⟨S1x64, .f32⟩
  | 37 => ⟨S1x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S1x64, .f32⟩
  | 73 => ⟨S1x64, .f32⟩
  | 74 => ⟨S1x64, .f32⟩
  | 75 => ⟨S100000x64, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S_, .f32⟩
  | 86 => ⟨S100000x64, .f32⟩
  | 87 => ⟨S1200000x1, .i32⟩
  | 88 => ⟨S100000x64, .f32⟩
  | 89 => ⟨S1x64x64, .f32⟩
  | 90 => ⟨S64x64, .f32⟩
  | 91 => ⟨S1x64, .f32⟩
  | 92 => ⟨S64, .f32⟩
  | 93 => ⟨S1x64x64, .f32⟩
  | 94 => ⟨S64x64, .f32⟩
  | 95 => ⟨S1x64, .f32⟩
  | 96 => ⟨S64, .f32⟩
  | 97 => ⟨S1x64, .f32⟩
  | 98 => ⟨S1x64, .f32⟩
  | 99 => ⟨S100000x64, .f32⟩
  | 100 => ⟨S_, .f32⟩
  | 101 => ⟨S64, .f32⟩
  | 102 => ⟨S_, .f32⟩
  | 103 => ⟨S64, .f32⟩
  | 104 => ⟨S64, .f32⟩
  | 105 => ⟨S_, .i32⟩
  | 106 => ⟨S_, .f32⟩
  | 107 => ⟨S64, .f32⟩
  | 108 => ⟨S1x64, .f32⟩
  | 109 => ⟨S_, .f32⟩
  | 110 => ⟨S1x64, .f32⟩
  | 111 => ⟨S1x64, .f32⟩
  | 112 => ⟨S100000x64, .f32⟩
  | 113 => ⟨S100000x64, .f32⟩
  | 114 => ⟨S100000x64, .f32⟩
  | 115 => ⟨S_, .f32⟩
  | 116 => ⟨S_, .f32⟩
  | 117 => ⟨S_, .f32⟩
  | 118 => ⟨S_, .f32⟩
  | 119 => ⟨S64, .f32⟩
  | 120 => ⟨S64, .f32⟩
  | 121 => ⟨S64, .f32⟩
  | 122 => ⟨S_, .f32⟩
  | 123 => ⟨S_, .i1⟩
  | 124 => ⟨S_, .f32⟩
  | 125 => ⟨S_, .f32⟩
  | 126 => ⟨S64, .f32⟩
  | 127 => ⟨S64, .f32⟩
  | _ => ⟨S100000x64, .f32⟩

abbrev hbmTy0_2 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S1x64, .f32⟩
  | 6 => ⟨S1x64, .f32⟩
  | 7 => ⟨S1x64, .f32⟩
  | 8 => ⟨S100000x64, .f32⟩
  | 9 => ⟨S_, .i32⟩
  | 10 => ⟨S1200000, .i32⟩
  | 11 => ⟨S1200000, .i1⟩
  | 12 => ⟨S_, .i32⟩
  | 13 => ⟨S1200000, .i32⟩
  | 14 => ⟨S1200000, .i32⟩
  | 15 => ⟨S1200000, .i32⟩
  | 16 => ⟨S1200000x1, .i32⟩
  | 17 => ⟨S1200000x64, .f32⟩
  | 18 => ⟨S_, .f32⟩
  | 19 => ⟨S100000x64, .f32⟩
  | 20 => ⟨S1200000x1, .i32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S1x64, .f32⟩
  | 31 => ⟨S1x64, .f32⟩
  | 32 => ⟨S100000x64, .f32⟩
  | 33 => ⟨S_, .f32⟩
  | 34 => ⟨S64, .f32⟩
  | 35 => ⟨S_, .f32⟩
  | 36 => ⟨S64, .f32⟩
  | 37 => ⟨S64, .f32⟩
  | 38 => ⟨S_, .i32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S_, .f32⟩
  | 50 => ⟨S_, .f32⟩
  | 51 => ⟨S_, .f32⟩
  | 52 => ⟨S64, .f32⟩
  | 53 => ⟨S64, .f32⟩
  | 54 => ⟨S64, .f32⟩
  | 55 => ⟨S_, .f32⟩
  | 56 => ⟨S_, .i1⟩
  | 57 => ⟨S_, .f32⟩
  | 58 => ⟨S_, .f32⟩
  | 59 => ⟨S64, .f32⟩
  | 60 => ⟨S64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S1x64, .f32⟩
  | 67 => ⟨S1x64, .f32⟩
  | 68 => ⟨S1x64, .f32⟩
  | 69 => ⟨S100000x64, .f32⟩
  | 70 => ⟨S100000x320, .f32⟩
  | 71 => ⟨S100000x320, .bf16⟩
  | 72 => ⟨S100000x1, .i32⟩
  | 73 => ⟨S128, .i32⟩
  | 74 => ⟨S1x128, .i32⟩
  | 75 => ⟨S100000x128, .i32⟩
  | 76 => ⟨S100000x128, .i32⟩
  | 77 => ⟨S100000x128, .i1⟩
  | 78 => ⟨S100000x128, .bf16⟩
  | 79 => ⟨S128x320, .f32⟩
  | 80 => ⟨S1x320, .f32⟩
  | 81 => ⟨S1x320, .f32⟩
  | 82 => ⟨S128x320, .f32⟩
  | 83 => ⟨S128x320, .f32⟩
  | 84 => ⟨S_, .f32⟩
  | 85 => ⟨S128, .f32⟩
  | 86 => ⟨S128x1, .f32⟩
  | 87 => ⟨S128x1, .f32⟩
  | 88 => ⟨S_, .f32⟩
  | 89 => ⟨S128x1, .f32⟩
  | 90 => ⟨S128x1, .f32⟩
  | 91 => ⟨S128x320, .f32⟩
  | 92 => ⟨S128x320, .f32⟩
  | 93 => ⟨S128x320, .f32⟩
  | 94 => ⟨S_, .f32⟩
  | 95 => ⟨S128, .f32⟩
  | 96 => ⟨S128x1, .f32⟩
  | 97 => ⟨S128x1, .f32⟩
  | 98 => ⟨S_, .f32⟩
  | 99 => ⟨S128x1, .f32⟩
  | 100 => ⟨S128x1, .f32⟩
  | 101 => ⟨S128x320, .f32⟩
  | 102 => ⟨S128x320, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S1x64, .f32⟩
  | .local _ .vmem, ⟨66, _⟩ => ⟨S64x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S64x64, .f32⟩
  | .local _ .vmem, ⟨83, _⟩ => ⟨S1x64, .f32⟩
  | .local _ .vmem, ⟨84, _⟩ => ⟨S64x64, .f32⟩
  | .local _ .vmem, ⟨85, _⟩ => ⟨S1x64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | .local _ .vmem, ⟨90, _⟩ => ⟨S1x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S5000x64, .f32⟩
  | .local _ .vmem, ⟨95, _⟩ => ⟨S5000x64, .f32⟩
  | .local _ .vmem, ⟨96, _⟩ => ⟨S5000x128, .bf16⟩
  | .local _ .vmem, ⟨97, _⟩ => ⟨S5000x128, .bf16⟩
  | .local _ .vmem, ⟨98, _⟩ => ⟨S5000x320, .bf16⟩
  | .local _ .vmem, ⟨99, _⟩ => ⟨S5000x320, .bf16⟩
  | .local _ .vmem, ⟨100, _⟩ => ⟨S128x320, .f32⟩
  | .local _ .vmem, ⟨101, _⟩ => ⟨S128x320, .f32⟩
  | .local _ .vmem, ⟨102, _⟩ => ⟨S320x320, .f32⟩
  | .local _ .vmem, ⟨103, _⟩ => ⟨S1x320, .f32⟩
  | .local _ .vmem, ⟨104, _⟩ => ⟨S320x320, .f32⟩
  | .local _ .vmem, ⟨105, _⟩ => ⟨S1x320, .f32⟩
  | .local _ .vmem, ⟨106, _⟩ => ⟨S128x320, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_4 : Ref sig .tc := ⟨.hbm, 82, rfl⟩
abbrev main_v40 : Ref sig .tc := ⟨.hbm, 83, rfl⟩
abbrev main_v41 : Ref sig .tc := ⟨.hbm, 84, rfl⟩
abbrev main_c_5 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_6 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_7 : Ref sig .tc := ⟨.hbm, 106, rfl⟩
abbrev main_v61 : Ref sig .tc := ⟨.hbm, 107, rfl⟩
abbrev main_cst_8 : Ref sig .tc := ⟨.hbm, 108, rfl⟩
abbrev main_v62 : Ref sig .tc := ⟨.hbm, 109, rfl⟩
abbrev main_v63 : Ref sig .tc := ⟨.hbm, 110, rfl⟩
abbrev main_c_9 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_cst_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_cst_1 : Ref sig .tc := ⟨.hbm, 122, rfl⟩
abbrev main_call1_v8 : Ref sig .tc := ⟨.hbm, 123, rfl⟩
abbrev main_call1_cst_2 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_cst_3 : Ref sig .tc := ⟨.hbm, 128, rfl⟩
abbrev main_call1_v12 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_c_10 : Ref sig .tc := ⟨.hbm, 143, rfl⟩
abbrev main_v74 : Ref sig .tc := ⟨.hbm, 144, rfl⟩
abbrev main_v75 : Ref sig .tc := ⟨.hbm, 145, rfl⟩
abbrev main_c_11 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_cst_12 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_cst_13 : Ref sig .tc := ⟨.hbm, 167, rfl⟩
abbrev main_v95 : Ref sig .tc := ⟨.hbm, 168, rfl⟩
abbrev main_cst_14 : Ref sig .tc := ⟨.hbm, 169, rfl⟩
abbrev main_v96 : Ref sig .tc := ⟨.hbm, 170, rfl⟩
abbrev main_v97 : Ref sig .tc := ⟨.hbm, 171, rfl⟩
abbrev main_c_15 : Ref sig .tc := ⟨.hbm, 172, rfl⟩
abbrev main_call2_cst : Ref sig .tc := ⟨.hbm, 173, rfl⟩
abbrev main_call2_v0 : Ref sig .tc := ⟨.hbm, 174, rfl⟩
abbrev main_call2_v1 : Ref sig .tc := ⟨.hbm, 175, rfl⟩
abbrev main_call2_cst_0 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_call2_v5 : Ref sig .tc := ⟨.hbm, 180, rfl⟩
abbrev main_call2_v6 : Ref sig .tc := ⟨.hbm, 181, rfl⟩
abbrev main_call2_v7 : Ref sig .tc := ⟨.hbm, 182, rfl⟩
abbrev main_call2_cst_1 : Ref sig .tc := ⟨.hbm, 183, rfl⟩
abbrev main_call2_v8 : Ref sig .tc := ⟨.hbm, 184, rfl⟩
abbrev main_call2_cst_2 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_call2_cst_3 : Ref sig .tc := ⟨.hbm, 189, rfl⟩
abbrev main_call2_v12 : Ref sig .tc := ⟨.hbm, 190, rfl⟩
abbrev main_call2_cst_4 : Ref sig .tc := ⟨.hbm, 191, rfl⟩
abbrev main_call2_call0_v0 : Ref sig .tc := ⟨.hbm, 192, rfl⟩
abbrev main_call2_call0_v1 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_c_16 : Ref sig .tc := ⟨.hbm, 204, rfl⟩
abbrev main_v108 : Ref sig .tc := ⟨.hbm, 205, rfl⟩
abbrev main_v109 : Ref sig .tc := ⟨.hbm, 206, rfl⟩
abbrev main_c_17 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_cst_18 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_cst_19 : Ref sig .tc := ⟨.hbm, 228, rfl⟩
abbrev main_v129 : Ref sig .tc := ⟨.hbm, 229, rfl⟩
abbrev main_cst_20 : Ref sig .tc := ⟨.hbm, 230, rfl⟩
abbrev main_v130 : Ref sig .tc := ⟨.hbm, 231, rfl⟩
abbrev main_v131 : Ref sig .tc := ⟨.hbm, 232, rfl⟩
abbrev main_c_21 : Ref sig .tc := ⟨.hbm, 233, rfl⟩
abbrev main_call3_cst : Ref sig .tc := ⟨.hbm, 234, rfl⟩
abbrev main_call3_v0 : Ref sig .tc := ⟨.hbm, 235, rfl⟩
abbrev main_call3_v1 : Ref sig .tc := ⟨.hbm, 236, rfl⟩
abbrev main_call3_cst_0 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_call3_v5 : Ref sig .tc := ⟨.hbm, 241, rfl⟩
abbrev main_call3_v6 : Ref sig .tc := ⟨.hbm, 242, rfl⟩
abbrev main_call3_v7 : Ref sig .tc := ⟨.hbm, 243, rfl⟩
abbrev main_call3_cst_1 : Ref sig .tc := ⟨.hbm, 244, rfl⟩
abbrev main_call3_v8 : Ref sig .tc := ⟨.hbm, 245, rfl⟩
abbrev main_call3_cst_2 : Ref sig .tc := ⟨.hbm, 246, rfl⟩
abbrev main_call3_v9 : Ref sig .tc := ⟨.hbm, 247, rfl⟩
abbrev main_call3_v10 : Ref sig .tc := ⟨.hbm, 248, rfl⟩
abbrev main_call3_v11 : Ref sig .tc := ⟨.hbm, 249, rfl⟩
abbrev main_call3_cst_3 : Ref sig .tc := ⟨.hbm, 250, rfl⟩
abbrev main_call3_v12 : Ref sig .tc := ⟨.hbm, 251, rfl⟩
abbrev main_call3_cst_4 : Ref sig .tc := ⟨.hbm, 252, rfl⟩
abbrev main_call3_call0_v0 : Ref sig .tc := ⟨.hbm, 253, rfl⟩
abbrev main_call3_call0_v1 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_c_22 : Ref sig .tc := ⟨.hbm, 265, rfl⟩
abbrev main_v142 : Ref sig .tc := ⟨.hbm, 266, rfl⟩
abbrev main_v143 : Ref sig .tc := ⟨.hbm, 267, rfl⟩
abbrev main_c_23 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_cst_24 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_cst_25 : Ref sig .tc := ⟨.hbm, 289, rfl⟩
abbrev main_v163 : Ref sig .tc := ⟨.hbm, 290, rfl⟩
abbrev main_cst_26 : Ref sig .tc := ⟨.hbm, 291, rfl⟩
abbrev main_v164 : Ref sig .tc := ⟨.hbm, 292, rfl⟩
abbrev main_v165 : Ref sig .tc := ⟨.hbm, 293, rfl⟩
abbrev main_c_27 : Ref sig .tc := ⟨.hbm, 294, rfl⟩
abbrev main_call4_cst : Ref sig .tc := ⟨.hbm, 295, rfl⟩
abbrev main_call4_v0 : Ref sig .tc := ⟨.hbm, 296, rfl⟩
abbrev main_call4_v1 : Ref sig .tc := ⟨.hbm, 297, rfl⟩
abbrev main_call4_cst_0 : Ref sig .tc := ⟨.hbm, 298, rfl⟩
abbrev main_call4_v2 : Ref sig .tc := ⟨.hbm, 299, rfl⟩
abbrev main_call4_v3 : Ref sig .tc := ⟨.hbm, 300, rfl⟩
abbrev main_call4_v4 : Ref sig .tc := ⟨.hbm, 301, rfl⟩
abbrev main_call4_v5 : Ref sig .tc := ⟨.hbm, 302, rfl⟩
abbrev main_call4_v6 : Ref sig .tc := ⟨.hbm, 303, rfl⟩
abbrev main_call4_v7 : Ref sig .tc := ⟨.hbm, 304, rfl⟩
abbrev main_call4_cst_1 : Ref sig .tc := ⟨.hbm, 305, rfl⟩
abbrev main_call4_v8 : Ref sig .tc := ⟨.hbm, 306, rfl⟩
abbrev main_call4_cst_2 : Ref sig .tc := ⟨.hbm, 307, rfl⟩
abbrev main_call4_v9 : Ref sig .tc := ⟨.hbm, 308, rfl⟩
abbrev main_call4_v10 : Ref sig .tc := ⟨.hbm, 309, rfl⟩
abbrev main_call4_v11 : Ref sig .tc := ⟨.hbm, 310, rfl⟩
abbrev main_call4_cst_3 : Ref sig .tc := ⟨.hbm, 311, rfl⟩
abbrev main_call4_v12 : Ref sig .tc := ⟨.hbm, 312, rfl⟩
abbrev main_call4_cst_4 : Ref sig .tc := ⟨.hbm, 313, rfl⟩
abbrev main_call4_call0_v0 : Ref sig .tc := ⟨.hbm, 314, rfl⟩
abbrev main_call4_call0_v1 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_cst_28 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_cst_29 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_v196 : Ref sig .tc := ⟨.hbm, 348, rfl⟩
abbrev main_v197 : Ref sig .tc := ⟨.hbm, 349, rfl⟩
abbrev main_cst_30 : Ref sig .tc := ⟨.hbm, 350, rfl⟩
abbrev main_v198 : Ref sig .tc := ⟨.hbm, 351, rfl⟩
abbrev main_v199 : Ref sig .tc := ⟨.hbm, 352, rfl⟩
abbrev main_v200 : Ref sig .tc := ⟨.hbm, 353, rfl⟩
abbrev main_cst_31 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg6_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg5_0 : Ref sig .tc := ⟨.vmem, 85, rfl⟩
abbrev cc9_stg6_0 : Ref sig .tc := ⟨.vmem, 86, rfl⟩
abbrev cc9_stg6_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg2_0 : Ref sig .tc := ⟨.vmem, 91, rfl⟩
abbrev cc10_stg3_0 : Ref sig .tc := ⟨.vmem, 92, rfl⟩
abbrev cc10_stg4_0 : Ref sig .tc := ⟨.vmem, 93, rfl⟩
abbrev cc10_stg5_0 : Ref sig .tc := ⟨.vmem, 94, rfl⟩
abbrev cc10_stg5_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg1_1 : Ref sig .tc := ⟨.vmem, 99, rfl⟩
abbrev cc11_stg2_0 : Ref sig .tc := ⟨.vmem, 100, rfl⟩
abbrev cc12_stg0_0 : Ref sig .tc := ⟨.vmem, 101, rfl⟩
abbrev cc12_stg1_0 : Ref sig .tc := ⟨.vmem, 102, rfl⟩
abbrev cc12_stg2_0 : Ref sig .tc := ⟨.vmem, 103, rfl⟩
abbrev cc12_stg3_0 : Ref sig .tc := ⟨.vmem, 104, rfl⟩
abbrev cc12_stg4_0 : Ref sig .tc := ⟨.vmem, 105, rfl⟩
abbrev cc12_stg5_0 : Ref sig .tc := ⟨.vmem, 106, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem6_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem4_0 : DmaSem sig := 84
abbrev cc9_sem5_0 : DmaSem sig := 85
abbrev cc9_sem6_0 : DmaSem sig := 86
abbrev cc9_sem6_1 : DmaSem sig := 87
abbrev cc10_sem0_0 : DmaSem sig := 88
abbrev cc10_sem0_1 : DmaSem sig := 89
abbrev cc10_sem1_0 : DmaSem sig := 90
abbrev cc10_sem2_0 : DmaSem sig := 91
abbrev cc10_sem3_0 : DmaSem sig := 92
abbrev cc10_sem4_0 : DmaSem sig := 93
abbrev cc10_sem5_0 : DmaSem sig := 94
abbrev cc10_sem5_1 : DmaSem sig := 95
abbrev cc11_sem0_0 : DmaSem sig := 96
abbrev cc11_sem0_1 : DmaSem sig := 97
abbrev cc11_sem1_0 : DmaSem sig := 98
abbrev cc11_sem1_1 : DmaSem sig := 99
abbrev cc11_sem2_0 : DmaSem sig := 100
abbrev cc12_sem0_0 : DmaSem sig := 101
abbrev cc12_sem1_0 : DmaSem sig := 102
abbrev cc12_sem2_0 : DmaSem sig := 103
abbrev cc12_sem3_0 : DmaSem sig := 104
abbrev cc12_sem4_0 : DmaSem sig := 105
abbrev cc12_sem5_0 : DmaSem sig := 106

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x320 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x320 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S128x320 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S320x320 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x320 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S320x320 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x320 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S128x320 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  shapeCasts_S5000x64_S5000x64 : S5000x64.ShapeCasts S5000x64
  shapeCasts_S64x64_S64x64 : S64x64.ShapeCasts S64x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  concatenates_S100000x64_S100000x64_S100000x64_S100000x64_S100000x64_S100000x320_d1 : Shape.Concatenates [S100000x64, S100000x64, S100000x64, S100000x64, S100000x64] S100000x320 1
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  inb_S128x320_S128x320_0_0 : ∀ a, (![0, 0] : Fin 2 → Nat) a + S128x320.size a ≤ S128x320.size a
  h_S128x320 : 0 < S128x320.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  shapeCasts_S128x320_S128x320 : S128x320.ShapeCasts S128x320
  shapeCasts_S320_S1x320 : S320.ShapeCasts S1x320
  inb_S320x320_S320x320_0_0 : ∀ a, (![0, 0] : Fin 2 → Nat) a + S320x320.size a ≤ S320x320.size a
  h_S320x320 : 0 < S320x320.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S128x320 : S1x320.Broadcasts S128x320
  reducesTo_S128x320_S128_d1 : S128x320.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x320_0_1 : S128x1.BroadcastsInDim S128x320 (![0, 1] : Fin 2 → Fin S128x320.rank)
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x128_S5000x320_S128x320_0_0_1_1_n_n_wf : DotDims.WF S5000x128 S5000x320 S128x320 [0] [0] [1] [1] [] []
  dot_S128x320_S320x320_S128x320_1_0_0_1_n_n_wf : DotDims.WF S128x320 S320x320 S128x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S100000x64.size a
  hwx10_5 : ∀ i : grid10.Coords, EltTy.bits .f32 = 32 ∨ (Rect.block (s := S100000x64) S5000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .bf16 = 32 ∨ (Rect.block (s := S100000x128) S5000x128.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x320.size a ≤ S100000x320.size a
  hwx11_1 : ∀ i : grid11.Coords, EltTy.bits .bf16 = 32 ∨ (Rect.block (s := S100000x320) S5000x320.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x320.size a ≤ S128x320.size a
  hwx11_2 : ∀ i : grid11.Coords, EltTy.bits .f32 = 32 ∨ (Rect.block (s := S128x320) S128x320.size (cc11_transform_2 i) (hinb11_2 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S128x320.size a ≤ S128x320.size a
  hwx12_0 : ∀ i : grid12.Coords, EltTy.bits .f32 = 32 ∨ (Rect.block (s := S128x320) S128x320.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S320x320.size a ≤ S320x320.size a
  hwx12_1 : ∀ i : grid12.Coords, EltTy.bits .f32 = 32 ∨ (Rect.block (s := S320x320) S320x320.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x320.size a ≤ S1x320.size a
  hwx12_2 : ∀ i : grid12.Coords, EltTy.bits .f32 = 32 ∨ (Rect.block (s := S1x320) S1x320.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S320x320.size a ≤ S320x320.size a
  hwx12_3 : ∀ i : grid12.Coords, EltTy.bits .f32 = 32 ∨ (Rect.block (s := S320x320) S320x320.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x320.size a ≤ S1x320.size a
  hwx12_4 : ∀ i : grid12.Coords, EltTy.bits .f32 = 32 ∨ (Rect.block (s := S1x320) S1x320.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x320.size a ≤ S128x320.size a
  hwx12_5 : ∀ i : grid12.Coords, EltTy.bits .f32 = 32 ∨ (Rect.block (s := S128x320) S128x320.size (cc12_transform_5 i) (hinb12_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x128_S5000x320_S128x320_0_0_1_1_n_n : DotDims S5000x128 S5000x320 S128x320 where
  lhsContracting := [0]
  rhsContracting := [0]
  lhsNonContracting := [1]
  rhsNonContracting := [1]
  lhsBatch := []
  rhsBatch := []
  wf := dot_S5000x128_S5000x320_S128x320_0_0_1_1_n_n_wf
def dot_S128x320_S320x320_S128x320_1_0_0_1_n_n : DotDims S128x320 S320x320 S128x320 where
  lhsContracting := [1]
  rhsContracting := [0]
  lhsNonContracting := [0]
  rhsNonContracting := [1]
  lhsBatch := []
  rhsBatch := []
  wf := dot_S128x320_S320x320_S128x320_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v94) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v104) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v105) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v106) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v107) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v117) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v119) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v126) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v128) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v128) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v137) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v138) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v139) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v140) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v141) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v141) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v151) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v153) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v160) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v157) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v161) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v162) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v162) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v171) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v172) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v173) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v174) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v175) S5000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v184) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v177) S5000x320.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v185) S128x320.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v185) S128x320.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg11) S320x320.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v186) S1x320.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg13) S320x320.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v187) S1x320.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v188) S128x320.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S5x64x64 : Shape := ⟨3, ![5, 64, 64]⟩
abbrev S5x64 : Shape := ⟨2, ![5, 64]⟩
abbrev S320x320 : Shape := ⟨2, ![320, 320]⟩
abbrev S320 : Shape := ⟨1, ![320]⟩
abbrev S1x1200000 : Shape := ⟨2, ![1, 1200000]⟩
abbrev S1200000 : Shape := ⟨1, ![1200000]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S128x64 : Shape := ⟨2, ![128, 64]⟩
abbrev S100000x1 : Shape := ⟨2, ![100000, 1]⟩
abbrev S128x320 : Shape := ⟨2, ![128, 320]⟩
abbrev S1x320 : Shape := ⟨2, ![1, 320]⟩
abbrev S128 : Shape := ⟨1, ![128]⟩
abbrev S128x1 : Shape := ⟨2, ![128, 1]⟩

abbrev nBuf : Space → Nat
  | .hbm => 495
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S5x64x64, .f32⟩
  | 6 => ⟨S5x64, .f32⟩
  | 7 => ⟨S5x64x64, .f32⟩
  | 8 => ⟨S5x64, .f32⟩
  | 9 => ⟨S5x64, .f32⟩
  | 10 => ⟨S5x64, .f32⟩
  | 11 => ⟨S320x320, .f32⟩
  | 12 => ⟨S320, .f32⟩
  | 13 => ⟨S320x320, .f32⟩
  | 14 => ⟨S320, .f32⟩
  | 15 => ⟨S1x1200000, .i32⟩
  | 16 => ⟨S1200000, .i32⟩
  | 17 => ⟨S1x1200000, .i32⟩
  | 18 => ⟨S1200000, .i32⟩
  | 19 => ⟨S100000x64, .f32⟩
  | 20 => ⟨S1x64, .f32⟩
  | 21 => ⟨S100000x64, .f32⟩
  | 22 => ⟨S100000x64, .f32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000x64, .f32⟩
  | 32 => ⟨S_, .f32⟩
  | 33 => ⟨S100000x64, .f32⟩
  | 34 => ⟨S1200000x1, .i32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x64x64, .f32⟩
  | 49 => ⟨S64x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S_, .f32⟩
  | 66 => ⟨S64, .f32⟩
  | 67 => ⟨S1x64, .f32⟩
  | 68 => ⟨S_, .f32⟩
  | 69 => ⟨S1x64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S_, .f32⟩
  | 76 => ⟨S_, .f32⟩
  | 77 => ⟨S_, .f32⟩
  | 78 => ⟨S64, .f32⟩
  | 79 => ⟨S64, .f32⟩
  | 80 => ⟨S64, .f32⟩
  | 81 => ⟨S_, .f32⟩
  | 82 => ⟨S_, .i1⟩
  | 83 => ⟨S_, .f32⟩
  | 84 => ⟨S_, .f32⟩
  | 85 => ⟨S64, .f32⟩
  | 86 => ⟨S64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S100000x64, .f32⟩
  | 107 => ⟨S_, .i32⟩
  | 108 => ⟨S1200000, .i32⟩
  | 109 => ⟨S1200000, .i1⟩
  | 110 => ⟨S_, .i32⟩
  | 111 => ⟨S1200000, .i32⟩
  | 112 => ⟨S1200000, .i32⟩
  | 113 => ⟨S1200000, .i32⟩
  | 114 => ⟨S1200000x1, .i32⟩
  | 115 => ⟨S1200000x64, .f32⟩
  | 116 => ⟨S_, .f32⟩
  | 117 => ⟨S100000x64, .f32⟩
  | 118 => ⟨S1200000x1, .i32⟩
  | 119 => ⟨S100000x64, .f32⟩
  | 120 => ⟨S100000x64, .f32⟩
  | 121 => ⟨S1x64x64, .f32⟩
  | 122 => ⟨S64x64, .f32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S100000x64, .f32⟩
  | 28 => ⟨S100000x64, .f32⟩
  | 29 => ⟨S100000x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S64, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x64, .f32⟩
  | 72 => ⟨S_, .f32⟩
  | 73 => ⟨S100000x64, .f32⟩
  | 74 => ⟨S1200000x1, .i32⟩
  | 75 => ⟨S100000x64, .f32⟩
  | 76 => ⟨S100000x64, .f32⟩
  | 77 => ⟨S1x64x64, .f32⟩
  | 78 => ⟨S64x64, .f32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S100000x64, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S_, .i32⟩
  | 20 => ⟨S1200000, .i32⟩
  | 21 => ⟨S1200000, .i1⟩
  | 22 => ⟨S_, .i32⟩
  | 23 => ⟨S1200000, .i32⟩
  | 24 => ⟨S1200000, .i32⟩
  | 25 => ⟨S1200000, .i32⟩
  | 26 => ⟨S1200000x1, .i32⟩
  | 27 => ⟨S1200000x64, .f32⟩
  | 28 => ⟨S_, .f32⟩
  | 29 => ⟨S100000x64, .f32⟩
  | 30 => ⟨S1200000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S64, .f32⟩
  | 57 => ⟨S_, .f32⟩
  | 58 => ⟨S64, .f32⟩
  | 59 => ⟨S64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S100000x64, .f32⟩
  | 68 => ⟨S100000x64, .f32⟩
  | 69 => ⟨S100000x64, .f32⟩
  | 70 => ⟨S_, .f32⟩
  | 71 => ⟨S_, .f32⟩
  | 72 => ⟨S_, .f32⟩
  | 73 => ⟨S_, .f32⟩
  | 74 => ⟨S64, .f32⟩
  | 75 => ⟨S64, .f32⟩
  | 76 => ⟨S64, .f32⟩
  | 77 => ⟨S_, .f32⟩
  | 78 => ⟨S_, .i1⟩
  | 79 => ⟨S_, .f32⟩
  | 80 => ⟨S_, .f32⟩
  | 81 => ⟨S64, .f32⟩
  | 82 => ⟨S64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S_, .i32⟩
  | 104 => ⟨S1200000, .i32⟩
  | 105 => ⟨S1200000, .i1⟩
  | 106 => ⟨S_, .i32⟩
  | 107 => ⟨S1200000, .i32⟩
  | 108 => ⟨S1200000, .i32⟩
  | 109 => ⟨S1200000, .i32⟩
  | 110 => ⟨S1200000x1, .i32⟩
  | 111 => ⟨S1200000x64, .f32⟩
  | 112 => ⟨S_, .f32⟩
  | 113 => ⟨S100000x64, .f32⟩
  | 114 => ⟨S1200000x1, .i32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_3 (i : Nat) : BufTy := match i % 128 with
  | 0 => ⟨S1x64x64, .f32⟩
  | 1 => ⟨S64x64, .f32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .f32⟩
  | 12 => ⟨S64, .f32⟩
  | 13 => ⟨S_, .f32⟩
  | 14 => ⟨S64, .f32⟩
  | 15 => ⟨S64, .f32⟩
  | 16 => ⟨S_, .i32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S_, .f32⟩
  | 28 => ⟨S_, .f32⟩
  | 29 => ⟨S_, .f32⟩
  | 30 => ⟨S64, .f32⟩
  | 31 => ⟨S64, .f32⟩
  | 32 => ⟨S64, .f32⟩
  | 33 => ⟨S_, .f32⟩
  | 34 => ⟨S_, .i1⟩
  | 35 => ⟨S_, .f32⟩
  | 36 => ⟨S_, .f32⟩
  | 37 => ⟨S64, .f32⟩
  | 38 => ⟨S64, .f32⟩
  | 39 => ⟨S1x64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S128x64, .f32⟩
  | 61 => ⟨S100000x1, .i32⟩
  | 62 => ⟨S128x64, .f32⟩
  | 63 => ⟨S_, .f32⟩
  | 64 => ⟨S128x64, .f32⟩
  | 65 => ⟨S100000x1, .i32⟩
  | 66 => ⟨S128x64, .f32⟩
  | 67 => ⟨S_, .f32⟩
  | 68 => ⟨S128x64, .f32⟩
  | 69 => ⟨S100000x1, .i32⟩
  | 70 => ⟨S128x64, .f32⟩
  | 71 => ⟨S_, .f32⟩
  | 72 => ⟨S128x64, .f32⟩
  | 73 => ⟨S100000x1, .i32⟩
  | 74 => ⟨S128x64, .f32⟩
  | 75 => ⟨S_, .f32⟩
  | 76 => ⟨S128x64, .f32⟩
  | 77 => ⟨S100000x1, .i32⟩
  | 78 => ⟨S128x64, .f32⟩
  | 79 => ⟨S128x320, .f32⟩
  | 80 => ⟨S128x320, .f32⟩
  | 81 => ⟨S1x320, .f32⟩
  | 82 => ⟨S128x320, .f32⟩
  | 83 => ⟨S128x320, .f32⟩
  | 84 => ⟨S_, .f32⟩
  | 85 => ⟨S128x320, .f32⟩
  | 86 => ⟨S128x320, .f32⟩
  | 87 => ⟨S128x320, .f32⟩
  | 88 => ⟨S1x320, .f32⟩
  | 89 => ⟨S128x320, .f32⟩
  | 90 => ⟨S128x320, .f32⟩
  | 91 => ⟨S128x320, .f32⟩
  | 92 => ⟨S_, .f32⟩
  | 93 => ⟨S128, .f32⟩
  | 94 => ⟨S128x1, .f32⟩
  | 95 => ⟨S128x1, .f32⟩
  | 96 => ⟨S_, .f32⟩
  | 97 => ⟨S128x1, .f32⟩
  | 98 => ⟨S128x1, .f32⟩
  | 99 => ⟨S128x320, .f32⟩
  | 100 => ⟨S128x320, .f32⟩
  | 101 => ⟨S128x320, .f32⟩
  | 102 => ⟨S_, .f32⟩
  | 103 => ⟨S128, .f32⟩
  | 104 => ⟨S128x1, .f32⟩
  | 105 => ⟨S128x1, .f32⟩
  | 106 => ⟨S_, .f32⟩
  | 107 => ⟨S128x1, .f32⟩
  | 108 => ⟨S128x1, .f32⟩
  | 109 => ⟨S128x320, .f32⟩
  | 110 => ⟨S128x320, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_cst_3 : Ref sig .tc := ⟨.hbm, 81, rfl⟩
abbrev main_call0_v12 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_6 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_v62 : Ref sig .tc := ⟨.hbm, 108, rfl⟩
abbrev main_v63 : Ref sig .tc := ⟨.hbm, 109, rfl⟩
abbrev main_c_8 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_9 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_10 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_11 : Ref sig .tc := ⟨.hbm, 140, rfl⟩
abbrev main_v91 : Ref sig .tc := ⟨.hbm, 141, rfl⟩
abbrev main_v92 : Ref sig .tc := ⟨.hbm, 142, rfl⟩
abbrev main_cst_12 : Ref sig .tc := ⟨.hbm, 143, rfl⟩
abbrev main_v93 : Ref sig .tc := ⟨.hbm, 144, rfl⟩
abbrev main_cst_13 : Ref sig .tc := ⟨.hbm, 145, rfl⟩
abbrev main_v94 : Ref sig .tc := ⟨.hbm, 146, rfl⟩
abbrev main_v95 : Ref sig .tc := ⟨.hbm, 147, rfl⟩
abbrev main_c_14 : Ref sig .tc := ⟨.hbm, 148, rfl⟩
abbrev main_call1_cst : Ref sig .tc := ⟨.hbm, 149, rfl⟩
abbrev main_call1_v0 : Ref sig .tc := ⟨.hbm, 150, rfl⟩
abbrev main_call1_v1 : Ref sig .tc := ⟨.hbm, 151, rfl⟩
abbrev main_call1_cst_0 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_cst_1 : Ref sig .tc := ⟨.hbm, 159, rfl⟩
abbrev main_call1_v8 : Ref sig .tc := ⟨.hbm, 160, rfl⟩
abbrev main_call1_cst_2 : Ref sig .tc := ⟨.hbm, 161, rfl⟩
abbrev main_call1_v9 : Ref sig .tc := ⟨.hbm, 162, rfl⟩
abbrev main_call1_v10 : Ref sig .tc := ⟨.hbm, 163, rfl⟩
abbrev main_call1_v11 : Ref sig .tc := ⟨.hbm, 164, rfl⟩
abbrev main_call1_cst_3 : Ref sig .tc := ⟨.hbm, 165, rfl⟩
abbrev main_call1_v12 : Ref sig .tc := ⟨.hbm, 166, rfl⟩
abbrev main_call1_cst_4 : Ref sig .tc := ⟨.hbm, 167, rfl⟩
abbrev main_call1_call0_v0 : Ref sig .tc := ⟨.hbm, 168, rfl⟩
abbrev main_call1_call0_v1 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_cst_15 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_c_16 : Ref sig .tc := ⟨.hbm, 191, rfl⟩
abbrev main_v116 : Ref sig .tc := ⟨.hbm, 192, rfl⟩
abbrev main_v117 : Ref sig .tc := ⟨.hbm, 193, rfl⟩
abbrev main_c_17 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_18 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_19 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_20 : Ref sig .tc := ⟨.hbm, 224, rfl⟩
abbrev main_v145 : Ref sig .tc := ⟨.hbm, 225, rfl⟩
abbrev main_v146 : Ref sig .tc := ⟨.hbm, 226, rfl⟩
abbrev main_cst_21 : Ref sig .tc := ⟨.hbm, 227, rfl⟩
abbrev main_v147 : Ref sig .tc := ⟨.hbm, 228, rfl⟩
abbrev main_cst_22 : Ref sig .tc := ⟨.hbm, 229, rfl⟩
abbrev main_v148 : Ref sig .tc := ⟨.hbm, 230, rfl⟩
abbrev main_v149 : Ref sig .tc := ⟨.hbm, 231, rfl⟩
abbrev main_c_23 : Ref sig .tc := ⟨.hbm, 232, rfl⟩
abbrev main_call2_cst : Ref sig .tc := ⟨.hbm, 233, rfl⟩
abbrev main_call2_v0 : Ref sig .tc := ⟨.hbm, 234, rfl⟩
abbrev main_call2_v1 : Ref sig .tc := ⟨.hbm, 235, rfl⟩
abbrev main_call2_cst_0 : Ref sig .tc := ⟨.hbm, 236, rfl⟩
abbrev main_call2_v2 : Ref sig .tc := ⟨.hbm, 237, rfl⟩
abbrev main_call2_v3 : Ref sig .tc := ⟨.hbm, 238, rfl⟩
abbrev main_call2_v4 : Ref sig .tc := ⟨.hbm, 239, rfl⟩
abbrev main_call2_v5 : Ref sig .tc := ⟨.hbm, 240, rfl⟩
abbrev main_call2_v6 : Ref sig .tc := ⟨.hbm, 241, rfl⟩
abbrev main_call2_v7 : Ref sig .tc := ⟨.hbm, 242, rfl⟩
abbrev main_call2_cst_1 : Ref sig .tc := ⟨.hbm, 243, rfl⟩
abbrev main_call2_v8 : Ref sig .tc := ⟨.hbm, 244, rfl⟩
abbrev main_call2_cst_2 : Ref sig .tc := ⟨.hbm, 245, rfl⟩
abbrev main_call2_v9 : Ref sig .tc := ⟨.hbm, 246, rfl⟩
abbrev main_call2_v10 : Ref sig .tc := ⟨.hbm, 247, rfl⟩
abbrev main_call2_v11 : Ref sig .tc := ⟨.hbm, 248, rfl⟩
abbrev main_call2_cst_3 : Ref sig .tc := ⟨.hbm, 249, rfl⟩
abbrev main_call2_v12 : Ref sig .tc := ⟨.hbm, 250, rfl⟩
abbrev main_call2_cst_4 : Ref sig .tc := ⟨.hbm, 251, rfl⟩
abbrev main_call2_call0_v0 : Ref sig .tc := ⟨.hbm, 252, rfl⟩
abbrev main_call2_call0_v1 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_24 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_c_25 : Ref sig .tc := ⟨.hbm, 275, rfl⟩
abbrev main_v170 : Ref sig .tc := ⟨.hbm, 276, rfl⟩
abbrev main_v171 : Ref sig .tc := ⟨.hbm, 277, rfl⟩
abbrev main_c_26 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_cst_27 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_cst_28 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_cst_29 : Ref sig .tc := ⟨.hbm, 308, rfl⟩
abbrev main_v199 : Ref sig .tc := ⟨.hbm, 309, rfl⟩
abbrev main_v200 : Ref sig .tc := ⟨.hbm, 310, rfl⟩
abbrev main_cst_30 : Ref sig .tc := ⟨.hbm, 311, rfl⟩
abbrev main_v201 : Ref sig .tc := ⟨.hbm, 312, rfl⟩
abbrev main_cst_31 : Ref sig .tc := ⟨.hbm, 313, rfl⟩
abbrev main_v202 : Ref sig .tc := ⟨.hbm, 314, rfl⟩
abbrev main_v203 : Ref sig .tc := ⟨.hbm, 315, rfl⟩
abbrev main_c_32 : Ref sig .tc := ⟨.hbm, 316, rfl⟩
abbrev main_call3_cst : Ref sig .tc := ⟨.hbm, 317, rfl⟩
abbrev main_call3_v0 : Ref sig .tc := ⟨.hbm, 318, rfl⟩
abbrev main_call3_v1 : Ref sig .tc := ⟨.hbm, 319, rfl⟩
abbrev main_call3_cst_0 : Ref sig .tc := ⟨.hbm, 320, rfl⟩
abbrev main_call3_v2 : Ref sig .tc := ⟨.hbm, 321, rfl⟩
abbrev main_call3_v3 : Ref sig .tc := ⟨.hbm, 322, rfl⟩
abbrev main_call3_v4 : Ref sig .tc := ⟨.hbm, 323, rfl⟩
abbrev main_call3_v5 : Ref sig .tc := ⟨.hbm, 324, rfl⟩
abbrev main_call3_v6 : Ref sig .tc := ⟨.hbm, 325, rfl⟩
abbrev main_call3_v7 : Ref sig .tc := ⟨.hbm, 326, rfl⟩
abbrev main_call3_cst_1 : Ref sig .tc := ⟨.hbm, 327, rfl⟩
abbrev main_call3_v8 : Ref sig .tc := ⟨.hbm, 328, rfl⟩
abbrev main_call3_cst_2 : Ref sig .tc := ⟨.hbm, 329, rfl⟩
abbrev main_call3_v9 : Ref sig .tc := ⟨.hbm, 330, rfl⟩
abbrev main_call3_v10 : Ref sig .tc := ⟨.hbm, 331, rfl⟩
abbrev main_call3_v11 : Ref sig .tc := ⟨.hbm, 332, rfl⟩
abbrev main_call3_cst_3 : Ref sig .tc := ⟨.hbm, 333, rfl⟩
abbrev main_call3_v12 : Ref sig .tc := ⟨.hbm, 334, rfl⟩
abbrev main_call3_cst_4 : Ref sig .tc := ⟨.hbm, 335, rfl⟩
abbrev main_call3_call0_v0 : Ref sig .tc := ⟨.hbm, 336, rfl⟩
abbrev main_call3_call0_v1 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_cst_33 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_c_34 : Ref sig .tc := ⟨.hbm, 359, rfl⟩
abbrev main_v224 : Ref sig .tc := ⟨.hbm, 360, rfl⟩
abbrev main_v225 : Ref sig .tc := ⟨.hbm, 361, rfl⟩
abbrev main_c_35 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_cst_36 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_cst_37 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_cst_38 : Ref sig .tc := ⟨.hbm, 392, rfl⟩
abbrev main_v253 : Ref sig .tc := ⟨.hbm, 393, rfl⟩
abbrev main_v254 : Ref sig .tc := ⟨.hbm, 394, rfl⟩
abbrev main_cst_39 : Ref sig .tc := ⟨.hbm, 395, rfl⟩
abbrev main_v255 : Ref sig .tc := ⟨.hbm, 396, rfl⟩
abbrev main_cst_40 : Ref sig .tc := ⟨.hbm, 397, rfl⟩
abbrev main_v256 : Ref sig .tc := ⟨.hbm, 398, rfl⟩
abbrev main_v257 : Ref sig .tc := ⟨.hbm, 399, rfl⟩
abbrev main_c_41 : Ref sig .tc := ⟨.hbm, 400, rfl⟩
abbrev main_call4_cst : Ref sig .tc := ⟨.hbm, 401, rfl⟩
abbrev main_call4_v0 : Ref sig .tc := ⟨.hbm, 402, rfl⟩
abbrev main_call4_v1 : Ref sig .tc := ⟨.hbm, 403, rfl⟩
abbrev main_call4_cst_0 : Ref sig .tc := ⟨.hbm, 404, rfl⟩
abbrev main_call4_v2 : Ref sig .tc := ⟨.hbm, 405, rfl⟩
abbrev main_call4_v3 : Ref sig .tc := ⟨.hbm, 406, rfl⟩
abbrev main_call4_v4 : Ref sig .tc := ⟨.hbm, 407, rfl⟩
abbrev main_call4_v5 : Ref sig .tc := ⟨.hbm, 408, rfl⟩
abbrev main_call4_v6 : Ref sig .tc := ⟨.hbm, 409, rfl⟩
abbrev main_call4_v7 : Ref sig .tc := ⟨.hbm, 410, rfl⟩
abbrev main_call4_cst_1 : Ref sig .tc := ⟨.hbm, 411, rfl⟩
abbrev main_call4_v8 : Ref sig .tc := ⟨.hbm, 412, rfl⟩
abbrev main_call4_cst_2 : Ref sig .tc := ⟨.hbm, 413, rfl⟩
abbrev main_call4_v9 : Ref sig .tc := ⟨.hbm, 414, rfl⟩
abbrev main_call4_v10 : Ref sig .tc := ⟨.hbm, 415, rfl⟩
abbrev main_call4_v11 : Ref sig .tc := ⟨.hbm, 416, rfl⟩
abbrev main_call4_cst_3 : Ref sig .tc := ⟨.hbm, 417, rfl⟩
abbrev main_call4_v12 : Ref sig .tc := ⟨.hbm, 418, rfl⟩
abbrev main_call4_cst_4 : Ref sig .tc := ⟨.hbm, 419, rfl⟩
abbrev main_call4_call0_v0 : Ref sig .tc := ⟨.hbm, 420, rfl⟩
abbrev main_call4_call0_v1 : Ref sig .tc := ⟨.hbm, 421, rfl⟩
abbrev main_v258 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_v262 : Ref sig .tc := ⟨.hbm, 426, rfl⟩
abbrev main_v263 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_cst_42 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_cst_43 : Ref sig .tc := ⟨.hbm, 443, rfl⟩
abbrev main_v278 : Ref sig .tc := ⟨.hbm, 444, rfl⟩
abbrev main_v279 : Ref sig .tc := ⟨.hbm, 445, rfl⟩
abbrev main_v280 : Ref sig .tc := ⟨.hbm, 446, rfl⟩
abbrev main_cst_44 : Ref sig .tc := ⟨.hbm, 447, rfl⟩
abbrev main_v281 : Ref sig .tc := ⟨.hbm, 448, rfl⟩
abbrev main_v282 : Ref sig .tc := ⟨.hbm, 449, rfl⟩
abbrev main_v283 : Ref sig .tc := ⟨.hbm, 450, rfl⟩
abbrev main_cst_45 : Ref sig .tc := ⟨.hbm, 451, rfl⟩
abbrev main_v284 : Ref sig .tc := ⟨.hbm, 452, rfl⟩
abbrev main_v285 : Ref sig .tc := ⟨.hbm, 453, rfl⟩
abbrev main_v286 : Ref sig .tc := ⟨.hbm, 454, rfl⟩
abbrev main_cst_46 : Ref sig .tc := ⟨.hbm, 455, rfl⟩
abbrev main_v287 : Ref sig .tc := ⟨.hbm, 456, rfl⟩
abbrev main_v288 : Ref sig .tc := ⟨.hbm, 457, rfl⟩
abbrev main_v289 : Ref sig .tc := ⟨.hbm, 458, rfl⟩
abbrev main_cst_47 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩
abbrev main_v294 : Ref sig .tc := ⟨.hbm, 464, rfl⟩
abbrev main_v295 : Ref sig .tc := ⟨.hbm, 465, rfl⟩
abbrev main_v296 : Ref sig .tc := ⟨.hbm, 466, rfl⟩
abbrev main_v297 : Ref sig .tc := ⟨.hbm, 467, rfl⟩
abbrev main_cst_48 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_v301 : Ref sig .tc := ⟨.hbm, 472, rfl⟩
abbrev main_v302 : Ref sig .tc := ⟨.hbm, 473, rfl⟩
abbrev main_v303 : Ref sig .tc := ⟨.hbm, 474, rfl⟩
abbrev main_v304 : Ref sig .tc := ⟨.hbm, 475, rfl⟩
abbrev main_cst_49 : Ref sig .tc := ⟨.hbm, 476, rfl⟩
abbrev main_v305 : Ref sig .tc := ⟨.hbm, 477, rfl⟩
abbrev main_v306 : Ref sig .tc := ⟨.hbm, 478, rfl⟩
abbrev main_v307 : Ref sig .tc := ⟨.hbm, 479, rfl⟩
abbrev main_cst_50 : Ref sig .tc := ⟨.hbm, 480, rfl⟩
abbrev main_v308 : Ref sig .tc := ⟨.hbm, 481, rfl⟩
abbrev main_v309 : Ref sig .tc := ⟨.hbm, 482, rfl⟩
abbrev main_v310 : Ref sig .tc := ⟨.hbm, 483, rfl⟩
abbrev main_v311 : Ref sig .tc := ⟨.hbm, 484, rfl⟩
abbrev main_v312 : Ref sig .tc := ⟨.hbm, 485, rfl⟩
abbrev main_cst_51 : Ref sig .tc := ⟨.hbm, 486, rfl⟩
abbrev main_v313 : Ref sig .tc := ⟨.hbm, 487, rfl⟩
abbrev main_v314 : Ref sig .tc := ⟨.hbm, 488, rfl⟩
abbrev main_v315 : Ref sig .tc := ⟨.hbm, 489, rfl⟩
abbrev main_cst_52 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  concatenates_S128x64_S128x64_S128x64_S128x64_S128x64_S128x320_d1 : Shape.Concatenates [S128x64, S128x64, S128x64, S128x64, S128x64] S128x320 1
  bcast_S320_S1x320_1 : S320.BroadcastsInDim S1x320 (![1] : Fin 1 → Fin S1x320.rank)
  bcast_S1x320_S128x320_0_1 : S1x320.BroadcastsInDim S128x320 (![0, 1] : Fin 2 → Fin S128x320.rank)
  bcast_S_S128x320 : S_.BroadcastsInDim S128x320 (![] : Fin 0 → Fin S128x320.rank)
  reducesTo_S128x320_S128_d1 : S128x320.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x320_0_1 : S128x1.BroadcastsInDim S128x320 (![0, 1] : Fin 2 → Fin S128x320.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S128x64_S100000x1_S100000x64_1_0_0_1_wf : ScatterDims.WF S128x64 S100000x1 S100000x64 [1] [0] [0] 1
  dot_S128x320_S320x320_S128x320_1_0_0_1_n_n_wf : DotDims.WF S128x320 S320x320 S128x320 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x320_S320x320_S128x320_1_0_0_1_n_n : DotDims S128x320 S320x320 S128x320 where
  lhsContracting := [1]
  rhsContracting := [0]
  lhsNonContracting := [0]
  rhsNonContracting := [1]
  lhsBatch := []
  rhsBatch := []
  wf := dot_S128x320_S320x320_S128x320_1_0_0_1_n_n_wf

class Facts : Prop extends Facts₀ where

variable [Facts]
-- ==== Proof.K.R0.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x64 : Rect S5000x64 := Rect.unit (s := S5000x64) ![0, 0] S5000x64.size inb_S5000x64_S5000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

def out0_3 (x0 : Vec F S5000x64 .f32) (x1 : Vec F S64x64 .f32) (x2 : Vec F S1x64 .f32) : Vec F S5000x64 .f32 :=
  View.canon [⟨r0_S5000x64, k0_pay1 (View.ld x0 r0_S5000x64) (View.ld x1 r0_S64x64) (View.ld x2 r0_S1x64)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

-- The body only reads its input windows.
theorem before0 (c : Dev nD) (t : Fin cfg0.N) : (∀ d, (dat0 V c).before 0 t d = iblk0 V c 0 t) ∧
    (∀ d, (dat0 V c).before 1 t d = iblk0 V c 1 t) ∧ ∀ d, (dat0 V c).before 2 t d = iblk0 V c 2 t := by
  refine ⟨?_, ?_, ?_⟩ <;> intro d <;> refine (Dat.before_in_eq_fetched _ _ ?_ ?_ ?_ ?_ t d).trans ?_ <;> intros <;> rfl

-- The body reads its three inputs whole and overwrites the whole output with the payload.
theorem sound_kernel0 {c : Dev nD} {E : Set ℕ} {i a1 h1 a2 h2 a3 h3 a4 h4 x0 x1 x2 d} {K : PUnit → sProp (MT nD τ sig Unit (Elt F) ℕ (UR sig nD τ) ℕ)} :
    iprop(owns c a1 fullShare x0 ∗ owns c a2 fullShare x1 ∗ owns c a3 fullShare x2 ∗ owns c a4 fullShare d
        ∗ (iprop(owns c a1 fullShare x0 ∗ owns c a2 fullShare x1 ∗ owns c a3 fullShare x2
            ∗ owns c a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton, owns_eq_rep]; unfold cc0__linear_kernel_skel
  iintro ⟨H0, H1, H2, H3, Hk⟩
  sl_exec
  sl_step
  iapply Hk
  iframe H0 H1 H2
  iapply rep_of_owns
  unfold owns; iexists _; iframe; ipureintro
  simp only [View.readAt_rep]
  exact View.read_writes_eq_canon _ _ _ (View.cover_of_tiled _ S5000x64.size (by rfl))

theorem body_obligation0 (c : Dev nD) : BodyObligation (dat0 (F := F) V c) (defs₀ (F := F)) Variants.none () Set.univ := fun t => by
  rw [bigSep_W0, bigSep_W0]
  simp only [before0 V c t]
  dsimp only [dat0]
  show _ ⊢ wp _ _ _ (bodyAt0 t) _
  iintro ⟨HΦ, Ho, ⟨%d0, H0⟩, ⟨%d1, H1⟩, ⟨%d2, H2⟩, ⟨%d3, H3⟩⟩
  iapply sound_kernel0
  iframe H0 H1 H2 H3
  iintro ⟨H0, H1, H2, H3⟩
  iframe HΦ H0 H1 H2 H3
  iexact Ho

end Cert.Kernel.Hand

end
-- ==== Proof.K.R1.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S5000x64 : Rect S5000x64 := Rect.unit ![0, 0] S5000x64.size inb_S5000x64_S5000x64_0_0
abbrev r1_S64x64 : Rect S64x64 := Rect.unit ![0, 0] S64x64.size inb_S64x64_S64x64_0_0
abbrev r1_S1x64 : Rect S1x64 := Rect.unit ![0, 0] S1x64.size inb_S1x64_S1x64_0_0

def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r1_S5000x64, k1_pay1 (View.ld x0 r1_S5000x64) (View.ld x1 r1_S5000x64) (View.ld x2 r1_S64x64) (View.ld x3 r1_S1x64) (View.ld x4 r1_S64x64) (View.ld x5 r1_S1x64)⟩]

-- The body reads its six inputs whole and stores one payload over the whole output buffer.
theorem sound_kernel1 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out1_6 x0 x1 x2 x3 x4 x5)) -∗ K ⟨⟩))
      ⊢ wp frame (wpE defs₀ Variants.none c none) E (cc1__gin_mlp_kernel i a1 h1 a2 h2 a3 h3 a4 h4 a5 h5 a6 h6 a7 h7) K := by
  simp only [cc1__gin_mlp_kernel_eq_skeleton, owns_eq_rep]; unfold cc1__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

-- At every grid point an input window holds its block of the array, before the body as after it.
theorem before1 (c : Dev nD) (w : Fin 7) : w ≠ 6 → ∀ (t : Fin cfg1.N) (d), (dat1 V c).before w t d = (dat1 V c).after w t := by
  fin_cases w <;> first
    | exact fun h => absurd rfl h
    | exact fun _ t d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp (disch := decide) only [before1 V c]
  dsimp only [dat1]
  show _ ⊢ wp _ _ _ (bodyAt1 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel1
  iframe H0 H1 H2 H3 H4 H5
  isplitl [H6]; · iexact H6
  iintro ⟨H0, H1, H2, H3, H4, H5, H6⟩
  iframe HΦ H0 H1 H2 H3 H4 H5 H6
  iexact Ho

end Cert.Kernel.Hand

end
-- ==== Proof.K.R2.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S1x64 : Rect S1x64 := Rect.unit (s := S1x64) ![0, 0] S1x64.size inb_S1x64_S1x64_0_0

def out2_5 (x0 : Vec F S5000x64 .f32) (x1 x2 x3 x4 : Vec F S1x64 .f32) : Vec F S5000x64 .f32 :=
  View.canon [⟨r2_S5000x64, k2_pay1 (View.ld x0 r2_S5000x64) (View.ld x2 r2_S1x64) (View.ld x3 r2_S1x64) (View.ld x1 r2_S1x64) (View.ld x4 r2_S1x64)⟩]

/-- The one store goes through the rectangle of the whole output buffer, so what is read back is its payload. -/
theorem sound_kernel2 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out2_5 x0 x1 x2 x3 x4) -∗ K ⟨⟩))
      ⊢ wp frame (wpE (defs₀ (F := F)) Variants.none c none) Set.univ (cc2__bn_affine_kernel i arg1 harg1 arg2 harg2 arg3 harg3 arg4 harg4 arg5 harg5 arg6 harg6) K := by
  simp only [cc2__bn_affine_kernel_eq_skeleton, owns_eq_rep]; unfold cc2__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) (w : Fin cfg2.W) (hw : (cfg2.win w).isOut = false) (t : Fin cfg2.N) (d) :
    (dat2 V c).before w t d = (dat2 V c).after w t := by
  refine (Dat.before_in_eq_fetched _ w hw ?_ ?_ ?_ t d).trans ?_ <;> fin_cases w <;>
    first | exact absurd hw (by decide) | rfl | exact fun _ => rfl | exact fun _ _ _ => rfl

theorem body_obligation2 (c : Dev nD) : BodyObligation (dat2 (F := F) V c) (defs₀ (F := F)) Variants.none () Set.univ := fun t => by
  rw [bigSep_W2, bigSep_W2]
  simp (disch := exact rfl) only [before2 V c]
  dsimp only [dat2]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  iapply sound_kernel2
  iframe H0 H1 H2 H3 H4 H5
  iintro ⟨H0, H1, H2, H3, H4, H5⟩
  iframe HΦ H0 H1 H2 H3 H4 H5
  iexact Ho

end Cert.Kernel.Hand

end
-- ==== Proof.K.R3.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit ![0, 0] S5000x64.size inb_S5000x64_S5000x64_0_0
abbrev r3_S64x64 : Rect S64x64 := Rect.unit ![0, 0] S64x64.size inb_S64x64_S64x64_0_0
abbrev r3_S1x64 : Rect S1x64 := Rect.unit ![0, 0] S1x64.size inb_S1x64_S1x64_0_0

def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r3_S5000x64, k3_pay1 (View.ld x0 r3_S5000x64) (View.ld x1 r3_S5000x64) (View.ld x2 r3_S64x64) (View.ld x3 r3_S1x64) (View.ld x4 r3_S64x64) (View.ld x5 r3_S1x64)⟩]

-- The body reads its six inputs whole and stores one payload over the whole output buffer.
theorem sound_kernel3 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out3_6 x0 x1 x2 x3 x4 x5)) -∗ K ⟨⟩))
      ⊢ wp frame (wpE defs₀ Variants.none c none) E (cc3__gin_mlp_kernel i a1 h1 a2 h2 a3 h3 a4 h4 a5 h5 a6 h6 a7 h7) K := by
  simp only [cc3__gin_mlp_kernel_eq_skeleton, owns_eq_rep]; unfold cc3__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

-- At every grid point an input window holds its block of the array, before the body as after it.
theorem before3 (c : Dev nD) (w : Fin 7) : w ≠ 6 → ∀ (t : Fin cfg3.N) (d), (dat3 V c).before w t d = (dat3 V c).after w t := by
  fin_cases w <;> first
    | exact fun h => absurd rfl h
    | exact fun _ t d => ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp (disch := decide) only [before3 V c]
  dsimp only [dat3]
  show _ ⊢ wp _ _ _ (bodyAt3 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel3
  iframe H0 H1 H2 H3 H4 H5
  isplitl [H6]; · iexact H6
  iintro ⟨H0, H1, H2, H3, H4, H5, H6⟩
  iframe HΦ H0 H1 H2 H3 H4 H5 H6
  iexact Ho

end Cert.Kernel.Hand

end
-- ==== Proof.K.R4.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0
abbrev r4_S1x64 : Rect S1x64 := Rect.unit (s := S1x64) ![0, 0] S1x64.size inb_S1x64_S1x64_0_0

def out4_5 (x0 : Vec F S5000x64 .f32) (x1 x2 x3 x4 : Vec F S1x64 .f32) : Vec F S5000x64 .f32 :=
  View.canon [⟨r4_S5000x64, k4_pay1 (View.ld x0 r4_S5000x64) (View.ld x2 r4_S1x64) (View.ld x3 r4_S1x64) (View.ld x1 r4_S1x64) (View.ld x4 r4_S1x64)⟩]

/-- The one store goes through the rectangle of the whole output buffer, so what is read back is its payload. -/
theorem sound_kernel4 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out4_5 x0 x1 x2 x3 x4) -∗ K ⟨⟩))
      ⊢ wp frame (wpE (defs₀ (F := F)) Variants.none c none) Set.univ (cc4__bn_affine_kernel i arg1 harg1 arg2 harg2 arg3 harg3 arg4 harg4 arg5 harg5 arg6 harg6) K := by
  simp only [cc4__bn_affine_kernel_eq_skeleton, owns_eq_rep]; unfold cc4__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4 (c : Dev nD) (w : Fin cfg4.W) (hw : (cfg4.win w).isOut = false) (t : Fin cfg4.N) (d) :
    (dat4 V c).before w t d = (dat4 V c).after w t := by
  refine (Dat.before_in_eq_fetched _ w hw ?_ ?_ ?_ t d).trans ?_ <;> fin_cases w <;>
    first | exact absurd hw (by decide) | rfl | exact fun _ => rfl | exact fun _ _ _ => rfl

theorem body_obligation4 (c : Dev nD) : BodyObligation (dat4 (F := F) V c) (defs₀ (F := F)) Variants.none () Set.univ := fun t => by
  rw [bigSep_W4, bigSep_W4]
  simp (disch := exact rfl) only [before4 V c]
  dsimp only [dat4]
  show _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4
  iframe H0 H1 H2 H3 H4 H5
  iintro ⟨H0, H1, H2, H3, H4, H5⟩
  iframe HΦ H0 H1 H2 H3 H4 H5
  iexact Ho

end Cert.Kernel.Hand

end
-- ==== Proof.K.R5.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S5000x64 : Rect S5000x64 := Rect.unit ![0, 0] S5000x64.size inb_S5000x64_S5000x64_0_0
abbrev r5_S64x64 : Rect S64x64 := Rect.unit ![0, 0] S64x64.size inb_S64x64_S64x64_0_0
abbrev r5_S1x64 : Rect S1x64 := Rect.unit ![0, 0] S1x64.size inb_S1x64_S1x64_0_0

def out5_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r5_S5000x64, k5_pay1 (View.ld x0 r5_S5000x64) (View.ld x1 r5_S5000x64) (View.ld x2 r5_S64x64) (View.ld x3 r5_S1x64) (View.ld x4 r5_S64x64) (View.ld x5 r5_S1x64)⟩]

-- The body reads its six inputs whole and stores one payload over the whole output buffer.
theorem sound_kernel5 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out5_6 x0 x1 x2 x3 x4 x5)) -∗ K ⟨⟩))
      ⊢ wp frame (wpE defs₀ Variants.none c none) E (cc5__gin_mlp_kernel i a1 h1 a2 h2 a3 h3 a4 h4 a5 h5 a6 h6 a7 h7) K := by
  simp only [cc5__gin_mlp_kernel_eq_skeleton, owns_eq_rep]; unfold cc5__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

-- At every grid point an input window holds its block of the array, before the body as after it.
theorem before5 (c : Dev nD) (w : Fin 7) : w ≠ 6 → ∀ (t : Fin cfg5.N) (d), (dat5 V c).before w t d = (dat5 V c).after w t := by
  fin_cases w <;> first
    | exact fun h => absurd rfl h
    | exact fun _ t d => ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp (disch := decide) only [before5 V c]
  dsimp only [dat5]
  show _ ⊢ wp _ _ _ (bodyAt5 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel5
  iframe H0 H1 H2 H3 H4 H5
  isplitl [H6]; · iexact H6
  iintro ⟨H0, H1, H2, H3, H4, H5, H6⟩
  iframe HΦ H0 H1 H2 H3 H4 H5 H6
  iexact Ho

end Cert.Kernel.Hand

end
-- ==== Proof.K.R6.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_S5000x64 : Rect S5000x64 := Rect.unit (s := S5000x64) ![0, 0] S5000x64.size inb_S5000x64_S5000x64_0_0
abbrev r6_S1x64 : Rect S1x64 := Rect.unit (s := S1x64) ![0, 0] S1x64.size inb_S1x64_S1x64_0_0

def out6_5 (x0 : Vec F S5000x64 .f32) (x1 x2 x3 x4 : Vec F S1x64 .f32) : Vec F S5000x64 .f32 :=
  View.canon [⟨r6_S5000x64, k6_pay1 (View.ld x0 r6_S5000x64) (View.ld x2 r6_S1x64) (View.ld x3 r6_S1x64) (View.ld x1 r6_S1x64) (View.ld x4 r6_S1x64)⟩]

/-- The one store goes through the rectangle of the whole output buffer, so what is read back is its payload. -/
theorem sound_kernel6 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out6_5 x0 x1 x2 x3 x4) -∗ K ⟨⟩))
      ⊢ wp frame (wpE (defs₀ (F := F)) Variants.none c none) Set.univ (cc6__bn_affine_kernel i arg1 harg1 arg2 harg2 arg3 harg3 arg4 harg4 arg5 harg5 arg6 harg6) K := by
  simp only [cc6__bn_affine_kernel_eq_skeleton, owns_eq_rep]; unfold cc6__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6 (c : Dev nD) (w : Fin cfg6.W) (hw : (cfg6.win w).isOut = false) (t : Fin cfg6.N) (d) :
    (dat6 V c).before w t d = (dat6 V c).after w t := by
  refine (Dat.before_in_eq_fetched _ w hw ?_ ?_ ?_ t d).trans ?_ <;> fin_cases w <;>
    first | exact absurd hw (by decide) | rfl | exact fun _ => rfl | exact fun _ _ _ => rfl

theorem body_obligation6 (c : Dev nD) : BodyObligation (dat6 (F := F) V c) (defs₀ (F := F)) Variants.none () Set.univ := fun t => by
  rw [bigSep_W6, bigSep_W6]
  simp (disch := exact rfl) only [before6 V c]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩⟩
  iapply sound_kernel6
  iframe H0 H1 H2 H3 H4 H5
  iintro ⟨H0, H1, H2, H3, H4, H5⟩
  iframe HΦ H0 H1 H2 H3 H4 H5
  iexact Ho

end Cert.Kernel.Hand

end
-- ==== Proof.K.R7.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit ![0, 0] S5000x64.size inb_S5000x64_S5000x64_0_0
abbrev r7_S64x64 : Rect S64x64 := Rect.unit ![0, 0] S64x64.size inb_S64x64_S64x64_0_0
abbrev r7_S1x64 : Rect S1x64 := Rect.unit ![0, 0] S1x64.size inb_S1x64_S1x64_0_0

def out7_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r7_S5000x64, k7_pay1 (View.ld x0 r7_S5000x64) (View.ld x1 r7_S5000x64) (View.ld x2 r7_S64x64) (View.ld x3 r7_S1x64) (View.ld x4 r7_S64x64) (View.ld x5 r7_S1x64)⟩]

-- The body reads its six inputs whole and stores one payload over the whole output buffer.
theorem sound_kernel7 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out7_6 x0 x1 x2 x3 x4 x5)) -∗ K ⟨⟩))
      ⊢ wp frame (wpE defs₀ Variants.none c none) E (cc7__gin_mlp_kernel i a1 h1 a2 h2 a3 h3 a4 h4 a5 h5 a6 h6 a7 h7) K := by
  simp only [cc7__gin_mlp_kernel_eq_skeleton, owns_eq_rep]; unfold cc7__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

-- At every grid point an input window holds its block of the array, before the body as after it.
theorem before7 (c : Dev nD) (w : Fin 7) : w ≠ 6 → ∀ (t : Fin cfg7.N) (d), (dat7 V c).before w t d = (dat7 V c).after w t := by
  fin_cases w <;> first
    | exact fun h => absurd rfl h
    | exact fun _ t d => ((dat7 V c).before_in_eq_fetched _ rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp (disch := decide) only [before7 V c]
  dsimp only [dat7]
  show _ ⊢ wp _ _ _ (bodyAt7 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel7
  iframe H0 H1 H2 H3 H4 H5
  isplitl [H6]; · iexact H6
  iintro ⟨H0, H1, H2, H3, H4, H5, H6⟩
  iframe HΦ H0 H1 H2 H3 H4 H5 H6
  iexact Ho

end Cert.Kernel.Hand

end
-- ==== Proof.K.R8.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_S5000x64 : Rect S5000x64 := Rect.unit (s := S5000x64) ![0, 0] S5000x64.size inb_S5000x64_S5000x64_0_0
abbrev r8_S1x64 : Rect S1x64 := Rect.unit (s := S1x64) ![0, 0] S1x64.size inb_S1x64_S1x64_0_0

def out8_5 (x0 : Vec F S5000x64 .f32) (x1 x2 x3 x4 : Vec F S1x64 .f32) : Vec F S5000x64 .f32 :=
  View.canon [⟨r8_S5000x64, k8_pay1 (View.ld x0 r8_S5000x64) (View.ld x2 r8_S1x64) (View.ld x3 r8_S1x64) (View.ld x1 r8_S1x64) (View.ld x4 r8_S1x64)⟩]

/-- The one store goes through the rectangle of the whole output buffer, so what is read back is its payload. -/
theorem sound_kernel8 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out8_5 x0 x1 x2 x3 x4) -∗ K ⟨⟩))
      ⊢ wp frame (wpE (defs₀ (F := F)) Variants.none c none) Set.univ (cc8__bn_affine_kernel i arg1 harg1 arg2 harg2 arg3 harg3 arg4 harg4 arg5 harg5 arg6 harg6) K := by
  simp only [cc8__bn_affine_kernel_eq_skeleton, owns_eq_rep]; unfold cc8__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8 (c : Dev nD) (w : Fin cfg8.W) (hw : (cfg8.win w).isOut = false) (t : Fin cfg8.N) (d) :
    (dat8 V c).before w t d = (dat8 V c).after w t := by
  refine (Dat.before_in_eq_fetched _ w hw ?_ ?_ ?_ t d).trans ?_ <;> fin_cases w <;>
    first | exact absurd hw (by decide) | rfl | exact fun _ => rfl | exact fun _ _ _ => rfl

theorem body_obligation8 (c : Dev nD) : BodyObligation (dat8 (F := F) V c) (defs₀ (F := F)) Variants.none () Set.univ := fun t => by
  rw [bigSep_W8, bigSep_W8]
  simp (disch := exact rfl) only [before8 V c]
  dsimp only [dat8]
  show _ ⊢ wp _ _ _ (bodyAt8 t) _
  iintro ⟨HΦ, Ho, ⟨%d0, H0⟩, ⟨%d1, H1⟩, ⟨%d2, H2⟩, ⟨%d3, H3⟩, ⟨%d4, H4⟩, ⟨%d5, H5⟩⟩
  iapply sound_kernel8
  iframe H0 H1 H2 H3 H4 H5
  iintro ⟨H0, H1, H2, H3, H4, H5⟩
  iframe HΦ H0 H1 H2 H3 H4 H5
  iexact Ho

end Cert.Kernel.Hand

end
-- ==== Proof.K.R9.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S5000x64 : Rect S5000x64 := Rect.unit ![0, 0] S5000x64.size inb_S5000x64_S5000x64_0_0
abbrev r9_S64x64 : Rect S64x64 := Rect.unit ![0, 0] S64x64.size inb_S64x64_S64x64_0_0
abbrev r9_S1x64 : Rect S1x64 := Rect.unit ![0, 0] S1x64.size inb_S1x64_S1x64_0_0

def out9_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r9_S5000x64, k9_pay1 (View.ld x0 r9_S5000x64) (View.ld x1 r9_S5000x64) (View.ld x2 r9_S64x64) (View.ld x3 r9_S1x64) (View.ld x4 r9_S64x64) (View.ld x5 r9_S1x64)⟩]

-- The body reads its six inputs whole and stores one payload over the whole output buffer.
theorem sound_kernel9 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out9_6 x0 x1 x2 x3 x4 x5)) -∗ K ⟨⟩))
      ⊢ wp frame (wpE defs₀ Variants.none c none) E (cc9__gin_mlp_kernel i a1 h1 a2 h2 a3 h3 a4 h4 a5 h5 a6 h6 a7 h7) K := by
  simp only [cc9__gin_mlp_kernel_eq_skeleton, owns_eq_rep]; unfold cc9__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := rfl

theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

-- At every grid point an input window holds its block of the array, before the body as after it.
theorem before9 (c : Dev nD) (w : Fin 7) : w ≠ 6 → ∀ (t : Fin cfg9.N) (d), (dat9 V c).before w t d = (dat9 V c).after w t := by
  fin_cases w <;> first
    | exact fun h => absurd rfl h
    | exact fun _ t d => ((dat9 V c).before_in_eq_fetched _ rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp (disch := decide) only [before9 V c]
  dsimp only [dat9]
  show _ ⊢ wp _ _ _ (bodyAt9 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel9
  iframe H0 H1 H2 H3 H4 H5
  isplitl [H6]; · iexact H6
  iintro ⟨H0, H1, H2, H3, H4, H5, H6⟩
  iframe HΦ H0 H1 H2 H3 H4 H5 H6
  iexact Ho

end Cert.Kernel.Hand

end
-- ==== Proof.K.R10.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_S5000x64 : Rect S5000x64 := Rect.unit (s := S5000x64) ![0, 0] S5000x64.size inb_S5000x64_S5000x64_0_0
abbrev r10_S1x64 : Rect S1x64 := Rect.unit (s := S1x64) ![0, 0] S1x64.size inb_S1x64_S1x64_0_0

def out10_5 (x0 : Vec F S5000x64 .f32) (x1 x2 x3 x4 : Vec F S1x64 .f32) : Vec F S5000x64 .f32 :=
  View.canon [⟨r10_S5000x64, k10_pay1 (View.ld x0 r10_S5000x64) (View.ld x2 r10_S1x64) (View.ld x3 r10_S1x64) (View.ld x1 r10_S1x64) (View.ld x4 r10_S1x64)⟩]

/-- The one store goes through the rectangle of the whole output buffer, so what is read back is its payload. -/
theorem sound_kernel10 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out10_5 x0 x1 x2 x3 x4) -∗ K ⟨⟩))
      ⊢ wp frame (wpE (defs₀ (F := F)) Variants.none c none) Set.univ (cc10__bn_affine_kernel i arg1 harg1 arg2 harg2 arg3 harg3 arg4 harg4 arg5 harg5 arg6 harg6) K := by
  simp only [cc10__bn_affine_kernel_eq_skeleton, owns_eq_rep]; unfold cc10__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := rfl

theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10 (c : Dev nD) (w : Fin cfg10.W) (hw : (cfg10.win w).isOut = false) (t : Fin cfg10.N) (d) :
    (dat10 V c).before w t d = (dat10 V c).after w t := by
  refine (Dat.before_in_eq_fetched _ w hw ?_ ?_ ?_ t d).trans ?_ <;> fin_cases w <;>
    first | exact absurd hw (by decide) | rfl | exact fun _ => rfl | exact fun _ _ _ => rfl

theorem body_obligation10 (c : Dev nD) : BodyObligation (dat10 (F := F) V c) (defs₀ (F := F)) Variants.none () Set.univ := fun t => by
  rw [bigSep_W10, bigSep_W10]
  simp (disch := exact rfl) only [before10 V c]
  dsimp only [dat10]
  show _ ⊢ wp _ _ _ (bodyAt10 t) _
  iintro ⟨HΦ, Ho, ⟨%d0, H0⟩, ⟨%d1, H1⟩, ⟨%d2, H2⟩, ⟨%d3, H3⟩, ⟨%d4, H4⟩, ⟨%d5, H5⟩⟩
  iapply sound_kernel10
  iframe H0 H1 H2 H3 H4 H5
  iintro ⟨H0, H1, H2, H3, H4, H5⟩
  iframe HΦ H0 H1 H2 H3 H4 H5
  iexact Ho

end Cert.Kernel.Hand

end
-- ==== Proof.K.R11.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def poolAt (c : Dev nD) : (n : ℕ) → n < cfg11.N → Vec F S128x320 .f32
  | 0, hn => k11_pay2 (iblk11 V c 0 ⟨0, hn⟩) (iblk11 V c 1 ⟨0, hn⟩) (k11_pay1 (F := F))
  | n + 1, hn => k11_pay2 (iblk11 V c 0 ⟨n + 1, hn⟩) (iblk11 V c 1 ⟨n + 1, hn⟩) (poolAt c n (Nat.lt_of_succ_lt hn))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => poolAt V c t.val t.isLt
  Φ _ := Pipeline.ΦA spec11 c
  q _ := fullShare
  owed _ := 0

theorem A_eq11 (c : Dev nD) (w : Fin cfg11.W) : (dat11 V c).A w = V c (Pipeline.arrRef spec11 w) := rfl

theorem after11_2 (c : Dev nD) (t : Fin cfg11.N) : (dat11 V c).after 2 t = poolAt V c t.val t.isLt := rfl

namespace R11

-- The body only reads its input windows.
theorem before (c : Dev nD) (t : Fin cfg11.N) :
    (∀ d, (dat11 V c).before 0 t d = iblk11 V c 0 t) ∧ ∀ d, (dat11 V c).before 1 t d = iblk11 V c 1 t := by
  refine ⟨?_, ?_⟩ <;> intro d <;> refine (Dat.before_in_eq_fetched _ _ ?_ ?_ ?_ ?_ t d).trans ?_ <;> intros <;> rfl

abbrev cond (i : grid11.Coords) : Prop :=
  (Scalar.cmpi .ne (Scalar.extui (Scalar.cmpi .eq (BitVec.ofNat 32 (i 0).val) 0#32)) 0#32) = 1#1

theorem hcond : ∀ t : Fin cfg11.N, cond (grid11.coords t) ↔ t.val = 0 :=
  (by decide +kernel : ∀ t : Fin grid11.N, cond (grid11.coords t) ↔ t.val = 0)

theorem hz : (![0, 0] : Fin 2 → Nat) = fun _ => 0 := funext fun a => by fin_cases a <;> rfl

set_option maxHeartbeats 1000000 in
-- The accumulator is zeroed first exactly when the conditional is taken; the last store overwrites it whole.
theorem run {c : Dev nD} {E : Set ℕ} {i a1 h1 a2 h2 a3 h3 x0 x1 xo} {K : PUnit → sProp (MT nD τ sig Unit (Elt F) ℕ (UR sig nD τ) ℕ)} :
    iprop(owns c a1 fullShare x0 ∗ owns c a2 fullShare x1 ∗ owns c a3 fullShare xo
        ∗ (iprop(owns c a1 fullShare x0 ∗ owns c a2 fullShare x1
            ∗ owns c a3 fullShare (k11_pay2 x0 x1 (if cond i then k11_pay1 else xo))) -∗ K ⟨⟩))
      ⊢ wp frame (wpE (defs₀ (F := F)) Variants.none c none) E (cc11__pool_kernel i a1 h1 a2 h2 a3 h3) K := by
  rw [cc11__pool_kernel_eq_skeleton]; unfold cc11__pool_kernel_skel owns
  iintro ⟨⟨%f0, %hf0, H0⟩, ⟨%f1, %hf1, H1⟩, ⟨%f2, %hf2, H2⟩, Hk⟩
  subst hf0 hf1 hf2
  by_cases hc : cond i
  all_goals
    sl_exec (disch := exact hc)
    sl_step
    iapply Hk
    isplitl [H0]; · iexists f0; iframe; ipureintro; rfl
    isplitl [H1]; · iexists f1; iframe; ipureintro; rfl
    iexists _; iframe; ipureintro
    refine (View.read_writes_eq_canon _ _ _ fun y => ⟨_, .head _, View.mem_set_unit_zero hz inb_S128x320_S128x320_0_0 y⟩).trans ?_
    rw [View.canon_cons_unit_zero hz]; sl_unfold_words
    first | rw [if_pos hc] | rw [if_neg hc]
    simp only [View.readAt_eq_ld, View.ld_unit_zero (S := S5000x128) hz, View.ld_unit_zero (S := S5000x320) hz,
      View.ld_unit_zero (S := S128x320) hz, View.readCov_unit_zero (S := S128x320) _ hz]

-- The accumulation starts from zeros at the first point and from what the point before left at every later one.
theorem pool_step (c : Dev nD) : ∀ (t : Fin cfg11.N) (d), poolAt V c t.val t.isLt =
    k11_pay2 (iblk11 V c 0 t) (iblk11 V c 1 t) (if cond (grid11.coords t) then k11_pay1 else (dat11 V c).before 2 t d)
  | ⟨0, h⟩, d => by rw [if_pos ((hcond _).2 rfl)]; rfl
  | ⟨n + 1, h⟩, d => by
    rw [if_neg (mt (hcond _).1 n.succ_ne_zero),
      Dat.before_out_kept _ 2 rfl _ n.succ_ne_zero (Bool.eq_false_iff.2 fun e => by
        have e := (flush11_2 _).1 e; have h := lt_of_lt_of_eq h (N_11 : cfg11.N = 20); dsimp only at e; omega)
      (fun _ => rfl) (fun _ _ => rfl)]; rfl

end R11

open R11 in
theorem body_obligation11 (c : Dev nD) : BodyObligation (dat11 (F := F) V c) (defs₀ (F := F)) Variants.none () Set.univ := fun t => by
  rw [bigSep_W11, bigSep_W11]
  simp only [before V c t]
  change _ ⊢ wp _ _ _ (bodyAt11 t) fun _ => iprop((dat11 V c).Φ t.castSucc ∗ (dat11 V c).owesAt () t.castSucc ∗ _)
  iintro ⟨HΦ, Ho, ⟨%d0, H0⟩, ⟨%d1, H1⟩, ⟨%d2, H2⟩⟩
  iapply run
  iframe H0 H1 H2
  rw [← pool_step V c t d2]
  iintro H
  iframe HΦ Ho
  iexact H

end Cert.Kernel.Hand

end
-- ==== Proof.K.R12.lean ====
import proofs.«406479_j78563541778981_1_alg».proof.Proof.Gen.Kernel.Launch
import proofs.«406479_j78563541778981_1_alg».proof.Proof.Gen.Kernel.Skeleton
import proofs.«406479_j78563541778981_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_S128x320 : Rect S128x320 := Rect.unit (s := S128x320) ![0, 0] S128x320.size inb_S128x320_S128x320_0_0
abbrev r12_S320x320 : Rect S320x320 := Rect.unit (s := S320x320) ![0, 0] S320x320.size inb_S320x320_S320x320_0_0
abbrev r12_S1x320 : Rect S1x320 := Rect.unit (s := S1x320) ![0, 0] S1x320.size inb_S1x320_S1x320_0_0

def out12_5 (x0 : Vec F S128x320 .f32) (x1 : Vec F S320x320 .f32) (x2 : Vec F S1x320 .f32) (x3 : Vec F S320x320 .f32) (x4 : Vec F S1x320 .f32) : Vec F S128x320 .f32 :=
  View.canon [⟨r12_S128x320, k12_pay1 (View.ld x0 r12_S128x320) (View.ld x1 r12_S320x320) (View.ld x2 r12_S1x320) (View.ld x3 r12_S320x320) (View.ld x4 r12_S1x320)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := rfl

theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

-- The body only reads its input windows.
theorem before12 (c : Dev nD) (t : Fin cfg12.N) : (∀ d, (dat12 V c).before 0 t d = iblk12 V c 0 t) ∧
    (∀ d, (dat12 V c).before 1 t d = iblk12 V c 1 t) ∧ (∀ d, (dat12 V c).before 2 t d = iblk12 V c 2 t) ∧
    (∀ d, (dat12 V c).before 3 t d = iblk12 V c 3 t) ∧ ∀ d, (dat12 V c).before 4 t d = iblk12 V c 4 t := by
  refine ⟨?_, ?_, ?_, ?_, ?_⟩ <;> intro d <;> refine (Dat.before_in_eq_fetched _ _ ?_ ?_ ?_ ?_ t d).trans ?_ <;> intros <;> rfl

-- The body reads its five inputs whole and overwrites the whole output with the payload.
theorem sound_kernel12 {c : Dev nD} {E : Set ℕ} {i a1 h1 a2 h2 a3 h3 a4 h4 a5 h5 a6 h6 x0 x1 x2 x3 x4 d} {K : PUnit → sProp (MT nD τ sig Unit (Elt F) ℕ (UR sig nD τ) ℕ)} :
    iprop(owns c a1 fullShare x0 ∗ owns c a2 fullShare x1 ∗ owns c a3 fullShare x2 ∗ owns c a4 fullShare x3
        ∗ owns c a5 fullShare x4 ∗ owns c a6 fullShare d
        ∗ (iprop(owns c a1 fullShare x0 ∗ owns c a2 fullShare x1 ∗ owns c a3 fullShare x2 ∗ owns c a4 fullShare x3
            ∗ owns c a5 fullShare x4 ∗ owns c a6 fullShare (out12_5 x0 x1 x2 x3 x4)) -∗ K ⟨⟩))
      ⊢ wp frame (wpE (defs₀ (F := F)) Variants.none c none) E (cc12__proj_kernel i a1 h1 a2 h2 a3 h3 a4 h4 a5 h5 a6 h6) K := by
  simp only [cc12__proj_kernel_eq_skeleton, owns_eq_rep]; unfold cc12__proj_kernel_skel
  iintro ⟨H0, H1, H2, H3, H4, H5, Hk⟩
  sl_exec
  sl_step
  iapply Hk
  iframe H0 H1 H2 H3 H4
  iapply rep_of_owns
  unfold owns; iexists _; iframe; ipureintro
  simp only [View.readAt_rep]
  exact View.read_writes_eq_canon _ _ _ (View.cover_of_tiled _ S128x320.size (by rfl))

theorem body_obligation12 (c : Dev nD) : BodyObligation (dat12 (F := F) V c) (defs₀ (F := F)) Variants.none () Set.univ := fun t => by
  rw [bigSep_W12, bigSep_W12]
  simp only [before12 V c t]
  dsimp only [dat12]
  show _ ⊢ wp _ _ _ (bodyAt12 t) _
  iintro ⟨HΦ, Ho, ⟨%d0, H0⟩, ⟨%d1, H1⟩, ⟨%d2, H2⟩, ⟨%d3, H3⟩, ⟨%d4, H4⟩, ⟨%d5, H5⟩⟩
  iapply sound_kernel12
  iframe H0 H1 H2 H3 H4 H5
  iintro ⟨H0, H1, H2, H3, H4, H5⟩
  iframe HΦ H0 H1 H2 H3 H4 H5
  iexact Ho

end Cert.Kernel.Hand

end
-- ==== Proof.K.Fold.lean ====
import proofs.«406479_j78563541778981_1_alg».proof.Proof.K.R0
import proofs.«406479_j78563541778981_1_alg».proof.Proof.K.R1
import proofs.«406479_j78563541778981_1_alg».proof.Proof.K.R2
import proofs.«406479_j78563541778981_1_alg».proof.Proof.K.R3
import proofs.«406479_j78563541778981_1_alg».proof.Proof.K.R4
import proofs.«406479_j78563541778981_1_alg».proof.Proof.K.R5
import proofs.«406479_j78563541778981_1_alg».proof.Proof.K.R6
import proofs.«406479_j78563541778981_1_alg».proof.Proof.K.R7
import proofs.«406479_j78563541778981_1_alg».proof.Proof.K.R8
import proofs.«406479_j78563541778981_1_alg».proof.Proof.K.R9
import proofs.«406479_j78563541778981_1_alg».proof.Proof.K.R10
import proofs.«406479_j78563541778981_1_alg».proof.Proof.K.R11
import proofs.«406479_j78563541778981_1_alg».proof.Proof.K.R12
import proofs.«406479_j78563541778981_1_alg».proof.Proof.K.Regions

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev X1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N :=
  Pipeline.withArrays_arr spec0 launch0.win.arr_inj c _ _ w
abbrev W3 : Dev nD → Valuation τ sig (Elt F) := fun c => StableHlo.after hostOps1 (W2 m ρ c)
abbrev X3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N :=
  Pipeline.withArrays_arr spec1 launch1.win.arr_inj c _ _ w
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev X7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (X7 m ρ) c).arrAt w cfg2.N
theorem W8_arr (c : Dev nD) (w : Fin cfg2.W) :
    W8 m ρ c (Proc.devRef .tc (Pipeline.arrRef spec2 w)) = (dat2 (X7 m ρ) c).arrAt w cfg2.N :=
  Pipeline.withArrays_arr spec2 launch2.win.arr_inj c _ _ w
abbrev W9 : Dev nD → Valuation τ sig (Elt F) := fun c => StableHlo.after hostOps3 (W8 m ρ c)
abbrev X9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (X9 m ρ) c).arrAt w cfg3.N
theorem W10_arr (c : Dev nD) (w : Fin cfg3.W) :
    W10 m ρ c (Proc.devRef .tc (Pipeline.arrRef spec3 w)) = (dat3 (X9 m ρ) c).arrAt w cfg3.N :=
  Pipeline.withArrays_arr spec3 launch3.win.arr_inj c _ _ w
abbrev W11 : Dev nD → Valuation τ sig (Elt F) := fun c => StableHlo.after hostOps4 (W10 m ρ c)
abbrev W12 : Dev nD → Valuation τ sig (Elt F) := fun c => StableHlo.after hostOps4_1 (W11 m ρ c)
abbrev W13 : Dev nD → Valuation τ sig (Elt F) := fun c => StableHlo.after hostOps4_2 (W12 m ρ c)
abbrev X13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (X13 m ρ) c).arrAt w cfg4.N
theorem W14_arr (c : Dev nD) (w : Fin cfg4.W) :
    W14 m ρ c (Proc.devRef .tc (Pipeline.arrRef spec4 w)) = (dat4 (X13 m ρ) c).arrAt w cfg4.N :=
  Pipeline.withArrays_arr spec4 launch4.win.arr_inj c _ _ w
abbrev W15 : Dev nD → Valuation τ sig (Elt F) := fun c => StableHlo.after hostOps5 (W14 m ρ c)
abbrev X15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (X15 m ρ) c).arrAt w cfg5.N
theorem W16_arr (c : Dev nD) (w : Fin cfg5.W) :
    W16 m ρ c (Proc.devRef .tc (Pipeline.arrRef spec5 w)) = (dat5 (X15 m ρ) c).arrAt w cfg5.N :=
  Pipeline.withArrays_arr spec5 launch5.win.arr_inj c _ _ w
abbrev W17 : Dev nD → Valuation τ sig (Elt F) := fun c => StableHlo.after hostOps6 (W16 m ρ c)
abbrev W18 : Dev nD → Valuation τ sig (Elt F) := fun c => StableHlo.after hostOps6_1 (W17 m ρ c)
abbrev W19 : Dev nD → Valuation τ sig (Elt F) := fun c => StableHlo.after hostOps6_2 (W18 m ρ c)
abbrev X19 : (c : Dev nD) → (b : Ref sig .tc) → Buf (Elt F) ((c : Thread nD τ).loc b) := fun c b => W19 m ρ c b
def W20 (c : Dev nD) : Valuation τ sig (Elt F) :=
  Pipeline.withArrays spec6 c (W19 m ρ c) fun w => (dat6 (X19 m ρ) c).arrAt w cfg6.N
theorem W20_arr (c : Dev nD) (w : Fin cfg6.W) :
    W20 m ρ c (Proc.devRef .tc (Pipeline.arrRef spec6 w)) = (dat6 (X19 m ρ) c).arrAt w cfg6.N :=
  Pipeline.withArrays_arr spec6 launch6.win.arr_inj c _ _ w
abbrev W21 : Dev nD → Valuation τ sig (Elt F) := fun c => StableHlo.after hostOps7 (W20 m ρ c)
abbrev X21 : (c : Dev nD) → (b : Ref sig .tc) → Buf (Elt F) ((c : Thread nD τ).loc b) := fun c b => W21 m ρ c b
def W22 (c : Dev nD) : Valuation τ sig (Elt F) :=
  Pipeline.withArrays spec7 c (W21 m ρ c) fun w => (dat7 (X21 m ρ) c).arrAt w cfg7.N
theorem W22_arr (c : Dev nD) (w : Fin cfg7.W) :
    W22 m ρ c (Proc.devRef .tc (Pipeline.arrRef spec7 w)) = (dat7 (X21 m ρ) c).arrAt w cfg7.N :=
  Pipeline.withArrays_arr spec7 launch7.win.arr_inj c _ _ w
abbrev W23 : Dev nD → Valuation τ sig (Elt F) := fun c => StableHlo.after hostOps8 (W22 m ρ c)
abbrev W24 : Dev nD → Valuation τ sig (Elt F) := fun c => StableHlo.after hostOps8_1 (W23 m ρ c)
abbrev W25 : Dev nD → Valuation τ sig (Elt F) := fun c => StableHlo.after hostOps8_2 (W24 m ρ c)
abbrev X25 : (c : Dev nD) → (b : Ref sig .tc) → Buf (Elt F) ((c : Thread nD τ).loc b) := fun c b => W25 m ρ c b
def W26 (c : Dev nD) : Valuation τ sig (Elt F) :=
  Pipeline.withArrays spec8 c (W25 m ρ c) fun w => (dat8 (X25 m ρ) c).arrAt w cfg8.N
theorem W26_arr (c : Dev nD) (w : Fin cfg8.W) :
    W26 m ρ c (Proc.devRef .tc (Pipeline.arrRef spec8 w)) = (dat8 (X25 m ρ) c).arrAt w cfg8.N :=
  Pipeline.withArrays_arr spec8 launch8.win.arr_inj c _ _ w
abbrev W27 : Dev nD → Valuation τ sig (Elt F) := fun c => StableHlo.after hostOps9 (W26 m ρ c)
abbrev X27 : (c : Dev nD) → (b : Ref sig .tc) → Buf (Elt F) ((c : Thread nD τ).loc b) := fun c b => W27 m ρ c b
def W28 (c : Dev nD) : Valuation τ sig (Elt F) :=
  Pipeline.withArrays spec9 c (W27 m ρ c) fun w => (dat9 (X27 m ρ) c).arrAt w cfg9.N
theorem W28_arr (c : Dev nD) (w : Fin cfg9.W) :
    W28 m ρ c (Proc.devRef .tc (Pipeline.arrRef spec9 w)) = (dat9 (X27 m ρ) c).arrAt w cfg9.N :=
  Pipeline.withArrays_arr spec9 launch9.win.arr_inj c _ _ w
abbrev W29 : Dev nD → Valuation τ sig (Elt F) := fun c => StableHlo.after hostOps10 (W28 m ρ c)
abbrev W30 : Dev nD → Valuation τ sig (Elt F) := fun c => StableHlo.after hostOps10_1 (W29 m ρ c)
abbrev W31 : Dev nD → Valuation τ sig (Elt F) := fun c => StableHlo.after hostOps10_2 (W30 m ρ c)
abbrev X31 : (c : Dev nD) → (b : Ref sig .tc) → Buf (Elt F) ((c : Thread nD τ).loc b) := fun c b => W31 m ρ c b
def W32 (c : Dev nD) : Valuation τ sig (Elt F) :=
  Pipeline.withArrays spec10 c (W31 m ρ c) fun w => (dat10 (X31 m ρ) c).arrAt w cfg10.N
theorem W32_arr (c : Dev nD) (w : Fin cfg10.W) :
    W32 m ρ c (Proc.devRef .tc (Pipeline.arrRef spec10 w)) = (dat10 (X31 m ρ) c).arrAt w cfg10.N :=
  Pipeline.withArrays_arr spec10 launch10.win.arr_inj c _ _ w
abbrev W33 : Dev nD → Valuation τ sig (Elt F) := fun c => StableHlo.after hostOps11 (W32 m ρ c)
abbrev X33 : (c : Dev nD) → (b : Ref sig .tc) → Buf (Elt F) ((c : Thread nD τ).loc b) := fun c b => W33 m ρ c b
def W34 (c : Dev nD) : Valuation τ sig (Elt F) :=
  Pipeline.withArrays spec11 c (W33 m ρ c) fun w => (dat11 (X33 m ρ) c).arrAt w cfg11.N
theorem W34_arr (c : Dev nD) (w : Fin cfg11.W) :
    W34 m ρ c (Proc.devRef .tc (Pipeline.arrRef spec11 w)) = (dat11 (X33 m ρ) c).arrAt w cfg11.N :=
  Pipeline.withArrays_arr spec11 launch11.win.arr_inj c _ _ w
abbrev W35 : Dev nD → Valuation τ sig (Elt F) := fun c => StableHlo.after hostOps12 (W34 m ρ c)
abbrev X35 : (c : Dev nD) → (b : Ref sig .tc) → Buf (Elt F) ((c : Thread nD τ).loc b) := fun c b => W35 m ρ c b
def W36 (c : Dev nD) : Valuation τ sig (Elt F) :=
  Pipeline.withArrays spec12 c (W35 m ρ c) fun w => (dat12 (X35 m ρ) c).arrAt w cfg12.N
theorem W36_arr (c : Dev nD) (w : Fin cfg12.W) :
    W36 m ρ c (Proc.devRef .tc (Pipeline.arrRef spec12 w)) = (dat12 (X35 m ρ) c).arrAt w cfg12.N :=
  Pipeline.withArrays_arr spec12 launch12.win.arr_inj c _ _ w
abbrev W37 : Dev nD → Valuation τ sig (Elt F) := fun c => StableHlo.after hostOps13 (W36 m ρ c)

abbrev adm : (p : Fin 13) → (pcfgs (F := F) p).Adm := fun p => (cfgs p).toPCfg_adm
def pdats : (p : Fin 13) → (c : Dev nD) → Dat τ (Elt F) Unit ℕ (UR sig nD τ) ℕ (Pipeline.pin (pcfgs (F := F)) adm p) c
  | ⟨0, _⟩ => fun c => dat0 (X1 m ρ) c
  | ⟨1, _⟩ => fun c => dat1 (X3 m ρ) c
  | ⟨2, _⟩ => fun c => dat2 (X7 m ρ) c
  | ⟨3, _⟩ => fun c => dat3 (X9 m ρ) c
  | ⟨4, _⟩ => fun c => dat4 (X13 m ρ) c
  | ⟨5, _⟩ => fun c => dat5 (X15 m ρ) c
  | ⟨6, _⟩ => fun c => dat6 (X19 m ρ) c
  | ⟨7, _⟩ => fun c => dat7 (X21 m ρ) c
  | ⟨8, _⟩ => fun c => dat8 (X25 m ρ) c
  | ⟨9, _⟩ => fun c => dat9 (X27 m ρ) c
  | ⟨10, _⟩ => fun c => dat10 (X31 m ρ) c
  | ⟨11, _⟩ => fun c => dat11 (X33 m ρ) c
  | ⟨12, _⟩ => fun c => dat12 (X35 m ρ) c

end Cert.Kernel.Hand

end
-- ==== Proof.K.Regs.lean ====
import proofs.«406479_j78563541778981_1_alg».proof.Proof.K.Fold

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ R c)

abbrev atTc (W : Dev nD → Valuation τ sig (Elt F)) :
    (c : Dev nD) → (b : Ref sig .tc) → Buf (Elt F) ((c : Thread nD τ).loc b) := fun c b => W c b

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem owesAt_first {cfg : Cfg sig Λ₀} {c : Dev nD} (dat : Dat τ (Elt F) Unit ℕ (UR sig nD τ) ℕ cfg c)
    (h0 : dat.owed 0 = 0) (hrec : ∀ x, x ∈ dat.recorded 0) :
    (iprop(∃ W, owes (c : Thread nD τ) (0 : CellTallies nD τ sig Unit) W) : sProp 𝕄) ⊢ dat.owesAt () 0 := by
  show _ ⊢ Pipeline.owesWithin c (dat.owed 0) (dat.bound () 0)
  rw [h0]
  iintro ⟨%W, H⟩
  iexists W
  iframe
  ipureintro; exact fun x _ => Or.inl (hrec x)

theorem owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  show Pipeline.owesWithin c (dat.owed (Fin.last cfg.N)) (dat.bound () (Fin.last cfg.N)) ⊢ _
  rw [hN]
  iintro ⟨%W, -, H⟩
  iexists W
  iexact H

variable (m : (ℓ : Loc nD τ sig) → Buf (Elt F) ℓ) (ρ : Dev nD → PrngReg)

set_option backward.isDefEq.respectTransparency.types false in
def regionAt (p : Fin 13) (lf : Pipeline.LaunchFacts (nD := nD) (τ := τ) cfgs p)
    (Wi Wo : Dev nD → Valuation τ sig (Elt F))
    (hbody : ∀ c, BodyObligation (pdats m ρ p c) (defs₀ (F := F)) 𝒱₀ () Set.univ)
    (hWo : ∀ c, Wo c = Pipeline.withArrays (Pipeline.pin (pcfgs (F := F)) adm p).spec c (Wi c)
      fun w => (pdats m ρ p c).arrAt w (Pipeline.pin (pcfgs (F := F)) adm p).N := by exact fun _ => rfl)
    (hq : ∀ c w, (pdats m ρ p c).q w = fullShare := by exact fun _ _ => rfl)
    (howed : ∀ c t, (pdats m ρ p c).owed t = 0 := by exact fun _ _ => rfl)
    (hrec : ∀ c x, x ∈ (pdats m ρ p c).recorded 0 := by exact fun _ _ => trivial)
    (hΦ : ∀ c t, (pdats m ρ p c).Φ t = Pipeline.ΦA (Pipeline.pin (pcfgs (F := F)) adm p).spec c := by exact fun _ _ => rfl)
    (hA : ∀ c w, (pdats m ρ p c).A w = atTc Wi c (Pipeline.arrRef (Pipeline.pin (pcfgs (F := F)) adm p).spec w) := by
      exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := St Wi
  post := St Wo
  X c := iprop(∃ r, prngReg c r)
  Y c := iprop(∃ r, prngReg c r)
  Z c := Pipeline.unscopedRest (Ix := Unit) (Name := ℕ) (U := UR sig nD τ) (Lvl := ℕ)
    (Pipeline.pin (pcfgs (F := F)) adm p).spec c (atTc Wi c)
  hentry c := by
    have hsplit := Pipeline.arrays_of_unscopedBufs (p := p) (pcfgs (F := F)) adm (pdats m ρ) lf.win lf.arr_whole c
      ((pdats m ρ p c).share_full (hq c)) (atTc Wi c) (hA c)
    rw [Pipeline.unscopedBufs_held] at hsplit
    have htab : (BI.emp : sProp 𝕄) ⊢ Pipeline.prefHeld Pipeline.Prefetch.none c (fun _ => fullShare) (adm (F := F) p).1 := by
      unfold Pipeline.prefHeld
      rw [show (Finset.univ : Finset (Fin (Pipeline.Prefetch.none (sig := sig)).K)) = ∅ from rfl, BI.bigSep_empty]
    iintro ⟨⟨Hbufs, Hgen, Hdue⟩, -, -⟩
    imodintro
    icases hsplit $$ Hbufs with ⟨Harr, Hrest⟩
    iframe Harr Hgen Hrest
    isplitr
    · iapply htab; iempintro
    iapply owesAt_first (pdats m ρ p c) (howed c 0) (hrec c); iexact Hdue
  hin c := by
    rw [hΦ c 0]
    unfold Pipeline.ΦA
    iintro ⟨Hg, -, Hs⟩
    iframe
  hout c := by
    rw [hΦ c _, Pipeline.ownSems0_none]
    unfold Pipeline.ΦA
    iintro ⟨Hs, Hg⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Wi c) (atTc Wo c) ((pdats m ρ p c).arrAt · (Pipeline.pin (pcfgs (F := F)) adm p).N)
      (fun w => ((congrFun (hWo c) _).trans (Pipeline.withArrays_arr _ lf.win.arr_inj c _ _ w)).symm)
      (fun b hb => (congrFun (hWo c) _).trans <| Pipeline.withArrays_of_ne _ c _ _ b fun w e =>
        hb (Finset.mem_image.mpr ⟨w, Finset.mem_univ _, e⟩))
    rw [Pipeline.unscopedBufs_held] at hjoin
    iintro ⟨Harr, Hdue, Hgen, Hrest⟩
    imodintro
    isplitl [Harr Hrest]
    · iapply hjoin; iframe
    isplitl [Hgen]
    · iexact Hgen
    iapply owesAt_last (pdats m ρ p c) (howed c _); iexact Hdue

def reg0 : Pipeline.RegionSeg (pcfgs (F := F)) adm (pdats m ρ) () defs₀ 𝒱₀ L lv 0 :=
  regionAt m ρ 0 launch0 (W1 m ρ) (W2 m ρ) (body_obligation0 (X1 m ρ))
def reg1 : Pipeline.RegionSeg (pcfgs (F := F)) adm (pdats m ρ) () defs₀ 𝒱₀ L lv 1 :=
  regionAt m ρ 1 launch1 (W3 m ρ) (W4 m ρ) (body_obligation1 (X3 m ρ))
def reg2 : Pipeline.RegionSeg (pcfgs (F := F)) adm (pdats m ρ) () defs₀ 𝒱₀ L lv 2 :=
  regionAt m ρ 2 launch2 (W7 m ρ) (W8 m ρ) (body_obligation2 (X7 m ρ))
def reg3 : Pipeline.RegionSeg (pcfgs (F := F)) adm (pdats m ρ) () defs₀ 𝒱₀ L lv 3 :=
  regionAt m ρ 3 launch3 (W9 m ρ) (W10 m ρ) (body_obligation3 (X9 m ρ))
def reg4 : Pipeline.RegionSeg (pcfgs (F := F)) adm (pdats m ρ) () defs₀ 𝒱₀ L lv 4 :=
  regionAt m ρ 4 launch4 (W13 m ρ) (W14 m ρ) (body_obligation4 (X13 m ρ))
def reg5 : Pipeline.RegionSeg (pcfgs (F := F)) adm (pdats m ρ) () defs₀ 𝒱₀ L lv 5 :=
  regionAt m ρ 5 launch5 (W15 m ρ) (W16 m ρ) (body_obligation5 (X15 m ρ))
def reg6 : Pipeline.RegionSeg (pcfgs (F := F)) adm (pdats m ρ) () defs₀ 𝒱₀ L lv 6 :=
  regionAt m ρ 6 launch6 (W19 m ρ) (W20 m ρ) (body_obligation6 (X19 m ρ))
def reg7 : Pipeline.RegionSeg (pcfgs (F := F)) adm (pdats m ρ) () defs₀ 𝒱₀ L lv 7 :=
  regionAt m ρ 7 launch7 (W21 m ρ) (W22 m ρ) (body_obligation7 (X21 m ρ))
def reg8 : Pipeline.RegionSeg (pcfgs (F := F)) adm (pdats m ρ) () defs₀ 𝒱₀ L lv 8 :=
  regionAt m ρ 8 launch8 (W25 m ρ) (W26 m ρ) (body_obligation8 (X25 m ρ))
def reg9 : Pipeline.RegionSeg (pcfgs (F := F)) adm (pdats m ρ) () defs₀ 𝒱₀ L lv 9 :=
  regionAt m ρ 9 launch9 (W27 m ρ) (W28 m ρ) (body_obligation9 (X27 m ρ))
def reg10 : Pipeline.RegionSeg (pcfgs (F := F)) adm (pdats m ρ) () defs₀ 𝒱₀ L lv 10 :=
  regionAt m ρ 10 launch10 (W31 m ρ) (W32 m ρ) (body_obligation10 (X31 m ρ))
def reg11 : Pipeline.RegionSeg (pcfgs (F := F)) adm (pdats m ρ) () defs₀ 𝒱₀ L lv 11 :=
  regionAt m ρ 11 launch11 (W33 m ρ) (W34 m ρ) (body_obligation11 (X33 m ρ))
def reg12 : Pipeline.RegionSeg (pcfgs (F := F)) adm (pdats m ρ) () defs₀ 𝒱₀ L lv 12 :=
  regionAt m ρ 12 launch12 (W35 m ρ) (W36 m ρ) (body_obligation12 (X35 m ρ))

end Cert.Kernel.Hand

end
-- ==== Proof.K.Run.lean ====
import proofs.«406479_j78563541778981_1_alg».proof.Proof.K.Regs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .host (hseg hostOps6_1 hostOps6_1_sub hostOps6_1_fresh (W17 m ρ)),
    .host (hseg hostOps6_2 hostOps6_2_sub hostOps6_2_fresh (W18 m ρ)),
    .region (reg6 m ρ),
    .host (hseg hostOps7 hostOps7_sub hostOps7_fresh (W20 m ρ)),
    .region (reg7 m ρ),
    .host (hseg hostOps8 hostOps8_sub hostOps8_fresh (W22 m ρ)),
    .host (hseg hostOps8_1 hostOps8_1_sub hostOps8_1_fresh (W23 m ρ)),
    .host (hseg hostOps8_2 hostOps8_2_sub hostOps8_2_fresh (W24 m ρ)),
    .region (reg8 m ρ),
    .host (hseg hostOps9 hostOps9_sub hostOps9_fresh (W26 m ρ)),
    .region (reg9 m ρ),
    .host (hseg hostOps10 hostOps10_sub hostOps10_fresh (W28 m ρ)),
    .host (hseg hostOps10_1 hostOps10_1_sub hostOps10_1_fresh (W29 m ρ)),
    .host (hseg hostOps10_2 hostOps10_2_sub hostOps10_2_fresh (W30 m ρ)),
    .region (reg10 m ρ),
    .host (hseg hostOps11 hostOps11_sub hostOps11_fresh (W32 m ρ)),
    .region (reg11 m ρ),
    .host (hseg hostOps12 hostOps12_sub hostOps12_fresh (W34 m ρ)),
    .region (reg12 m ρ),
    .host (hseg hostOps13 hostOps13_sub hostOps13_fresh (W36 m ρ)) ]

theorem main_run (c : Dev nD) : main (F := F) c = Pipeline.Seg.run (segs m ρ) :=
  (main_chain c).trans (by chain_rfl)

abbrev Tₙ (c : Dev nD) : sProp 𝕄 :=
  iprop(StableHlo.held (c : Thread nD τ) (Pipeline.ucRefs τ sig) (W37 m ρ c) ∗ ∃ r, prngReg c r)

-- Each segment is entered from the state the one before it leaves, by definition of the valuations.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W37 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone; iempintro)
    (T₀ := St (W0 m ρ)) (Tₙ := Tₙ m ρ)
    (hch := by
      repeat refine ⟨fun _ => .rfl, ?_⟩
      exact fun _ => sep_assoc.2)
    (hinit := by
      refine Pipeline.initEach L lv fun c => ?_
      have hbufs : (unscopedBufs c (fun b => m ((c : Thread nD τ).loc b)) : sProp 𝕄)
          = StableHlo.held (c : Thread nD τ) (Pipeline.ucRefs τ sig) (W0 m ρ c) := Pipeline.unscopedBufs_held c (W0 m ρ c)
      rw [hbufs]
      iintro ⟨⟨Hbufs, -, Hdue, -, Hgen, -⟩, -⟩
      imodintro
      isplitl [Hbufs]
      · iexact Hbufs
      isplitl [Hgen]
      · iexists _; iexact Hgen
      iexists ∅; iexact Hdue)
    (QY := fun c s => ∀ b ∈ Pipeline.ucRefs τ sig, s.mem (((c : Thread nD τ)).1, b) = W37 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W37 m ρ c) s')
      isplitl [Hbufs] <;> iassumption)
    (hQ := fun _ h => h)

end Cert.Kernel.Hand

end
-- ==== Proof.K.Keep.lean ====
import proofs.«406479_j78563541778981_1_alg».proof.Proof.K.Fold

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]

-- An input window's array keeps its entry contents, and the one reference an output window may change is excluded.
theorem keep_of_dat {cfg : Pipeline.Cfg sig Λ₀} {c : Dev nD} (dat : Dat τ (Elt F) Unit ℕ (UR sig nD τ) ℕ cfg c)
    (hinj : Function.Injective (Pipeline.arrRef cfg.spec)) {V : Valuation τ sig (Elt F)}
    (hA : ∀ w, dat.A w = V (Proc.devRef .tc (Pipeline.arrRef cfg.spec w))) {r out : Ref sig .tc} (h : r ≠ out)
    (hio : ∀ w, (cfg.win w).isOut = false ∨ Pipeline.arrRef cfg.spec w = out) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj]
    exact (dat.arrAt_in w ((hio w).resolve_right h) _).trans (hA w)
  · exact Pipeline.withArrays_of_ne _ c V _ r fun w e => hr ⟨w, e⟩

variable (m : (ℓ : Loc nD τ sig) → Buf (Elt F) ℓ) (ρ : Dev nD → PrngReg)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_keep (c : Dev nD) (r : Ref sig .tc) (h : r ≠ main_v5) :
    W2 m ρ c (Proc.devRef .tc r) = W1 m ρ c (Proc.devRef .tc r) :=
  keep_of_dat (dat0 (X1 m ρ) c) launch0.win.arr_inj (A_eq0 (X1 m ρ) c) h (by decide)
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_keep (c : Dev nD) (r : Ref sig .tc) (h : r ≠ main_v26) :
    W4 m ρ c (Proc.devRef .tc r) = W3 m ρ c (Proc.devRef .tc r) :=
  keep_of_dat (dat1 (X3 m ρ) c) launch1.win.arr_inj (A_eq1 (X3 m ρ) c) h (by decide)
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_keep (c : Dev nD) (r : Ref sig .tc) (h : r ≠ main_v39) :
    W8 m ρ c (Proc.devRef .tc r) = W7 m ρ c (Proc.devRef .tc r) :=
  keep_of_dat (dat2 (X7 m ρ) c) launch2.win.arr_inj (A_eq2 (X7 m ρ) c) h (by decide)
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
theorem W10_keep (c : Dev nD) (r : Ref sig .tc) (h : r ≠ main_v60) :
    W10 m ρ c (Proc.devRef .tc r) = W9 m ρ c (Proc.devRef .tc r) :=
  keep_of_dat (dat3 (X9 m ρ) c) launch3.win.arr_inj (A_eq3 (X9 m ρ) c) h (by decide)
theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h
theorem W12_of (c : Dev nD) (r : Ref sig .tc) (h : r ∉ hostOps4_1_W) :
    W12 m ρ c (Proc.devRef .tc r) = W11 m ρ c (Proc.devRef .tc r) :=
  StableHlo.after_of_writes_sub hostOps4_1 _ hostOps4_1_writes h
theorem W13_of (c : Dev nD) (r : Ref sig .tc) (h : r ∉ hostOps4_2_W) :
    W13 m ρ c (Proc.devRef .tc r) = W12 m ρ c (Proc.devRef .tc r) :=
  StableHlo.after_of_writes_sub hostOps4_2 _ hostOps4_2_writes h
theorem W14_keep (c : Dev nD) (r : Ref sig .tc) (h : r ≠ main_v73) :
    W14 m ρ c (Proc.devRef .tc r) = W13 m ρ c (Proc.devRef .tc r) :=
  keep_of_dat (dat4 (X13 m ρ) c) launch4.win.arr_inj (A_eq4 (X13 m ρ) c) h (by decide)
theorem W15_of (c : Dev nD) (r : Ref sig .tc) (h : r ∉ hostOps5_W) :
    W15 m ρ c (Proc.devRef .tc r) = W14 m ρ c (Proc.devRef .tc r) :=
  StableHlo.after_of_writes_sub hostOps5 _ hostOps5_writes h
theorem W16_keep (c : Dev nD) (r : Ref sig .tc) (h : r ≠ main_v94) :
    W16 m ρ c (Proc.devRef .tc r) = W15 m ρ c (Proc.devRef .tc r) :=
  keep_of_dat (dat5 (X15 m ρ) c) launch5.win.arr_inj (A_eq5 (X15 m ρ) c) h (by decide)
theorem W17_of (c : Dev nD) (r : Ref sig .tc) (h : r ∉ hostOps6_W) :
    W17 m ρ c (Proc.devRef .tc r) = W16 m ρ c (Proc.devRef .tc r) :=
  StableHlo.after_of_writes_sub hostOps6 _ hostOps6_writes h
theorem W18_of (c : Dev nD) (r : Ref sig .tc) (h : r ∉ hostOps6_1_W) :
    W18 m ρ c (Proc.devRef .tc r) = W17 m ρ c (Proc.devRef .tc r) :=
  StableHlo.after_of_writes_sub hostOps6_1 _ hostOps6_1_writes h
theorem W19_of (c : Dev nD) (r : Ref sig .tc) (h : r ∉ hostOps6_2_W) :
    W19 m ρ c (Proc.devRef .tc r) = W18 m ρ c (Proc.devRef .tc r) :=
  StableHlo.after_of_writes_sub hostOps6_2 _ hostOps6_2_writes h
theorem W20_keep (c : Dev nD) (r : Ref sig .tc) (h : r ≠ main_v107) :
    W20 m ρ c (Proc.devRef .tc r) = W19 m ρ c (Proc.devRef .tc r) :=
  keep_of_dat (dat6 (X19 m ρ) c) launch6.win.arr_inj (A_eq6 (X19 m ρ) c) h (by decide)
theorem W21_of (c : Dev nD) (r : Ref sig .tc) (h : r ∉ hostOps7_W) :
    W21 m ρ c (Proc.devRef .tc r) = W20 m ρ c (Proc.devRef .tc r) :=
  StableHlo.after_of_writes_sub hostOps7 _ hostOps7_writes h
theorem W22_keep (c : Dev nD) (r : Ref sig .tc) (h : r ≠ main_v128) :
    W22 m ρ c (Proc.devRef .tc r) = W21 m ρ c (Proc.devRef .tc r) :=
  keep_of_dat (dat7 (X21 m ρ) c) launch7.win.arr_inj (A_eq7 (X21 m ρ) c) h (by decide)
theorem W23_of (c : Dev nD) (r : Ref sig .tc) (h : r ∉ hostOps8_W) :
    W23 m ρ c (Proc.devRef .tc r) = W22 m ρ c (Proc.devRef .tc r) :=
  StableHlo.after_of_writes_sub hostOps8 _ hostOps8_writes h
theorem W24_of (c : Dev nD) (r : Ref sig .tc) (h : r ∉ hostOps8_1_W) :
    W24 m ρ c (Proc.devRef .tc r) = W23 m ρ c (Proc.devRef .tc r) :=
  StableHlo.after_of_writes_sub hostOps8_1 _ hostOps8_1_writes h
theorem W25_of (c : Dev nD) (r : Ref sig .tc) (h : r ∉ hostOps8_2_W) :
    W25 m ρ c (Proc.devRef .tc r) = W24 m ρ c (Proc.devRef .tc r) :=
  StableHlo.after_of_writes_sub hostOps8_2 _ hostOps8_2_writes h
theorem W26_keep (c : Dev nD) (r : Ref sig .tc) (h : r ≠ main_v141) :
    W26 m ρ c (Proc.devRef .tc r) = W25 m ρ c (Proc.devRef .tc r) :=
  keep_of_dat (dat8 (X25 m ρ) c) launch8.win.arr_inj (A_eq8 (X25 m ρ) c) h (by decide)
theorem W27_of (c : Dev nD) (r : Ref sig .tc) (h : r ∉ hostOps9_W) :
    W27 m ρ c (Proc.devRef .tc r) = W26 m ρ c (Proc.devRef .tc r) :=
  StableHlo.after_of_writes_sub hostOps9 _ hostOps9_writes h
theorem W28_keep (c : Dev nD) (r : Ref sig .tc) (h : r ≠ main_v162) :
    W28 m ρ c (Proc.devRef .tc r) = W27 m ρ c (Proc.devRef .tc r) :=
  keep_of_dat (dat9 (X27 m ρ) c) launch9.win.arr_inj (A_eq9 (X27 m ρ) c) h (by decide)
theorem W29_of (c : Dev nD) (r : Ref sig .tc) (h : r ∉ hostOps10_W) :
    W29 m ρ c (Proc.devRef .tc r) = W28 m ρ c (Proc.devRef .tc r) :=
  StableHlo.after_of_writes_sub hostOps10 _ hostOps10_writes h
theorem W30_of (c : Dev nD) (r : Ref sig .tc) (h : r ∉ hostOps10_1_W) :
    W30 m ρ c (Proc.devRef .tc r) = W29 m ρ c (Proc.devRef .tc r) :=
  StableHlo.after_of_writes_sub hostOps10_1 _ hostOps10_1_writes h
theorem W31_of (c : Dev nD) (r : Ref sig .tc) (h : r ∉ hostOps10_2_W) :
    W31 m ρ c (Proc.devRef .tc r) = W30 m ρ c (Proc.devRef .tc r) :=
  StableHlo.after_of_writes_sub hostOps10_2 _ hostOps10_2_writes h
theorem W32_keep (c : Dev nD) (r : Ref sig .tc) (h : r ≠ main_v175) :
    W32 m ρ c (Proc.devRef .tc r) = W31 m ρ c (Proc.devRef .tc r) :=
  keep_of_dat (dat10 (X31 m ρ) c) launch10.win.arr_inj (A_eq10 (X31 m ρ) c) h (by decide)
theorem W33_of (c : Dev nD) (r : Ref sig .tc) (h : r ∉ hostOps11_W) :
    W33 m ρ c (Proc.devRef .tc r) = W32 m ρ c (Proc.devRef .tc r) :=
  StableHlo.after_of_writes_sub hostOps11 _ hostOps11_writes h
theorem W34_keep (c : Dev nD) (r : Ref sig .tc) (h : r ≠ main_v185) :
    W34 m ρ c (Proc.devRef .tc r) = W33 m ρ c (Proc.devRef .tc r) :=
  keep_of_dat (dat11 (X33 m ρ) c) launch11.win.arr_inj (A_eq11 (X33 m ρ) c) h (by decide)
theorem W35_of (c : Dev nD) (r : Ref sig .tc) (h : r ∉ hostOps12_W) :
    W35 m ρ c (Proc.devRef .tc r) = W34 m ρ c (Proc.devRef .tc r) :=
  StableHlo.after_of_writes_sub hostOps12 _ hostOps12_writes h
theorem W36_keep (c : Dev nD) (r : Ref sig .tc) (h : r ≠ main_v188) :
    W36 m ρ c (Proc.devRef .tc r) = W35 m ρ c (Proc.devRef .tc r) :=
  keep_of_dat (dat12 (X35 m ρ) c) launch12.win.arr_inj (A_eq12 (X35 m ρ) c) h (by decide)
theorem W37_of (c : Dev nD) (r : Ref sig .tc) (h : r ∉ hostOps13_W) :
    W37 m ρ c (Proc.devRef .tc r) = W36 m ρ c (Proc.devRef .tc r) :=
  StableHlo.after_of_writes_sub hostOps13 _ hostOps13_writes h

end Cert.Kernel.Hand

end
-- ==== Proof.K.KeepArgs.lean ====
import proofs.«406479_j78563541778981_1_alg».proof.Proof.K.Keep

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

-- Each item changes only what it writes, so the 37 one-item facts chain.
theorem W37_untouched (c : Dev nD) (r : Ref sig .tc)
    (h : r ∉ hostOps0_W ∧ r ≠ main_v5 ∧ r ∉ hostOps1_W ∧ r ≠ main_v26 ∧ r ∉ hostOps2_W ∧ r ∉ hostOps2_1_W ∧
      r ∉ hostOps2_2_W ∧ r ≠ main_v39 ∧ r ∉ hostOps3_W ∧ r ≠ main_v60 ∧ r ∉ hostOps4_W ∧ r ∉ hostOps4_1_W ∧
      r ∉ hostOps4_2_W ∧ r ≠ main_v73 ∧ r ∉ hostOps5_W ∧ r ≠ main_v94 ∧ r ∉ hostOps6_W ∧ r ∉ hostOps6_1_W ∧
      r ∉ hostOps6_2_W ∧ r ≠ main_v107 ∧ r ∉ hostOps7_W ∧ r ≠ main_v128 ∧ r ∉ hostOps8_W ∧ r ∉ hostOps8_1_W ∧
      r ∉ hostOps8_2_W ∧ r ≠ main_v141 ∧ r ∉ hostOps9_W ∧ r ≠ main_v162 ∧ r ∉ hostOps10_W ∧ r ∉ hostOps10_1_W ∧
      r ∉ hostOps10_2_W ∧ r ≠ main_v175 ∧ r ∉ hostOps11_W ∧ r ≠ main_v185 ∧ r ∉ hostOps12_W ∧ r ≠ main_v188 ∧
      r ∉ hostOps13_W := by and_intros <;> decide) :
    W37 m ρ c (Proc.devRef .tc r) = W0 m ρ c (Proc.devRef .tc r) :=
  let ⟨h0, h1, h2, h3, h4, h5, h6, h7, h8, h9, h10, h11, h12, h13, h14, h15, h16, h17, h18, h19, h20, h21, h22, h23, h24,
    h25, h26, h27, h28, h29, h30, h31, h32, h33, h34, h35, h36⟩ := h
  (W37_of m ρ c r h36).trans <| (W36_keep m ρ c r h35).trans <| (W35_of m ρ c r h34).trans <|
  (W34_keep m ρ c r h33).trans <| (W33_of m ρ c r h32).trans <| (W32_keep m ρ c r h31).trans <|
  (W31_of m ρ c r h30).trans <| (W30_of m ρ c r h29).trans <| (W29_of m ρ c r h28).trans <|
  (W28_keep m ρ c r h27).trans <| (W27_of m ρ c r h26).trans <| (W26_keep m ρ c r h25).trans <|
  (W25_of m ρ c r h24).trans <| (W24_of m ρ c r h23).trans <| (W23_of m ρ c r h22).trans <|
  (W22_keep m ρ c r h21).trans <| (W21_of m ρ c r h20).trans <| (W20_keep m ρ c r h19).trans <|
  (W19_of m ρ c r h18).trans <| (W18_of m ρ c r h17).trans <| (W17_of m ρ c r h16).trans <|
  (W16_keep m ρ c r h15).trans <| (W15_of m ρ c r h14).trans <| (W14_keep m ρ c r h13).trans <|
  (W13_of m ρ c r h12).trans <| (W12_of m ρ c r h11).trans <| (W11_of m ρ c r h10).trans <|
  (W10_keep m ρ c r h9).trans <| (W9_of m ρ c r h8).trans <| (W8_keep m ρ c r h7).trans <| (W7_of m ρ c r h6).trans <|
  (W6_of m ρ c r h5).trans <| (W5_of m ρ c r h4).trans <| (W4_keep m ρ c r h3).trans <| (W3_of m ρ c r h2).trans <|
  (W2_keep m ρ c r h1).trans <| (W1_of m ρ c r h0)

theorem W37_main_arg0 (c : Dev nD) : W37 m ρ c (Proc.devRef .tc main_arg0) = m ((c : Thread nD τ).loc main_arg0) :=
  W37_untouched m ρ c main_arg0
theorem W37_main_arg1 (c : Dev nD) : W37 m ρ c (Proc.devRef .tc main_arg1) = m ((c : Thread nD τ).loc main_arg1) :=
  W37_untouched m ρ c main_arg1
theorem W37_main_arg2 (c : Dev nD) : W37 m ρ c (Proc.devRef .tc main_arg2) = m ((c : Thread nD τ).loc main_arg2) :=
  W37_untouched m ρ c main_arg2
theorem W37_main_arg3 (c : Dev nD) : W37 m ρ c (Proc.devRef .tc main_arg3) = m ((c : Thread nD τ).loc main_arg3) :=
  W37_untouched m ρ c main_arg3
theorem W37_main_arg4 (c : Dev nD) : W37 m ρ c (Proc.devRef .tc main_arg4) = m ((c : Thread nD τ).loc main_arg4) :=
  W37_untouched m ρ c main_arg4
theorem W37_main_arg5 (c : Dev nD) : W37 m ρ c (Proc.devRef .tc main_arg5) = m ((c : Thread nD τ).loc main_arg5) :=
  W37_untouched m ρ c main_arg5
theorem W37_main_arg6 (c : Dev nD) : W37 m ρ c (Proc.devRef .tc main_arg6) = m ((c : Thread nD τ).loc main_arg6) :=
  W37_untouched m ρ c main_arg6
theorem W37_main_arg7 (c : Dev nD) : W37 m ρ c (Proc.devRef .tc main_arg7) = m ((c : Thread nD τ).loc main_arg7) :=
  W37_untouched m ρ c main_arg7
theorem W37_main_arg8 (c : Dev nD) : W37 m ρ c (Proc.devRef .tc main_arg8) = m ((c : Thread nD τ).loc main_arg8) :=
  W37_untouched m ρ c main_arg8
theorem W37_main_arg9 (c : Dev nD) : W37 m ρ c (Proc.devRef .tc main_arg9) = m ((c : Thread nD τ).loc main_arg9) :=
  W37_untouched m ρ c main_arg9
theorem W37_main_arg10 (c : Dev nD) : W37 m ρ c (Proc.devRef .tc main_arg10) = m ((c : Thread nD τ).loc main_arg10) :=
  W37_untouched m ρ c main_arg10
theorem W37_main_arg11 (c : Dev nD) : W37 m ρ c (Proc.devRef .tc main_arg11) = m ((c : Thread nD τ).loc main_arg11) :=
  W37_untouched m ρ c main_arg11
theorem W37_main_arg12 (c : Dev nD) : W37 m ρ c (Proc.devRef .tc main_arg12) = m ((c : Thread nD τ).loc main_arg12) :=
  W37_untouched m ρ c main_arg12
theorem W37_main_arg13 (c : Dev nD) : W37 m ρ c (Proc.devRef .tc main_arg13) = m ((c : Thread nD τ).loc main_arg13) :=
  W37_untouched m ρ c main_arg13
theorem W37_main_arg14 (c : Dev nD) : W37 m ρ c (Proc.devRef .tc main_arg14) = m ((c : Thread nD τ).loc main_arg14) :=
  W37_untouched m ρ c main_arg14

theorem arg_of_run {c : Dev nD} {m' : (ℓ : Loc nD τ sig) → Buf (Elt F) ℓ} {r : Ref sig .tc}
    (hr : ∀ b ∈ Pipeline.ucRefs τ sig, m' ((c : Thread nD τ).1, b) = W37 m ρ c b)
    (hW : W37 m ρ c (Proc.devRef .tc r) = m ((c : Thread nD τ).loc r))
    (hu : ¬ (Proc.devRef .tc r : DevRef τ sig).isScoped := by decide) :
    m' ((c.tc : Thread nD τ).loc r) = m ((c.tc : Thread nD τ).loc r) :=
  (hr _ (Finset.mem_filter.mpr ⟨StableHlo.devRef_mem_tcRefs r, hu⟩)).trans hW

theorem frame_of_run
    (h : θ_run defs (onTc (τ := τ) (main (F := F))) ⟨m, fun _ => 0, ρ⟩
      (fun r => ∀ c : Dev nD, ∀ b ∈ Pipeline.ucRefs τ sig, r.2.mem (((c : Thread nD τ)).1, b) = W37 m ρ c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hr c =>
    ⟨arg_of_run m ρ (hr c) (W37_main_arg0 m ρ c), arg_of_run m ρ (hr c) (W37_main_arg1 m ρ c),
     arg_of_run m ρ (hr c) (W37_main_arg2 m ρ c), arg_of_run m ρ (hr c) (W37_main_arg3 m ρ c),
     arg_of_run m ρ (hr c) (W37_main_arg4 m ρ c), arg_of_run m ρ (hr c) (W37_main_arg5 m ρ c),
     arg_of_run m ρ (hr c) (W37_main_arg6 m ρ c), arg_of_run m ρ (hr c) (W37_main_arg7 m ρ c),
     arg_of_run m ρ (hr c) (W37_main_arg8 m ρ c), arg_of_run m ρ (hr c) (W37_main_arg9 m ρ c),
     arg_of_run m ρ (hr c) (W37_main_arg10 m ρ c), arg_of_run m ρ (hr c) (W37_main_arg11 m ρ c),
     arg_of_run m ρ (hr c) (W37_main_arg12 m ρ c), arg_of_run m ρ (hr c) (W37_main_arg13 m ρ c),
     arg_of_run m ρ (hr c) (W37_main_arg14 m ρ c)⟩) h

end Cert.Kernel.Hand

end
-- ==== Proof.KI.R0.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x64 : Rect S5000x64 := Rect.unit (s := S5000x64) ![0, 0] S5000x64.size inb_S5000x64_S5000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

def out0_3 (x0 : Vec F S5000x64 .f32) (x1 : Vec F S64x64 .f32) (x2 : Vec F S1x64 .f32) : Vec F S5000x64 .f32 :=
  View.canon [⟨r0_S5000x64, k0_pay1 (View.ld x0 r0_S5000x64) (View.ld x1 r0_S64x64) (View.ld x2 r0_S1x64)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

-- The body only reads its input windows.
theorem before0 (c : Dev nD) (t : Fin cfg0.N) : (∀ d, (dat0 V c).before 0 t d = iblk0 V c 0 t) ∧
    (∀ d, (dat0 V c).before 1 t d = iblk0 V c 1 t) ∧ ∀ d, (dat0 V c).before 2 t d = iblk0 V c 2 t := by
  refine ⟨?_, ?_, ?_⟩ <;> intro d <;> refine (Dat.before_in_eq_fetched _ _ ?_ ?_ ?_ ?_ t d).trans ?_ <;> intros <;> rfl

-- The body reads its three inputs whole and overwrites the whole output with the payload.
theorem sound_kernel0 {c : Dev nD} {E : Set ℕ} {i a1 h1 a2 h2 a3 h3 a4 h4 x0 x1 x2 d} {K : PUnit → sProp (MT nD τ sig Unit (Elt F) ℕ (UR sig nD τ) ℕ)} :
    iprop(owns c a1 fullShare x0 ∗ owns c a2 fullShare x1 ∗ owns c a3 fullShare x2 ∗ owns c a4 fullShare d
        ∗ (iprop(owns c a1 fullShare x0 ∗ owns c a2 fullShare x1 ∗ owns c a3 fullShare x2
            ∗ owns c a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton, owns_eq_rep]; unfold cc0__linear_kernel_skel
  iintro ⟨H0, H1, H2, H3, Hk⟩
  sl_exec
  sl_step
  iapply Hk
  iframe H0 H1 H2
  iapply rep_of_owns
  unfold owns; iexists _; iframe; ipureintro
  simp only [View.readAt_rep]
  exact View.read_writes_eq_canon _ _ _ (View.cover_of_tiled _ S5000x64.size (by rfl))

theorem body_obligation0 (c : Dev nD) : BodyObligation (dat0 (F := F) V c) (defs₀ (F := F)) Variants.none () Set.univ := fun t => by
  rw [bigSep_W0, bigSep_W0]
  simp only [before0 V c t]
  dsimp only [dat0]
  show _ ⊢ wp _ _ _ (bodyAt0 t) _
  iintro ⟨HΦ, Ho, ⟨%d0, H0⟩, ⟨%d1, H1⟩, ⟨%d2, H2⟩, ⟨%d3, H3⟩⟩
  iapply sound_kernel0
  iframe H0 H1 H2 H3
  iintro ⟨H0, H1, H2, H3⟩
  iframe HΦ H0 H1 H2 H3
  iexact Ho

end Cert.KernelIdeal.Hand

end
-- ==== Proof.KI.R1.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S5000x64 : Rect S5000x64 := Rect.unit ![0, 0] S5000x64.size inb_S5000x64_S5000x64_0_0
abbrev r1_S64x64 : Rect S64x64 := Rect.unit ![0, 0] S64x64.size inb_S64x64_S64x64_0_0
abbrev r1_S1x64 : Rect S1x64 := Rect.unit ![0, 0] S1x64.size inb_S1x64_S1x64_0_0

def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r1_S5000x64, k1_pay1 (View.ld x0 r1_S5000x64) (View.ld x1 r1_S5000x64) (View.ld x2 r1_S64x64) (View.ld x3 r1_S1x64) (View.ld x4 r1_S64x64) (View.ld x5 r1_S1x64)⟩]

-- The body reads its six inputs whole and stores one payload over the whole output buffer.
theorem sound_kernel1 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out1_6 x0 x1 x2 x3 x4 x5)) -∗ K ⟨⟩))
      ⊢ wp frame (wpE defs₀ Variants.none c none) E (cc1__gin_mlp_kernel i a1 h1 a2 h2 a3 h3 a4 h4 a5 h5 a6 h6 a7 h7) K := by
  simp only [cc1__gin_mlp_kernel_eq_skeleton, owns_eq_rep]; unfold cc1__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

-- At every grid point an input window holds its block of the array, before the body as after it.
theorem before1 (c : Dev nD) (w : Fin 7) : w ≠ 6 → ∀ (t : Fin cfg1.N) (d), (dat1 V c).before w t d = (dat1 V c).after w t := by
  fin_cases w <;> first
    | exact fun h => absurd rfl h
    | exact fun _ t d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp (disch := decide) only [before1 V c]
  dsimp only [dat1]
  show _ ⊢ wp _ _ _ (bodyAt1 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel1
  iframe H0 H1 H2 H3 H4 H5
  isplitl [H6]; · iexact H6
  iintro ⟨H0, H1, H2, H3, H4, H5, H6⟩
  iframe HΦ H0 H1 H2 H3 H4 H5 H6
  iexact Ho

end Cert.KernelIdeal.Hand

end
-- ==== Proof.KI.R2.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S1x64 : Rect S1x64 := Rect.unit (s := S1x64) ![0, 0] S1x64.size inb_S1x64_S1x64_0_0

def out2_5 (x0 : Vec F S5000x64 .f32) (x1 x2 x3 x4 : Vec F S1x64 .f32) : Vec F S5000x64 .f32 :=
  View.canon [⟨r2_S5000x64, k2_pay1 (View.ld x0 r2_S5000x64) (View.ld x2 r2_S1x64) (View.ld x3 r2_S1x64) (View.ld x1 r2_S1x64) (View.ld x4 r2_S1x64)⟩]

/-- The one store goes through the rectangle of the whole output buffer, so what is read back is its payload. -/
theorem sound_kernel2 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out2_5 x0 x1 x2 x3 x4) -∗ K ⟨⟩))
      ⊢ wp frame (wpE (defs₀ (F := F)) Variants.none c none) Set.univ (cc2__bn_affine_kernel i arg1 harg1 arg2 harg2 arg3 harg3 arg4 harg4 arg5 harg5 arg6 harg6) K := by
  simp only [cc2__bn_affine_kernel_eq_skeleton, owns_eq_rep]; unfold cc2__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) (w : Fin cfg2.W) (hw : (cfg2.win w).isOut = false) (t : Fin cfg2.N) (d) :
    (dat2 V c).before w t d = (dat2 V c).after w t := by
  refine (Dat.before_in_eq_fetched _ w hw ?_ ?_ ?_ t d).trans ?_ <;> fin_cases w <;>
    first | exact absurd hw (by decide) | rfl | exact fun _ => rfl | exact fun _ _ _ => rfl

theorem body_obligation2 (c : Dev nD) : BodyObligation (dat2 (F := F) V c) (defs₀ (F := F)) Variants.none () Set.univ := fun t => by
  rw [bigSep_W2, bigSep_W2]
  simp (disch := exact rfl) only [before2 V c]
  dsimp only [dat2]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  iapply sound_kernel2
  iframe H0 H1 H2 H3 H4 H5
  iintro ⟨H0, H1, H2, H3, H4, H5⟩
  iframe HΦ H0 H1 H2 H3 H4 H5
  iexact Ho

end Cert.KernelIdeal.Hand

end
-- ==== Proof.KI.R3.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit ![0, 0] S5000x64.size inb_S5000x64_S5000x64_0_0
abbrev r3_S64x64 : Rect S64x64 := Rect.unit ![0, 0] S64x64.size inb_S64x64_S64x64_0_0
abbrev r3_S1x64 : Rect S1x64 := Rect.unit ![0, 0] S1x64.size inb_S1x64_S1x64_0_0

def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r3_S5000x64, k3_pay1 (View.ld x0 r3_S5000x64) (View.ld x1 r3_S5000x64) (View.ld x2 r3_S64x64) (View.ld x3 r3_S1x64) (View.ld x4 r3_S64x64) (View.ld x5 r3_S1x64)⟩]

-- The body reads its six inputs whole and stores one payload over the whole output buffer.
theorem sound_kernel3 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out3_6 x0 x1 x2 x3 x4 x5)) -∗ K ⟨⟩))
      ⊢ wp frame (wpE defs₀ Variants.none c none) E (cc3__gin_mlp_kernel i a1 h1 a2 h2 a3 h3 a4 h4 a5 h5 a6 h6 a7 h7) K := by
  simp only [cc3__gin_mlp_kernel_eq_skeleton, owns_eq_rep]; unfold cc3__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

-- At every grid point an input window holds its block of the array, before the body as after it.
theorem before3 (c : Dev nD) (w : Fin 7) : w ≠ 6 → ∀ (t : Fin cfg3.N) (d), (dat3 V c).before w t d = (dat3 V c).after w t := by
  fin_cases w <;> first
    | exact fun h => absurd rfl h
    | exact fun _ t d => ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp (disch := decide) only [before3 V c]
  dsimp only [dat3]
  show _ ⊢ wp _ _ _ (bodyAt3 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel3
  iframe H0 H1 H2 H3 H4 H5
  isplitl [H6]; · iexact H6
  iintro ⟨H0, H1, H2, H3, H4, H5, H6⟩
  iframe HΦ H0 H1 H2 H3 H4 H5 H6
  iexact Ho

end Cert.KernelIdeal.Hand

end
-- ==== Proof.KI.R4.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0
abbrev r4_S1x64 : Rect S1x64 := Rect.unit (s := S1x64) ![0, 0] S1x64.size inb_S1x64_S1x64_0_0

def out4_5 (x0 : Vec F S5000x64 .f32) (x1 x2 x3 x4 : Vec F S1x64 .f32) : Vec F S5000x64 .f32 :=
  View.canon [⟨r4_S5000x64, k4_pay1 (View.ld x0 r4_S5000x64) (View.ld x2 r4_S1x64) (View.ld x3 r4_S1x64) (View.ld x1 r4_S1x64) (View.ld x4 r4_S1x64)⟩]

/-- The one store goes through the rectangle of the whole output buffer, so what is read back is its payload. -/
theorem sound_kernel4 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out4_5 x0 x1 x2 x3 x4) -∗ K ⟨⟩))
      ⊢ wp frame (wpE (defs₀ (F := F)) Variants.none c none) Set.univ (cc4__bn_affine_kernel i arg1 harg1 arg2 harg2 arg3 harg3 arg4 harg4 arg5 harg5 arg6 harg6) K := by
  simp only [cc4__bn_affine_kernel_eq_skeleton, owns_eq_rep]; unfold cc4__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4 (c : Dev nD) (w : Fin cfg4.W) (hw : (cfg4.win w).isOut = false) (t : Fin cfg4.N) (d) :
    (dat4 V c).before w t d = (dat4 V c).after w t := by
  refine (Dat.before_in_eq_fetched _ w hw ?_ ?_ ?_ t d).trans ?_ <;> fin_cases w <;>
    first | exact absurd hw (by decide) | rfl | exact fun _ => rfl | exact fun _ _ _ => rfl

theorem body_obligation4 (c : Dev nD) : BodyObligation (dat4 (F := F) V c) (defs₀ (F := F)) Variants.none () Set.univ := fun t => by
  rw [bigSep_W4, bigSep_W4]
  simp (disch := exact rfl) only [before4 V c]
  dsimp only [dat4]
  show _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4
  iframe H0 H1 H2 H3 H4 H5
  iintro ⟨H0, H1, H2, H3, H4, H5⟩
  iframe HΦ H0 H1 H2 H3 H4 H5
  iexact Ho

end Cert.KernelIdeal.Hand

end
-- ==== Proof.KI.R5.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S5000x64 : Rect S5000x64 := Rect.unit ![0, 0] S5000x64.size inb_S5000x64_S5000x64_0_0
abbrev r5_S64x64 : Rect S64x64 := Rect.unit ![0, 0] S64x64.size inb_S64x64_S64x64_0_0
abbrev r5_S1x64 : Rect S1x64 := Rect.unit ![0, 0] S1x64.size inb_S1x64_S1x64_0_0

def out5_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r5_S5000x64, k5_pay1 (View.ld x0 r5_S5000x64) (View.ld x1 r5_S5000x64) (View.ld x2 r5_S64x64) (View.ld x3 r5_S1x64) (View.ld x4 r5_S64x64) (View.ld x5 r5_S1x64)⟩]

-- The body reads its six inputs whole and stores one payload over the whole output buffer.
theorem sound_kernel5 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out5_6 x0 x1 x2 x3 x4 x5)) -∗ K ⟨⟩))
      ⊢ wp frame (wpE defs₀ Variants.none c none) E (cc5__gin_mlp_kernel i a1 h1 a2 h2 a3 h3 a4 h4 a5 h5 a6 h6 a7 h7) K := by
  simp only [cc5__gin_mlp_kernel_eq_skeleton, owns_eq_rep]; unfold cc5__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

-- At every grid point an input window holds its block of the array, before the body as after it.
theorem before5 (c : Dev nD) (w : Fin 7) : w ≠ 6 → ∀ (t : Fin cfg5.N) (d), (dat5 V c).before w t d = (dat5 V c).after w t := by
  fin_cases w <;> first
    | exact fun h => absurd rfl h
    | exact fun _ t d => ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp (disch := decide) only [before5 V c]
  dsimp only [dat5]
  show _ ⊢ wp _ _ _ (bodyAt5 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel5
  iframe H0 H1 H2 H3 H4 H5
  isplitl [H6]; · iexact H6
  iintro ⟨H0, H1, H2, H3, H4, H5, H6⟩
  iframe HΦ H0 H1 H2 H3 H4 H5 H6
  iexact Ho

end Cert.KernelIdeal.Hand

end
-- ==== Proof.KI.R6.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_S5000x64 : Rect S5000x64 := Rect.unit (s := S5000x64) ![0, 0] S5000x64.size inb_S5000x64_S5000x64_0_0
abbrev r6_S1x64 : Rect S1x64 := Rect.unit (s := S1x64) ![0, 0] S1x64.size inb_S1x64_S1x64_0_0

def out6_5 (x0 : Vec F S5000x64 .f32) (x1 x2 x3 x4 : Vec F S1x64 .f32) : Vec F S5000x64 .f32 :=
  View.canon [⟨r6_S5000x64, k6_pay1 (View.ld x0 r6_S5000x64) (View.ld x2 r6_S1x64) (View.ld x3 r6_S1x64) (View.ld x1 r6_S1x64) (View.ld x4 r6_S1x64)⟩]

/-- The one store goes through the rectangle of the whole output buffer, so what is read back is its payload. -/
theorem sound_kernel6 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out6_5 x0 x1 x2 x3 x4) -∗ K ⟨⟩))
      ⊢ wp frame (wpE (defs₀ (F := F)) Variants.none c none) Set.univ (cc6__bn_affine_kernel i arg1 harg1 arg2 harg2 arg3 harg3 arg4 harg4 arg5 harg5 arg6 harg6) K := by
  simp only [cc6__bn_affine_kernel_eq_skeleton, owns_eq_rep]; unfold cc6__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6 (c : Dev nD) (w : Fin cfg6.W) (hw : (cfg6.win w).isOut = false) (t : Fin cfg6.N) (d) :
    (dat6 V c).before w t d = (dat6 V c).after w t := by
  refine (Dat.before_in_eq_fetched _ w hw ?_ ?_ ?_ t d).trans ?_ <;> fin_cases w <;>
    first | exact absurd hw (by decide) | rfl | exact fun _ => rfl | exact fun _ _ _ => rfl

theorem body_obligation6 (c : Dev nD) : BodyObligation (dat6 (F := F) V c) (defs₀ (F := F)) Variants.none () Set.univ := fun t => by
  rw [bigSep_W6, bigSep_W6]
  simp (disch := exact rfl) only [before6 V c]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩⟩
  iapply sound_kernel6
  iframe H0 H1 H2 H3 H4 H5
  iintro ⟨H0, H1, H2, H3, H4, H5⟩
  iframe HΦ H0 H1 H2 H3 H4 H5
  iexact Ho

end Cert.KernelIdeal.Hand

end
-- ==== Proof.KI.R7.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit ![0, 0] S5000x64.size inb_S5000x64_S5000x64_0_0
abbrev r7_S64x64 : Rect S64x64 := Rect.unit ![0, 0] S64x64.size inb_S64x64_S64x64_0_0
abbrev r7_S1x64 : Rect S1x64 := Rect.unit ![0, 0] S1x64.size inb_S1x64_S1x64_0_0

def out7_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r7_S5000x64, k7_pay1 (View.ld x0 r7_S5000x64) (View.ld x1 r7_S5000x64) (View.ld x2 r7_S64x64) (View.ld x3 r7_S1x64) (View.ld x4 r7_S64x64) (View.ld x5 r7_S1x64)⟩]

-- The body reads its six inputs whole and stores one payload over the whole output buffer.
theorem sound_kernel7 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out7_6 x0 x1 x2 x3 x4 x5)) -∗ K ⟨⟩))
      ⊢ wp frame (wpE defs₀ Variants.none c none) E (cc7__gin_mlp_kernel i a1 h1 a2 h2 a3 h3 a4 h4 a5 h5 a6 h6 a7 h7) K := by
  simp only [cc7__gin_mlp_kernel_eq_skeleton, owns_eq_rep]; unfold cc7__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

-- At every grid point an input window holds its block of the array, before the body as after it.
theorem before7 (c : Dev nD) (w : Fin 7) : w ≠ 6 → ∀ (t : Fin cfg7.N) (d), (dat7 V c).before w t d = (dat7 V c).after w t := by
  fin_cases w <;> first
    | exact fun h => absurd rfl h
    | exact fun _ t d => ((dat7 V c).before_in_eq_fetched _ rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp (disch := decide) only [before7 V c]
  dsimp only [dat7]
  show _ ⊢ wp _ _ _ (bodyAt7 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel7
  iframe H0 H1 H2 H3 H4 H5
  isplitl [H6]; · iexact H6
  iintro ⟨H0, H1, H2, H3, H4, H5, H6⟩
  iframe HΦ H0 H1 H2 H3 H4 H5 H6
  iexact Ho

end Cert.KernelIdeal.Hand

end
-- ==== Proof.KI.R8.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_S5000x64 : Rect S5000x64 := Rect.unit (s := S5000x64) ![0, 0] S5000x64.size inb_S5000x64_S5000x64_0_0
abbrev r8_S1x64 : Rect S1x64 := Rect.unit (s := S1x64) ![0, 0] S1x64.size inb_S1x64_S1x64_0_0

def out8_5 (x0 : Vec F S5000x64 .f32) (x1 x2 x3 x4 : Vec F S1x64 .f32) : Vec F S5000x64 .f32 :=
  View.canon [⟨r8_S5000x64, k8_pay1 (View.ld x0 r8_S5000x64) (View.ld x2 r8_S1x64) (View.ld x3 r8_S1x64) (View.ld x1 r8_S1x64) (View.ld x4 r8_S1x64)⟩]

/-- The one store goes through the rectangle of the whole output buffer, so what is read back is its payload. -/
theorem sound_kernel8 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out8_5 x0 x1 x2 x3 x4) -∗ K ⟨⟩))
      ⊢ wp frame (wpE (defs₀ (F := F)) Variants.none c none) Set.univ (cc8__bn_affine_kernel i arg1 harg1 arg2 harg2 arg3 harg3 arg4 harg4 arg5 harg5 arg6 harg6) K := by
  simp only [cc8__bn_affine_kernel_eq_skeleton, owns_eq_rep]; unfold cc8__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8 (c : Dev nD) (w : Fin cfg8.W) (hw : (cfg8.win w).isOut = false) (t : Fin cfg8.N) (d) :
    (dat8 V c).before w t d = (dat8 V c).after w t := by
  refine (Dat.before_in_eq_fetched _ w hw ?_ ?_ ?_ t d).trans ?_ <;> fin_cases w <;>
    first | exact absurd hw (by decide) | rfl | exact fun _ => rfl | exact fun _ _ _ => rfl

theorem body_obligation8 (c : Dev nD) : BodyObligation (dat8 (F := F) V c) (defs₀ (F := F)) Variants.none () Set.univ := fun t => by
  rw [bigSep_W8, bigSep_W8]
  simp (disch := exact rfl) only [before8 V c]
  dsimp only [dat8]
  show _ ⊢ wp _ _ _ (bodyAt8 t) _
  iintro ⟨HΦ, Ho, ⟨%d0, H0⟩, ⟨%d1, H1⟩, ⟨%d2, H2⟩, ⟨%d3, H3⟩, ⟨%d4, H4⟩, ⟨%d5, H5⟩⟩
  iapply sound_kernel8
  iframe H0 H1 H2 H3 H4 H5
  iintro ⟨H0, H1, H2, H3, H4, H5⟩
  iframe HΦ H0 H1 H2 H3 H4 H5
  iexact Ho

end Cert.KernelIdeal.Hand

end
-- ==== Proof.KI.R9.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S5000x64 : Rect S5000x64 := Rect.unit ![0, 0] S5000x64.size inb_S5000x64_S5000x64_0_0
abbrev r9_S64x64 : Rect S64x64 := Rect.unit ![0, 0] S64x64.size inb_S64x64_S64x64_0_0
abbrev r9_S1x64 : Rect S1x64 := Rect.unit ![0, 0] S1x64.size inb_S1x64_S1x64_0_0

def out9_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r9_S5000x64, k9_pay1 (View.ld x0 r9_S5000x64) (View.ld x1 r9_S5000x64) (View.ld x2 r9_S64x64) (View.ld x3 r9_S1x64) (View.ld x4 r9_S64x64) (View.ld x5 r9_S1x64)⟩]

-- The body reads its six inputs whole and stores one payload over the whole output buffer.
theorem sound_kernel9 {c : Dev nD} {E i a1 h1 a2 h2 a3 h3 a4 h4 a5 h5 a6 h6 a7 h7 x0 x1 x2 x3 x4 x5 d} {K : PUnit → sProp 𝕄} :
    iprop(owns c a1 fullShare x0 ∗ owns c a2 fullShare x1 ∗ owns c a3 fullShare x2 ∗ owns c a4 fullShare x3 ∗ owns c a5 fullShare x4
        ∗ owns c a6 fullShare x5 ∗ owns c a7 fullShare d
        ∗ (iprop(owns c a1 fullShare x0 ∗ owns c a2 fullShare x1 ∗ owns c a3 fullShare x2 ∗ owns c a4 fullShare x3 ∗ owns c a5 fullShare x4
            ∗ owns c a6 fullShare x5 ∗ owns c a7 fullShare (out9_6 x0 x1 x2 x3 x4 x5)) -∗ K ⟨⟩))
      ⊢ wp frame (wpE defs₀ Variants.none c none) E (cc9__gin_mlp_kernel i a1 h1 a2 h2 a3 h3 a4 h4 a5 h5 a6 h6 a7 h7) K := by
  simp only [cc9__gin_mlp_kernel_eq_skeleton, owns_eq_rep]; unfold cc9__gin_mlp_kernel_skel
  iintro ⟨H0, H1, H2, H3, H4, H5, H6, Hk⟩
  sl_exec
  sl_step
  iapply Hk
  iframe H0 H1 H2 H3 H4 H5
  iapply rep_of_owns
  unfold owns; iexists _; iframe H6; ipureintro
  simp only [View.readAt_rep]
  exact View.read_writes_eq_canon _ _ _ (View.cover_of_tiled _ S5000x64.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := rfl

theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

-- At every grid point an input window holds its block of the array, before the body as after it.
theorem before9 (c : Dev nD) (w : Fin 7) : w ≠ 6 → ∀ (t : Fin cfg9.N) (d), (dat9 V c).before w t d = (dat9 V c).after w t := by
  fin_cases w <;> first
    | exact fun h => absurd rfl h
    | exact fun _ t d => ((dat9 V c).before_in_eq_fetched _ rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp (disch := decide) only [before9 V c]
  dsimp only [dat9]
  show _ ⊢ wp _ _ _ (bodyAt9 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel9
  iframe H0 H1 H2 H3 H4 H5
  isplitl [H6]; · iexact H6
  iintro ⟨H0, H1, H2, H3, H4, H5, H6⟩
  iframe HΦ H0 H1 H2 H3 H4 H5 H6
  iexact Ho

end Cert.KernelIdeal.Hand

end
-- ==== Proof.KI.R10.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_S5000x64 : Rect S5000x64 := Rect.unit (s := S5000x64) ![0, 0] S5000x64.size inb_S5000x64_S5000x64_0_0
abbrev r10_S1x64 : Rect S1x64 := Rect.unit (s := S1x64) ![0, 0] S1x64.size inb_S1x64_S1x64_0_0

def out10_5 (x0 : Vec F S5000x64 .f32) (x1 x2 x3 x4 : Vec F S1x64 .f32) : Vec F S5000x64 .f32 :=
  View.canon [⟨r10_S5000x64, k10_pay1 (View.ld x0 r10_S5000x64) (View.ld x2 r10_S1x64) (View.ld x3 r10_S1x64) (View.ld x1 r10_S1x64) (View.ld x4 r10_S1x64)⟩]

/-- The one store goes through the rectangle of the whole output buffer, so what is read back is its payload. -/
theorem sound_kernel10 {c : Dev nD} {i arg1 harg1 arg2 harg2 arg3 harg3 arg4 harg4 arg5 harg5 arg6 harg6 x0 x1 x2 x3 x4 d} {K : PUnit → sProp 𝕄} :
    iprop(owns c arg1 fullShare x0 ∗ owns c arg2 fullShare x1 ∗ owns c arg3 fullShare x2 ∗ owns c arg4 fullShare x3 ∗ owns c arg5 fullShare x4
        ∗ owns c arg6 fullShare d
        ∗ (owns c arg1 fullShare x0 ∗ owns c arg2 fullShare x1 ∗ owns c arg3 fullShare x2 ∗ owns c arg4 fullShare x3 ∗ owns c arg5 fullShare x4
            ∗ owns c arg6 fullShare (out10_5 x0 x1 x2 x3 x4) -∗ K ⟨⟩))
      ⊢ wp frame (wpE (defs₀ (F := F)) Variants.none c none) Set.univ (cc10__bn_affine_kernel i arg1 harg1 arg2 harg2 arg3 harg3 arg4 harg4 arg5 harg5 arg6 harg6) K := by
  simp only [cc10__bn_affine_kernel_eq_skeleton, owns_eq_rep]; unfold cc10__bn_affine_kernel_skel
  iintro ⟨H0, H1, H2, H3, H4, H5, Hk⟩
  sl_exec
  sl_step
  iapply Hk
  iframe H0 H1 H2 H3 H4
  iapply rep_of_owns
  unfold owns; iexists _; iframe H5
  ipureintro
  simp only [View.readAt_rep]
  exact View.read_writes_eq_canon _ _ _ (View.cover_of_tiled _ S5000x64.size (by rfl))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := rfl

theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10 (c : Dev nD) (w : Fin cfg10.W) (hw : (cfg10.win w).isOut = false) (t : Fin cfg10.N) (d) :
    (dat10 V c).before w t d = (dat10 V c).after w t := by
  refine (Dat.before_in_eq_fetched _ w hw ?_ ?_ ?_ t d).trans ?_ <;> fin_cases w <;>
    first | exact absurd hw (by decide) | rfl | exact fun _ => rfl | exact fun _ _ _ => rfl

theorem body_obligation10 (c : Dev nD) : BodyObligation (dat10 (F := F) V c) (defs₀ (F := F)) Variants.none () Set.univ := fun t => by
  rw [bigSep_W10, bigSep_W10]
  simp (disch := exact rfl) only [before10 V c]
  dsimp only [dat10]
  show _ ⊢ wp _ _ _ (bodyAt10 t) _
  iintro ⟨HΦ, Ho, ⟨%d0, H0⟩, ⟨%d1, H1⟩, ⟨%d2, H2⟩, ⟨%d3, H3⟩, ⟨%d4, H4⟩, ⟨%d5, H5⟩⟩
  iapply sound_kernel10
  iframe H0 H1 H2 H3 H4 H5
  iintro ⟨H0, H1, H2, H3, H4, H5⟩
  iframe HΦ H0 H1 H2 H3 H4 H5
  iexact Ho

end Cert.KernelIdeal.Hand

end
-- ==== Proof.KI.R11.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def poolAt (c : Dev nD) : (n : ℕ) → n < cfg11.N → Vec F S128x320 .f32
  | 0, hn => k11_pay2 (iblk11 V c 0 ⟨0, hn⟩) (iblk11 V c 1 ⟨0, hn⟩) (k11_pay1 (F := F))
  | n + 1, hn => k11_pay2 (iblk11 V c 0 ⟨n + 1, hn⟩) (iblk11 V c 1 ⟨n + 1, hn⟩) (poolAt c n (Nat.lt_of_succ_lt hn))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => poolAt V c t.val t.isLt
  Φ _ := Pipeline.ΦA spec11 c
  q _ := fullShare
  owed _ := 0

theorem A_eq11 (c : Dev nD) (w : Fin cfg11.W) : (dat11 V c).A w = V c (Pipeline.arrRef spec11 w) := rfl

theorem after11_2 (c : Dev nD) (t : Fin cfg11.N) : (dat11 V c).after 2 t = poolAt V c t.val t.isLt := rfl

namespace R11

-- The body only reads its input windows.
theorem before (c : Dev nD) (t : Fin cfg11.N) :
    (∀ d, (dat11 V c).before 0 t d = iblk11 V c 0 t) ∧ ∀ d, (dat11 V c).before 1 t d = iblk11 V c 1 t := by
  refine ⟨?_, ?_⟩ <;> intro d <;> refine (Dat.before_in_eq_fetched _ _ ?_ ?_ ?_ ?_ t d).trans ?_ <;> intros <;> rfl

abbrev cond (i : grid11.Coords) : Prop :=
  (Scalar.cmpi .ne (Scalar.extui (Scalar.cmpi .eq (BitVec.ofNat 32 (i 0).val) 0#32)) 0#32) = 1#1

theorem hcond : ∀ t : Fin cfg11.N, cond (grid11.coords t) ↔ t.val = 0 :=
  (by decide +kernel : ∀ t : Fin grid11.N, cond (grid11.coords t) ↔ t.val = 0)

theorem hz : (![0, 0] : Fin 2 → Nat) = fun _ => 0 := funext fun a => by fin_cases a <;> rfl

set_option maxHeartbeats 1000000 in
-- The accumulator is zeroed first exactly when the conditional is taken; the last store overwrites it whole.
theorem run {c : Dev nD} {E : Set ℕ} {i a1 h1 a2 h2 a3 h3 x0 x1 xo} {K : PUnit → sProp (MT nD τ sig Unit (Elt F) ℕ (UR sig nD τ) ℕ)} :
    iprop(owns c a1 fullShare x0 ∗ owns c a2 fullShare x1 ∗ owns c a3 fullShare xo
        ∗ (iprop(owns c a1 fullShare x0 ∗ owns c a2 fullShare x1
            ∗ owns c a3 fullShare (k11_pay2 x0 x1 (if cond i then k11_pay1 else xo))) -∗ K ⟨⟩))
      ⊢ wp frame (wpE (defs₀ (F := F)) Variants.none c none) E (cc11__pool_kernel i a1 h1 a2 h2 a3 h3) K := by
  rw [cc11__pool_kernel_eq_skeleton]; unfold cc11__pool_kernel_skel owns
  iintro ⟨⟨%f0, %hf0, H0⟩, ⟨%f1, %hf1, H1⟩, ⟨%f2, %hf2, H2⟩, Hk⟩
  subst hf0 hf1 hf2
  by_cases hc : cond i
  all_goals
    sl_exec (disch := exact hc)
    sl_step
    iapply Hk
    isplitl [H0]; · iexists f0; iframe; ipureintro; rfl
    isplitl [H1]; · iexists f1; iframe; ipureintro; rfl
    iexists _; iframe; ipureintro
    refine (View.read_writes_eq_canon _ _ _ fun y => ⟨_, .head _, View.mem_set_unit_zero hz inb_S128x320_S128x320_0_0 y⟩).trans ?_
    rw [View.canon_cons_unit_zero hz]; sl_unfold_words
    first | rw [if_pos hc] | rw [if_neg hc]
    simp only [View.readAt_eq_ld, View.ld_unit_zero (S := S5000x128) hz, View.ld_unit_zero (S := S5000x320) hz,
      View.ld_unit_zero (S := S128x320) hz, View.readCov_unit_zero (S := S128x320) _ hz]

-- The accumulation starts from zeros at the first point and from what the point before left at every later one.
theorem pool_step (c : Dev nD) : ∀ (t : Fin cfg11.N) (d), poolAt V c t.val t.isLt =
    k11_pay2 (iblk11 V c 0 t) (iblk11 V c 1 t) (if cond (grid11.coords t) then k11_pay1 else (dat11 V c).before 2 t d)
  | ⟨0, h⟩, d => by rw [if_pos ((hcond _).2 rfl)]; rfl
  | ⟨n + 1, h⟩, d => by
    rw [if_neg (mt (hcond _).1 n.succ_ne_zero),
      Dat.before_out_kept _ 2 rfl _ n.succ_ne_zero (Bool.eq_false_iff.2 fun e => by
        have e := (flush11_2 _).1 e; have h := lt_of_lt_of_eq h (N_11 : cfg11.N = 20); dsimp only at e; omega)
      (fun _ => rfl) (fun _ _ => rfl)]; rfl

end R11

open R11 in
theorem body_obligation11 (c : Dev nD) : BodyObligation (dat11 (F := F) V c) (defs₀ (F := F)) Variants.none () Set.univ := fun t => by
  rw [bigSep_W11, bigSep_W11]
  simp only [before V c t]
  change _ ⊢ wp _ _ _ (bodyAt11 t) fun _ => iprop((dat11 V c).Φ t.castSucc ∗ (dat11 V c).owesAt () t.castSucc ∗ _)
  iintro ⟨HΦ, Ho, ⟨%d0, H0⟩, ⟨%d1, H1⟩, ⟨%d2, H2⟩⟩
  iapply run
  iframe H0 H1 H2
  rw [← pool_step V c t d2]
  iintro H
  iframe HΦ Ho
  iexact H

end Cert.KernelIdeal.Hand

end
-- ==== Proof.KI.R12.lean ====
import proofs.«406479_j78563541778981_1_alg».proof.Proof.Gen.KernelIdeal.Launch
import proofs.«406479_j78563541778981_1_alg».proof.Proof.Gen.KernelIdeal.Skeleton
import proofs.«406479_j78563541778981_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_S128x320 : Rect S128x320 := Rect.unit (s := S128x320) ![0, 0] S128x320.size inb_S128x320_S128x320_0_0
abbrev r12_S320x320 : Rect S320x320 := Rect.unit (s := S320x320) ![0, 0] S320x320.size inb_S320x320_S320x320_0_0
abbrev r12_S1x320 : Rect S1x320 := Rect.unit (s := S1x320) ![0, 0] S1x320.size inb_S1x320_S1x320_0_0

def out12_5 (x0 : Vec F S128x320 .f32) (x1 : Vec F S320x320 .f32) (x2 : Vec F S1x320 .f32) (x3 : Vec F S320x320 .f32) (x4 : Vec F S1x320 .f32) : Vec F S128x320 .f32 :=
  View.canon [⟨r12_S128x320, k12_pay1 (View.ld x0 r12_S128x320) (View.ld x1 r12_S320x320) (View.ld x2 r12_S1x320) (View.ld x3 r12_S320x320) (View.ld x4 r12_S1x320)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := rfl

theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

-- The body only reads its input windows.
theorem before12 (c : Dev nD) (t : Fin cfg12.N) : (∀ d, (dat12 V c).before 0 t d = iblk12 V c 0 t) ∧
    (∀ d, (dat12 V c).before 1 t d = iblk12 V c 1 t) ∧ (∀ d, (dat12 V c).before 2 t d = iblk12 V c 2 t) ∧
    (∀ d, (dat12 V c).before 3 t d = iblk12 V c 3 t) ∧ ∀ d, (dat12 V c).before 4 t d = iblk12 V c 4 t := by
  refine ⟨?_, ?_, ?_, ?_, ?_⟩ <;> intro d <;> refine (Dat.before_in_eq_fetched _ _ ?_ ?_ ?_ ?_ t d).trans ?_ <;> intros <;> rfl

-- The body reads its five inputs whole and overwrites the whole output with the payload.
theorem sound_kernel12 {c : Dev nD} {E : Set ℕ} {i a1 h1 a2 h2 a3 h3 a4 h4 a5 h5 a6 h6 x0 x1 x2 x3 x4 d} {K : PUnit → sProp (MT nD τ sig Unit (Elt F) ℕ (UR sig nD τ) ℕ)} :
    iprop(owns c a1 fullShare x0 ∗ owns c a2 fullShare x1 ∗ owns c a3 fullShare x2 ∗ owns c a4 fullShare x3
        ∗ owns c a5 fullShare x4 ∗ owns c a6 fullShare d
        ∗ (iprop(owns c a1 fullShare x0 ∗ owns c a2 fullShare x1 ∗ owns c a3 fullShare x2 ∗ owns c a4 fullShare x3
            ∗ owns c a5 fullShare x4 ∗ owns c a6 fullShare (out12_5 x0 x1 x2 x3 x4)) -∗ K ⟨⟩))
      ⊢ wp frame (wpE (defs₀ (F := F)) Variants.none c none) E (cc12__proj_kernel i a1 h1 a2 h2 a3 h3 a4 h4 a5 h5 a6 h6) K := by
  simp only [cc12__proj_kernel_eq_skeleton, owns_eq_rep]; unfold cc12__proj_kernel_skel
  iintro ⟨H0, H1, H2, H3, H4, H5, Hk⟩
  sl_exec
  sl_step
  iapply Hk
  iframe H0 H1 H2 H3 H4
  iapply rep_of_owns
  unfold owns; iexists _; iframe; ipureintro
  simp only [View.readAt_rep]
  exact View.read_writes_eq_canon _ _ _ (View.cover_of_tiled _ S128x320.size (by rfl))

theorem body_obligation12 (c : Dev nD) : BodyObligation (dat12 (F := F) V c) (defs₀ (F := F)) Variants.none () Set.univ := fun t => by
  rw [bigSep_W12, bigSep_W12]
  simp only [before12 V c t]
  dsimp only [dat12]
  show _ ⊢ wp _ _ _ (bodyAt12 t) _
  iintro ⟨HΦ, Ho, ⟨%d0, H0⟩, ⟨%d1, H1⟩, ⟨%d2, H2⟩, ⟨%d3, H3⟩, ⟨%d4, H4⟩, ⟨%d5, H5⟩⟩
  iapply sound_kernel12
  iframe H0 H1 H2 H3 H4 H5
  iintro ⟨H0, H1, H2, H3, H4, H5⟩
  iframe HΦ H0 H1 H2 H3 H4 H5
  iexact Ho

end Cert.KernelIdeal.Hand

end
-- ==== Proof.KI.Fold.lean ====
import proofs.«406479_j78563541778981_1_alg».proof.Proof.KI.R0
import proofs.«406479_j78563541778981_1_alg».proof.Proof.KI.R1
import proofs.«406479_j78563541778981_1_alg».proof.Proof.KI.R2
import proofs.«406479_j78563541778981_1_alg».proof.Proof.KI.R3
import proofs.«406479_j78563541778981_1_alg».proof.Proof.KI.R4
import proofs.«406479_j78563541778981_1_alg».proof.Proof.KI.R5
import proofs.«406479_j78563541778981_1_alg».proof.Proof.KI.R6
import proofs.«406479_j78563541778981_1_alg».proof.Proof.KI.R7
import proofs.«406479_j78563541778981_1_alg».proof.Proof.KI.R8
import proofs.«406479_j78563541778981_1_alg».proof.Proof.KI.R9
import proofs.«406479_j78563541778981_1_alg».proof.Proof.KI.R10
import proofs.«406479_j78563541778981_1_alg».proof.Proof.KI.R11
import proofs.«406479_j78563541778981_1_alg».proof.Proof.KI.R12
import proofs.«406479_j78563541778981_1_alg».proof.Proof.KI.Regions

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev X1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N :=
  Pipeline.withArrays_arr spec0 launch0.win.arr_inj c _ _ w
abbrev W3 : Dev nD → Valuation τ sig (Elt F) := fun c => StableHlo.after hostOps1 (W2 m ρ c)
abbrev X3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N :=
  Pipeline.withArrays_arr spec1 launch1.win.arr_inj c _ _ w
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev X7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (X7 m ρ) c).arrAt w cfg2.N
theorem W8_arr (c : Dev nD) (w : Fin cfg2.W) :
    W8 m ρ c (Proc.devRef .tc (Pipeline.arrRef spec2 w)) = (dat2 (X7 m ρ) c).arrAt w cfg2.N :=
  Pipeline.withArrays_arr spec2 launch2.win.arr_inj c _ _ w
abbrev W9 : Dev nD → Valuation τ sig (Elt F) := fun c => StableHlo.after hostOps3 (W8 m ρ c)
abbrev X9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (X9 m ρ) c).arrAt w cfg3.N
theorem W10_arr (c : Dev nD) (w : Fin cfg3.W) :
    W10 m ρ c (Proc.devRef .tc (Pipeline.arrRef spec3 w)) = (dat3 (X9 m ρ) c).arrAt w cfg3.N :=
  Pipeline.withArrays_arr spec3 launch3.win.arr_inj c _ _ w
abbrev W11 : Dev nD → Valuation τ sig (Elt F) := fun c => StableHlo.after hostOps4 (W10 m ρ c)
abbrev W12 : Dev nD → Valuation τ sig (Elt F) := fun c => StableHlo.after hostOps4_1 (W11 m ρ c)
abbrev W13 : Dev nD → Valuation τ sig (Elt F) := fun c => StableHlo.after hostOps4_2 (W12 m ρ c)
abbrev X13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (X13 m ρ) c).arrAt w cfg4.N
theorem W14_arr (c : Dev nD) (w : Fin cfg4.W) :
    W14 m ρ c (Proc.devRef .tc (Pipeline.arrRef spec4 w)) = (dat4 (X13 m ρ) c).arrAt w cfg4.N :=
  Pipeline.withArrays_arr spec4 launch4.win.arr_inj c _ _ w
abbrev W15 : Dev nD → Valuation τ sig (Elt F) := fun c => StableHlo.after hostOps5 (W14 m ρ c)
abbrev X15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (X15 m ρ) c).arrAt w cfg5.N
theorem W16_arr (c : Dev nD) (w : Fin cfg5.W) :
    W16 m ρ c (Proc.devRef .tc (Pipeline.arrRef spec5 w)) = (dat5 (X15 m ρ) c).arrAt w cfg5.N :=
  Pipeline.withArrays_arr spec5 launch5.win.arr_inj c _ _ w
abbrev W17 : Dev nD → Valuation τ sig (Elt F) := fun c => StableHlo.after hostOps6 (W16 m ρ c)
abbrev W18 : Dev nD → Valuation τ sig (Elt F) := fun c => StableHlo.after hostOps6_1 (W17 m ρ c)
abbrev W19 : Dev nD → Valuation τ sig (Elt F) := fun c => StableHlo.after hostOps6_2 (W18 m ρ c)
abbrev X19 : (c : Dev nD) → (b : Ref sig .tc) → Buf (Elt F) ((c : Thread nD τ).loc b) := fun c b => W19 m ρ c b
def W20 (c : Dev nD) : Valuation τ sig (Elt F) :=
  Pipeline.withArrays spec6 c (W19 m ρ c) fun w => (dat6 (X19 m ρ) c).arrAt w cfg6.N
theorem W20_arr (c : Dev nD) (w : Fin cfg6.W) :
    W20 m ρ c (Proc.devRef .tc (Pipeline.arrRef spec6 w)) = (dat6 (X19 m ρ) c).arrAt w cfg6.N :=
  Pipeline.withArrays_arr spec6 launch6.win.arr_inj c _ _ w
abbrev W21 : Dev nD → Valuation τ sig (Elt F) := fun c => StableHlo.after hostOps7 (W20 m ρ c)
abbrev X21 : (c : Dev nD) → (b : Ref sig .tc) → Buf (Elt F) ((c : Thread nD τ).loc b) := fun c b => W21 m ρ c b
def W22 (c : Dev nD) : Valuation τ sig (Elt F) :=
  Pipeline.withArrays spec7 c (W21 m ρ c) fun w => (dat7 (X21 m ρ) c).arrAt w cfg7.N
theorem W22_arr (c : Dev nD) (w : Fin cfg7.W) :
    W22 m ρ c (Proc.devRef .tc (Pipeline.arrRef spec7 w)) = (dat7 (X21 m ρ) c).arrAt w cfg7.N :=
  Pipeline.withArrays_arr spec7 launch7.win.arr_inj c _ _ w
abbrev W23 : Dev nD → Valuation τ sig (Elt F) := fun c => StableHlo.after hostOps8 (W22 m ρ c)
abbrev W24 : Dev nD → Valuation τ sig (Elt F) := fun c => StableHlo.after hostOps8_1 (W23 m ρ c)
abbrev W25 : Dev nD → Valuation τ sig (Elt F) := fun c => StableHlo.after hostOps8_2 (W24 m ρ c)
abbrev X25 : (c : Dev nD) → (b : Ref sig .tc) → Buf (Elt F) ((c : Thread nD τ).loc b) := fun c b => W25 m ρ c b
def W26 (c : Dev nD) : Valuation τ sig (Elt F) :=
  Pipeline.withArrays spec8 c (W25 m ρ c) fun w => (dat8 (X25 m ρ) c).arrAt w cfg8.N
theorem W26_arr (c : Dev nD) (w : Fin cfg8.W) :
    W26 m ρ c (Proc.devRef .tc (Pipeline.arrRef spec8 w)) = (dat8 (X25 m ρ) c).arrAt w cfg8.N :=
  Pipeline.withArrays_arr spec8 launch8.win.arr_inj c _ _ w
abbrev W27 : Dev nD → Valuation τ sig (Elt F) := fun c => StableHlo.after hostOps9 (W26 m ρ c)
abbrev X27 : (c : Dev nD) → (b : Ref sig .tc) → Buf (Elt F) ((c : Thread nD τ).loc b) := fun c b => W27 m ρ c b
def W28 (c : Dev nD) : Valuation τ sig (Elt F) :=
  Pipeline.withArrays spec9 c (W27 m ρ c) fun w => (dat9 (X27 m ρ) c).arrAt w cfg9.N
theorem W28_arr (c : Dev nD) (w : Fin cfg9.W) :
    W28 m ρ c (Proc.devRef .tc (Pipeline.arrRef spec9 w)) = (dat9 (X27 m ρ) c).arrAt w cfg9.N :=
  Pipeline.withArrays_arr spec9 launch9.win.arr_inj c _ _ w
abbrev W29 : Dev nD → Valuation τ sig (Elt F) := fun c => StableHlo.after hostOps10 (W28 m ρ c)
abbrev W30 : Dev nD → Valuation τ sig (Elt F) := fun c => StableHlo.after hostOps10_1 (W29 m ρ c)
abbrev W31 : Dev nD → Valuation τ sig (Elt F) := fun c => StableHlo.after hostOps10_2 (W30 m ρ c)
abbrev X31 : (c : Dev nD) → (b : Ref sig .tc) → Buf (Elt F) ((c : Thread nD τ).loc b) := fun c b => W31 m ρ c b
def W32 (c : Dev nD) : Valuation τ sig (Elt F) :=
  Pipeline.withArrays spec10 c (W31 m ρ c) fun w => (dat10 (X31 m ρ) c).arrAt w cfg10.N
theorem W32_arr (c : Dev nD) (w : Fin cfg10.W) :
    W32 m ρ c (Proc.devRef .tc (Pipeline.arrRef spec10 w)) = (dat10 (X31 m ρ) c).arrAt w cfg10.N :=
  Pipeline.withArrays_arr spec10 launch10.win.arr_inj c _ _ w
abbrev W33 : Dev nD → Valuation τ sig (Elt F) := fun c => StableHlo.after hostOps11 (W32 m ρ c)
abbrev X33 : (c : Dev nD) → (b : Ref sig .tc) → Buf (Elt F) ((c : Thread nD τ).loc b) := fun c b => W33 m ρ c b
def W34 (c : Dev nD) : Valuation τ sig (Elt F) :=
  Pipeline.withArrays spec11 c (W33 m ρ c) fun w => (dat11 (X33 m ρ) c).arrAt w cfg11.N
theorem W34_arr (c : Dev nD) (w : Fin cfg11.W) :
    W34 m ρ c (Proc.devRef .tc (Pipeline.arrRef spec11 w)) = (dat11 (X33 m ρ) c).arrAt w cfg11.N :=
  Pipeline.withArrays_arr spec11 launch11.win.arr_inj c _ _ w
abbrev W35 : Dev nD → Valuation τ sig (Elt F) := fun c => StableHlo.after hostOps12 (W34 m ρ c)
abbrev X35 : (c : Dev nD) → (b : Ref sig .tc) → Buf (Elt F) ((c : Thread nD τ).loc b) := fun c b => W35 m ρ c b
def W36 (c : Dev nD) : Valuation τ sig (Elt F) :=
  Pipeline.withArrays spec12 c (W35 m ρ c) fun w => (dat12 (X35 m ρ) c).arrAt w cfg12.N
theorem W36_arr (c : Dev nD) (w : Fin cfg12.W) :
    W36 m ρ c (Proc.devRef .tc (Pipeline.arrRef spec12 w)) = (dat12 (X35 m ρ) c).arrAt w cfg12.N :=
  Pipeline.withArrays_arr spec12 launch12.win.arr_inj c _ _ w
abbrev W37 : Dev nD → Valuation τ sig (Elt F) := fun c => StableHlo.after hostOps13 (W36 m ρ c)

abbrev adm : (p : Fin 13) → (pcfgs (F := F) p).Adm := fun p => (cfgs p).toPCfg_adm
def pdats : (p : Fin 13) → (c : Dev nD) → Dat τ (Elt F) Unit ℕ (UR sig nD τ) ℕ (Pipeline.pin (pcfgs (F := F)) adm p) c
  | ⟨0, _⟩ => fun c => dat0 (X1 m ρ) c
  | ⟨1, _⟩ => fun c => dat1 (X3 m ρ) c
  | ⟨2, _⟩ => fun c => dat2 (X7 m ρ) c
  | ⟨3, _⟩ => fun c => dat3 (X9 m ρ) c
  | ⟨4, _⟩ => fun c => dat4 (X13 m ρ) c
  | ⟨5, _⟩ => fun c => dat5 (X15 m ρ) c
  | ⟨6, _⟩ => fun c => dat6 (X19 m ρ) c
  | ⟨7, _⟩ => fun c => dat7 (X21 m ρ) c
  | ⟨8, _⟩ => fun c => dat8 (X25 m ρ) c
  | ⟨9, _⟩ => fun c => dat9 (X27 m ρ) c
  | ⟨10, _⟩ => fun c => dat10 (X31 m ρ) c
  | ⟨11, _⟩ => fun c => dat11 (X33 m ρ) c
  | ⟨12, _⟩ => fun c => dat12 (X35 m ρ) c

end Cert.KernelIdeal.Hand

end
-- ==== Proof.KI.Regs.lean ====
import proofs.«406479_j78563541778981_1_alg».proof.Proof.KI.Fold

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ R c)

abbrev atTc (W : Dev nD → Valuation τ sig (Elt F)) :
    (c : Dev nD) → (b : Ref sig .tc) → Buf (Elt F) ((c : Thread nD τ).loc b) := fun c b => W c b

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem owesAt_first {cfg : Cfg sig Λ₀} {c : Dev nD} (dat : Dat τ (Elt F) Unit ℕ (UR sig nD τ) ℕ cfg c)
    (h0 : dat.owed 0 = 0) (hrec : ∀ x, x ∈ dat.recorded 0) :
    (iprop(∃ W, owes (c : Thread nD τ) (0 : CellTallies nD τ sig Unit) W) : sProp 𝕄) ⊢ dat.owesAt () 0 := by
  show _ ⊢ Pipeline.owesWithin c (dat.owed 0) (dat.bound () 0)
  rw [h0]
  iintro ⟨%W, H⟩
  iexists W
  iframe
  ipureintro; exact fun x _ => Or.inl (hrec x)

theorem owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  show Pipeline.owesWithin c (dat.owed (Fin.last cfg.N)) (dat.bound () (Fin.last cfg.N)) ⊢ _
  rw [hN]
  iintro ⟨%W, -, H⟩
  iexists W
  iexact H

variable (m : (ℓ : Loc nD τ sig) → Buf (Elt F) ℓ) (ρ : Dev nD → PrngReg)

set_option backward.isDefEq.respectTransparency.types false in
def regionAt (p : Fin 13) (lf : Pipeline.LaunchFacts (nD := nD) (τ := τ) cfgs p)
    (Wi Wo : Dev nD → Valuation τ sig (Elt F))
    (hbody : ∀ c, BodyObligation (pdats m ρ p c) (defs₀ (F := F)) 𝒱₀ () Set.univ)
    (hWo : ∀ c, Wo c = Pipeline.withArrays (Pipeline.pin (pcfgs (F := F)) adm p).spec c (Wi c)
      fun w => (pdats m ρ p c).arrAt w (Pipeline.pin (pcfgs (F := F)) adm p).N := by exact fun _ => rfl)
    (hq : ∀ c w, (pdats m ρ p c).q w = fullShare := by exact fun _ _ => rfl)
    (howed : ∀ c t, (pdats m ρ p c).owed t = 0 := by exact fun _ _ => rfl)
    (hrec : ∀ c x, x ∈ (pdats m ρ p c).recorded 0 := by exact fun _ _ => trivial)
    (hΦ : ∀ c t, (pdats m ρ p c).Φ t = Pipeline.ΦA (Pipeline.pin (pcfgs (F := F)) adm p).spec c := by exact fun _ _ => rfl)
    (hA : ∀ c w, (pdats m ρ p c).A w = atTc Wi c (Pipeline.arrRef (Pipeline.pin (pcfgs (F := F)) adm p).spec w) := by
      exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := St Wi
  post := St Wo
  X c := iprop(∃ r, prngReg c r)
  Y c := iprop(∃ r, prngReg c r)
  Z c := Pipeline.unscopedRest (Ix := Unit) (Name := ℕ) (U := UR sig nD τ) (Lvl := ℕ)
    (Pipeline.pin (pcfgs (F := F)) adm p).spec c (atTc Wi c)
  hentry c := by
    have hsplit := Pipeline.arrays_of_unscopedBufs (p := p) (pcfgs (F := F)) adm (pdats m ρ) lf.win lf.arr_whole c
      ((pdats m ρ p c).share_full (hq c)) (atTc Wi c) (hA c)
    rw [Pipeline.unscopedBufs_held] at hsplit
    have htab : (BI.emp : sProp 𝕄) ⊢ Pipeline.prefHeld Pipeline.Prefetch.none c (fun _ => fullShare) (adm (F := F) p).1 := by
      unfold Pipeline.prefHeld
      rw [show (Finset.univ : Finset (Fin (Pipeline.Prefetch.none (sig := sig)).K)) = ∅ from rfl, BI.bigSep_empty]
    iintro ⟨⟨Hbufs, Hgen, Hdue⟩, -, -⟩
    imodintro
    icases hsplit $$ Hbufs with ⟨Harr, Hrest⟩
    iframe Harr Hgen Hrest
    isplitr
    · iapply htab; iempintro
    iapply owesAt_first (pdats m ρ p c) (howed c 0) (hrec c); iexact Hdue
  hin c := by
    rw [hΦ c 0]
    unfold Pipeline.ΦA
    iintro ⟨Hg, -, Hs⟩
    iframe
  hout c := by
    rw [hΦ c _, Pipeline.ownSems0_none]
    unfold Pipeline.ΦA
    iintro ⟨Hs, Hg⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Wi c) (atTc Wo c) ((pdats m ρ p c).arrAt · (Pipeline.pin (pcfgs (F := F)) adm p).N)
      (fun w => ((congrFun (hWo c) _).trans (Pipeline.withArrays_arr _ lf.win.arr_inj c _ _ w)).symm)
      (fun b hb => (congrFun (hWo c) _).trans <| Pipeline.withArrays_of_ne _ c _ _ b fun w e =>
        hb (Finset.mem_image.mpr ⟨w, Finset.mem_univ _, e⟩))
    rw [Pipeline.unscopedBufs_held] at hjoin
    iintro ⟨Harr, Hdue, Hgen, Hrest⟩
    imodintro
    isplitl [Harr Hrest]
    · iapply hjoin; iframe
    isplitl [Hgen]
    · iexact Hgen
    iapply owesAt_last (pdats m ρ p c) (howed c _); iexact Hdue

def reg0 : Pipeline.RegionSeg (pcfgs (F := F)) adm (pdats m ρ) () defs₀ 𝒱₀ L lv 0 :=
  regionAt m ρ 0 launch0 (W1 m ρ) (W2 m ρ) (body_obligation0 (X1 m ρ))
def reg1 : Pipeline.RegionSeg (pcfgs (F := F)) adm (pdats m ρ) () defs₀ 𝒱₀ L lv 1 :=
  regionAt m ρ 1 launch1 (W3 m ρ) (W4 m ρ) (body_obligation1 (X3 m ρ))
def reg2 : Pipeline.RegionSeg (pcfgs (F := F)) adm (pdats m ρ) () defs₀ 𝒱₀ L lv 2 :=
  regionAt m ρ 2 launch2 (W7 m ρ) (W8 m ρ) (body_obligation2 (X7 m ρ))
def reg3 : Pipeline.RegionSeg (pcfgs (F := F)) adm (pdats m ρ) () defs₀ 𝒱₀ L lv 3 :=
  regionAt m ρ 3 launch3 (W9 m ρ) (W10 m ρ) (body_obligation3 (X9 m ρ))
def reg4 : Pipeline.RegionSeg (pcfgs (F := F)) adm (pdats m ρ) () defs₀ 𝒱₀ L lv 4 :=
  regionAt m ρ 4 launch4 (W13 m ρ) (W14 m ρ) (body_obligation4 (X13 m ρ))
def reg5 : Pipeline.RegionSeg (pcfgs (F := F)) adm (pdats m ρ) () defs₀ 𝒱₀ L lv 5 :=
  regionAt m ρ 5 launch5 (W15 m ρ) (W16 m ρ) (body_obligation5 (X15 m ρ))
def reg6 : Pipeline.RegionSeg (pcfgs (F := F)) adm (pdats m ρ) () defs₀ 𝒱₀ L lv 6 :=
  regionAt m ρ 6 launch6 (W19 m ρ) (W20 m ρ) (body_obligation6 (X19 m ρ))
def reg7 : Pipeline.RegionSeg (pcfgs (F := F)) adm (pdats m ρ) () defs₀ 𝒱₀ L lv 7 :=
  regionAt m ρ 7 launch7 (W21 m ρ) (W22 m ρ) (body_obligation7 (X21 m ρ))
def reg8 : Pipeline.RegionSeg (pcfgs (F := F)) adm (pdats m ρ) () defs₀ 𝒱₀ L lv 8 :=
  regionAt m ρ 8 launch8 (W25 m ρ) (W26 m ρ) (body_obligation8 (X25 m ρ))
def reg9 : Pipeline.RegionSeg (pcfgs (F := F)) adm (pdats m ρ) () defs₀ 𝒱₀ L lv 9 :=
  regionAt m ρ 9 launch9 (W27 m ρ) (W28 m ρ) (body_obligation9 (X27 m ρ))
def reg10 : Pipeline.RegionSeg (pcfgs (F := F)) adm (pdats m ρ) () defs₀ 𝒱₀ L lv 10 :=
  regionAt m ρ 10 launch10 (W31 m ρ) (W32 m ρ) (body_obligation10 (X31 m ρ))
def reg11 : Pipeline.RegionSeg (pcfgs (F := F)) adm (pdats m ρ) () defs₀ 𝒱₀ L lv 11 :=
  regionAt m ρ 11 launch11 (W33 m ρ) (W34 m ρ) (body_obligation11 (X33 m ρ))
def reg12 : Pipeline.RegionSeg (pcfgs (F := F)) adm (pdats m ρ) () defs₀ 𝒱₀ L lv 12 :=
  regionAt m ρ 12 launch12 (W35 m ρ) (W36 m ρ) (body_obligation12 (X35 m ρ))

end Cert.KernelIdeal.Hand

end
-- ==== Proof.KI.Run.lean ====
import proofs.«406479_j78563541778981_1_alg».proof.Proof.KI.Regs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .host (hseg hostOps6_1 hostOps6_1_sub hostOps6_1_fresh (W17 m ρ)),
    .host (hseg hostOps6_2 hostOps6_2_sub hostOps6_2_fresh (W18 m ρ)),
    .region (reg6 m ρ),
    .host (hseg hostOps7 hostOps7_sub hostOps7_fresh (W20 m ρ)),
    .region (reg7 m ρ),
    .host (hseg hostOps8 hostOps8_sub hostOps8_fresh (W22 m ρ)),
    .host (hseg hostOps8_1 hostOps8_1_sub hostOps8_1_fresh (W23 m ρ)),
    .host (hseg hostOps8_2 hostOps8_2_sub hostOps8_2_fresh (W24 m ρ)),
    .region (reg8 m ρ),
    .host (hseg hostOps9 hostOps9_sub hostOps9_fresh (W26 m ρ)),
    .region (reg9 m ρ),
    .host (hseg hostOps10 hostOps10_sub hostOps10_fresh (W28 m ρ)),
    .host (hseg hostOps10_1 hostOps10_1_sub hostOps10_1_fresh (W29 m ρ)),
    .host (hseg hostOps10_2 hostOps10_2_sub hostOps10_2_fresh (W30 m ρ)),
    .region (reg10 m ρ),
    .host (hseg hostOps11 hostOps11_sub hostOps11_fresh (W32 m ρ)),
    .region (reg11 m ρ),
    .host (hseg hostOps12 hostOps12_sub hostOps12_fresh (W34 m ρ)),
    .region (reg12 m ρ),
    .host (hseg hostOps13 hostOps13_sub hostOps13_fresh (W36 m ρ)) ]

theorem main_run (c : Dev nD) : main (F := F) c = Pipeline.Seg.run (segs m ρ) :=
  (main_chain c).trans (by chain_rfl)

abbrev Tₙ (c : Dev nD) : sProp 𝕄 :=
  iprop(StableHlo.held (c : Thread nD τ) (Pipeline.ucRefs τ sig) (W37 m ρ c) ∗ ∃ r, prngReg c r)

-- Each segment is entered from the state the one before it leaves, by definition of the valuations.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W37 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone; iempintro)
    (T₀ := St (W0 m ρ)) (Tₙ := Tₙ m ρ)
    (hch := by
      repeat refine ⟨fun _ => .rfl, ?_⟩
      exact fun _ => sep_assoc.2)
    (hinit := by
      refine Pipeline.initEach L lv fun c => ?_
      have hbufs : (unscopedBufs c (fun b => m ((c : Thread nD τ).loc b)) : sProp 𝕄)
          = StableHlo.held (c : Thread nD τ) (Pipeline.ucRefs τ sig) (W0 m ρ c) := Pipeline.unscopedBufs_held c (W0 m ρ c)
      rw [hbufs]
      iintro ⟨⟨Hbufs, -, Hdue, -, Hgen, -⟩, -⟩
      imodintro
      isplitl [Hbufs]
      · iexact Hbufs
      isplitl [Hgen]
      · iexists _; iexact Hgen
      iexists ∅; iexact Hdue)
    (QY := fun c s => ∀ b ∈ Pipeline.ucRefs τ sig, s.mem (((c : Thread nD τ)).1, b) = W37 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W37 m ρ c) s')
      isplitl [Hbufs] <;> iassumption)
    (hQ := fun _ h => h)

end Cert.KernelIdeal.Hand

end
-- ==== Proof.KI.Keep.lean ====
import proofs.«406479_j78563541778981_1_alg».proof.Proof.KI.Fold

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

-- An input window's array keeps its entry contents, and the one reference an output window may change is excluded.
theorem keep_of_dat {cfg : Pipeline.Cfg sig Λ₀} {c : Dev nD} (dat : Dat τ (Elt F) Unit ℕ (UR sig nD τ) ℕ cfg c)
    (hinj : Function.Injective (Pipeline.arrRef cfg.spec)) {V : Valuation τ sig (Elt F)}
    (hA : ∀ w, dat.A w = V (Proc.devRef .tc (Pipeline.arrRef cfg.spec w))) {r out : Ref sig .tc} (h : r ≠ out)
    (hio : ∀ w, (cfg.win w).isOut = false ∨ Pipeline.arrRef cfg.spec w = out) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj]
    exact (dat.arrAt_in w ((hio w).resolve_right h) _).trans (hA w)
  · exact Pipeline.withArrays_of_ne _ c V _ r fun w e => hr ⟨w, e⟩

variable (m : (ℓ : Loc nD τ sig) → Buf (Elt F) ℓ) (ρ : Dev nD → PrngReg)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_keep (c : Dev nD) (r : Ref sig .tc) (h : r ≠ main_v5) :
    W2 m ρ c (Proc.devRef .tc r) = W1 m ρ c (Proc.devRef .tc r) :=
  keep_of_dat (dat0 (X1 m ρ) c) launch0.win.arr_inj (A_eq0 (X1 m ρ) c) h (by decide)
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_keep (c : Dev nD) (r : Ref sig .tc) (h : r ≠ main_v26) :
    W4 m ρ c (Proc.devRef .tc r) = W3 m ρ c (Proc.devRef .tc r) :=
  keep_of_dat (dat1 (X3 m ρ) c) launch1.win.arr_inj (A_eq1 (X3 m ρ) c) h (by decide)
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_keep (c : Dev nD) (r : Ref sig .tc) (h : r ≠ main_v39) :
    W8 m ρ c (Proc.devRef .tc r) = W7 m ρ c (Proc.devRef .tc r) :=
  keep_of_dat (dat2 (X7 m ρ) c) launch2.win.arr_inj (A_eq2 (X7 m ρ) c) h (by decide)
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
theorem W10_keep (c : Dev nD) (r : Ref sig .tc) (h : r ≠ main_v60) :
    W10 m ρ c (Proc.devRef .tc r) = W9 m ρ c (Proc.devRef .tc r) :=
  keep_of_dat (dat3 (X9 m ρ) c) launch3.win.arr_inj (A_eq3 (X9 m ρ) c) h (by decide)
theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h
theorem W12_of (c : Dev nD) (r : Ref sig .tc) (h : r ∉ hostOps4_1_W) :
    W12 m ρ c (Proc.devRef .tc r) = W11 m ρ c (Proc.devRef .tc r) :=
  StableHlo.after_of_writes_sub hostOps4_1 _ hostOps4_1_writes h
theorem W13_of (c : Dev nD) (r : Ref sig .tc) (h : r ∉ hostOps4_2_W) :
    W13 m ρ c (Proc.devRef .tc r) = W12 m ρ c (Proc.devRef .tc r) :=
  StableHlo.after_of_writes_sub hostOps4_2 _ hostOps4_2_writes h
theorem W14_keep (c : Dev nD) (r : Ref sig .tc) (h : r ≠ main_v73) :
    W14 m ρ c (Proc.devRef .tc r) = W13 m ρ c (Proc.devRef .tc r) :=
  keep_of_dat (dat4 (X13 m ρ) c) launch4.win.arr_inj (A_eq4 (X13 m ρ) c) h (by decide)
theorem W15_of (c : Dev nD) (r : Ref sig .tc) (h : r ∉ hostOps5_W) :
    W15 m ρ c (Proc.devRef .tc r) = W14 m ρ c (Proc.devRef .tc r) :=
  StableHlo.after_of_writes_sub hostOps5 _ hostOps5_writes h
theorem W16_keep (c : Dev nD) (r : Ref sig .tc) (h : r ≠ main_v94) :
    W16 m ρ c (Proc.devRef .tc r) = W15 m ρ c (Proc.devRef .tc r) :=
  keep_of_dat (dat5 (X15 m ρ) c) launch5.win.arr_inj (A_eq5 (X15 m ρ) c) h (by decide)
theorem W17_of (c : Dev nD) (r : Ref sig .tc) (h : r ∉ hostOps6_W) :
    W17 m ρ c (Proc.devRef .tc r) = W16 m ρ c (Proc.devRef .tc r) :=
  StableHlo.after_of_writes_sub hostOps6 _ hostOps6_writes h
theorem W18_of (c : Dev nD) (r : Ref sig .tc) (h : r ∉ hostOps6_1_W) :
    W18 m ρ c (Proc.devRef .tc r) = W17 m ρ c (Proc.devRef .tc r) :=
  StableHlo.after_of_writes_sub hostOps6_1 _ hostOps6_1_writes h
theorem W19_of (c : Dev nD) (r : Ref sig .tc) (h : r ∉ hostOps6_2_W) :
    W19 m ρ c (Proc.devRef .tc r) = W18 m ρ c (Proc.devRef .tc r) :=
  StableHlo.after_of_writes_sub hostOps6_2 _ hostOps6_2_writes h
theorem W20_keep (c : Dev nD) (r : Ref sig .tc) (h : r ≠ main_v107) :
    W20 m ρ c (Proc.devRef .tc r) = W19 m ρ c (Proc.devRef .tc r) :=
  keep_of_dat (dat6 (X19 m ρ) c) launch6.win.arr_inj (A_eq6 (X19 m ρ) c) h (by decide)
theorem W21_of (c : Dev nD) (r : Ref sig .tc) (h : r ∉ hostOps7_W) :
    W21 m ρ c (Proc.devRef .tc r) = W20 m ρ c (Proc.devRef .tc r) :=
  StableHlo.after_of_writes_sub hostOps7 _ hostOps7_writes h
theorem W22_keep (c : Dev nD) (r : Ref sig .tc) (h : r ≠ main_v128) :
    W22 m ρ c (Proc.devRef .tc r) = W21 m ρ c (Proc.devRef .tc r) :=
  keep_of_dat (dat7 (X21 m ρ) c) launch7.win.arr_inj (A_eq7 (X21 m ρ) c) h (by decide)
theorem W23_of (c : Dev nD) (r : Ref sig .tc) (h : r ∉ hostOps8_W) :
    W23 m ρ c (Proc.devRef .tc r) = W22 m ρ c (Proc.devRef .tc r) :=
  StableHlo.after_of_writes_sub hostOps8 _ hostOps8_writes h
theorem W24_of (c : Dev nD) (r : Ref sig .tc) (h : r ∉ hostOps8_1_W) :
    W24 m ρ c (Proc.devRef .tc r) = W23 m ρ c (Proc.devRef .tc r) :=
  StableHlo.after_of_writes_sub hostOps8_1 _ hostOps8_1_writes h
theorem W25_of (c : Dev nD) (r : Ref sig .tc) (h : r ∉ hostOps8_2_W) :
    W25 m ρ c (Proc.devRef .tc r) = W24 m ρ c (Proc.devRef .tc r) :=
  StableHlo.after_of_writes_sub hostOps8_2 _ hostOps8_2_writes h
theorem W26_keep (c : Dev nD) (r : Ref sig .tc) (h : r ≠ main_v141) :
    W26 m ρ c (Proc.devRef .tc r) = W25 m ρ c (Proc.devRef .tc r) :=
  keep_of_dat (dat8 (X25 m ρ) c) launch8.win.arr_inj (A_eq8 (X25 m ρ) c) h (by decide)
theorem W27_of (c : Dev nD) (r : Ref sig .tc) (h : r ∉ hostOps9_W) :
    W27 m ρ c (Proc.devRef .tc r) = W26 m ρ c (Proc.devRef .tc r) :=
  StableHlo.after_of_writes_sub hostOps9 _ hostOps9_writes h
theorem W28_keep (c : Dev nD) (r : Ref sig .tc) (h : r ≠ main_v162) :
    W28 m ρ c (Proc.devRef .tc r) = W27 m ρ c (Proc.devRef .tc r) :=
  keep_of_dat (dat9 (X27 m ρ) c) launch9.win.arr_inj (A_eq9 (X27 m ρ) c) h (by decide)
theorem W29_of (c : Dev nD) (r : Ref sig .tc) (h : r ∉ hostOps10_W) :
    W29 m ρ c (Proc.devRef .tc r) = W28 m ρ c (Proc.devRef .tc r) :=
  StableHlo.after_of_writes_sub hostOps10 _ hostOps10_writes h
theorem W30_of (c : Dev nD) (r : Ref sig .tc) (h : r ∉ hostOps10_1_W) :
    W30 m ρ c (Proc.devRef .tc r) = W29 m ρ c (Proc.devRef .tc r) :=
  StableHlo.after_of_writes_sub hostOps10_1 _ hostOps10_1_writes h
theorem W31_of (c : Dev nD) (r : Ref sig .tc) (h : r ∉ hostOps10_2_W) :
    W31 m ρ c (Proc.devRef .tc r) = W30 m ρ c (Proc.devRef .tc r) :=
  StableHlo.after_of_writes_sub hostOps10_2 _ hostOps10_2_writes h
theorem W32_keep (c : Dev nD) (r : Ref sig .tc) (h : r ≠ main_v175) :
    W32 m ρ c (Proc.devRef .tc r) = W31 m ρ c (Proc.devRef .tc r) :=
  keep_of_dat (dat10 (X31 m ρ) c) launch10.win.arr_inj (A_eq10 (X31 m ρ) c) h (by decide)
theorem W33_of (c : Dev nD) (r : Ref sig .tc) (h : r ∉ hostOps11_W) :
    W33 m ρ c (Proc.devRef .tc r) = W32 m ρ c (Proc.devRef .tc r) :=
  StableHlo.after_of_writes_sub hostOps11 _ hostOps11_writes h
theorem W34_keep (c : Dev nD) (r : Ref sig .tc) (h : r ≠ main_v185) :
    W34 m ρ c (Proc.devRef .tc r) = W33 m ρ c (Proc.devRef .tc r) :=
  keep_of_dat (dat11 (X33 m ρ) c) launch11.win.arr_inj (A_eq11 (X33 m ρ) c) h (by decide)
theorem W35_of (c : Dev nD) (r : Ref sig .tc) (h : r ∉ hostOps12_W) :
    W35 m ρ c (Proc.devRef .tc r) = W34 m ρ c (Proc.devRef .tc r) :=
  StableHlo.after_of_writes_sub hostOps12 _ hostOps12_writes h
theorem W36_keep (c : Dev nD) (r : Ref sig .tc) (h : r ≠ main_v188) :
    W36 m ρ c (Proc.devRef .tc r) = W35 m ρ c (Proc.devRef .tc r) :=
  keep_of_dat (dat12 (X35 m ρ) c) launch12.win.arr_inj (A_eq12 (X35 m ρ) c) h (by decide)
theorem W37_of (c : Dev nD) (r : Ref sig .tc) (h : r ∉ hostOps13_W) :
    W37 m ρ c (Proc.devRef .tc r) = W36 m ρ c (Proc.devRef .tc r) :=
  StableHlo.after_of_writes_sub hostOps13 _ hostOps13_writes h

end Cert.KernelIdeal.Hand

end
-- ==== Proof.KI.KeepArgs.lean ====
import proofs.«406479_j78563541778981_1_alg».proof.Proof.KI.Keep

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

-- Each item changes only what it writes, so the 37 one-item facts chain.
theorem W37_untouched (c : Dev nD) (r : Ref sig .tc)
    (h : r ∉ hostOps0_W ∧ r ≠ main_v5 ∧ r ∉ hostOps1_W ∧ r ≠ main_v26 ∧ r ∉ hostOps2_W ∧ r ∉ hostOps2_1_W ∧
      r ∉ hostOps2_2_W ∧ r ≠ main_v39 ∧ r ∉ hostOps3_W ∧ r ≠ main_v60 ∧ r ∉ hostOps4_W ∧ r ∉ hostOps4_1_W ∧
      r ∉ hostOps4_2_W ∧ r ≠ main_v73 ∧ r ∉ hostOps5_W ∧ r ≠ main_v94 ∧ r ∉ hostOps6_W ∧ r ∉ hostOps6_1_W ∧
      r ∉ hostOps6_2_W ∧ r ≠ main_v107 ∧ r ∉ hostOps7_W ∧ r ≠ main_v128 ∧ r ∉ hostOps8_W ∧ r ∉ hostOps8_1_W ∧
      r ∉ hostOps8_2_W ∧ r ≠ main_v141 ∧ r ∉ hostOps9_W ∧ r ≠ main_v162 ∧ r ∉ hostOps10_W ∧ r ∉ hostOps10_1_W ∧
      r ∉ hostOps10_2_W ∧ r ≠ main_v175 ∧ r ∉ hostOps11_W ∧ r ≠ main_v185 ∧ r ∉ hostOps12_W ∧ r ≠ main_v188 ∧
      r ∉ hostOps13_W := by and_intros <;> decide) :
    W37 m ρ c (Proc.devRef .tc r) = W0 m ρ c (Proc.devRef .tc r) :=
  let ⟨h0, h1, h2, h3, h4, h5, h6, h7, h8, h9, h10, h11, h12, h13, h14, h15, h16, h17, h18, h19, h20, h21, h22, h23, h24,
    h25, h26, h27, h28, h29, h30, h31, h32, h33, h34, h35, h36⟩ := h
  (W37_of m ρ c r h36).trans <| (W36_keep m ρ c r h35).trans <| (W35_of m ρ c r h34).trans <|
  (W34_keep m ρ c r h33).trans <| (W33_of m ρ c r h32).trans <| (W32_keep m ρ c r h31).trans <|
  (W31_of m ρ c r h30).trans <| (W30_of m ρ c r h29).trans <| (W29_of m ρ c r h28).trans <|
  (W28_keep m ρ c r h27).trans <| (W27_of m ρ c r h26).trans <| (W26_keep m ρ c r h25).trans <|
  (W25_of m ρ c r h24).trans <| (W24_of m ρ c r h23).trans <| (W23_of m ρ c r h22).trans <|
  (W22_keep m ρ c r h21).trans <| (W21_of m ρ c r h20).trans <| (W20_keep m ρ c r h19).trans <|
  (W19_of m ρ c r h18).trans <| (W18_of m ρ c r h17).trans <| (W17_of m ρ c r h16).trans <|
  (W16_keep m ρ c r h15).trans <| (W15_of m ρ c r h14).trans <| (W14_keep m ρ c r h13).trans <|
  (W13_of m ρ c r h12).trans <| (W12_of m ρ c r h11).trans <| (W11_of m ρ c r h10).trans <|
  (W10_keep m ρ c r h9).trans <| (W9_of m ρ c r h8).trans <| (W8_keep m ρ c r h7).trans <| (W7_of m ρ c r h6).trans <|
  (W6_of m ρ c r h5).trans <| (W5_of m ρ c r h4).trans <| (W4_keep m ρ c r h3).trans <| (W3_of m ρ c r h2).trans <|
  (W2_keep m ρ c r h1).trans <| (W1_of m ρ c r h0)

theorem W37_main_arg0 (c : Dev nD) : W37 m ρ c (Proc.devRef .tc main_arg0) = m ((c : Thread nD τ).loc main_arg0) :=
  W37_untouched m ρ c main_arg0
theorem W37_main_arg1 (c : Dev nD) : W37 m ρ c (Proc.devRef .tc main_arg1) = m ((c : Thread nD τ).loc main_arg1) :=
  W37_untouched m ρ c main_arg1
theorem W37_main_arg2 (c : Dev nD) : W37 m ρ c (Proc.devRef .tc main_arg2) = m ((c : Thread nD τ).loc main_arg2) :=
  W37_untouched m ρ c main_arg2
theorem W37_main_arg3 (c : Dev nD) : W37 m ρ c (Proc.devRef .tc main_arg3) = m ((c : Thread nD τ).loc main_arg3) :=
  W37_untouched m ρ c main_arg3
theorem W37_main_arg4 (c : Dev nD) : W37 m ρ c (Proc.devRef .tc main_arg4) = m ((c : Thread nD τ).loc main_arg4) :=
  W37_untouched m ρ c main_arg4
theorem W37_main_arg5 (c : Dev nD) : W37 m ρ c (Proc.devRef .tc main_arg5) = m ((c : Thread nD τ).loc main_arg5) :=
  W37_untouched m ρ c main_arg5
theorem W37_main_arg6 (c : Dev nD) : W37 m ρ c (Proc.devRef .tc main_arg6) = m ((c : Thread nD τ).loc main_arg6) :=
  W37_untouched m ρ c main_arg6
theorem W37_main_arg7 (c : Dev nD) : W37 m ρ c (Proc.devRef .tc main_arg7) = m ((c : Thread nD τ).loc main_arg7) :=
  W37_untouched m ρ c main_arg7
theorem W37_main_arg8 (c : Dev nD) : W37 m ρ c (Proc.devRef .tc main_arg8) = m ((c : Thread nD τ).loc main_arg8) :=
  W37_untouched m ρ c main_arg8
theorem W37_main_arg9 (c : Dev nD) : W37 m ρ c (Proc.devRef .tc main_arg9) = m ((c : Thread nD τ).loc main_arg9) :=
  W37_untouched m ρ c main_arg9
theorem W37_main_arg10 (c : Dev nD) : W37 m ρ c (Proc.devRef .tc main_arg10) = m ((c : Thread nD τ).loc main_arg10) :=
  W37_untouched m ρ c main_arg10
theorem W37_main_arg11 (c : Dev nD) : W37 m ρ c (Proc.devRef .tc main_arg11) = m ((c : Thread nD τ).loc main_arg11) :=
  W37_untouched m ρ c main_arg11
theorem W37_main_arg12 (c : Dev nD) : W37 m ρ c (Proc.devRef .tc main_arg12) = m ((c : Thread nD τ).loc main_arg12) :=
  W37_untouched m ρ c main_arg12
theorem W37_main_arg13 (c : Dev nD) : W37 m ρ c (Proc.devRef .tc main_arg13) = m ((c : Thread nD τ).loc main_arg13) :=
  W37_untouched m ρ c main_arg13
theorem W37_main_arg14 (c : Dev nD) : W37 m ρ c (Proc.devRef .tc main_arg14) = m ((c : Thread nD τ).loc main_arg14) :=
  W37_untouched m ρ c main_arg14

theorem arg_of_run {c : Dev nD} {m' : (ℓ : Loc nD τ sig) → Buf (Elt F) ℓ} {r : Ref sig .tc}
    (hr : ∀ b ∈ Pipeline.ucRefs τ sig, m' ((c : Thread nD τ).1, b) = W37 m ρ c b)
    (hW : W37 m ρ c (Proc.devRef .tc r) = m ((c : Thread nD τ).loc r))
    (hu : ¬ (Proc.devRef .tc r : DevRef τ sig).isScoped := by decide) :
    m' ((c.tc : Thread nD τ).loc r) = m ((c.tc : Thread nD τ).loc r) :=
  (hr _ (Finset.mem_filter.mpr ⟨StableHlo.devRef_mem_tcRefs r, hu⟩)).trans hW

theorem frame_of_run
    (h : θ_run defs (onTc (τ := τ) (main (F := F))) ⟨m, fun _ => 0, ρ⟩
      (fun r => ∀ c : Dev nD, ∀ b ∈ Pipeline.ucRefs τ sig, r.2.mem (((c : Thread nD τ)).1, b) = W37 m ρ c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hr c =>
    ⟨arg_of_run m ρ (hr c) (W37_main_arg0 m ρ c), arg_of_run m ρ (hr c) (W37_main_arg1 m ρ c),
     arg_of_run m ρ (hr c) (W37_main_arg2 m ρ c), arg_of_run m ρ (hr c) (W37_main_arg3 m ρ c),
     arg_of_run m ρ (hr c) (W37_main_arg4 m ρ c), arg_of_run m ρ (hr c) (W37_main_arg5 m ρ c),
     arg_of_run m ρ (hr c) (W37_main_arg6 m ρ c), arg_of_run m ρ (hr c) (W37_main_arg7 m ρ c),
     arg_of_run m ρ (hr c) (W37_main_arg8 m ρ c), arg_of_run m ρ (hr c) (W37_main_arg9 m ρ c),
     arg_of_run m ρ (hr c) (W37_main_arg10 m ρ c), arg_of_run m ρ (hr c) (W37_main_arg11 m ρ c),
     arg_of_run m ρ (hr c) (W37_main_arg12 m ρ c), arg_of_run m ρ (hr c) (W37_main_arg13 m ρ c),
     arg_of_run m ρ (hr c) (W37_main_arg14 m ρ c)⟩) h

end Cert.KernelIdeal.Hand

end
-- ==== Proof.Val.LinSpec.lean ====
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws
import proofs.«406479_j78563541778981_1_alg».proof.KernelIdeal
import proofs.«406479_j78563541778981_1_alg».proof.ReferenceIdeal

noncomputable section

namespace Cert.Val.Lin

open Idealize.ShloMosaic Idealize.ShloMosaic.ValueIdx
open scoped BigOperators

-- `x · W + b`: entry `(r, j)` is `∑ k, x (r, k) · W (k, j)` plus the bias row's entry `j`.
def linG (x : Vec Ideal ⟨2, ![100000, 64]⟩ .f32) (W : Vec Ideal ⟨2, ![64, 64]⟩ .f32) (b : Vec Ideal ⟨2, ![1, 64]⟩ .f32) :
    Vec Ideal ⟨2, ![100000, 64]⟩ .f32 :=
  fun i => (∑ k : Fin 64, x (ix2 (i 0) k) * W (ix2 k (i 1))) + b (ix2 (0 : Fin 1) (i 1))

theorem linG_apply (x : Vec Ideal ⟨2, ![100000, 64]⟩ .f32) (W : Vec Ideal ⟨2, ![64, 64]⟩ .f32) (b : Vec Ideal ⟨2, ![1, 64]⟩ .f32)
    (r : Fin 100000) (j : Fin 64) :
    linG x W b (ix2 r j) = (∑ k : Fin 64, x (ix2 r k) * W (ix2 k j)) + b (ix2 (0 : Fin 1) j) := rfl

-- The host's product is the plain matrix product, and both ways of laying the bias along a row read its entry `j` in column `j`.
theorem ref_lin [Cert.ReferenceIdeal.Facts₀] [Cert.KernelIdeal.Facts₀]
    (x : FVec Ideal Cert.ReferenceIdeal.S100000x64 .f32) (W : FVec Ideal Cert.ReferenceIdeal.S64x64 .f32)
    (bs : FVec Ideal Cert.ReferenceIdeal.S64 .f32) :
    addf (Host.dotGeneral (F := Ideal) (φ₁ := .f32) (φ₂ := .f32) Cert.ReferenceIdeal.dot_S100000x64_S64x64_S100000x64_1_0_0_1_n_n none x W)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 bs))
      = linG x W (shapeCast Cert.KernelIdeal.S1x64 bs Cert.KernelIdeal.Facts₀.shapeCasts_S64_S1x64) := by
  funext i
  obtain ⟨r, j, rfl⟩ : ∃ (r : Fin 100000) (j : Fin 64), i = ix2 r j := ⟨i 0, i 1, eq_ix2 i⟩
  rw [linG_apply, addf_apply, shapeCast_a_1a_apply, broadcastInDim_oneRow_apply,
    broadcastInDim_apply ![1] _ bs (ix2 (0 : Fin 1) j) (ix1 j) fun a => by fin_cases a; rfl]
  exact congrArg (· + _) (StackMember.dotGeneral_plain_apply none x W r j)

end Cert.Val.Lin

end
-- ==== Proof.Val.BnSpec.lean ====
import Idealize.ShloMosaic.Lib.KernelVsHost
import Idealize.ShloMosaic.Lib.ValueLayout
import Idealize.ShloMosaic.Lib.IdealHost

noncomputable section

namespace Cert.Val

open Idealize.ShloMosaic Idealize.ShloMosaic.ValueIdx

abbrev bnCol (i : (⟨2, ![100000, 64]⟩ : Shape).Idx) : (⟨2, ![1, 64]⟩ : Shape).Idx :=
  ix2 (0 : Fin 1) (⟨(i 1).val, idx2_lt1 i⟩ : Fin 64)

def bnG (z : Vec Ideal (⟨2, ![100000, 64]⟩ : Shape) .f32) (mean var gamma beta : Vec Ideal (⟨2, ![1, 64]⟩ : Shape) .f32) :
    Vec Ideal (⟨2, ![100000, 64]⟩ : Shape) .f32 :=
  fun i => (gamma (bnCol i) : EReal) * ((z i : EReal) - (mean (bnCol i) : EReal))
    * Ideal.rsqrt ((var (bnCol i) : EReal) + Ideal.ofBits .f32 0x3727C5AC#32) + (beta (bnCol i) : EReal)

def bnAt (g x m v b : EReal) : EReal := g * (x - m) * Ideal.rsqrt (v + Ideal.ofBits .f32 0x3727C5AC#32) + b

theorem bnG_apply (z : Vec Ideal (⟨2, ![100000, 64]⟩ : Shape) .f32) (mean var gamma beta : Vec Ideal (⟨2, ![1, 64]⟩ : Shape) .f32)
    (r : Fin 100000) (j : Fin 64) :
    bnG z mean var gamma beta (ix2 r j) = bnAt (gamma (ix2 (0 : Fin 1) j)) (z (ix2 r j)) (mean (ix2 (0 : Fin 1) j))
      (var (ix2 (0 : Fin 1) j)) (beta (ix2 (0 : Fin 1) j)) := rfl

theorem bn_hz : (![0, 0] : Fin 2 → Nat) = fun _ => 0 := funext fun a => by fin_cases a <;> rfl

-- An entry of the step reads z at that entry and the four rows at its column.
theorem bnG_of_entry {n : Nat} {Z : Vec Ideal (⟨2, ![100000, 64]⟩ : Shape) .f32}
    {M Va Ga Be m va ga be : Vec Ideal (⟨2, ![1, 64]⟩ : Shape) .f32} {z : Vec Ideal (⟨2, ![n, 64]⟩ : Shape) .f32}
    (p : Fin n) (q : Fin 64) (i : (⟨2, ![100000, 64]⟩ : Shape).Idx) (hq : (i 1).val = q.val) (hz : z (ix2 p q) = Z i)
    (hm : m = M) (hva : va = Va) (hga : ga = Ga) (hbe : be = Be) :
    bnAt (ga (ix2 (0 : Fin 1) q)) (z (ix2 p q)) (m (ix2 (0 : Fin 1) q)) (va (ix2 (0 : Fin 1) q)) (be (ix2 (0 : Fin 1) q))
      = bnG Z M Va Ga Be i := by
  subst hm hva hga hbe
  obtain ⟨R, J, rfl⟩ : ∃ (R : Fin 100000) (J : Fin 64), i = ix2 R J := ⟨i 0, i 1, eq_ix2 i⟩
  obtain rfl : J = q := Fin.ext hq
  rw [bnG_apply, hz]

-- Both sides read entry j of each 64-vector at (r, j).
theorem ref_bn (hb1 : (⟨1, ![64]⟩ : Shape).BroadcastsInDim ⟨2, ![1, 64]⟩ (![1] : Fin 1 → Fin 2))
    (hb2 : (⟨2, ![1, 64]⟩ : Shape).BroadcastsInDim ⟨2, ![100000, 64]⟩ (![0, 1] : Fin 2 → Fin 2))
    (hb0 : (⟨0, ![]⟩ : Shape).BroadcastsInDim ⟨1, ![64]⟩ (![] : Fin 0 → Fin 1))
    (hc : (⟨1, ![64]⟩ : Shape).ShapeCasts ⟨2, ![1, 64]⟩)
    (z : Vec Ideal (⟨2, ![100000, 64]⟩ : Shape) .f32) (mean var gamma beta : Vec Ideal (⟨1, ![64]⟩ : Shape) .f32) :
    addf (F := Ideal) (φ := .f32)
      (mulf (F := Ideal) (φ := .f32)
        (mulf (F := Ideal) (φ := .f32)
          (broadcastInDim (⟨2, ![100000, 64]⟩ : Shape) ![0, 1] hb2 (broadcastInDim (⟨2, ![1, 64]⟩ : Shape) ![1] hb1 gamma))
          (subf (F := Ideal) (φ := .f32) z
            (broadcastInDim (⟨2, ![100000, 64]⟩ : Shape) ![0, 1] hb2 (broadcastInDim (⟨2, ![1, 64]⟩ : Shape) ![1] hb1 mean))))
        (broadcastInDim (⟨2, ![100000, 64]⟩ : Shape) ![0, 1] hb2 (broadcastInDim (⟨2, ![1, 64]⟩ : Shape) ![1] hb1
          (Host.rsqrt (F := Ideal) (φ := .f32)
            (addf (F := Ideal) (φ := .f32) var
              (broadcastInDim (⟨1, ![64]⟩ : Shape) ![] hb0 (constant (F := Ideal) (⟨0, ![]⟩ : Shape) .f32 0x3727C5AC#32)))))))
      (broadcastInDim (⟨2, ![100000, 64]⟩ : Shape) ![0, 1] hb2 (broadcastInDim (⟨2, ![1, 64]⟩ : Shape) ![1] hb1 beta))
    = bnG z (shapeCast (⟨2, ![1, 64]⟩ : Shape) mean hc) (shapeCast (⟨2, ![1, 64]⟩ : Shape) var hc)
        (shapeCast (⟨2, ![1, 64]⟩ : Shape) gamma hc) (shapeCast (⟨2, ![1, 64]⟩ : Shape) beta hc) := by
  funext i
  obtain ⟨r, j, rfl⟩ : ∃ (r : Fin 100000) (j : Fin 64), i = ix2 r j := ⟨i 0, i 1, eq_ix2 i⟩
  have hb (v : Vec Ideal (⟨1, ![64]⟩ : Shape) .f32) : broadcastInDim (⟨2, ![100000, 64]⟩ : Shape) ![0, 1] hb2
      (broadcastInDim (⟨2, ![1, 64]⟩ : Shape) ![1] hb1 v) (ix2 r j) = v (ix1 j) :=
    (broadcastInDim_oneRow_apply hb2 _ r j).trans
      (broadcastInDim_apply ![1] hb1 v (ix2 (0 : Fin 1) j) (ix1 j) fun a => by fin_cases a; rfl)
  rw [bnG_apply]
  simp only [shapeCast_a_1a_apply, addf_apply, mulf_apply, subf_apply, hb]
  rfl

end Cert.Val

end
-- ==== Proof.Val.PoolSpec.lean ====
import Idealize.ShloMosaic.PureOps.Ideal
import Idealize.ShloMosaic.Lib.ValueIdx
import Mathlib.Algebra.BigOperators.Fin

noncomputable section

open scoped BigOperators

namespace Cert.Val.Pool

open Idealize.ShloMosaic Idealize.ShloMosaic.ValueIdx

abbrev SNodesGraphs : Shape := ⟨2, ![100000, 128]⟩
abbrev SNodesFeats : Shape := ⟨2, ![100000, 320]⟩
abbrev SGraphsFeats : Shape := ⟨2, ![128, 320]⟩

-- Entry `(g, d)` is the sum over every node `n` of `oh[n, g] * hc[n, d]`.
def poolG (oh : Vec Ideal SNodesGraphs .bf16) (hc : Vec Ideal SNodesFeats .bf16) : Vec Ideal SGraphsFeats .f32 :=
  fun j => ∑ n : Fin 100000, oh (ix2 n (j 0 : Fin 128)) * hc (ix2 n (j 1 : Fin 320))

theorem poolG_apply (oh : Vec Ideal SNodesGraphs .bf16) (hc : Vec Ideal SNodesFeats .bf16) (g : Fin 128) (d : Fin 320) :
    poolG oh hc (ix2 g d) = ∑ n : Fin 100000, oh (ix2 n g) * hc (ix2 n d) := rfl

def poolTerm (oh : Vec Ideal SNodesGraphs .bf16) (hc : Vec Ideal SNodesFeats .bf16) (g : Fin 128) (d : Fin 320) (k : ℕ) : EReal :=
  if h : k < 100000 then oh (ix2 (⟨k, h⟩ : Fin 100000) g) * hc (ix2 (⟨k, h⟩ : Fin 100000) d) else 0

theorem poolTerm_of_lt (oh : Vec Ideal SNodesGraphs .bf16) (hc : Vec Ideal SNodesFeats .bf16) (g : Fin 128) (d : Fin 320)
    (k : ℕ) (h : k < 100000) :
    poolTerm oh hc g d k = oh (ix2 (⟨k, h⟩ : Fin 100000) g) * hc (ix2 (⟨k, h⟩ : Fin 100000) d) := dif_pos h

theorem poolG_apply_range (oh : Vec Ideal SNodesGraphs .bf16) (hc : Vec Ideal SNodesFeats .bf16) (g : Fin 128) (d : Fin 320) :
    poolG oh hc (ix2 g d) = ∑ k ∈ Finset.range 100000, poolTerm oh hc g d k := by
  rw [poolG_apply, ← Fin.sum_univ_eq_sum_range (fun k => poolTerm oh hc g d k) 100000]
  exact Finset.sum_congr rfl fun n _ => (poolTerm_of_lt oh hc g d n.val n.isLt).symm

end Cert.Val.Pool

end
-- ==== Proof.Val.GinSpec.lean ====
import proofs.«406479_j78563541778981_1_alg».proof.ReferenceIdeal
import proofs.«406479_j78563541778981_1_alg».proof.Proof.Gen.ReferenceIdeal
import Idealize.ShloMosaic.Lib.StackMember
import Idealize.ShloMosaic.Lib.ValueLayout

noncomputable section

open Idealize.ShloMosaic Idealize.ShloMosaic.ValueIdx
open scoped BigOperators

namespace Cert.Val.Gin

def mlpAt {m : Nat} (h agg : FVec Ideal ⟨2, ![m, 64]⟩ .f32) (W1 : FVec Ideal ⟨2, ![64, 64]⟩ .f32)
    (b1 : FVec Ideal ⟨2, ![1, 64]⟩ .f32) (W2 : FVec Ideal ⟨2, ![64, 64]⟩ .f32) (b2 : FVec Ideal ⟨2, ![1, 64]⟩ .f32)
    (r : Fin m) (j : Fin 64) : EReal :=
  max ((∑ k' : Fin 64,
        max ((∑ k : Fin 64, (h (ix2 r k) + agg (ix2 r k)) * W1 (ix2 k k')) + b1 (ix2 (0 : Fin 1) k')) 0 * W2 (ix2 k' j))
      + b2 (ix2 (0 : Fin 1) j)) 0

open Cert.ReferenceIdeal in
def ginG (h agg : Vec Ideal S100000x64 .f32) (W1 : Vec Ideal S64x64 .f32) (b1 : Vec Ideal S1x64 .f32)
    (W2 : Vec Ideal S64x64 .f32) (b2 : Vec Ideal S1x64 .f32) : Vec Ideal S100000x64 .f32 :=
  fun i => mlpAt (m := 100000) h agg W1 b1 W2 b2 (i 0) (i 1)

-- An entry of the perceptron reads its two feature arrays through one row only.
open Cert.ReferenceIdeal in
theorem ginG_of_rows {m : Nat} {B0 B1 : FVec Ideal ⟨2, ![m, 64]⟩ .f32} {A0 A1 : FVec Ideal S100000x64 .f32}
    {B2 A2 B4 A4 : FVec Ideal S64x64 .f32} {B3 A3 B5 A5 : FVec Ideal S1x64 .f32}
    (p : Fin m) (q : Fin 64) (i : S100000x64.Idx) (hq : (i 1).val = q.val)
    (h0 : ∀ k, B0 (ix2 p k) = A0 (ix2 (i 0) k)) (h1 : ∀ k, B1 (ix2 p k) = A1 (ix2 (i 0) k))
    (h2 : B2 = A2) (h3 : B3 = A3) (h4 : B4 = A4) (h5 : B5 = A5) :
    mlpAt B0 B1 B2 B3 B4 B5 p q = ginG A0 A1 A2 A3 A4 A5 i := by
  subst h2 h3 h4 h5
  obtain rfl : i 1 = q := Fin.ext hq
  unfold ginG mlpAt
  simp only [h0, h1]

theorem offsets_zero : (![0, 0] : Fin 2 → Nat) = fun _ => 0 := funext fun a => by fin_cases a <;> rfl

theorem zeroWord_eq : (Scalar.ofBits (F := Ideal) .f32 0x00000000#32 : Ideal .f32) = 0 := Ideal.ofBits_zero_f32

-- An m × 64 block times a 64 × 64 matrix, at an entry: the sum over the contracted coordinate.
theorem dot_apply {m : Nat} {φ₁ φ₂ : FTy} (d : DotDims ⟨2, ![m, 64]⟩ ⟨2, ![64, 64]⟩ ⟨2, ![m, 64]⟩)
    (hd : d = DotDims.plain m 64 64) (A : FVec Ideal ⟨2, ![m, 64]⟩ φ₁) (B : FVec Ideal ⟨2, ![64, 64]⟩ φ₂)
    (p : Fin m) (q : Fin 64) :
    Host.dotGeneral d none A B (ix2 p q) = ∑ c : Fin 64, A (ix2 p c) * B (ix2 c q) :=
  hd ▸ StackMember.dotGeneral_plain_apply none A B p q

section Reference

open Cert.ReferenceIdeal Cert.ReferenceIdeal.Facts₀

theorem ref_gin (h agg : FVec Ideal S100000x64 .f32) (W1 : FVec Ideal S64x64 .f32) (b1 : FVec Ideal S64 .f32)
    (W2 : FVec Ideal S64x64 .f32) (b2 : FVec Ideal S64 .f32) (hsc : S64.ShapeCasts S1x64) :
    maximumf
        (addf
          (Host.dotGeneral dot_S100000x64_S64x64_S100000x64_1_0_0_1_n_n none
            (maximumf
              (addf (Host.dotGeneral dot_S100000x64_S64x64_S100000x64_1_0_0_1_n_n none (addf h agg) W1)
                (broadcastInDim S100000x64 ![0, 1] bcast_S1x64_S100000x64_0_1 (broadcastInDim S1x64 ![1] bcast_S64_S1x64_1 b1)))
              (broadcastInDim S100000x64 ![] bcast_S_S100000x64 (constant (F := Ideal) S_ .f32 0x00000000#32)))
            W2)
          (broadcastInDim S100000x64 ![0, 1] bcast_S1x64_S100000x64_0_1 (broadcastInDim S1x64 ![1] bcast_S64_S1x64_1 b2)))
        (broadcastInDim S100000x64 ![] bcast_S_S100000x64 (constant (F := Ideal) S_ .f32 0x00000000#32))
      = ginG h agg W1 (shapeCast S1x64 b1 hsc) W2 (shapeCast S1x64 b2 hsc) := by
  funext i
  obtain ⟨r, j, rfl⟩ : ∃ (r : Fin 100000) (j : Fin 64), i = ix2 r j := ⟨i 0, i 1, eq_ix2 i⟩
  have hb (b : FVec Ideal S64 .f32) (c : Fin 64) : broadcastInDim S100000x64 ![0, 1] bcast_S1x64_S100000x64_0_1
      (broadcastInDim S1x64 ![1] bcast_S64_S1x64_1 b) (ix2 r c) = shapeCast S1x64 b hsc (ix2 (0 : Fin 1) c) :=
    ((broadcastInDim_oneRow_apply bcast_S1x64_S100000x64_0_1 _ r c).trans
      (broadcastInDim_apply ![1] bcast_S64_S1x64_1 b (ix2 (0 : Fin 1) c) (ix1 c) fun a => match a with | ⟨0, _⟩ => rfl)).trans
      (shapeCast_a_1a_apply b hsc 0 c).symm
  show _ = mlpAt _ _ _ _ _ _ r j
  unfold mlpAt
  exact congrArg₂ max (congrArg₂ HAdd.hAdd ((dot_apply _ rfl _ _ r j).trans (Finset.sum_congr rfl fun k' _ =>
    congrArg (· * W2 (ix2 k' j)) (congrArg₂ max (congrArg₂ HAdd.hAdd (dot_apply _ rfl _ _ r k') (hb b1 k'))
      Ideal.ofBits_zero_f32))) (hb b2 j)) Ideal.ofBits_zero_f32

end Reference

end Cert.Val.Gin

end
-- ==== Proof.Val.ProjSpec.lean ====
import proofs.«406479_j78563541778981_1_alg».proof.KernelIdeal
import proofs.«406479_j78563541778981_1_alg».proof.ReferenceIdeal
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.Val.Proj

open Idealize.ShloMosaic Idealize.ShloMosaic.ValueIdx
open Cert.KernelIdeal (S128x320 S320x320 S1x320 S320 S_)

-- y = relu(x · W₁ + b₁) · W₂ + b₂, entry by entry, the biases as one-row matrices.
def projG (p : Vec Ideal S128x320 .f32) (W1 : Vec Ideal S320x320 .f32) (b1 : Vec Ideal S1x320 .f32)
    (W2 : Vec Ideal S320x320 .f32) (b2 : Vec Ideal S1x320 .f32) : Vec Ideal S128x320 .f32 :=
  fun i => (∑ k' : Fin 320, max ((∑ k : Fin 320, p (ix2 (i 0 : Fin 128) k) * W1 (ix2 k k')) + b1 (ix2 (0 : Fin 1) k')) 0
      * W2 (ix2 k' (i 1 : Fin 320))) + b2 (ix2 (0 : Fin 1) (i 1 : Fin 320))

theorem hostDot_apply [Cert.ReferenceIdeal.Facts₀] (A : FVec Ideal S128x320 .f32) (B : FVec Ideal S320x320 .f32)
    (g : Fin 128) (j : Fin 320) :
    Host.dotGeneral (F := Ideal) (φ₁ := .f32) (φ₂ := .f32) Cert.ReferenceIdeal.dot_S128x320_S320x320_S128x320_1_0_0_1_n_n none A B (ix2 g j)
      = ∑ c : Fin 320, A (ix2 g c) * B (ix2 c j) :=
  StackMember.dotGeneral_plain_apply none A B g j

-- Narrowing the operands changes no extended real, and a product into a zero accumulator is the product.
theorem kernelDot_apply [Cert.KernelIdeal.Facts₀] (A : FVec Ideal S128x320 .f32) (B : FVec Ideal S320x320 .f32)
    (g : Fin 128) (j : Fin 320) :
    matmul (F := Ideal) Cert.KernelIdeal.dot_S128x320_S320x320_S128x320_1_0_0_1_n_n none
        (truncf .bf16 A Cert.KernelIdeal.Facts₀.bitsLt_bf16_f32) (truncf .bf16 B Cert.KernelIdeal.Facts₀.bitsLt_bf16_f32)
        (constant (F := Ideal) S128x320 .f32 0x00000000#32) (ix2 g j)
      = ∑ c : Fin 320, A (ix2 g c) * B (ix2 c j) := by
  rw [matmul_zero_eq_dotGeneral]
  exact StackMember.dotGeneral_plain_apply none _ _ g j

theorem refBias_apply [Cert.ReferenceIdeal.Facts₀] (b : FVec Ideal S320 .f32) (g : Fin 128) (j : Fin 320) :
    broadcastInDim S128x320 ![0, 1] Cert.ReferenceIdeal.Facts₀.bcast_S1x320_S128x320_0_1
        (broadcastInDim S1x320 ![1] Cert.ReferenceIdeal.Facts₀.bcast_S320_S1x320_1 b) (ix2 g j) = b (ix1 j) := by
  rw [broadcastInDim_oneRow_apply]
  exact broadcastInDim_apply ![1] _ b (ix2 (0 : Fin 1) j) (ix1 j) fun a => by fin_cases a; rfl

theorem refZero_apply [Cert.ReferenceIdeal.Facts₀] (i : S128x320.Idx) :
    broadcastInDim S128x320 ![] Cert.ReferenceIdeal.Facts₀.bcast_S_S128x320 (constant (F := Ideal) S_ .f32 0x00000000#32) i = 0 := by
  rw [broadcastInDim_constant]
  exact Ideal.ofBits_zero_f32

theorem ref_proj [Cert.KernelIdeal.Facts₀] [Cert.ReferenceIdeal.Facts₀]
    (p : Vec Ideal S128x320 .f32) (W1 : Vec Ideal S320x320 .f32) (b1 : Vec Ideal S320 .f32)
    (W2 : Vec Ideal S320x320 .f32) (b2 : Vec Ideal S320 .f32) :
    addf (F := Ideal)
        (Host.dotGeneral (F := Ideal) (φ₁ := .f32) (φ₂ := .f32) Cert.ReferenceIdeal.dot_S128x320_S320x320_S128x320_1_0_0_1_n_n none
          (maximumf (F := Ideal)
            (addf (F := Ideal)
              (Host.dotGeneral (F := Ideal) (φ₁ := .f32) (φ₂ := .f32) Cert.ReferenceIdeal.dot_S128x320_S320x320_S128x320_1_0_0_1_n_n none p W1)
              (broadcastInDim S128x320 ![0, 1] Cert.ReferenceIdeal.Facts₀.bcast_S1x320_S128x320_0_1
                (broadcastInDim S1x320 ![1] Cert.ReferenceIdeal.Facts₀.bcast_S320_S1x320_1 b1)))
            (broadcastInDim S128x320 ![] Cert.ReferenceIdeal.Facts₀.bcast_S_S128x320
              (constant (F := Ideal) S_ .f32 0x00000000#32)))
          W2)
        (broadcastInDim S128x320 ![0, 1] Cert.ReferenceIdeal.Facts₀.bcast_S1x320_S128x320_0_1
          (broadcastInDim S1x320 ![1] Cert.ReferenceIdeal.Facts₀.bcast_S320_S1x320_1 b2))
      = projG p W1 (shapeCast S1x320 b1 Cert.KernelIdeal.Facts₀.shapeCasts_S320_S1x320) W2
          (shapeCast S1x320 b2 Cert.KernelIdeal.Facts₀.shapeCasts_S320_S1x320) := by
  funext i
  obtain ⟨g, j, rfl⟩ : ∃ (g : Fin 128) (j : Fin 320), i = ix2 g j := ⟨i 0, i 1, eq_ix2 i⟩
  rw [addf_apply, hostDot_apply, refBias_apply]
  refine congrArg₂ (· + ·) (Finset.sum_congr rfl fun k' _ => ?_) (shapeCast_a_1a_apply b2 _ 0 j).symm
  rw [maximumf_apply, addf_apply, hostDot_apply, refBias_apply, refZero_apply, shapeCast_a_1a_apply]

theorem kernelZero_apply (i : S128x320.Idx) :
    broadcast S128x320 (Scalar.ofBits (F := Ideal) .f32 0x00000000#32) i = 0 :=
  Ideal.ofBits_zero_f32

theorem kernel_proj [Cert.KernelIdeal.Facts₀]
    (x0 : Vec Ideal S128x320 .f32) (x1 : Vec Ideal S320x320 .f32) (x2 : Vec Ideal S1x320 .f32)
    (x3 : Vec Ideal S320x320 .f32) (x4 : Vec Ideal S1x320 .f32) :
    addf (F := Ideal)
        (matmul (F := Ideal) Cert.KernelIdeal.dot_S128x320_S320x320_S128x320_1_0_0_1_n_n none
          (truncf .bf16
            (maximumf (F := Ideal)
              (addf (F := Ideal)
                (matmul (F := Ideal) Cert.KernelIdeal.dot_S128x320_S320x320_S128x320_1_0_0_1_n_n none
                  (truncf .bf16 (shapeCast S128x320 x0 Cert.KernelIdeal.Facts₀.shapeCasts_S128x320_S128x320 : FVec Ideal S128x320 .f32)
                    Cert.KernelIdeal.Facts₀.bitsLt_bf16_f32)
                  (truncf .bf16 (x1 : FVec Ideal S320x320 .f32) Cert.KernelIdeal.Facts₀.bitsLt_bf16_f32)
                  (constant (F := Ideal) S128x320 .f32 0x00000000#32))
                (broadcastTo S128x320 (shapeCast S1x320 x2 Cert.KernelIdeal.Facts₀.shapeCasts_S1x320_S1x320)
                  Cert.KernelIdeal.Facts₀.broadcasts_S1x320_S128x320))
              (broadcast S128x320 (Scalar.ofBits (F := Ideal) .f32 0x00000000#32)))
            Cert.KernelIdeal.Facts₀.bitsLt_bf16_f32)
          (truncf .bf16 (x3 : FVec Ideal S320x320 .f32) Cert.KernelIdeal.Facts₀.bitsLt_bf16_f32)
          (constant (F := Ideal) S128x320 .f32 0x00000000#32))
        (broadcastTo S128x320 (shapeCast S1x320 x4 Cert.KernelIdeal.Facts₀.shapeCasts_S1x320_S1x320)
          Cert.KernelIdeal.Facts₀.broadcasts_S1x320_S128x320)
      = projG x0 x1 x2 x3 x4 := by
  funext i
  obtain ⟨g, j, rfl⟩ : ∃ (g : Fin 128) (j : Fin 320), i = ix2 g j := ⟨i 0, i 1, eq_ix2 i⟩
  rw [shapeCast_self x0, shapeCast_self x2, shapeCast_self x4, addf_apply, kernelDot_apply, broadcastTo_1b_ab_apply]
  refine congrArg₂ (· + ·) (Finset.sum_congr rfl fun k' _ => ?_) rfl
  rw [maximumf_apply, addf_apply, kernelDot_apply, broadcastTo_1b_ab_apply, kernelZero_apply]

end Cert.Val.Proj

end
-- ==== Proof.Spec.lean ====
import proofs.«406479_j78563541778981_1_alg».proof.Proof.Gen.KernelIdeal
import proofs.«406479_j78563541778981_1_alg».proof.Proof.Val.LinSpec
import proofs.«406479_j78563541778981_1_alg».proof.Proof.Val.BnSpec
import proofs.«406479_j78563541778981_1_alg».proof.Proof.Val.PoolSpec
import proofs.«406479_j78563541778981_1_alg».proof.Proof.Val.GinSpec
import proofs.«406479_j78563541778981_1_alg».proof.Proof.Val.ProjSpec
import Idealize.ShloMosaic.PureOps.Ideal

noncomputable section

namespace Cert.Spec

open Idealize.ShloMosaic Cert.KernelIdeal Cert.KernelIdeal.Gen
open Cert.Val.Lin (linG)
open Cert.Val.Gin (ginG)
open Cert.Val (bnG)
open Cert.Val.Pool (poolG)
open Cert.Val.Proj (projG)

def rs64 (v : Vec Ideal S64 .f32) : Vec Ideal S1x64 .f32 := shapeCast S1x64 v shapeCasts_S64_S1x64
def rs320 (v : Vec Ideal S320 .f32) : Vec Ideal S1x320 .f32 := shapeCast S1x320 v shapeCasts_S320_S1x320

def srcF (ei : Vec Ideal S2x1200000 .i32) : Vec Ideal S1200000 .i32 :=
  shapeCast S1200000 (extractStridedSlice S1x1200000 ![0, 0] ei slices_S2x1200000_S1x1200000_0_0) shapeCasts_S1x1200000_S1200000
def dstF (ei : Vec Ideal S2x1200000 .i32) : Vec Ideal S1200000 .i32 :=
  shapeCast S1200000 (extractStridedSlice S1x1200000 ![1, 0] ei slices_S2x1200000_S1x1200000_1_0) shapeCasts_S1x1200000_S1200000

def srcIdxF (ei : Vec Ideal S2x1200000 .i32) : Vec Ideal S1200000x1 .i32 :=
  broadcastInDim S1200000x1 ![0] bcast_S1200000_S1200000x1_0
    (select (cmpi .slt (srcF ei) (broadcastInDim S1200000 ![] bcast_S_S1200000 (constantI S_ 32 0#32)))
      (addi (srcF ei) (broadcastInDim S1200000 ![] bcast_S_S1200000 (constantI S_ 32 100000#32)))
      (srcF ei))

def aggF (h : Vec Ideal S100000x64 .f32) (ei : Vec Ideal S2x1200000 .i32) : Vec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (dstF ei))
    (Host.gather gather_S100000x64_S1200000x1_S1200000x64_1_0_n_n_0_1_164 h (srcIdxF ei))

def meanF (z : Vec Ideal S100000x64 .f32) : Vec Ideal S64 .f32 :=
  Host.divf (Host.reduceAdd z (constant (F := Ideal) S_ .f32 0x00000000#32) reducesTo_S100000x64_S64_d0 h_S_)
    (broadcastInDim S64 ![] bcast_S_S64 (constant (F := Ideal) S_ .f32 0x47C35000#32))

def varCntF : Vec Ideal S_ .f32 :=
  subf (constant (F := Ideal) S_ .f32 0x47C35000#32) (sitofp .f32 (constantI S_ 32 0#32))

def centredF (z : Vec Ideal S100000x64 .f32) : Vec Ideal S100000x64 .f32 :=
  subf z (broadcastInDim S100000x64 ![0, 1] bcast_S1x64_S100000x64_0_1
    (Host.divf
      (broadcastInDim S1x64 ![1] bcast_S64_S1x64_1
        (Host.reduceAdd z (constant (F := Ideal) S_ .f32 0x00000000#32) reducesTo_S100000x64_S64_d0 h_S_))
      (broadcastInDim S1x64 ![] bcast_S_S1x64 (constant (F := Ideal) S_ .f32 0x47C35000#32))))

def varF (z : Vec Ideal S100000x64 .f32) : Vec Ideal S64 .f32 :=
  select (broadcastInDim S64 ![] bcast_S_S64 (cmpf .ogt varCntF (constant (F := Ideal) S_ .f32 0x00000000#32)))
    (Host.divf
      (Host.reduceAdd (mulf (centredF z) (centredF z)) (constant (F := Ideal) S_ .f32 0x00000000#32) reducesTo_S100000x64_S64_d0 h_S_)
      (broadcastInDim S64 ![] bcast_S_S64 varCntF))
    (broadcastInDim S64 ![] bcast_S_S64 (id (constant (F := Ideal) S_ .f32 0x7FC00000#32)))

-- The slice at offset `o` of a stacked parameter, with the unit axis dropped.
def w64 {o : Fin S5x64x64.rank → ℕ} (h : S5x64x64.Slices o S1x64x64) (p : Vec Ideal S5x64x64 .f32) : Vec Ideal S64x64 .f32 :=
  shapeCast S64x64 (extractStridedSlice S1x64x64 o p h) shapeCasts_S1x64x64_S64x64
def v64 {o : Fin S5x64.rank → ℕ} (h : S5x64.Slices o S1x64) (p : Vec Ideal S5x64 .f32) : Vec Ideal S64 .f32 :=
  shapeCast S64 (extractStridedSlice S1x64 o p h) shapeCasts_S1x64_S64
def w64F0 (p : Vec Ideal S5x64x64 .f32) : Vec Ideal S64x64 .f32 := w64 slices_S5x64x64_S1x64x64_0_0_0 p
def w64F1 (p : Vec Ideal S5x64x64 .f32) : Vec Ideal S64x64 .f32 := w64 slices_S5x64x64_S1x64x64_1_0_0 p
def w64F2 (p : Vec Ideal S5x64x64 .f32) : Vec Ideal S64x64 .f32 := w64 slices_S5x64x64_S1x64x64_2_0_0 p
def w64F3 (p : Vec Ideal S5x64x64 .f32) : Vec Ideal S64x64 .f32 := w64 slices_S5x64x64_S1x64x64_3_0_0 p
def w64F4 (p : Vec Ideal S5x64x64 .f32) : Vec Ideal S64x64 .f32 := w64 slices_S5x64x64_S1x64x64_4_0_0 p
def v64F0 (p : Vec Ideal S5x64 .f32) : Vec Ideal S64 .f32 := v64 slices_S5x64_S1x64_0_0 p
def v64F1 (p : Vec Ideal S5x64 .f32) : Vec Ideal S64 .f32 := v64 slices_S5x64_S1x64_1_0 p
def v64F2 (p : Vec Ideal S5x64 .f32) : Vec Ideal S64 .f32 := v64 slices_S5x64_S1x64_2_0 p
def v64F3 (p : Vec Ideal S5x64 .f32) : Vec Ideal S64 .f32 := v64 slices_S5x64_S1x64_3_0 p
def v64F4 (p : Vec Ideal S5x64 .f32) : Vec Ideal S64 .f32 := v64 slices_S5x64_S1x64_4_0 p

def layerF (h : Vec Ideal S100000x64 .f32) (ei : Vec Ideal S2x1200000 .i32) (W1 : Vec Ideal S64x64 .f32) (b1 : Vec Ideal S64 .f32)
    (W2 : Vec Ideal S64x64 .f32) (b2 : Vec Ideal S64 .f32) (g b : Vec Ideal S64 .f32) : Vec Ideal S100000x64 .f32 :=
  bnG (ginG h (aggF h ei) W1 (rs64 b1) W2 (rs64 b2))
    (rs64 (meanF (ginG h (aggF h ei) W1 (rs64 b1) W2 (rs64 b2))))
    (rs64 (varF (ginG h (aggF h ei) W1 (rs64 b1) W2 (rs64 b2))))
    (rs64 g) (rs64 b)

def h0F (x : Vec Ideal S100000x64 .f32) (Ws : Vec Ideal S64x64 .f32) (bs : Vec Ideal S64 .f32) : Vec Ideal S100000x64 .f32 :=
  linG x Ws (rs64 bs)

def hcatF (h1 h2 h3 h4 h5 : Vec Ideal S100000x64 .f32) : Vec Ideal S100000x320 .bf16 :=
  truncf (F := Ideal) .bf16 (concatenate S100000x320 1 [⟨S100000x64, h1⟩, ⟨S100000x64, h2⟩, ⟨S100000x64, h3⟩, ⟨S100000x64, h4⟩, ⟨S100000x64, h5⟩]
    concatenates_S100000x64_S100000x64_S100000x64_S100000x64_S100000x64_S100000x320_d1) bitsLt_bf16_f32

def onehotF (batch : Vec Ideal S100000 .i32) : Vec Ideal S100000x128 .bf16 :=
  uitofp (F := Ideal) .bf16 (cmpi .eq
    (broadcastInDim S100000x128 ![0, 1] bcast_S100000x1_S100000x128_0_1 (broadcastInDim S100000x1 ![0] bcast_S100000_S100000x1_0 batch))
    (broadcastInDim S100000x128 ![0, 1] bcast_S1x128_S100000x128_0_1 (broadcastInDim S1x128 ![1] bcast_S128_S1x128_1 (iotaInDim S128 32 0))))

def l2normF (v : Vec Ideal S128x320 .f32) : Vec Ideal S128x320 .f32 :=
  Host.divf v (broadcastInDim S128x320 ![0, 1] bcast_S128x1_S128x320_0_1
    (maximumf
      (Host.sqrt (broadcastInDim S128x1 ![0] bcast_S128_S128x1_0
        (Host.reduceAdd (mulf v v) (constant (F := Ideal) S_ .f32 0x00000000#32) reducesTo_S128x320_S128_d1 h_S_)))
      (broadcastInDim S128x1 ![] bcast_S_S128x1 (constant (F := Ideal) S_ .f32 0x2B8CBCCC#32))))

section Net

variable (x : Vec Ideal S100000x64 .f32) (ei : Vec Ideal S2x1200000 .i32) (batch : Vec Ideal S100000 .i32)
  (Ws : Vec Ideal S64x64 .f32) (bs : Vec Ideal S64 .f32)
  (W1 : Vec Ideal S5x64x64 .f32) (b1 : Vec Ideal S5x64 .f32) (W2 : Vec Ideal S5x64x64 .f32) (b2 : Vec Ideal S5x64 .f32)
  (gamma beta : Vec Ideal S5x64 .f32)
  (Wp1 : Vec Ideal S320x320 .f32) (bp1 : Vec Ideal S320 .f32) (Wp2 : Vec Ideal S320x320 .f32) (bp2 : Vec Ideal S320 .f32)

def h1F : Vec Ideal S100000x64 .f32 :=
  layerF (h0F x Ws bs) ei (w64F0 W1) (v64F0 b1) (w64F0 W2) (v64F0 b2) (v64F0 gamma) (v64F0 beta)
def h2F : Vec Ideal S100000x64 .f32 :=
  layerF (h1F x ei Ws bs W1 b1 W2 b2 gamma beta) ei (w64F1 W1) (v64F1 b1) (w64F1 W2) (v64F1 b2) (v64F1 gamma) (v64F1 beta)
def h3F : Vec Ideal S100000x64 .f32 :=
  layerF (h2F x ei Ws bs W1 b1 W2 b2 gamma beta) ei (w64F2 W1) (v64F2 b1) (w64F2 W2) (v64F2 b2) (v64F2 gamma) (v64F2 beta)
def h4F : Vec Ideal S100000x64 .f32 :=
  layerF (h3F x ei Ws bs W1 b1 W2 b2 gamma beta) ei (w64F3 W1) (v64F3 b1) (w64F3 W2) (v64F3 b2) (v64F3 gamma) (v64F3 beta)
def h5F : Vec Ideal S100000x64 .f32 :=
  layerF (h4F x ei Ws bs W1 b1 W2 b2 gamma beta) ei (w64F4 W1) (v64F4 b1) (w64F4 W2) (v64F4 b2) (v64F4 gamma) (v64F4 beta)

def pooledF : Vec Ideal S128x320 .f32 :=
  poolG (onehotF batch)
    (hcatF (h1F x ei Ws bs W1 b1 W2 b2 gamma beta) (h2F x ei Ws bs W1 b1 W2 b2 gamma beta) (h3F x ei Ws bs W1 b1 W2 b2 gamma beta)
      (h4F x ei Ws bs W1 b1 W2 b2 gamma beta) (h5F x ei Ws bs W1 b1 W2 b2 gamma beta))

def yF : Vec Ideal S128x320 .f32 :=
  projG (pooledF x ei batch Ws bs W1 b1 W2 b2 gamma beta) Wp1 (rs320 bp1) Wp2 (rs320 bp2)

def out0F : Vec Ideal S128x320 .f32 := l2normF (yF x ei batch Ws bs W1 b1 W2 b2 gamma beta Wp1 bp1 Wp2 bp2)
def out1F : Vec Ideal S128x320 .f32 := l2normF (pooledF x ei batch Ws bs W1 b1 W2 b2 gamma beta)

end Net

end Cert.Spec

end
-- ==== Proof.Val.Lin.lean ====
import proofs.«406479_j78563541778981_1_alg».proof.Proof.KI.R0
import proofs.«406479_j78563541778981_1_alg».proof.Proof.Val.LinSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.Val.Lin

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

-- A matmul into a zero accumulator is the plain product; the changes of format and the bias row's cast are the identity.
theorem pay_apply (x0 : Vec Ideal S5000x64 .f32) (x1 : Vec Ideal S64x64 .f32) (x2 : Vec Ideal S1x64 .f32)
    (p : Fin 5000) (q : Fin 64) :
    k0_pay1 (F := Ideal) x0 x1 x2 (ix2 p q) = (∑ k : Fin 64, x0 (ix2 p k) * x1 (ix2 k q)) + x2 (ix2 (0 : Fin 1) q) := by
  unfold k0_pay1
  refine (addf_apply _ _ _).trans (congrArg₂ (· + ·) ?_ ?_)
  · rw [matmul_zero_eq_dotGeneral]
    exact StackMember.dotGeneral_plain_apply none _ _ p q
  · rw [broadcastTo_1b_ab_apply, shapeCast_self]

variable (V : (c : Dev nD) → (b : Ref sig .tc) → Buf (Elt Ideal) ((c : Thread nD τ).loc b))

theorem zero_offsets : (![0, 0] : Fin 2 → Nat) = fun _ => 0 := funext fun a => by fin_cases a <;> rfl

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def rowOf (t : Fin cfg0.N) (p : Fin 5000) : Fin 100000 :=
  ⟨5000 * t.val + p.val, by have := t.isLt; have hN : cfg0.N = 20 := N_0; have := p.isLt; omega⟩

-- The rows' and the output's block at point `t` start at row `5000·t`; the weights' and the bias row's blocks are the whole arrays.
theorem blk_apply (c : Dev nD) (t : Fin cfg0.N) (p : Fin 5000) (k q : Fin 64) (u : Fin 1) :
    iblk0 V c 0 t (ix2 p k) = V c main_arg0 (ix2 (rowOf t p) k)
    ∧ iblk0 V c 1 t (ix2 k q) = V c main_arg3 (ix2 k q)
    ∧ iblk0 V c 2 t (ix2 u q) = V c main_v4 (ix2 u q)
    ∧ ((cfg0.win 3).blk t).view.emb (ix2 p q) = ix2 (rowOf t p) q := by
  obtain ⟨e0, e1, e2, e3, e4, e5, e6, e7⟩ := block_indices t
  refine ⟨congrArg (V c main_arg0) (funext fun a => Fin.ext ?_), congrArg (V c main_arg3) (funext fun a => Fin.ext ?_),
    congrArg (V c main_v4) (funext fun a => Fin.ext ?_), funext fun a => Fin.ext ?_⟩ <;> fin_cases a
  · show win0_0.index t (0 : Fin 2) * 5000 + 1 * p.val = 5000 * t.val + p.val; omega
  · show win0_0.index t (1 : Fin 2) * 64 + 1 * k.val = k.val; omega
  · show win0_1.index t (0 : Fin 2) * 64 + 1 * k.val = k.val; omega
  · show win0_1.index t (1 : Fin 2) * 64 + 1 * q.val = q.val; omega
  · show win0_2.index t (0 : Fin 2) * 1 + 1 * u.val = u.val; omega
  · show win0_2.index t (1 : Fin 2) * 64 + 1 * q.val = q.val; omega
  · show win0_3.index t (0 : Fin 2) * 5000 + 1 * p.val = 5000 * t.val + p.val; omega
  · show win0_3.index t (1 : Fin 2) * 64 + 1 * q.val = q.val; omega

-- Block `t` of the result is block `t` of `linG`.
theorem block_written (c : Dev nD) (t : Fin cfg0.N) :
    (dat0 (F := Ideal) V c).flushed 3 t
      = ((cfg0.win 3).blk t).view.read (Elt Ideal) (linG (V c main_arg0) (V c main_arg3) (V c main_v4)) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = linG (V c main_arg0) (V c main_arg3) (V c main_v4) (((cfg0.win 3).blk t).view.emb (ix2 p q))
  obtain ⟨-, -, hb, ho⟩ := blk_apply V c t p q q 0
  rw [ho, linG_apply, pay_apply, hb]
  refine congrArg (· + _) (Finset.sum_congr rfl fun k _ => ?_)
  obtain ⟨hx, hw, -⟩ := blk_apply V c t p k q 0
  rw [hx, hw]

-- The 20 blocks tile the output: row `r` is in block `r / 5000`.
theorem blocks_tile (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e0, e1⟩ := block_indices t
  refine ⟨t, flush0_3 t, ?_⟩
  show i ∈ ((View.whole main_v5).slice (win0_3.rect t)).set
  rw [View.set_slice_whole, Rect.mem_set_unit]
  intro a
  fin_cases a
  · show win0_3.index t (0 : Fin 2) * 5000 ≤ (i 0).val ∧ (i 0).val < win0_3.index t (0 : Fin 2) * 5000 + 5000
    omega
  · show win0_3.index t (1 : Fin 2) * 64 ≤ (i 1).val ∧ (i 1).val < win0_3.index t (1 : Fin 2) * 64 + 64
    omega

theorem final0 (c : Dev nD) :
    (dat0 (F := Ideal) V c).arrAt 3 cfg0.N = linG (V c main_arg0) (V c main_arg3) (V c main_v4) :=
  (dat0 (F := Ideal) V c).arrAt_eq_of_cover 3 (linG (V c main_arg0) (V c main_arg3) (V c main_v4))
    (fun t _ => block_written V c t) blocks_tile

end Cert.Val.Lin

end
-- ==== Proof.KV.Pre.lean ====
import proofs.«406479_j78563541778981_1_alg».proof.Proof.KI.Keep
import proofs.«406479_j78563541778981_1_alg».proof.Proof.Spec
import proofs.«406479_j78563541778981_1_alg».proof.Proof.Val.Lin

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

def args : List (Ref sig .tc) :=
  [main_arg2, main_arg5, main_arg6, main_arg7, main_arg8, main_arg9, main_arg10, main_arg11, main_arg12, main_arg13, main_arg14]

theorem W2_un (r : Ref sig .tc) (h : r ∈ args) : W2 m ρ c (no_index (Proc.devRef .tc r)) = W0 m ρ c (Proc.devRef .tc r) := by
  unfold args at h
  fin_cases h <;> exact (W2_keep m ρ c _ (by decide)).trans (W1_of m ρ c _ (by decide))

theorem W2_v1 : W2 m ρ c (Proc.devRef .tc main_v1) = srcF (W0 m ρ c (Proc.devRef .tc main_arg1)) := by
  refine (W2_keep m ρ c main_v1 (by decide)).trans ?_
  show StableHlo.after hostOps0 (W0 m ρ c) _ = _
  after_results
  rfl

theorem W2_v3 : W2 m ρ c (Proc.devRef .tc main_v3) = dstF (W0 m ρ c (Proc.devRef .tc main_arg1)) := by
  refine (W2_keep m ρ c main_v3 (by decide)).trans ?_
  show StableHlo.after hostOps0 (W0 m ρ c) _ = _
  after_results
  rfl

theorem W2_h : W2 m ρ c (Proc.devRef .tc main_v5) = h0F (W0 m ρ c (Proc.devRef .tc main_arg0)) (W0 m ρ c (Proc.devRef .tc main_arg3)) (W0 m ρ c (Proc.devRef .tc main_arg4)) := by
  refine ((W2_arr m ρ c 3).trans (Cert.Val.Lin.final0 (X1 m ρ) c)).trans ?_
  show Cert.Val.Lin.linG (W1 m ρ c (Proc.devRef .tc main_arg0)) (W1 m ρ c (Proc.devRef .tc main_arg3)) (W1 m ρ c (Proc.devRef .tc main_v4)) = _
  after_results_simp
  rfl

end Cert.KernelIdeal.Hand

end
-- ==== Proof.Val.Gin.lean ====
import proofs.«406479_j78563541778981_1_alg».proof.Proof.KI.R1
import proofs.«406479_j78563541778981_1_alg».proof.Proof.Val.GinSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.Val.Gin

open Cert.KernelIdeal Cert.KernelIdeal.Gen Cert.KernelIdeal.Hand

variable (V : (c : Dev nD) → (b : Ref sig .tc) → Buf (Elt Ideal) ((c : Thread nD τ).loc b))

theorem pay1_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    k1_pay1 (F := Ideal) h g W b W' b' (ix2 p q) = mlpAt (m := 5000) h g W b W' b' p q := by
  unfold k1_pay1 mlpAt
  simp only [shapeCast_self, maximumf_apply, addf_apply, matmul_zero_eq_dotGeneral,
    dot_apply dot_S5000x64_S64x64_S5000x64_1_0_0_1_n_n rfl, truncf_apply, broadcastTo_1b_ab_apply, broadcast_apply,
    zeroWord_eq]

theorem idx1_facts : ∀ t : Fin cfg1.N,
    (win1_0.index t (0 : Fin 2) = t.val ∧ win1_0.index t (1 : Fin 2) = 0
      ∧ win1_1.index t (0 : Fin 2) = t.val ∧ win1_1.index t (1 : Fin 2) = 0
      ∧ win1_6.index t (0 : Fin 2) = t.val ∧ win1_6.index t (1 : Fin 2) = 0)
    ∧ ∀ a : Fin 2, win1_2.index t a = 0 ∧ win1_3.index t a = 0 ∧ win1_4.index t a = 0 ∧ win1_5.index t a = 0 :=
  (by decide +kernel : ∀ t : Fin grid1.N, _)

-- Entry (p, k) of a block at point t is entry (5000 t + p, k) of its array.
theorem emb1 (t : Fin cfg1.N) (y : S5000x64.Idx) :
    ((((cfg1.win 6).blk t).view.emb y : S100000x64.Idx) 0).val = t.val * 5000 + (y 0).val
    ∧ ((((cfg1.win 6).blk t).view.emb y : S100000x64.Idx) 1).val = (y 1).val := by
  obtain ⟨⟨-, -, -, -, g, g'⟩, -⟩ := idx1_facts t
  constructor
  · show win1_6.index t (0 : Fin 2) * 5000 + 1 * (y 0).val = _; omega
  · show win1_6.index t (1 : Fin 2) * 64 + 1 * (y 1).val = _; omega

theorem rows1 (c : Dev nD) (t : Fin cfg1.N) (y : S5000x64.Idx) (i : S100000x64.Idx)
    (h : (i 0).val = t.val * 5000 + (y 0).val) (h' : (i 1).val = (y 1).val) :
    iblk1 V c 0 t y = V c (Pipeline.arrRef spec1 0) i
    ∧ iblk1 V c 1 t y = V c (Pipeline.arrRef spec1 1) i := by
  obtain ⟨⟨a, a', b, b', -⟩, -⟩ := idx1_facts t
  unfold iblk1
  constructor <;> rw [View.read_apply]
  · show V c (Pipeline.arrRef spec1 0) _ = _
    refine congrArg _ (Shape.idx_ext₂ ?_ ?_)
    · show win1_0.index t (0 : Fin 2) * 5000 + 1 * (y 0).val = _; omega
    · show win1_0.index t (1 : Fin 2) * 64 + 1 * (y 1).val = _; omega
  · show V c (Pipeline.arrRef spec1 1) _ = _
    refine congrArg _ (Shape.idx_ext₂ ?_ ?_)
    · show win1_1.index t (0 : Fin 2) * 5000 + 1 * (y 0).val = _; omega
    · show win1_1.index t (1 : Fin 2) * 64 + 1 * (y 1).val = _; omega

-- The block at index 0 on every axis, of the array's own size, is the whole array.
theorem whole1 (c : Dev nD) (t : Fin cfg1.N) :
    iblk1 V c 2 t = V c (Pipeline.arrRef spec1 2)
    ∧ iblk1 V c 3 t = V c (Pipeline.arrRef spec1 3)
    ∧ iblk1 V c 4 t = V c (Pipeline.arrRef spec1 4)
    ∧ iblk1 V c 5 t = V c (Pipeline.arrRef spec1 5) := by
  have h := (idx1_facts t).2
  unfold iblk1
  refine ⟨funext fun y => ?_, funext fun y => ?_, funext fun y => ?_, funext fun y => ?_⟩ <;> rw [View.read_apply]
  · show V c (Pipeline.arrRef spec1 2) _ = _
    exact congrArg _ (funext fun a => Fin.ext (win1_2.rect_emb_val_of_index_zero t a (h a).1 y))
  · show V c (Pipeline.arrRef spec1 3) _ = _
    exact congrArg _ (funext fun a => Fin.ext (win1_3.rect_emb_val_of_index_zero t a (h a).2.1 y))
  · show V c (Pipeline.arrRef spec1 4) _ = _
    exact congrArg _ (funext fun a => Fin.ext (win1_4.rect_emb_val_of_index_zero t a (h a).2.2.1 y))
  · show V c (Pipeline.arrRef spec1 5) _ = _
    exact congrArg _ (funext fun a => Fin.ext (win1_5.rect_emb_val_of_index_zero t a (h a).2.2.2 y))

theorem out1_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    out1_6 (F := Ideal) h g W b W' b' (ix2 p q) = mlpAt (m := 5000) h g W b W' b' p q := by
  unfold out1_6
  rw [View.canon_unit_zero offsets_zero]
  simp only [View.ld_unit_zero (S := S5000x64) offsets_zero, View.ld_unit_zero (S := S64x64) offsets_zero,
    View.ld_unit_zero (S := S1x64) offsets_zero]
  exact pay1_apply h g W b W' b' p q

theorem read1 (t : Fin cfg1.N) (G : FVec Ideal S100000x64 .f32) (y : S5000x64.Idx) :
    (((cfg1.win 6).blk t).view.read (Elt Ideal) G : FVec Ideal S5000x64 .f32) y = G (((cfg1.win 6).blk t).view.emb y) := rfl

theorem flushed1_eq (c : Dev nD) (t : Fin cfg1.N) :
    (dat1 V c).flushed 6 t = ((cfg1.win 6).blk t).view.read (Elt Ideal)
      (ginG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  obtain ⟨w2, w3, w4, w5⟩ := whole1 V c t
  funext y
  show (dat1 V c).after 6 t y = _
  rw [after1_6, read1]
  obtain ⟨p, q, rfl⟩ : ∃ (p : Fin 5000) (q : Fin 64), y = ix2 p q := ⟨y 0, y 1, eq_ix2 y⟩
  obtain ⟨e, e'⟩ := emb1 t (ix2 p q)
  refine (out1_apply _ _ _ _ _ _ p q).trans ?_
  exact ginG_of_rows p q _ e' (fun k => (rows1 V c t (ix2 p k) (ix2 _ k) e rfl).1)
    (fun k => (rows1 V c t (ix2 p k) (ix2 _ k) e rfl).2) w2 w3 w4 w5

theorem cover1 (i : S100000x64.Idx) :
    ∃ t : Fin cfg1.N, (cfg1.win 6).flush t = true ∧ i ∈ ((cfg1.win 6).blk t).view.set := by
  have hi : (i 0).val < 100000 := (i 0).isLt
  have hlt : (i 0).val / 5000 < 20 := by omega
  obtain ⟨e, e'⟩ := emb1 ⟨(i 0).val / 5000, hlt⟩ (ix2 ⟨(i 0).val % 5000, by omega⟩ (i 1))
  refine ⟨⟨(i 0).val / 5000, hlt⟩, flush1_6 _, ?_⟩
  exact (congrArg (· ∈ _) (Shape.idx_ext₂ (e.trans (by show _ / 5000 * 5000 + _ % 5000 = _; omega)).symm e'.symm : i = _)).mpr
    (View.emb_mem_set _ _)

theorem final1 (c : Dev nD) :
    (dat1 V c).arrAt 6 cfg1.N
      = ginG (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed1_eq V c t) cover1

end Cert.Val.Gin

end
-- ==== Proof.Val.Bn.lean ====
import proofs.«406479_j78563541778981_1_alg».proof.Proof.KI.R2
import proofs.«406479_j78563541778981_1_alg».proof.Proof.Val.BnSpec
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Val

variable (V : (c : Dev nD) → (b : Ref sig .tc) → Buf (Elt Ideal) ((c : Thread nD τ).loc b))

theorem bn_idx2 : ∀ t : Fin cfg2.N,
    (win2_0.index t (0 : Fin 2) = t.val ∧ win2_0.index t (1 : Fin 2) = 0
      ∧ win2_5.index t (0 : Fin 2) = t.val ∧ win2_5.index t (1 : Fin 2) = 0)
    ∧ ∀ a : Fin 2, win2_1.index t a = 0 ∧ win2_2.index t a = 0 ∧ win2_3.index t a = 0 ∧ win2_4.index t a = 0 :=
  (by decide +kernel : ∀ t : Fin grid2.N, _)

-- Entry (p, k) of the output's block at point t is entry (5000 t + p, k) of the array.
theorem bn_emb2 (t : Fin cfg2.N) (y : S5000x64.Idx) :
    ((((cfg2.win 5).blk t).view.emb y : S100000x64.Idx) 0).val = t.val * 5000 + (y 0).val
    ∧ ((((cfg2.win 5).blk t).view.emb y : S100000x64.Idx) 1).val = (y 1).val := by
  obtain ⟨⟨-, -, g, g'⟩, -⟩ := bn_idx2 t
  constructor
  · show win2_5.index t (0 : Fin 2) * 5000 + 1 * (y 0).val = _; omega
  · show win2_5.index t (1 : Fin 2) * 64 + 1 * (y 1).val = _; omega

theorem bn_rows2 (c : Dev nD) (t : Fin cfg2.N) (y : S5000x64.Idx) (i : S100000x64.Idx)
    (h : (i 0).val = t.val * 5000 + (y 0).val) (h' : (i 1).val = (y 1).val) :
    iblk2 V c 0 t y = V c (Pipeline.arrRef spec2 0) i := by
  obtain ⟨⟨u, u', -⟩, -⟩ := bn_idx2 t
  unfold iblk2
  rw [View.read_apply]
  show V c (Pipeline.arrRef spec2 0) _ = _
  refine congrArg _ (Shape.idx_ext₂ ?_ ?_)
  · show win2_0.index t (0 : Fin 2) * 5000 + 1 * (y 0).val = _; omega
  · show win2_0.index t (1 : Fin 2) * 64 + 1 * (y 1).val = _; omega

-- The block at index 0 on every axis, of the array's own size, is the whole array.
theorem bn_whole2 (c : Dev nD) (t : Fin cfg2.N) :
    iblk2 V c 1 t = V c (Pipeline.arrRef spec2 1)
    ∧ iblk2 V c 2 t = V c (Pipeline.arrRef spec2 2)
    ∧ iblk2 V c 3 t = V c (Pipeline.arrRef spec2 3)
    ∧ iblk2 V c 4 t = V c (Pipeline.arrRef spec2 4) := by
  have h := (bn_idx2 t).2
  unfold iblk2
  refine ⟨funext fun y => ?_, funext fun y => ?_, funext fun y => ?_, funext fun y => ?_⟩ <;> rw [View.read_apply]
  · show V c (Pipeline.arrRef spec2 1) _ = _
    exact congrArg _ (funext fun a => Fin.ext (win2_1.rect_emb_val_of_index_zero t a (h a).1 y))
  · show V c (Pipeline.arrRef spec2 2) _ = _
    exact congrArg _ (funext fun a => Fin.ext (win2_2.rect_emb_val_of_index_zero t a (h a).2.1 y))
  · show V c (Pipeline.arrRef spec2 3) _ = _
    exact congrArg _ (funext fun a => Fin.ext (win2_3.rect_emb_val_of_index_zero t a (h a).2.2.1 y))
  · show V c (Pipeline.arrRef spec2 4) _ = _
    exact congrArg _ (funext fun a => Fin.ext (win2_4.rect_emb_val_of_index_zero t a (h a).2.2.2 y))

theorem bn_out2 (z : Vec Ideal S5000x64 .f32) (mean var gamma beta : Vec Ideal S1x64 .f32) (r : Fin 5000) (j : Fin 64) :
    out2_5 (F := Ideal) z mean var gamma beta (ix2 r j)
      = bnAt (gamma (ix2 (0 : Fin 1) j)) (z (ix2 r j)) (mean (ix2 (0 : Fin 1) j)) (var (ix2 (0 : Fin 1) j))
          (beta (ix2 (0 : Fin 1) j)) := by
  unfold out2_5
  rw [View.canon_unit_zero bn_hz]
  simp only [View.ld_unit_zero (S := S5000x64) bn_hz, View.ld_unit_zero (S := S1x64) bn_hz]
  unfold k2_pay1
  simp only [shapeCast_self]
  rw [addf_apply, mulf_apply, mulf_apply, subf_apply, broadcastTo_1b_ab_apply, broadcastTo_1b_ab_apply,
    broadcastTo_1b_ab_apply, broadcastTo_1b_ab_apply]
  rfl

theorem bn_read2 (t : Fin cfg2.N) (G : Vec Ideal S100000x64 .f32) (y : S5000x64.Idx) :
    (((cfg2.win 5).blk t).view.read (Elt Ideal) G : Vec Ideal S5000x64 .f32) y = G (((cfg2.win 5).blk t).view.emb y) := rfl

theorem bn_flushed2 (c : Dev nD) (t : Fin cfg2.N) :
    (dat2 V c).flushed 5 t = ((cfg2.win 5).blk t).view.read (Elt Ideal)
      (bnG (V c (Pipeline.arrRef spec2 0)) (V c (Pipeline.arrRef spec2 1)) (V c (Pipeline.arrRef spec2 2))
        (V c (Pipeline.arrRef spec2 3)) (V c (Pipeline.arrRef spec2 4))) := by
  obtain ⟨wa, wb, wc, wd⟩ := bn_whole2 V c t
  funext y
  show (dat2 V c).after 5 t y = _
  rw [after2_5, bn_read2]
  obtain ⟨p, q, rfl⟩ : ∃ (p : Fin 5000) (q : Fin 64), y = ix2 p q := ⟨y 0, y 1, eq_ix2 y⟩
  obtain ⟨e, e'⟩ := bn_emb2 t (ix2 p q)
  refine (bn_out2 _ _ _ _ _ p q).trans ?_
  exact bnG_of_entry p q _ e' (bn_rows2 V c t (ix2 p q) _ e e') wa wb wc wd

theorem bn_cover2 (i : S100000x64.Idx) :
    ∃ t : Fin cfg2.N, (cfg2.win 5).flush t = true ∧ i ∈ ((cfg2.win 5).blk t).view.set := by
  have hi : (i 0).val < 100000 := (i 0).isLt
  have hlt : (i 0).val / 5000 < 20 := by omega
  obtain ⟨e, e'⟩ := bn_emb2 ⟨(i 0).val / 5000, hlt⟩ (ix2 ⟨(i 0).val % 5000, by omega⟩ (i 1))
  refine ⟨⟨(i 0).val / 5000, hlt⟩, flush2_5 _, ?_⟩
  exact (congrArg (· ∈ _) (Shape.idx_ext₂ (e.trans (by show _ / 5000 * 5000 + _ % 5000 = _; omega)).symm e'.symm : i = _)).mpr
    (View.emb_mem_set _ _)

theorem final2 (c : Dev nD) :
    (dat2 V c).arrAt 5 cfg2.N
      = bnG (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => bn_flushed2 V c t) bn_cover2

end Cert.KernelIdeal.Hand

end
-- ==== Proof.KV.L0.lean ====
import proofs.«406479_j78563541778981_1_alg».proof.Proof.KV.Pre
import proofs.«406479_j78563541778981_1_alg».proof.Proof.Val.Gin
import proofs.«406479_j78563541778981_1_alg».proof.Proof.Val.Bn

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W8_carry (r : Ref sig .tc) (hA : r ∉ hostOps1_W := by decide) (hG : r ≠ main_v26 := by decide)
    (hB1 : r ∉ hostOps2_W := by decide) (hB2 : r ∉ hostOps2_1_W := by decide) (hB3 : r ∉ hostOps2_2_W := by decide)
    (hN : r ≠ main_v39 := by decide) :
    W8 m ρ c (Proc.devRef .tc r) = W2 m ρ c (Proc.devRef .tc r) :=
  (W8_keep m ρ c r hN).trans <| (W7_of m ρ c r hB3).trans <| (W6_of m ρ c r hB2).trans <| (W5_of m ρ c r hB1).trans <|
  (W4_keep m ρ c r hG).trans (W3_of m ρ c r hA)

theorem W8_v1 : W8 m ρ c (Proc.devRef .tc main_v1) = srcF (W0 m ρ c (Proc.devRef .tc main_arg1)) :=
  (W8_carry m ρ c main_v1).trans (W2_v1 m ρ c)

theorem W8_v3 : W8 m ρ c (Proc.devRef .tc main_v3) = dstF (W0 m ρ c (Proc.devRef .tc main_arg1)) :=
  (W8_carry m ρ c main_v3).trans (W2_v3 m ρ c)

theorem W8_un (r : Ref sig .tc) (h : r ∈ args) : W8 m ρ c (no_index (Proc.devRef .tc r)) = W0 m ρ c (Proc.devRef .tc r) := by
  unfold args at h
  fin_cases h <;> exact (W8_carry m ρ c _).trans (W2_un m ρ c _ (by decide))

theorem W4_g : W4 m ρ c (Proc.devRef .tc main_v26) = Cert.Val.Gin.ginG (W2 m ρ c (Proc.devRef .tc main_v5)) (aggF (W2 m ρ c (Proc.devRef .tc main_v5)) (W0 m ρ c (Proc.devRef .tc main_arg1))) (w64F0 (W0 m ρ c (Proc.devRef .tc main_arg5)))
      (rs64 (v64F0 (W0 m ρ c (Proc.devRef .tc main_arg6)))) (w64F0 (W0 m ρ c (Proc.devRef .tc main_arg7))) (rs64 (v64F0 (W0 m ρ c (Proc.devRef .tc main_arg8)))) := by
  refine ((W4_arr m ρ c 6).trans (Cert.Val.Gin.final1 (X3 m ρ) c)).trans ?_
  show Cert.Val.Gin.ginG (W3 m ρ c (Proc.devRef .tc main_v5)) (W3 m ρ c (Proc.devRef .tc main_v15)) (W3 m ρ c (Proc.devRef .tc main_v17)) (W3 m ρ c (Proc.devRef .tc main_v24)) (W3 m ρ c (Proc.devRef .tc main_v21)) (W3 m ρ c (Proc.devRef .tc main_v25)) = _
  after_results_simp
  rw [W2_v1, W2_v3]
  simp (disch := decide) only [W2_un]
  rfl

-- The batch statistics and the normalisation of the perceptron's output: the specification's layer function.
theorem W8_h : W8 m ρ c (Proc.devRef .tc main_v39) = h1F (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W8_arr m ρ c 5).trans (final2 (X7 m ρ) c)).trans ?_
  show Cert.Val.bnG (W7 m ρ c (Proc.devRef .tc main_v26)) (W7 m ρ c (Proc.devRef .tc main_v35)) (W7 m ρ c (Proc.devRef .tc main_v36)) (W7 m ρ c (Proc.devRef .tc main_v37)) (W7 m ρ c (Proc.devRef .tc main_v38)) = _
  after_results_simp
  rw [W4_keep m ρ c main_arg9 (by decide), W4_keep m ρ c main_arg10 (by decide)]
  after_results_simp
  simp (disch := decide) only [W2_un]
  rw [W4_g, W2_h]
  rfl

end Cert.KernelIdeal.Hand

end
-- ==== Proof.Val.Gin3.lean ====
import proofs.«406479_j78563541778981_1_alg».proof.Proof.KI.R3
import proofs.«406479_j78563541778981_1_alg».proof.Proof.Val.GinSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.Val.Gin

open Cert.KernelIdeal Cert.KernelIdeal.Gen Cert.KernelIdeal.Hand

variable (V : (c : Dev nD) → (b : Ref sig .tc) → Buf (Elt Ideal) ((c : Thread nD τ).loc b))

theorem pay3_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    k3_pay1 (F := Ideal) h g W b W' b' (ix2 p q) = mlpAt (m := 5000) h g W b W' b' p q := by
  unfold k3_pay1 mlpAt
  simp only [shapeCast_self, maximumf_apply, addf_apply, matmul_zero_eq_dotGeneral,
    dot_apply dot_S5000x64_S64x64_S5000x64_1_0_0_1_n_n rfl, truncf_apply, broadcastTo_1b_ab_apply, broadcast_apply,
    zeroWord_eq]

theorem idx3_facts : ∀ t : Fin cfg3.N,
    (win3_0.index t (0 : Fin 2) = t.val ∧ win3_0.index t (1 : Fin 2) = 0
      ∧ win3_1.index t (0 : Fin 2) = t.val ∧ win3_1.index t (1 : Fin 2) = 0
      ∧ win3_6.index t (0 : Fin 2) = t.val ∧ win3_6.index t (1 : Fin 2) = 0)
    ∧ ∀ a : Fin 2, win3_2.index t a = 0 ∧ win3_3.index t a = 0 ∧ win3_4.index t a = 0 ∧ win3_5.index t a = 0 :=
  (by decide +kernel : ∀ t : Fin grid3.N, _)

-- Entry (p, k) of a block at point t is entry (5000 t + p, k) of its array.
theorem emb3 (t : Fin cfg3.N) (y : S5000x64.Idx) :
    ((((cfg3.win 6).blk t).view.emb y : S100000x64.Idx) 0).val = t.val * 5000 + (y 0).val
    ∧ ((((cfg3.win 6).blk t).view.emb y : S100000x64.Idx) 1).val = (y 1).val := by
  obtain ⟨⟨-, -, -, -, g, g'⟩, -⟩ := idx3_facts t
  constructor
  · show win3_6.index t (0 : Fin 2) * 5000 + 1 * (y 0).val = _; omega
  · show win3_6.index t (1 : Fin 2) * 64 + 1 * (y 1).val = _; omega

theorem rows3 (c : Dev nD) (t : Fin cfg3.N) (y : S5000x64.Idx) (i : S100000x64.Idx)
    (h : (i 0).val = t.val * 5000 + (y 0).val) (h' : (i 1).val = (y 1).val) :
    iblk3 V c 0 t y = V c (Pipeline.arrRef spec3 0) i
    ∧ iblk3 V c 1 t y = V c (Pipeline.arrRef spec3 1) i := by
  obtain ⟨⟨a, a', b, b', -⟩, -⟩ := idx3_facts t
  unfold iblk3
  constructor <;> rw [View.read_apply]
  · show V c (Pipeline.arrRef spec3 0) _ = _
    refine congrArg _ (Shape.idx_ext₂ ?_ ?_)
    · show win3_0.index t (0 : Fin 2) * 5000 + 1 * (y 0).val = _; omega
    · show win3_0.index t (1 : Fin 2) * 64 + 1 * (y 1).val = _; omega
  · show V c (Pipeline.arrRef spec3 1) _ = _
    refine congrArg _ (Shape.idx_ext₂ ?_ ?_)
    · show win3_1.index t (0 : Fin 2) * 5000 + 1 * (y 0).val = _; omega
    · show win3_1.index t (1 : Fin 2) * 64 + 1 * (y 1).val = _; omega

-- The block at index 0 on every axis, of the array's own size, is the whole array.
theorem whole3 (c : Dev nD) (t : Fin cfg3.N) :
    iblk3 V c 2 t = V c (Pipeline.arrRef spec3 2)
    ∧ iblk3 V c 3 t = V c (Pipeline.arrRef spec3 3)
    ∧ iblk3 V c 4 t = V c (Pipeline.arrRef spec3 4)
    ∧ iblk3 V c 5 t = V c (Pipeline.arrRef spec3 5) := by
  have h := (idx3_facts t).2
  unfold iblk3
  refine ⟨funext fun y => ?_, funext fun y => ?_, funext fun y => ?_, funext fun y => ?_⟩ <;> rw [View.read_apply]
  · show V c (Pipeline.arrRef spec3 2) _ = _
    exact congrArg _ (funext fun a => Fin.ext (win3_2.rect_emb_val_of_index_zero t a (h a).1 y))
  · show V c (Pipeline.arrRef spec3 3) _ = _
    exact congrArg _ (funext fun a => Fin.ext (win3_3.rect_emb_val_of_index_zero t a (h a).2.1 y))
  · show V c (Pipeline.arrRef spec3 4) _ = _
    exact congrArg _ (funext fun a => Fin.ext (win3_4.rect_emb_val_of_index_zero t a (h a).2.2.1 y))
  · show V c (Pipeline.arrRef spec3 5) _ = _
    exact congrArg _ (funext fun a => Fin.ext (win3_5.rect_emb_val_of_index_zero t a (h a).2.2.2 y))

theorem out3_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    out3_6 (F := Ideal) h g W b W' b' (ix2 p q) = mlpAt (m := 5000) h g W b W' b' p q := by
  unfold out3_6
  rw [View.canon_unit_zero offsets_zero]
  simp only [View.ld_unit_zero (S := S5000x64) offsets_zero, View.ld_unit_zero (S := S64x64) offsets_zero,
    View.ld_unit_zero (S := S1x64) offsets_zero]
  exact pay3_apply h g W b W' b' p q

theorem read3 (t : Fin cfg3.N) (G : FVec Ideal S100000x64 .f32) (y : S5000x64.Idx) :
    (((cfg3.win 6).blk t).view.read (Elt Ideal) G : FVec Ideal S5000x64 .f32) y = G (((cfg3.win 6).blk t).view.emb y) := rfl

theorem flushed3_eq (c : Dev nD) (t : Fin cfg3.N) :
    (dat3 V c).flushed 6 t = ((cfg3.win 6).blk t).view.read (Elt Ideal)
      (ginG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  obtain ⟨w2, w3, w4, w5⟩ := whole3 V c t
  funext y
  show (dat3 V c).after 6 t y = _
  rw [after3_6, read3]
  obtain ⟨p, q, rfl⟩ : ∃ (p : Fin 5000) (q : Fin 64), y = ix2 p q := ⟨y 0, y 1, eq_ix2 y⟩
  obtain ⟨e, e'⟩ := emb3 t (ix2 p q)
  refine (out3_apply _ _ _ _ _ _ p q).trans ?_
  exact ginG_of_rows p q _ e' (fun k => (rows3 V c t (ix2 p k) (ix2 _ k) e rfl).1)
    (fun k => (rows3 V c t (ix2 p k) (ix2 _ k) e rfl).2) w2 w3 w4 w5

theorem cover3 (i : S100000x64.Idx) :
    ∃ t : Fin cfg3.N, (cfg3.win 6).flush t = true ∧ i ∈ ((cfg3.win 6).blk t).view.set := by
  have hi : (i 0).val < 100000 := (i 0).isLt
  have hlt : (i 0).val / 5000 < 20 := by omega
  obtain ⟨e, e'⟩ := emb3 ⟨(i 0).val / 5000, hlt⟩ (ix2 ⟨(i 0).val % 5000, by omega⟩ (i 1))
  refine ⟨⟨(i 0).val / 5000, hlt⟩, flush3_6 _, ?_⟩
  exact (congrArg (· ∈ _) (Shape.idx_ext₂ (e.trans (by show _ / 5000 * 5000 + _ % 5000 = _; omega)).symm e'.symm : i = _)).mpr
    (View.emb_mem_set _ _)

theorem final3 (c : Dev nD) :
    (dat3 V c).arrAt 6 cfg3.N
      = ginG (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 V c).arrAt_eq_of_cover 6 _ (fun t _ => flushed3_eq V c t) cover3

end Cert.Val.Gin

end
-- ==== Proof.Val.Bn4.lean ====
import proofs.«406479_j78563541778981_1_alg».proof.Proof.KI.R4
import proofs.«406479_j78563541778981_1_alg».proof.Proof.Val.BnSpec
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Val

variable (V : (c : Dev nD) → (b : Ref sig .tc) → Buf (Elt Ideal) ((c : Thread nD τ).loc b))

theorem bn_idx4 : ∀ t : Fin cfg4.N,
    (win4_0.index t (0 : Fin 2) = t.val ∧ win4_0.index t (1 : Fin 2) = 0
      ∧ win4_5.index t (0 : Fin 2) = t.val ∧ win4_5.index t (1 : Fin 2) = 0)
    ∧ ∀ a : Fin 2, win4_1.index t a = 0 ∧ win4_2.index t a = 0 ∧ win4_3.index t a = 0 ∧ win4_4.index t a = 0 :=
  (by decide +kernel : ∀ t : Fin grid4.N, _)

-- Entry (p, k) of the output's block at point t is entry (5000 t + p, k) of the array.
theorem bn_emb4 (t : Fin cfg4.N) (y : S5000x64.Idx) :
    ((((cfg4.win 5).blk t).view.emb y : S100000x64.Idx) 0).val = t.val * 5000 + (y 0).val
    ∧ ((((cfg4.win 5).blk t).view.emb y : S100000x64.Idx) 1).val = (y 1).val := by
  obtain ⟨⟨-, -, g, g'⟩, -⟩ := bn_idx4 t
  constructor
  · show win4_5.index t (0 : Fin 2) * 5000 + 1 * (y 0).val = _; omega
  · show win4_5.index t (1 : Fin 2) * 64 + 1 * (y 1).val = _; omega

theorem bn_rows4 (c : Dev nD) (t : Fin cfg4.N) (y : S5000x64.Idx) (i : S100000x64.Idx)
    (h : (i 0).val = t.val * 5000 + (y 0).val) (h' : (i 1).val = (y 1).val) :
    iblk4 V c 0 t y = V c (Pipeline.arrRef spec4 0) i := by
  obtain ⟨⟨u, u', -⟩, -⟩ := bn_idx4 t
  unfold iblk4
  rw [View.read_apply]
  show V c (Pipeline.arrRef spec4 0) _ = _
  refine congrArg _ (Shape.idx_ext₂ ?_ ?_)
  · show win4_0.index t (0 : Fin 2) * 5000 + 1 * (y 0).val = _; omega
  · show win4_0.index t (1 : Fin 2) * 64 + 1 * (y 1).val = _; omega

-- The block at index 0 on every axis, of the array's own size, is the whole array.
theorem bn_whole4 (c : Dev nD) (t : Fin cfg4.N) :
    iblk4 V c 1 t = V c (Pipeline.arrRef spec4 1)
    ∧ iblk4 V c 2 t = V c (Pipeline.arrRef spec4 2)
    ∧ iblk4 V c 3 t = V c (Pipeline.arrRef spec4 3)
    ∧ iblk4 V c 4 t = V c (Pipeline.arrRef spec4 4) := by
  have h := (bn_idx4 t).2
  unfold iblk4
  refine ⟨funext fun y => ?_, funext fun y => ?_, funext fun y => ?_, funext fun y => ?_⟩ <;> rw [View.read_apply]
  · show V c (Pipeline.arrRef spec4 1) _ = _
    exact congrArg _ (funext fun a => Fin.ext (win4_1.rect_emb_val_of_index_zero t a (h a).1 y))
  · show V c (Pipeline.arrRef spec4 2) _ = _
    exact congrArg _ (funext fun a => Fin.ext (win4_2.rect_emb_val_of_index_zero t a (h a).2.1 y))
  · show V c (Pipeline.arrRef spec4 3) _ = _
    exact congrArg _ (funext fun a => Fin.ext (win4_3.rect_emb_val_of_index_zero t a (h a).2.2.1 y))
  · show V c (Pipeline.arrRef spec4 4) _ = _
    exact congrArg _ (funext fun a => Fin.ext (win4_4.rect_emb_val_of_index_zero t a (h a).2.2.2 y))

theorem bn_out4 (z : Vec Ideal S5000x64 .f32) (mean var gamma beta : Vec Ideal S1x64 .f32) (r : Fin 5000) (j : Fin 64) :
    out4_5 (F := Ideal) z mean var gamma beta (ix2 r j)
      = bnAt (gamma (ix2 (0 : Fin 1) j)) (z (ix2 r j)) (mean (ix2 (0 : Fin 1) j)) (var (ix2 (0 : Fin 1) j))
          (beta (ix2 (0 : Fin 1) j)) := by
  unfold out4_5
  rw [View.canon_unit_zero bn_hz]
  simp only [View.ld_unit_zero (S := S5000x64) bn_hz, View.ld_unit_zero (S := S1x64) bn_hz]
  unfold k4_pay1
  simp only [shapeCast_self]
  rw [addf_apply, mulf_apply, mulf_apply, subf_apply, broadcastTo_1b_ab_apply, broadcastTo_1b_ab_apply,
    broadcastTo_1b_ab_apply, broadcastTo_1b_ab_apply]
  rfl

theorem bn_read4 (t : Fin cfg4.N) (G : Vec Ideal S100000x64 .f32) (y : S5000x64.Idx) :
    (((cfg4.win 5).blk t).view.read (Elt Ideal) G : Vec Ideal S5000x64 .f32) y = G (((cfg4.win 5).blk t).view.emb y) := rfl

theorem bn_flushed4 (c : Dev nD) (t : Fin cfg4.N) :
    (dat4 V c).flushed 5 t = ((cfg4.win 5).blk t).view.read (Elt Ideal)
      (bnG (V c (Pipeline.arrRef spec4 0)) (V c (Pipeline.arrRef spec4 1)) (V c (Pipeline.arrRef spec4 2))
        (V c (Pipeline.arrRef spec4 3)) (V c (Pipeline.arrRef spec4 4))) := by
  obtain ⟨wa, wb, wc, wd⟩ := bn_whole4 V c t
  funext y
  show (dat4 V c).after 5 t y = _
  rw [after4_5, bn_read4]
  obtain ⟨p, q, rfl⟩ : ∃ (p : Fin 5000) (q : Fin 64), y = ix2 p q := ⟨y 0, y 1, eq_ix2 y⟩
  obtain ⟨e, e'⟩ := bn_emb4 t (ix2 p q)
  refine (bn_out4 _ _ _ _ _ p q).trans ?_
  exact bnG_of_entry p q _ e' (bn_rows4 V c t (ix2 p q) _ e e') wa wb wc wd

theorem bn_cover4 (i : S100000x64.Idx) :
    ∃ t : Fin cfg4.N, (cfg4.win 5).flush t = true ∧ i ∈ ((cfg4.win 5).blk t).view.set := by
  have hi : (i 0).val < 100000 := (i 0).isLt
  have hlt : (i 0).val / 5000 < 20 := by omega
  obtain ⟨e, e'⟩ := bn_emb4 ⟨(i 0).val / 5000, hlt⟩ (ix2 ⟨(i 0).val % 5000, by omega⟩ (i 1))
  refine ⟨⟨(i 0).val / 5000, hlt⟩, flush4_5 _, ?_⟩
  exact (congrArg (· ∈ _) (Shape.idx_ext₂ (e.trans (by show _ / 5000 * 5000 + _ % 5000 = _; omega)).symm e'.symm : i = _)).mpr
    (View.emb_mem_set _ _)

theorem final4 (c : Dev nD) :
    (dat4 V c).arrAt 5 cfg4.N
      = bnG (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => bn_flushed4 V c t) bn_cover4

end Cert.KernelIdeal.Hand

end
-- ==== Proof.KV.L1.lean ====
import proofs.«406479_j78563541778981_1_alg».proof.Proof.KV.L0
import proofs.«406479_j78563541778981_1_alg».proof.Proof.Val.Gin3
import proofs.«406479_j78563541778981_1_alg».proof.Proof.Val.Bn4

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W14_carry (r : Ref sig .tc) (hA : r ∉ hostOps3_W := by decide) (hG : r ≠ main_v60 := by decide)
    (hB1 : r ∉ hostOps4_W := by decide) (hB2 : r ∉ hostOps4_1_W := by decide) (hB3 : r ∉ hostOps4_2_W := by decide)
    (hN : r ≠ main_v73 := by decide) :
    W14 m ρ c (Proc.devRef .tc r) = W8 m ρ c (Proc.devRef .tc r) :=
  (W14_keep m ρ c r hN).trans <| (W13_of m ρ c r hB3).trans <| (W12_of m ρ c r hB2).trans <| (W11_of m ρ c r hB1).trans <|
  (W10_keep m ρ c r hG).trans (W9_of m ρ c r hA)

theorem W14_v1 : W14 m ρ c (Proc.devRef .tc main_v1) = srcF (W0 m ρ c (Proc.devRef .tc main_arg1)) :=
  (W14_carry m ρ c main_v1).trans (W8_v1 m ρ c)

theorem W14_v3 : W14 m ρ c (Proc.devRef .tc main_v3) = dstF (W0 m ρ c (Proc.devRef .tc main_arg1)) :=
  (W14_carry m ρ c main_v3).trans (W8_v3 m ρ c)

theorem W14_un (r : Ref sig .tc) (h : r ∈ args) : W14 m ρ c (no_index (Proc.devRef .tc r)) = W0 m ρ c (Proc.devRef .tc r) := by
  unfold args at h
  fin_cases h <;> exact (W14_carry m ρ c _).trans (W8_un m ρ c _ (by decide))

theorem W10_g : W10 m ρ c (Proc.devRef .tc main_v60) = Cert.Val.Gin.ginG (W8 m ρ c (Proc.devRef .tc main_v39)) (aggF (W8 m ρ c (Proc.devRef .tc main_v39)) (W0 m ρ c (Proc.devRef .tc main_arg1))) (w64F1 (W0 m ρ c (Proc.devRef .tc main_arg5)))
      (rs64 (v64F1 (W0 m ρ c (Proc.devRef .tc main_arg6)))) (w64F1 (W0 m ρ c (Proc.devRef .tc main_arg7))) (rs64 (v64F1 (W0 m ρ c (Proc.devRef .tc main_arg8)))) := by
  refine ((W10_arr m ρ c 6).trans (Cert.Val.Gin.final3 (X9 m ρ) c)).trans ?_
  show Cert.Val.Gin.ginG (W9 m ρ c (Proc.devRef .tc main_v39)) (W9 m ρ c (Proc.devRef .tc main_v49)) (W9 m ρ c (Proc.devRef .tc main_v51)) (W9 m ρ c (Proc.devRef .tc main_v58)) (W9 m ρ c (Proc.devRef .tc main_v55)) (W9 m ρ c (Proc.devRef .tc main_v59)) = _
  after_results_simp
  rw [W8_v1, W8_v3]
  simp (disch := decide) only [W8_un]
  rfl

-- The batch statistics and the normalisation of the perceptron's output: the specification's layer function.
theorem W14_h : W14 m ρ c (Proc.devRef .tc main_v73) = h2F (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W14_arr m ρ c 5).trans (final4 (X13 m ρ) c)).trans ?_
  show Cert.Val.bnG (W13 m ρ c (Proc.devRef .tc main_v60)) (W13 m ρ c (Proc.devRef .tc main_v69)) (W13 m ρ c (Proc.devRef .tc main_v70)) (W13 m ρ c (Proc.devRef .tc main_v71)) (W13 m ρ c (Proc.devRef .tc main_v72)) = _
  after_results_simp
  rw [W10_keep m ρ c main_arg9 (by decide), W10_keep m ρ c main_arg10 (by decide)]
  after_results_simp
  simp (disch := decide) only [W8_un]
  rw [W10_g, W8_h]
  rfl

end Cert.KernelIdeal.Hand

end
-- ==== Proof.Val.Gin5.lean ====
import proofs.«406479_j78563541778981_1_alg».proof.Proof.KI.R5
import proofs.«406479_j78563541778981_1_alg».proof.Proof.Val.GinSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.Val.Gin

open Cert.KernelIdeal Cert.KernelIdeal.Gen Cert.KernelIdeal.Hand

variable (V : (c : Dev nD) → (b : Ref sig .tc) → Buf (Elt Ideal) ((c : Thread nD τ).loc b))

theorem pay5_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    k5_pay1 (F := Ideal) h g W b W' b' (ix2 p q) = mlpAt (m := 5000) h g W b W' b' p q := by
  unfold k5_pay1 mlpAt
  simp only [shapeCast_self, maximumf_apply, addf_apply, matmul_zero_eq_dotGeneral,
    dot_apply dot_S5000x64_S64x64_S5000x64_1_0_0_1_n_n rfl, truncf_apply, broadcastTo_1b_ab_apply, broadcast_apply,
    zeroWord_eq]

theorem idx5_facts : ∀ t : Fin cfg5.N,
    (win5_0.index t (0 : Fin 2) = t.val ∧ win5_0.index t (1 : Fin 2) = 0
      ∧ win5_1.index t (0 : Fin 2) = t.val ∧ win5_1.index t (1 : Fin 2) = 0
      ∧ win5_6.index t (0 : Fin 2) = t.val ∧ win5_6.index t (1 : Fin 2) = 0)
    ∧ ∀ a : Fin 2, win5_2.index t a = 0 ∧ win5_3.index t a = 0 ∧ win5_4.index t a = 0 ∧ win5_5.index t a = 0 :=
  (by decide +kernel : ∀ t : Fin grid5.N, _)

-- Entry (p, k) of a block at point t is entry (5000 t + p, k) of its array.
theorem emb5 (t : Fin cfg5.N) (y : S5000x64.Idx) :
    ((((cfg5.win 6).blk t).view.emb y : S100000x64.Idx) 0).val = t.val * 5000 + (y 0).val
    ∧ ((((cfg5.win 6).blk t).view.emb y : S100000x64.Idx) 1).val = (y 1).val := by
  obtain ⟨⟨-, -, -, -, g, g'⟩, -⟩ := idx5_facts t
  constructor
  · show win5_6.index t (0 : Fin 2) * 5000 + 1 * (y 0).val = _; omega
  · show win5_6.index t (1 : Fin 2) * 64 + 1 * (y 1).val = _; omega

theorem rows5 (c : Dev nD) (t : Fin cfg5.N) (y : S5000x64.Idx) (i : S100000x64.Idx)
    (h : (i 0).val = t.val * 5000 + (y 0).val) (h' : (i 1).val = (y 1).val) :
    iblk5 V c 0 t y = V c (Pipeline.arrRef spec5 0) i
    ∧ iblk5 V c 1 t y = V c (Pipeline.arrRef spec5 1) i := by
  obtain ⟨⟨a, a', b, b', -⟩, -⟩ := idx5_facts t
  unfold iblk5
  constructor <;> rw [View.read_apply]
  · show V c (Pipeline.arrRef spec5 0) _ = _
    refine congrArg _ (Shape.idx_ext₂ ?_ ?_)
    · show win5_0.index t (0 : Fin 2) * 5000 + 1 * (y 0).val = _; omega
    · show win5_0.index t (1 : Fin 2) * 64 + 1 * (y 1).val = _; omega
  · show V c (Pipeline.arrRef spec5 1) _ = _
    refine congrArg _ (Shape.idx_ext₂ ?_ ?_)
    · show win5_1.index t (0 : Fin 2) * 5000 + 1 * (y 0).val = _; omega
    · show win5_1.index t (1 : Fin 2) * 64 + 1 * (y 1).val = _; omega

-- The block at index 0 on every axis, of the array's own size, is the whole array.
theorem whole5 (c : Dev nD) (t : Fin cfg5.N) :
    iblk5 V c 2 t = V c (Pipeline.arrRef spec5 2)
    ∧ iblk5 V c 3 t = V c (Pipeline.arrRef spec5 3)
    ∧ iblk5 V c 4 t = V c (Pipeline.arrRef spec5 4)
    ∧ iblk5 V c 5 t = V c (Pipeline.arrRef spec5 5) := by
  have h := (idx5_facts t).2
  unfold iblk5
  refine ⟨funext fun y => ?_, funext fun y => ?_, funext fun y => ?_, funext fun y => ?_⟩ <;> rw [View.read_apply]
  · show V c (Pipeline.arrRef spec5 2) _ = _
    exact congrArg _ (funext fun a => Fin.ext (win5_2.rect_emb_val_of_index_zero t a (h a).1 y))
  · show V c (Pipeline.arrRef spec5 3) _ = _
    exact congrArg _ (funext fun a => Fin.ext (win5_3.rect_emb_val_of_index_zero t a (h a).2.1 y))
  · show V c (Pipeline.arrRef spec5 4) _ = _
    exact congrArg _ (funext fun a => Fin.ext (win5_4.rect_emb_val_of_index_zero t a (h a).2.2.1 y))
  · show V c (Pipeline.arrRef spec5 5) _ = _
    exact congrArg _ (funext fun a => Fin.ext (win5_5.rect_emb_val_of_index_zero t a (h a).2.2.2 y))

theorem out5_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    out5_6 (F := Ideal) h g W b W' b' (ix2 p q) = mlpAt (m := 5000) h g W b W' b' p q := by
  unfold out5_6
  rw [View.canon_unit_zero offsets_zero]
  simp only [View.ld_unit_zero (S := S5000x64) offsets_zero, View.ld_unit_zero (S := S64x64) offsets_zero,
    View.ld_unit_zero (S := S1x64) offsets_zero]
  exact pay5_apply h g W b W' b' p q

theorem read5 (t : Fin cfg5.N) (G : FVec Ideal S100000x64 .f32) (y : S5000x64.Idx) :
    (((cfg5.win 6).blk t).view.read (Elt Ideal) G : FVec Ideal S5000x64 .f32) y = G (((cfg5.win 6).blk t).view.emb y) := rfl

theorem flushed5_eq (c : Dev nD) (t : Fin cfg5.N) :
    (dat5 V c).flushed 6 t = ((cfg5.win 6).blk t).view.read (Elt Ideal)
      (ginG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  obtain ⟨w2, w3, w4, w5⟩ := whole5 V c t
  funext y
  show (dat5 V c).after 6 t y = _
  rw [after5_6, read5]
  obtain ⟨p, q, rfl⟩ : ∃ (p : Fin 5000) (q : Fin 64), y = ix2 p q := ⟨y 0, y 1, eq_ix2 y⟩
  obtain ⟨e, e'⟩ := emb5 t (ix2 p q)
  refine (out5_apply _ _ _ _ _ _ p q).trans ?_
  exact ginG_of_rows p q _ e' (fun k => (rows5 V c t (ix2 p k) (ix2 _ k) e rfl).1)
    (fun k => (rows5 V c t (ix2 p k) (ix2 _ k) e rfl).2) w2 w3 w4 w5

theorem cover5 (i : S100000x64.Idx) :
    ∃ t : Fin cfg5.N, (cfg5.win 6).flush t = true ∧ i ∈ ((cfg5.win 6).blk t).view.set := by
  have hi : (i 0).val < 100000 := (i 0).isLt
  have hlt : (i 0).val / 5000 < 20 := by omega
  obtain ⟨e, e'⟩ := emb5 ⟨(i 0).val / 5000, hlt⟩ (ix2 ⟨(i 0).val % 5000, by omega⟩ (i 1))
  refine ⟨⟨(i 0).val / 5000, hlt⟩, flush5_6 _, ?_⟩
  exact (congrArg (· ∈ _) (Shape.idx_ext₂ (e.trans (by show _ / 5000 * 5000 + _ % 5000 = _; omega)).symm e'.symm : i = _)).mpr
    (View.emb_mem_set _ _)

theorem final5 (c : Dev nD) :
    (dat5 V c).arrAt 6 cfg5.N
      = ginG (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 V c).arrAt_eq_of_cover 6 _ (fun t _ => flushed5_eq V c t) cover5

end Cert.Val.Gin

end
-- ==== Proof.Val.Bn6.lean ====
import proofs.«406479_j78563541778981_1_alg».proof.Proof.KI.R6
import proofs.«406479_j78563541778981_1_alg».proof.Proof.Val.BnSpec
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Val

variable (V : (c : Dev nD) → (b : Ref sig .tc) → Buf (Elt Ideal) ((c : Thread nD τ).loc b))

theorem bn_idx6 : ∀ t : Fin cfg6.N,
    (win6_0.index t (0 : Fin 2) = t.val ∧ win6_0.index t (1 : Fin 2) = 0
      ∧ win6_5.index t (0 : Fin 2) = t.val ∧ win6_5.index t (1 : Fin 2) = 0)
    ∧ ∀ a : Fin 2, win6_1.index t a = 0 ∧ win6_2.index t a = 0 ∧ win6_3.index t a = 0 ∧ win6_4.index t a = 0 :=
  (by decide +kernel : ∀ t : Fin grid6.N, _)

-- Entry (p, k) of the output's block at point t is entry (5000 t + p, k) of the array.
theorem bn_emb6 (t : Fin cfg6.N) (y : S5000x64.Idx) :
    ((((cfg6.win 5).blk t).view.emb y : S100000x64.Idx) 0).val = t.val * 5000 + (y 0).val
    ∧ ((((cfg6.win 5).blk t).view.emb y : S100000x64.Idx) 1).val = (y 1).val := by
  obtain ⟨⟨-, -, g, g'⟩, -⟩ := bn_idx6 t
  constructor
  · show win6_5.index t (0 : Fin 2) * 5000 + 1 * (y 0).val = _; omega
  · show win6_5.index t (1 : Fin 2) * 64 + 1 * (y 1).val = _; omega

theorem bn_rows6 (c : Dev nD) (t : Fin cfg6.N) (y : S5000x64.Idx) (i : S100000x64.Idx)
    (h : (i 0).val = t.val * 5000 + (y 0).val) (h' : (i 1).val = (y 1).val) :
    iblk6 V c 0 t y = V c (Pipeline.arrRef spec6 0) i := by
  obtain ⟨⟨u, u', -⟩, -⟩ := bn_idx6 t
  unfold iblk6
  rw [View.read_apply]
  show V c (Pipeline.arrRef spec6 0) _ = _
  refine congrArg _ (Shape.idx_ext₂ ?_ ?_)
  · show win6_0.index t (0 : Fin 2) * 5000 + 1 * (y 0).val = _; omega
  · show win6_0.index t (1 : Fin 2) * 64 + 1 * (y 1).val = _; omega

-- The block at index 0 on every axis, of the array's own size, is the whole array.
theorem bn_whole6 (c : Dev nD) (t : Fin cfg6.N) :
    iblk6 V c 1 t = V c (Pipeline.arrRef spec6 1)
    ∧ iblk6 V c 2 t = V c (Pipeline.arrRef spec6 2)
    ∧ iblk6 V c 3 t = V c (Pipeline.arrRef spec6 3)
    ∧ iblk6 V c 4 t = V c (Pipeline.arrRef spec6 4) := by
  have h := (bn_idx6 t).2
  unfold iblk6
  refine ⟨funext fun y => ?_, funext fun y => ?_, funext fun y => ?_, funext fun y => ?_⟩ <;> rw [View.read_apply]
  · show V c (Pipeline.arrRef spec6 1) _ = _
    exact congrArg _ (funext fun a => Fin.ext (win6_1.rect_emb_val_of_index_zero t a (h a).1 y))
  · show V c (Pipeline.arrRef spec6 2) _ = _
    exact congrArg _ (funext fun a => Fin.ext (win6_2.rect_emb_val_of_index_zero t a (h a).2.1 y))
  · show V c (Pipeline.arrRef spec6 3) _ = _
    exact congrArg _ (funext fun a => Fin.ext (win6_3.rect_emb_val_of_index_zero t a (h a).2.2.1 y))
  · show V c (Pipeline.arrRef spec6 4) _ = _
    exact congrArg _ (funext fun a => Fin.ext (win6_4.rect_emb_val_of_index_zero t a (h a).2.2.2 y))

theorem bn_out6 (z : Vec Ideal S5000x64 .f32) (mean var gamma beta : Vec Ideal S1x64 .f32) (r : Fin 5000) (j : Fin 64) :
    out6_5 (F := Ideal) z mean var gamma beta (ix2 r j)
      = bnAt (gamma (ix2 (0 : Fin 1) j)) (z (ix2 r j)) (mean (ix2 (0 : Fin 1) j)) (var (ix2 (0 : Fin 1) j))
          (beta (ix2 (0 : Fin 1) j)) := by
  unfold out6_5
  rw [View.canon_unit_zero bn_hz]
  simp only [View.ld_unit_zero (S := S5000x64) bn_hz, View.ld_unit_zero (S := S1x64) bn_hz]
  unfold k6_pay1
  simp only [shapeCast_self]
  rw [addf_apply, mulf_apply, mulf_apply, subf_apply, broadcastTo_1b_ab_apply, broadcastTo_1b_ab_apply,
    broadcastTo_1b_ab_apply, broadcastTo_1b_ab_apply]
  rfl

theorem bn_read6 (t : Fin cfg6.N) (G : Vec Ideal S100000x64 .f32) (y : S5000x64.Idx) :
    (((cfg6.win 5).blk t).view.read (Elt Ideal) G : Vec Ideal S5000x64 .f32) y = G (((cfg6.win 5).blk t).view.emb y) := rfl

theorem bn_flushed6 (c : Dev nD) (t : Fin cfg6.N) :
    (dat6 V c).flushed 5 t = ((cfg6.win 5).blk t).view.read (Elt Ideal)
      (bnG (V c (Pipeline.arrRef spec6 0)) (V c (Pipeline.arrRef spec6 1)) (V c (Pipeline.arrRef spec6 2))
        (V c (Pipeline.arrRef spec6 3)) (V c (Pipeline.arrRef spec6 4))) := by
  obtain ⟨wa, wb, wc, wd⟩ := bn_whole6 V c t
  funext y
  show (dat6 V c).after 5 t y = _
  rw [after6_5, bn_read6]
  obtain ⟨p, q, rfl⟩ : ∃ (p : Fin 5000) (q : Fin 64), y = ix2 p q := ⟨y 0, y 1, eq_ix2 y⟩
  obtain ⟨e, e'⟩ := bn_emb6 t (ix2 p q)
  refine (bn_out6 _ _ _ _ _ p q).trans ?_
  exact bnG_of_entry p q _ e' (bn_rows6 V c t (ix2 p q) _ e e') wa wb wc wd

theorem bn_cover6 (i : S100000x64.Idx) :
    ∃ t : Fin cfg6.N, (cfg6.win 5).flush t = true ∧ i ∈ ((cfg6.win 5).blk t).view.set := by
  have hi : (i 0).val < 100000 := (i 0).isLt
  have hlt : (i 0).val / 5000 < 20 := by omega
  obtain ⟨e, e'⟩ := bn_emb6 ⟨(i 0).val / 5000, hlt⟩ (ix2 ⟨(i 0).val % 5000, by omega⟩ (i 1))
  refine ⟨⟨(i 0).val / 5000, hlt⟩, flush6_5 _, ?_⟩
  exact (congrArg (· ∈ _) (Shape.idx_ext₂ (e.trans (by show _ / 5000 * 5000 + _ % 5000 = _; omega)).symm e'.symm : i = _)).mpr
    (View.emb_mem_set _ _)

theorem final6 (c : Dev nD) :
    (dat6 V c).arrAt 5 cfg6.N
      = bnG (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => bn_flushed6 V c t) bn_cover6

end Cert.KernelIdeal.Hand

end
-- ==== Proof.KV.L2.lean ====
import proofs.«406479_j78563541778981_1_alg».proof.Proof.KV.L1
import proofs.«406479_j78563541778981_1_alg».proof.Proof.Val.Gin5
import proofs.«406479_j78563541778981_1_alg».proof.Proof.Val.Bn6

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W20_carry (r : Ref sig .tc) (hA : r ∉ hostOps5_W := by decide) (hG : r ≠ main_v94 := by decide)
    (hB1 : r ∉ hostOps6_W := by decide) (hB2 : r ∉ hostOps6_1_W := by decide) (hB3 : r ∉ hostOps6_2_W := by decide)
    (hN : r ≠ main_v107 := by decide) :
    W20 m ρ c (Proc.devRef .tc r) = W14 m ρ c (Proc.devRef .tc r) :=
  (W20_keep m ρ c r hN).trans <| (W19_of m ρ c r hB3).trans <| (W18_of m ρ c r hB2).trans <| (W17_of m ρ c r hB1).trans <|
  (W16_keep m ρ c r hG).trans (W15_of m ρ c r hA)

theorem W20_v1 : W20 m ρ c (Proc.devRef .tc main_v1) = srcF (W0 m ρ c (Proc.devRef .tc main_arg1)) :=
  (W20_carry m ρ c main_v1).trans (W14_v1 m ρ c)

theorem W20_v3 : W20 m ρ c (Proc.devRef .tc main_v3) = dstF (W0 m ρ c (Proc.devRef .tc main_arg1)) :=
  (W20_carry m ρ c main_v3).trans (W14_v3 m ρ c)

theorem W20_un (r : Ref sig .tc) (h : r ∈ args) : W20 m ρ c (no_index (Proc.devRef .tc r)) = W0 m ρ c (Proc.devRef .tc r) := by
  unfold args at h
  fin_cases h <;> exact (W20_carry m ρ c _).trans (W14_un m ρ c _ (by decide))

theorem W16_g : W16 m ρ c (Proc.devRef .tc main_v94) = Cert.Val.Gin.ginG (W14 m ρ c (Proc.devRef .tc main_v73)) (aggF (W14 m ρ c (Proc.devRef .tc main_v73)) (W0 m ρ c (Proc.devRef .tc main_arg1))) (w64F2 (W0 m ρ c (Proc.devRef .tc main_arg5)))
      (rs64 (v64F2 (W0 m ρ c (Proc.devRef .tc main_arg6)))) (w64F2 (W0 m ρ c (Proc.devRef .tc main_arg7))) (rs64 (v64F2 (W0 m ρ c (Proc.devRef .tc main_arg8)))) := by
  refine ((W16_arr m ρ c 6).trans (Cert.Val.Gin.final5 (X15 m ρ) c)).trans ?_
  show Cert.Val.Gin.ginG (W15 m ρ c (Proc.devRef .tc main_v73)) (W15 m ρ c (Proc.devRef .tc main_v83)) (W15 m ρ c (Proc.devRef .tc main_v85)) (W15 m ρ c (Proc.devRef .tc main_v92)) (W15 m ρ c (Proc.devRef .tc main_v89)) (W15 m ρ c (Proc.devRef .tc main_v93)) = _
  after_results_simp
  rw [W14_v1, W14_v3]
  simp (disch := decide) only [W14_un]
  rfl

-- The batch statistics and the normalisation of the perceptron's output: the specification's layer function.
theorem W20_h : W20 m ρ c (Proc.devRef .tc main_v107) = h3F (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W20_arr m ρ c 5).trans (final6 (X19 m ρ) c)).trans ?_
  show Cert.Val.bnG (W19 m ρ c (Proc.devRef .tc main_v94)) (W19 m ρ c (Proc.devRef .tc main_v103)) (W19 m ρ c (Proc.devRef .tc main_v104)) (W19 m ρ c (Proc.devRef .tc main_v105)) (W19 m ρ c (Proc.devRef .tc main_v106)) = _
  after_results_simp
  rw [W16_keep m ρ c main_arg9 (by decide), W16_keep m ρ c main_arg10 (by decide)]
  after_results_simp
  simp (disch := decide) only [W14_un]
  rw [W16_g, W14_h]
  rfl

end Cert.KernelIdeal.Hand

end
-- ==== Proof.Val.Gin7.lean ====
import proofs.«406479_j78563541778981_1_alg».proof.Proof.KI.R7
import proofs.«406479_j78563541778981_1_alg».proof.Proof.Val.GinSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.Val.Gin

open Cert.KernelIdeal Cert.KernelIdeal.Gen Cert.KernelIdeal.Hand

variable (V : (c : Dev nD) → (b : Ref sig .tc) → Buf (Elt Ideal) ((c : Thread nD τ).loc b))

theorem pay7_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    k7_pay1 (F := Ideal) h g W b W' b' (ix2 p q) = mlpAt (m := 5000) h g W b W' b' p q := by
  unfold k7_pay1 mlpAt
  simp only [shapeCast_self, maximumf_apply, addf_apply, matmul_zero_eq_dotGeneral,
    dot_apply dot_S5000x64_S64x64_S5000x64_1_0_0_1_n_n rfl, truncf_apply, broadcastTo_1b_ab_apply, broadcast_apply,
    zeroWord_eq]

theorem idx7_facts : ∀ t : Fin cfg7.N,
    (win7_0.index t (0 : Fin 2) = t.val ∧ win7_0.index t (1 : Fin 2) = 0
      ∧ win7_1.index t (0 : Fin 2) = t.val ∧ win7_1.index t (1 : Fin 2) = 0
      ∧ win7_6.index t (0 : Fin 2) = t.val ∧ win7_6.index t (1 : Fin 2) = 0)
    ∧ ∀ a : Fin 2, win7_2.index t a = 0 ∧ win7_3.index t a = 0 ∧ win7_4.index t a = 0 ∧ win7_5.index t a = 0 :=
  (by decide +kernel : ∀ t : Fin grid7.N, _)

-- Entry (p, k) of a block at point t is entry (5000 t + p, k) of its array.
theorem emb7 (t : Fin cfg7.N) (y : S5000x64.Idx) :
    ((((cfg7.win 6).blk t).view.emb y : S100000x64.Idx) 0).val = t.val * 5000 + (y 0).val
    ∧ ((((cfg7.win 6).blk t).view.emb y : S100000x64.Idx) 1).val = (y 1).val := by
  obtain ⟨⟨-, -, -, -, g, g'⟩, -⟩ := idx7_facts t
  constructor
  · show win7_6.index t (0 : Fin 2) * 5000 + 1 * (y 0).val = _; omega
  · show win7_6.index t (1 : Fin 2) * 64 + 1 * (y 1).val = _; omega

theorem rows7 (c : Dev nD) (t : Fin cfg7.N) (y : S5000x64.Idx) (i : S100000x64.Idx)
    (h : (i 0).val = t.val * 5000 + (y 0).val) (h' : (i 1).val = (y 1).val) :
    iblk7 V c 0 t y = V c (Pipeline.arrRef spec7 0) i
    ∧ iblk7 V c 1 t y = V c (Pipeline.arrRef spec7 1) i := by
  obtain ⟨⟨a, a', b, b', -⟩, -⟩ := idx7_facts t
  unfold iblk7
  constructor <;> rw [View.read_apply]
  · show V c (Pipeline.arrRef spec7 0) _ = _
    refine congrArg _ (Shape.idx_ext₂ ?_ ?_)
    · show win7_0.index t (0 : Fin 2) * 5000 + 1 * (y 0).val = _; omega
    · show win7_0.index t (1 : Fin 2) * 64 + 1 * (y 1).val = _; omega
  · show V c (Pipeline.arrRef spec7 1) _ = _
    refine congrArg _ (Shape.idx_ext₂ ?_ ?_)
    · show win7_1.index t (0 : Fin 2) * 5000 + 1 * (y 0).val = _; omega
    · show win7_1.index t (1 : Fin 2) * 64 + 1 * (y 1).val = _; omega

-- The block at index 0 on every axis, of the array's own size, is the whole array.
theorem whole7 (c : Dev nD) (t : Fin cfg7.N) :
    iblk7 V c 2 t = V c (Pipeline.arrRef spec7 2)
    ∧ iblk7 V c 3 t = V c (Pipeline.arrRef spec7 3)
    ∧ iblk7 V c 4 t = V c (Pipeline.arrRef spec7 4)
    ∧ iblk7 V c 5 t = V c (Pipeline.arrRef spec7 5) := by
  have h := (idx7_facts t).2
  unfold iblk7
  refine ⟨funext fun y => ?_, funext fun y => ?_, funext fun y => ?_, funext fun y => ?_⟩ <;> rw [View.read_apply]
  · show V c (Pipeline.arrRef spec7 2) _ = _
    exact congrArg _ (funext fun a => Fin.ext (win7_2.rect_emb_val_of_index_zero t a (h a).1 y))
  · show V c (Pipeline.arrRef spec7 3) _ = _
    exact congrArg _ (funext fun a => Fin.ext (win7_3.rect_emb_val_of_index_zero t a (h a).2.1 y))
  · show V c (Pipeline.arrRef spec7 4) _ = _
    exact congrArg _ (funext fun a => Fin.ext (win7_4.rect_emb_val_of_index_zero t a (h a).2.2.1 y))
  · show V c (Pipeline.arrRef spec7 5) _ = _
    exact congrArg _ (funext fun a => Fin.ext (win7_5.rect_emb_val_of_index_zero t a (h a).2.2.2 y))

theorem out7_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    out7_6 (F := Ideal) h g W b W' b' (ix2 p q) = mlpAt (m := 5000) h g W b W' b' p q := by
  unfold out7_6
  rw [View.canon_unit_zero offsets_zero]
  simp only [View.ld_unit_zero (S := S5000x64) offsets_zero, View.ld_unit_zero (S := S64x64) offsets_zero,
    View.ld_unit_zero (S := S1x64) offsets_zero]
  exact pay7_apply h g W b W' b' p q

theorem read7 (t : Fin cfg7.N) (G : FVec Ideal S100000x64 .f32) (y : S5000x64.Idx) :
    (((cfg7.win 6).blk t).view.read (Elt Ideal) G : FVec Ideal S5000x64 .f32) y = G (((cfg7.win 6).blk t).view.emb y) := rfl

theorem flushed7_eq (c : Dev nD) (t : Fin cfg7.N) :
    (dat7 V c).flushed 6 t = ((cfg7.win 6).blk t).view.read (Elt Ideal)
      (ginG (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))) := by
  obtain ⟨w2, w3, w4, w5⟩ := whole7 V c t
  funext y
  show (dat7 V c).after 6 t y = _
  rw [after7_6, read7]
  obtain ⟨p, q, rfl⟩ : ∃ (p : Fin 5000) (q : Fin 64), y = ix2 p q := ⟨y 0, y 1, eq_ix2 y⟩
  obtain ⟨e, e'⟩ := emb7 t (ix2 p q)
  refine (out7_apply _ _ _ _ _ _ p q).trans ?_
  exact ginG_of_rows p q _ e' (fun k => (rows7 V c t (ix2 p k) (ix2 _ k) e rfl).1)
    (fun k => (rows7 V c t (ix2 p k) (ix2 _ k) e rfl).2) w2 w3 w4 w5

theorem cover7 (i : S100000x64.Idx) :
    ∃ t : Fin cfg7.N, (cfg7.win 6).flush t = true ∧ i ∈ ((cfg7.win 6).blk t).view.set := by
  have hi : (i 0).val < 100000 := (i 0).isLt
  have hlt : (i 0).val / 5000 < 20 := by omega
  obtain ⟨e, e'⟩ := emb7 ⟨(i 0).val / 5000, hlt⟩ (ix2 ⟨(i 0).val % 5000, by omega⟩ (i 1))
  refine ⟨⟨(i 0).val / 5000, hlt⟩, flush7_6 _, ?_⟩
  exact (congrArg (· ∈ _) (Shape.idx_ext₂ (e.trans (by show _ / 5000 * 5000 + _ % 5000 = _; omega)).symm e'.symm : i = _)).mpr
    (View.emb_mem_set _ _)

theorem final7 (c : Dev nD) :
    (dat7 V c).arrAt 6 cfg7.N
      = ginG (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5)) :=
  (dat7 V c).arrAt_eq_of_cover 6 _ (fun t _ => flushed7_eq V c t) cover7

end Cert.Val.Gin

end
-- ==== Proof.Val.Bn8.lean ====
import proofs.«406479_j78563541778981_1_alg».proof.Proof.KI.R8
import proofs.«406479_j78563541778981_1_alg».proof.Proof.Val.BnSpec
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Val

variable (V : (c : Dev nD) → (b : Ref sig .tc) → Buf (Elt Ideal) ((c : Thread nD τ).loc b))

theorem bn_idx8 : ∀ t : Fin cfg8.N,
    (win8_0.index t (0 : Fin 2) = t.val ∧ win8_0.index t (1 : Fin 2) = 0
      ∧ win8_5.index t (0 : Fin 2) = t.val ∧ win8_5.index t (1 : Fin 2) = 0)
    ∧ ∀ a : Fin 2, win8_1.index t a = 0 ∧ win8_2.index t a = 0 ∧ win8_3.index t a = 0 ∧ win8_4.index t a = 0 :=
  (by decide +kernel : ∀ t : Fin grid8.N, _)

-- Entry (p, k) of the output's block at point t is entry (5000 t + p, k) of the array.
theorem bn_emb8 (t : Fin cfg8.N) (y : S5000x64.Idx) :
    ((((cfg8.win 5).blk t).view.emb y : S100000x64.Idx) 0).val = t.val * 5000 + (y 0).val
    ∧ ((((cfg8.win 5).blk t).view.emb y : S100000x64.Idx) 1).val = (y 1).val := by
  obtain ⟨⟨-, -, g, g'⟩, -⟩ := bn_idx8 t
  constructor
  · show win8_5.index t (0 : Fin 2) * 5000 + 1 * (y 0).val = _; omega
  · show win8_5.index t (1 : Fin 2) * 64 + 1 * (y 1).val = _; omega

theorem bn_rows8 (c : Dev nD) (t : Fin cfg8.N) (y : S5000x64.Idx) (i : S100000x64.Idx)
    (h : (i 0).val = t.val * 5000 + (y 0).val) (h' : (i 1).val = (y 1).val) :
    iblk8 V c 0 t y = V c (Pipeline.arrRef spec8 0) i := by
  obtain ⟨⟨u, u', -⟩, -⟩ := bn_idx8 t
  unfold iblk8
  rw [View.read_apply]
  show V c (Pipeline.arrRef spec8 0) _ = _
  refine congrArg _ (Shape.idx_ext₂ ?_ ?_)
  · show win8_0.index t (0 : Fin 2) * 5000 + 1 * (y 0).val = _; omega
  · show win8_0.index t (1 : Fin 2) * 64 + 1 * (y 1).val = _; omega

-- The block at index 0 on every axis, of the array's own size, is the whole array.
theorem bn_whole8 (c : Dev nD) (t : Fin cfg8.N) :
    iblk8 V c 1 t = V c (Pipeline.arrRef spec8 1)
    ∧ iblk8 V c 2 t = V c (Pipeline.arrRef spec8 2)
    ∧ iblk8 V c 3 t = V c (Pipeline.arrRef spec8 3)
    ∧ iblk8 V c 4 t = V c (Pipeline.arrRef spec8 4) := by
  have h := (bn_idx8 t).2
  unfold iblk8
  refine ⟨funext fun y => ?_, funext fun y => ?_, funext fun y => ?_, funext fun y => ?_⟩ <;> rw [View.read_apply]
  · show V c (Pipeline.arrRef spec8 1) _ = _
    exact congrArg _ (funext fun a => Fin.ext (win8_1.rect_emb_val_of_index_zero t a (h a).1 y))
  · show V c (Pipeline.arrRef spec8 2) _ = _
    exact congrArg _ (funext fun a => Fin.ext (win8_2.rect_emb_val_of_index_zero t a (h a).2.1 y))
  · show V c (Pipeline.arrRef spec8 3) _ = _
    exact congrArg _ (funext fun a => Fin.ext (win8_3.rect_emb_val_of_index_zero t a (h a).2.2.1 y))
  · show V c (Pipeline.arrRef spec8 4) _ = _
    exact congrArg _ (funext fun a => Fin.ext (win8_4.rect_emb_val_of_index_zero t a (h a).2.2.2 y))

theorem bn_out8 (z : Vec Ideal S5000x64 .f32) (mean var gamma beta : Vec Ideal S1x64 .f32) (r : Fin 5000) (j : Fin 64) :
    out8_5 (F := Ideal) z mean var gamma beta (ix2 r j)
      = bnAt (gamma (ix2 (0 : Fin 1) j)) (z (ix2 r j)) (mean (ix2 (0 : Fin 1) j)) (var (ix2 (0 : Fin 1) j))
          (beta (ix2 (0 : Fin 1) j)) := by
  unfold out8_5
  rw [View.canon_unit_zero bn_hz]
  simp only [View.ld_unit_zero (S := S5000x64) bn_hz, View.ld_unit_zero (S := S1x64) bn_hz]
  unfold k8_pay1
  simp only [shapeCast_self]
  rw [addf_apply, mulf_apply, mulf_apply, subf_apply, broadcastTo_1b_ab_apply, broadcastTo_1b_ab_apply,
    broadcastTo_1b_ab_apply, broadcastTo_1b_ab_apply]
  rfl

theorem bn_read8 (t : Fin cfg8.N) (G : Vec Ideal S100000x64 .f32) (y : S5000x64.Idx) :
    (((cfg8.win 5).blk t).view.read (Elt Ideal) G : Vec Ideal S5000x64 .f32) y = G (((cfg8.win 5).blk t).view.emb y) := rfl

theorem bn_flushed8 (c : Dev nD) (t : Fin cfg8.N) :
    (dat8 V c).flushed 5 t = ((cfg8.win 5).blk t).view.read (Elt Ideal)
      (bnG (V c (Pipeline.arrRef spec8 0)) (V c (Pipeline.arrRef spec8 1)) (V c (Pipeline.arrRef spec8 2))
        (V c (Pipeline.arrRef spec8 3)) (V c (Pipeline.arrRef spec8 4))) := by
  obtain ⟨wa, wb, wc, wd⟩ := bn_whole8 V c t
  funext y
  show (dat8 V c).after 5 t y = _
  rw [after8_5, bn_read8]
  obtain ⟨p, q, rfl⟩ : ∃ (p : Fin 5000) (q : Fin 64), y = ix2 p q := ⟨y 0, y 1, eq_ix2 y⟩
  obtain ⟨e, e'⟩ := bn_emb8 t (ix2 p q)
  refine (bn_out8 _ _ _ _ _ p q).trans ?_
  exact bnG_of_entry p q _ e' (bn_rows8 V c t (ix2 p q) _ e e') wa wb wc wd

theorem bn_cover8 (i : S100000x64.Idx) :
    ∃ t : Fin cfg8.N, (cfg8.win 5).flush t = true ∧ i ∈ ((cfg8.win 5).blk t).view.set := by
  have hi : (i 0).val < 100000 := (i 0).isLt
  have hlt : (i 0).val / 5000 < 20 := by omega
  obtain ⟨e, e'⟩ := bn_emb8 ⟨(i 0).val / 5000, hlt⟩ (ix2 ⟨(i 0).val % 5000, by omega⟩ (i 1))
  refine ⟨⟨(i 0).val / 5000, hlt⟩, flush8_5 _, ?_⟩
  exact (congrArg (· ∈ _) (Shape.idx_ext₂ (e.trans (by show _ / 5000 * 5000 + _ % 5000 = _; omega)).symm e'.symm : i = _)).mpr
    (View.emb_mem_set _ _)

theorem final8 (c : Dev nD) :
    (dat8 V c).arrAt 5 cfg8.N
      = bnG (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => bn_flushed8 V c t) bn_cover8

end Cert.KernelIdeal.Hand

end
-- ==== Proof.KV.L3.lean ====
import proofs.«406479_j78563541778981_1_alg».proof.Proof.KV.L2
import proofs.«406479_j78563541778981_1_alg».proof.Proof.Val.Gin7
import proofs.«406479_j78563541778981_1_alg».proof.Proof.Val.Bn8

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W26_carry (r : Ref sig .tc) (hA : r ∉ hostOps7_W := by decide) (hG : r ≠ main_v128 := by decide)
    (hB1 : r ∉ hostOps8_W := by decide) (hB2 : r ∉ hostOps8_1_W := by decide) (hB3 : r ∉ hostOps8_2_W := by decide)
    (hN : r ≠ main_v141 := by decide) :
    W26 m ρ c (Proc.devRef .tc r) = W20 m ρ c (Proc.devRef .tc r) :=
  (W26_keep m ρ c r hN).trans <| (W25_of m ρ c r hB3).trans <| (W24_of m ρ c r hB2).trans <| (W23_of m ρ c r hB1).trans <|
  (W22_keep m ρ c r hG).trans (W21_of m ρ c r hA)

theorem W26_v1 : W26 m ρ c (Proc.devRef .tc main_v1) = srcF (W0 m ρ c (Proc.devRef .tc main_arg1)) :=
  (W26_carry m ρ c main_v1).trans (W20_v1 m ρ c)

theorem W26_v3 : W26 m ρ c (Proc.devRef .tc main_v3) = dstF (W0 m ρ c (Proc.devRef .tc main_arg1)) :=
  (W26_carry m ρ c main_v3).trans (W20_v3 m ρ c)

theorem W26_un (r : Ref sig .tc) (h : r ∈ args) : W26 m ρ c (no_index (Proc.devRef .tc r)) = W0 m ρ c (Proc.devRef .tc r) := by
  unfold args at h
  fin_cases h <;> exact (W26_carry m ρ c _).trans (W20_un m ρ c _ (by decide))

theorem W22_g : W22 m ρ c (Proc.devRef .tc main_v128) = Cert.Val.Gin.ginG (W20 m ρ c (Proc.devRef .tc main_v107)) (aggF (W20 m ρ c (Proc.devRef .tc main_v107)) (W0 m ρ c (Proc.devRef .tc main_arg1))) (w64F3 (W0 m ρ c (Proc.devRef .tc main_arg5)))
      (rs64 (v64F3 (W0 m ρ c (Proc.devRef .tc main_arg6)))) (w64F3 (W0 m ρ c (Proc.devRef .tc main_arg7))) (rs64 (v64F3 (W0 m ρ c (Proc.devRef .tc main_arg8)))) := by
  refine ((W22_arr m ρ c 6).trans (Cert.Val.Gin.final7 (X21 m ρ) c)).trans ?_
  show Cert.Val.Gin.ginG (W21 m ρ c (Proc.devRef .tc main_v107)) (W21 m ρ c (Proc.devRef .tc main_v117)) (W21 m ρ c (Proc.devRef .tc main_v119)) (W21 m ρ c (Proc.devRef .tc main_v126)) (W21 m ρ c (Proc.devRef .tc main_v123)) (W21 m ρ c (Proc.devRef .tc main_v127)) = _
  after_results_simp
  rw [W20_v1, W20_v3]
  simp (disch := decide) only [W20_un]
  rfl

-- The batch statistics and the normalisation of the perceptron's output: the specification's layer function.
theorem W26_h : W26 m ρ c (Proc.devRef .tc main_v141) = h4F (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W26_arr m ρ c 5).trans (final8 (X25 m ρ) c)).trans ?_
  show Cert.Val.bnG (W25 m ρ c (Proc.devRef .tc main_v128)) (W25 m ρ c (Proc.devRef .tc main_v137)) (W25 m ρ c (Proc.devRef .tc main_v138)) (W25 m ρ c (Proc.devRef .tc main_v139)) (W25 m ρ c (Proc.devRef .tc main_v140)) = _
  after_results_simp
  rw [W22_keep m ρ c main_arg9 (by decide), W22_keep m ρ c main_arg10 (by decide)]
  after_results_simp
  simp (disch := decide) only [W20_un]
  rw [W22_g, W20_h]
  rfl

end Cert.KernelIdeal.Hand

end
-- ==== Proof.Val.Gin9.lean ====
import proofs.«406479_j78563541778981_1_alg».proof.Proof.KI.R9
import proofs.«406479_j78563541778981_1_alg».proof.Proof.Val.GinSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.Val.Gin

open Cert.KernelIdeal Cert.KernelIdeal.Gen Cert.KernelIdeal.Hand

variable (V : (c : Dev nD) → (b : Ref sig .tc) → Buf (Elt Ideal) ((c : Thread nD τ).loc b))

theorem pay9_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    k9_pay1 (F := Ideal) h g W b W' b' (ix2 p q) = mlpAt (m := 5000) h g W b W' b' p q := by
  unfold k9_pay1 mlpAt
  simp only [shapeCast_self, maximumf_apply, addf_apply, matmul_zero_eq_dotGeneral,
    dot_apply dot_S5000x64_S64x64_S5000x64_1_0_0_1_n_n rfl, truncf_apply, broadcastTo_1b_ab_apply, broadcast_apply,
    zeroWord_eq]

theorem idx9_facts : ∀ t : Fin cfg9.N,
    (win9_0.index t (0 : Fin 2) = t.val ∧ win9_0.index t (1 : Fin 2) = 0
      ∧ win9_1.index t (0 : Fin 2) = t.val ∧ win9_1.index t (1 : Fin 2) = 0
      ∧ win9_6.index t (0 : Fin 2) = t.val ∧ win9_6.index t (1 : Fin 2) = 0)
    ∧ ∀ a : Fin 2, win9_2.index t a = 0 ∧ win9_3.index t a = 0 ∧ win9_4.index t a = 0 ∧ win9_5.index t a = 0 :=
  (by decide +kernel : ∀ t : Fin grid9.N, _)

-- Entry (p, k) of a block at point t is entry (5000 t + p, k) of its array.
theorem emb9 (t : Fin cfg9.N) (y : S5000x64.Idx) :
    ((((cfg9.win 6).blk t).view.emb y : S100000x64.Idx) 0).val = t.val * 5000 + (y 0).val
    ∧ ((((cfg9.win 6).blk t).view.emb y : S100000x64.Idx) 1).val = (y 1).val := by
  obtain ⟨⟨-, -, -, -, g, g'⟩, -⟩ := idx9_facts t
  constructor
  · show win9_6.index t (0 : Fin 2) * 5000 + 1 * (y 0).val = _; omega
  · show win9_6.index t (1 : Fin 2) * 64 + 1 * (y 1).val = _; omega

theorem rows9 (c : Dev nD) (t : Fin cfg9.N) (y : S5000x64.Idx) (i : S100000x64.Idx)
    (h : (i 0).val = t.val * 5000 + (y 0).val) (h' : (i 1).val = (y 1).val) :
    iblk9 V c 0 t y = V c (Pipeline.arrRef spec9 0) i
    ∧ iblk9 V c 1 t y = V c (Pipeline.arrRef spec9 1) i := by
  obtain ⟨⟨a, a', b, b', -⟩, -⟩ := idx9_facts t
  unfold iblk9
  constructor <;> rw [View.read_apply]
  · show V c (Pipeline.arrRef spec9 0) _ = _
    refine congrArg _ (Shape.idx_ext₂ ?_ ?_)
    · show win9_0.index t (0 : Fin 2) * 5000 + 1 * (y 0).val = _; omega
    · show win9_0.index t (1 : Fin 2) * 64 + 1 * (y 1).val = _; omega
  · show V c (Pipeline.arrRef spec9 1) _ = _
    refine congrArg _ (Shape.idx_ext₂ ?_ ?_)
    · show win9_1.index t (0 : Fin 2) * 5000 + 1 * (y 0).val = _; omega
    · show win9_1.index t (1 : Fin 2) * 64 + 1 * (y 1).val = _; omega

-- The block at index 0 on every axis, of the array's own size, is the whole array.
theorem whole9 (c : Dev nD) (t : Fin cfg9.N) :
    iblk9 V c 2 t = V c (Pipeline.arrRef spec9 2)
    ∧ iblk9 V c 3 t = V c (Pipeline.arrRef spec9 3)
    ∧ iblk9 V c 4 t = V c (Pipeline.arrRef spec9 4)
    ∧ iblk9 V c 5 t = V c (Pipeline.arrRef spec9 5) := by
  have h := (idx9_facts t).2
  unfold iblk9
  refine ⟨funext fun y => ?_, funext fun y => ?_, funext fun y => ?_, funext fun y => ?_⟩ <;> rw [View.read_apply]
  · show V c (Pipeline.arrRef spec9 2) _ = _
    exact congrArg _ (funext fun a => Fin.ext (win9_2.rect_emb_val_of_index_zero t a (h a).1 y))
  · show V c (Pipeline.arrRef spec9 3) _ = _
    exact congrArg _ (funext fun a => Fin.ext (win9_3.rect_emb_val_of_index_zero t a (h a).2.1 y))
  · show V c (Pipeline.arrRef spec9 4) _ = _
    exact congrArg _ (funext fun a => Fin.ext (win9_4.rect_emb_val_of_index_zero t a (h a).2.2.1 y))
  · show V c (Pipeline.arrRef spec9 5) _ = _
    exact congrArg _ (funext fun a => Fin.ext (win9_5.rect_emb_val_of_index_zero t a (h a).2.2.2 y))

theorem out9_apply (h g : FVec Ideal S5000x64 .f32) (W : FVec Ideal S64x64 .f32) (b : FVec Ideal S1x64 .f32)
    (W' : FVec Ideal S64x64 .f32) (b' : FVec Ideal S1x64 .f32) (p : Fin 5000) (q : Fin 64) :
    out9_6 (F := Ideal) h g W b W' b' (ix2 p q) = mlpAt (m := 5000) h g W b W' b' p q := by
  unfold out9_6
  rw [View.canon_unit_zero offsets_zero]
  simp only [View.ld_unit_zero (S := S5000x64) offsets_zero, View.ld_unit_zero (S := S64x64) offsets_zero,
    View.ld_unit_zero (S := S1x64) offsets_zero]
  exact pay9_apply h g W b W' b' p q

theorem read9 (t : Fin cfg9.N) (G : FVec Ideal S100000x64 .f32) (y : S5000x64.Idx) :
    (((cfg9.win 6).blk t).view.read (Elt Ideal) G : FVec Ideal S5000x64 .f32) y = G (((cfg9.win 6).blk t).view.emb y) := rfl

theorem flushed9_eq (c : Dev nD) (t : Fin cfg9.N) :
    (dat9 V c).flushed 6 t = ((cfg9.win 6).blk t).view.read (Elt Ideal)
      (ginG (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))) := by
  obtain ⟨w2, w3, w4, w5⟩ := whole9 V c t
  funext y
  show (dat9 V c).after 6 t y = _
  rw [after9_6, read9]
  obtain ⟨p, q, rfl⟩ : ∃ (p : Fin 5000) (q : Fin 64), y = ix2 p q := ⟨y 0, y 1, eq_ix2 y⟩
  obtain ⟨e, e'⟩ := emb9 t (ix2 p q)
  refine (out9_apply _ _ _ _ _ _ p q).trans ?_
  exact ginG_of_rows p q _ e' (fun k => (rows9 V c t (ix2 p k) (ix2 _ k) e rfl).1)
    (fun k => (rows9 V c t (ix2 p k) (ix2 _ k) e rfl).2) w2 w3 w4 w5

theorem cover9 (i : S100000x64.Idx) :
    ∃ t : Fin cfg9.N, (cfg9.win 6).flush t = true ∧ i ∈ ((cfg9.win 6).blk t).view.set := by
  have hi : (i 0).val < 100000 := (i 0).isLt
  have hlt : (i 0).val / 5000 < 20 := by omega
  obtain ⟨e, e'⟩ := emb9 ⟨(i 0).val / 5000, hlt⟩ (ix2 ⟨(i 0).val % 5000, by omega⟩ (i 1))
  refine ⟨⟨(i 0).val / 5000, hlt⟩, flush9_6 _, ?_⟩
  exact (congrArg (· ∈ _) (Shape.idx_ext₂ (e.trans (by show _ / 5000 * 5000 + _ % 5000 = _; omega)).symm e'.symm : i = _)).mpr
    (View.emb_mem_set _ _)

theorem final9 (c : Dev nD) :
    (dat9 V c).arrAt 6 cfg9.N
      = ginG (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5)) :=
  (dat9 V c).arrAt_eq_of_cover 6 _ (fun t _ => flushed9_eq V c t) cover9

end Cert.Val.Gin

end
-- ==== Proof.Val.Bn10.lean ====
import proofs.«406479_j78563541778981_1_alg».proof.Proof.KI.R10
import proofs.«406479_j78563541778981_1_alg».proof.Proof.Val.BnSpec
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Val

variable (V : (c : Dev nD) → (b : Ref sig .tc) → Buf (Elt Ideal) ((c : Thread nD τ).loc b))

theorem bn_idx10 : ∀ t : Fin cfg10.N,
    (win10_0.index t (0 : Fin 2) = t.val ∧ win10_0.index t (1 : Fin 2) = 0
      ∧ win10_5.index t (0 : Fin 2) = t.val ∧ win10_5.index t (1 : Fin 2) = 0)
    ∧ ∀ a : Fin 2, win10_1.index t a = 0 ∧ win10_2.index t a = 0 ∧ win10_3.index t a = 0 ∧ win10_4.index t a = 0 :=
  (by decide +kernel : ∀ t : Fin grid10.N, _)

-- Entry (p, k) of the output's block at point t is entry (5000 t + p, k) of the array.
theorem bn_emb10 (t : Fin cfg10.N) (y : S5000x64.Idx) :
    ((((cfg10.win 5).blk t).view.emb y : S100000x64.Idx) 0).val = t.val * 5000 + (y 0).val
    ∧ ((((cfg10.win 5).blk t).view.emb y : S100000x64.Idx) 1).val = (y 1).val := by
  obtain ⟨⟨-, -, g, g'⟩, -⟩ := bn_idx10 t
  constructor
  · show win10_5.index t (0 : Fin 2) * 5000 + 1 * (y 0).val = _; omega
  · show win10_5.index t (1 : Fin 2) * 64 + 1 * (y 1).val = _; omega

theorem bn_rows10 (c : Dev nD) (t : Fin cfg10.N) (y : S5000x64.Idx) (i : S100000x64.Idx)
    (h : (i 0).val = t.val * 5000 + (y 0).val) (h' : (i 1).val = (y 1).val) :
    iblk10 V c 0 t y = V c (Pipeline.arrRef spec10 0) i := by
  obtain ⟨⟨u, u', -⟩, -⟩ := bn_idx10 t
  unfold iblk10
  rw [View.read_apply]
  show V c (Pipeline.arrRef spec10 0) _ = _
  refine congrArg _ (Shape.idx_ext₂ ?_ ?_)
  · show win10_0.index t (0 : Fin 2) * 5000 + 1 * (y 0).val = _; omega
  · show win10_0.index t (1 : Fin 2) * 64 + 1 * (y 1).val = _; omega

-- The block at index 0 on every axis, of the array's own size, is the whole array.
theorem bn_whole10 (c : Dev nD) (t : Fin cfg10.N) :
    iblk10 V c 1 t = V c (Pipeline.arrRef spec10 1)
    ∧ iblk10 V c 2 t = V c (Pipeline.arrRef spec10 2)
    ∧ iblk10 V c 3 t = V c (Pipeline.arrRef spec10 3)
    ∧ iblk10 V c 4 t = V c (Pipeline.arrRef spec10 4) := by
  have h := (bn_idx10 t).2
  unfold iblk10
  refine ⟨funext fun y => ?_, funext fun y => ?_, funext fun y => ?_, funext fun y => ?_⟩ <;> rw [View.read_apply]
  · show V c (Pipeline.arrRef spec10 1) _ = _
    exact congrArg _ (funext fun a => Fin.ext (win10_1.rect_emb_val_of_index_zero t a (h a).1 y))
  · show V c (Pipeline.arrRef spec10 2) _ = _
    exact congrArg _ (funext fun a => Fin.ext (win10_2.rect_emb_val_of_index_zero t a (h a).2.1 y))
  · show V c (Pipeline.arrRef spec10 3) _ = _
    exact congrArg _ (funext fun a => Fin.ext (win10_3.rect_emb_val_of_index_zero t a (h a).2.2.1 y))
  · show V c (Pipeline.arrRef spec10 4) _ = _
    exact congrArg _ (funext fun a => Fin.ext (win10_4.rect_emb_val_of_index_zero t a (h a).2.2.2 y))

theorem bn_out10 (z : Vec Ideal S5000x64 .f32) (mean var gamma beta : Vec Ideal S1x64 .f32) (r : Fin 5000) (j : Fin 64) :
    out10_5 (F := Ideal) z mean var gamma beta (ix2 r j)
      = bnAt (gamma (ix2 (0 : Fin 1) j)) (z (ix2 r j)) (mean (ix2 (0 : Fin 1) j)) (var (ix2 (0 : Fin 1) j))
          (beta (ix2 (0 : Fin 1) j)) := by
  unfold out10_5
  rw [View.canon_unit_zero bn_hz]
  simp only [View.ld_unit_zero (S := S5000x64) bn_hz, View.ld_unit_zero (S := S1x64) bn_hz]
  unfold k10_pay1
  simp only [shapeCast_self]
  rw [addf_apply, mulf_apply, mulf_apply, subf_apply, broadcastTo_1b_ab_apply, broadcastTo_1b_ab_apply,
    broadcastTo_1b_ab_apply, broadcastTo_1b_ab_apply]
  rfl

theorem bn_read10 (t : Fin cfg10.N) (G : Vec Ideal S100000x64 .f32) (y : S5000x64.Idx) :
    (((cfg10.win 5).blk t).view.read (Elt Ideal) G : Vec Ideal S5000x64 .f32) y = G (((cfg10.win 5).blk t).view.emb y) := rfl

theorem bn_flushed10 (c : Dev nD) (t : Fin cfg10.N) :
    (dat10 V c).flushed 5 t = ((cfg10.win 5).blk t).view.read (Elt Ideal)
      (bnG (V c (Pipeline.arrRef spec10 0)) (V c (Pipeline.arrRef spec10 1)) (V c (Pipeline.arrRef spec10 2))
        (V c (Pipeline.arrRef spec10 3)) (V c (Pipeline.arrRef spec10 4))) := by
  obtain ⟨wa, wb, wc, wd⟩ := bn_whole10 V c t
  funext y
  show (dat10 V c).after 5 t y = _
  rw [after10_5, bn_read10]
  obtain ⟨p, q, rfl⟩ : ∃ (p : Fin 5000) (q : Fin 64), y = ix2 p q := ⟨y 0, y 1, eq_ix2 y⟩
  obtain ⟨e, e'⟩ := bn_emb10 t (ix2 p q)
  refine (bn_out10 _ _ _ _ _ p q).trans ?_
  exact bnG_of_entry p q _ e' (bn_rows10 V c t (ix2 p q) _ e e') wa wb wc wd

theorem bn_cover10 (i : S100000x64.Idx) :
    ∃ t : Fin cfg10.N, (cfg10.win 5).flush t = true ∧ i ∈ ((cfg10.win 5).blk t).view.set := by
  have hi : (i 0).val < 100000 := (i 0).isLt
  have hlt : (i 0).val / 5000 < 20 := by omega
  obtain ⟨e, e'⟩ := bn_emb10 ⟨(i 0).val / 5000, hlt⟩ (ix2 ⟨(i 0).val % 5000, by omega⟩ (i 1))
  refine ⟨⟨(i 0).val / 5000, hlt⟩, flush10_5 _, ?_⟩
  exact (congrArg (· ∈ _) (Shape.idx_ext₂ (e.trans (by show _ / 5000 * 5000 + _ % 5000 = _; omega)).symm e'.symm : i = _)).mpr
    (View.emb_mem_set _ _)

theorem final10 (c : Dev nD) :
    (dat10 V c).arrAt 5 cfg10.N
      = bnG (V c (Pipeline.arrRef spec10 0)) (V c (Pipeline.arrRef spec10 1)) (V c (Pipeline.arrRef spec10 2))
          (V c (Pipeline.arrRef spec10 3)) (V c (Pipeline.arrRef spec10 4)) :=
  (dat10 V c).arrAt_eq_of_cover 5 _ (fun t _ => bn_flushed10 V c t) bn_cover10

end Cert.KernelIdeal.Hand

end
-- ==== Proof.KV.L4.lean ====
import proofs.«406479_j78563541778981_1_alg».proof.Proof.KV.L3
import proofs.«406479_j78563541778981_1_alg».proof.Proof.Val.Gin9
import proofs.«406479_j78563541778981_1_alg».proof.Proof.Val.Bn10

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W32_carry (r : Ref sig .tc) (hA : r ∉ hostOps9_W := by decide) (hG : r ≠ main_v162 := by decide)
    (hB1 : r ∉ hostOps10_W := by decide) (hB2 : r ∉ hostOps10_1_W := by decide) (hB3 : r ∉ hostOps10_2_W := by decide)
    (hN : r ≠ main_v175 := by decide) :
    W32 m ρ c (Proc.devRef .tc r) = W26 m ρ c (Proc.devRef .tc r) :=
  (W32_keep m ρ c r hN).trans <| (W31_of m ρ c r hB3).trans <| (W30_of m ρ c r hB2).trans <| (W29_of m ρ c r hB1).trans <|
  (W28_keep m ρ c r hG).trans (W27_of m ρ c r hA)

theorem W32_v1 : W32 m ρ c (Proc.devRef .tc main_v1) = srcF (W0 m ρ c (Proc.devRef .tc main_arg1)) :=
  (W32_carry m ρ c main_v1).trans (W26_v1 m ρ c)

theorem W32_v3 : W32 m ρ c (Proc.devRef .tc main_v3) = dstF (W0 m ρ c (Proc.devRef .tc main_arg1)) :=
  (W32_carry m ρ c main_v3).trans (W26_v3 m ρ c)

theorem W32_un (r : Ref sig .tc) (h : r ∈ args) : W32 m ρ c (no_index (Proc.devRef .tc r)) = W0 m ρ c (Proc.devRef .tc r) := by
  unfold args at h
  fin_cases h <;> exact (W32_carry m ρ c _).trans (W26_un m ρ c _ (by decide))

theorem W28_g : W28 m ρ c (Proc.devRef .tc main_v162) = Cert.Val.Gin.ginG (W26 m ρ c (Proc.devRef .tc main_v141)) (aggF (W26 m ρ c (Proc.devRef .tc main_v141)) (W0 m ρ c (Proc.devRef .tc main_arg1))) (w64F4 (W0 m ρ c (Proc.devRef .tc main_arg5)))
      (rs64 (v64F4 (W0 m ρ c (Proc.devRef .tc main_arg6)))) (w64F4 (W0 m ρ c (Proc.devRef .tc main_arg7))) (rs64 (v64F4 (W0 m ρ c (Proc.devRef .tc main_arg8)))) := by
  refine ((W28_arr m ρ c 6).trans (Cert.Val.Gin.final9 (X27 m ρ) c)).trans ?_
  show Cert.Val.Gin.ginG (W27 m ρ c (Proc.devRef .tc main_v141)) (W27 m ρ c (Proc.devRef .tc main_v151)) (W27 m ρ c (Proc.devRef .tc main_v153)) (W27 m ρ c (Proc.devRef .tc main_v160)) (W27 m ρ c (Proc.devRef .tc main_v157)) (W27 m ρ c (Proc.devRef .tc main_v161)) = _
  after_results_simp
  rw [W26_v1, W26_v3]
  simp (disch := decide) only [W26_un]
  rfl

-- The batch statistics and the normalisation of the perceptron's output: the specification's layer function.
theorem W32_h : W32 m ρ c (Proc.devRef .tc main_v175) = h5F (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W32_arr m ρ c 5).trans (final10 (X31 m ρ) c)).trans ?_
  show Cert.Val.bnG (W31 m ρ c (Proc.devRef .tc main_v162)) (W31 m ρ c (Proc.devRef .tc main_v171)) (W31 m ρ c (Proc.devRef .tc main_v172)) (W31 m ρ c (Proc.devRef .tc main_v173)) (W31 m ρ c (Proc.devRef .tc main_v174)) = _
  after_results_simp
  rw [W28_keep m ρ c main_arg9 (by decide), W28_keep m ρ c main_arg10 (by decide)]
  after_results_simp
  simp (disch := decide) only [W26_un]
  rw [W28_g, W26_h]
  rfl

end Cert.KernelIdeal.Hand

end
-- ==== Proof.Val.Pool.lean ====
import proofs.«406479_j78563541778981_1_alg».proof.Proof.KI.R11
import proofs.«406479_j78563541778981_1_alg».proof.Proof.Val.PoolSpec
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.Val.Pool

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

-- The product contracts the row axis of both blocks; the casts are identities and the product goes into a zero splat.
theorem pay2_apply (x0 : FVec Ideal S5000x128 .bf16) (x1 : FVec Ideal S5000x320 .bf16) (acc : FVec Ideal S128x320 .f32)
    (g : Fin 128) (d : Fin 320) :
    k11_pay2 (F := Ideal) x0 x1 acc (ix2 g d) = acc (ix2 g d) + ∑ r : Fin 5000, x0 (ix2 r g) * x1 (ix2 r d) := by
  unfold k11_pay2
  rw [shapeCast_self, shapeCast_self, shapeCast_self]
  refine (addf_apply _ _ _).trans ?_
  congr 1
  refine (Ideal.matmul_constant_zero_apply dot_S5000x128_S5000x320_S128x320_0_0_1_1_n_n none x0 x1 (ix2 g d)).trans ?_
  rw [← Equiv.sum_comp (contrEquiv1 dot_S5000x128_S5000x320_S128x320_0_0_1_1_n_n 5000 rfl rfl).symm]
  refine Finset.sum_congr rfl fun r _ => ?_
  have hr := contrEquiv1_symm_val dot_S5000x128_S5000x320_S128x320_0_0_1_1_n_n 5000 rfl rfl r
  congr 2 <;> funext a <;> apply Fin.ext <;> fin_cases a <;>
    simp [DotDims.lhsIdx, DotDims.rhsIdx, dot_S5000x128_S5000x320_S128x320_0_0_1_1_n_n] <;> first | exact hr | rfl

variable (V : (c : Dev nD) → (b : Ref sig .tc) → Buf (Elt Ideal) ((c : Thread nD τ).loc b))

abbrev ohOf (c : Dev nD) : Vec Ideal SNodesGraphs .bf16 := V c (Pipeline.arrRef spec11 0)
abbrev hcOf (c : Dev nD) : Vec Ideal SNodesFeats .bf16 := V c (Pipeline.arrRef spec11 1)
abbrev ohBlk (c : Dev nD) (t : Fin cfg11.N) : FVec Ideal S5000x128 .bf16 := iblk11 V c 0 t
abbrev hcBlk (c : Dev nD) (t : Fin cfg11.N) : FVec Ideal S5000x320 .bf16 := iblk11 V c 1 t

theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0 :=
  (by decide +kernel : ∀ t : Fin grid11.N, _)

-- Row `r` of either block at point `t` is row `5000 t + r` of its table.
theorem blk_apply (c : Dev nD) (t : Fin cfg11.N) (r : Fin 5000) (g : Fin 128) (d : Fin 320) (h : 5000 * t.val + r.val < 100000) :
    ohBlk V c t (ix2 r g) = ohOf V c (ix2 (⟨5000 * t.val + r.val, h⟩ : Fin 100000) g)
    ∧ hcBlk V c t (ix2 r d) = hcOf V c (ix2 (⟨5000 * t.val + r.val, h⟩ : Fin 100000) d) := by
  obtain ⟨e0, e1, e2, e3, -⟩ := idx_facts11 t
  refine ⟨congrArg (V c (Pipeline.arrRef spec11 0)) (funext fun a => Fin.ext ?_),
    congrArg (V c (Pipeline.arrRef spec11 1)) (funext fun a => Fin.ext ?_)⟩ <;> fin_cases a
  · show win11_0.index t (0 : Fin 2) * 5000 + 1 * r.val = 5000 * t.val + r.val; omega
  · show win11_0.index t (1 : Fin 2) * 128 + 1 * g.val = g.val; omega
  · show win11_1.index t (0 : Fin 2) * 5000 + 1 * r.val = 5000 * t.val + r.val; omega
  · show win11_1.index t (1 : Fin 2) * 320 + 1 * d.val = d.val; omega

-- The point's product at `(g, d)` is the sum of the addends of the 5000 nodes from `5000 t` on.
theorem block_sum (c : Dev nD) (t : Fin cfg11.N) (g : Fin 128) (d : Fin 320) :
    ∑ r : Fin 5000, ohBlk V c t (ix2 r g) * hcBlk V c t (ix2 r d)
      = ∑ r ∈ Finset.range 5000, poolTerm (ohOf V c) (hcOf V c) g d (5000 * t.val + r) := by
  rw [← Fin.sum_univ_eq_sum_range (fun r => poolTerm (ohOf V c) (hcOf V c) g d (5000 * t.val + r)) 5000]
  refine Finset.sum_congr rfl fun r _ => ?_
  have hN : cfg11.N = 20 := N_11
  have h : 5000 * t.val + r.val < 100000 := by have := r.isLt; have := t.isLt; omega
  rw [poolTerm_of_lt _ _ g d _ h, (blk_apply V c t r g d h).1, (blk_apply V c t r g d h).2]

theorem pay1_apply (g : Fin 128) (d : Fin 320) : (k11_pay1 (F := Ideal)) (ix2 g d) = 0 := by
  unfold k11_pay1
  exact Ideal.ofBits_zero_f32

-- After point `n` the accumulator's entry is the sum of the addends of the first `5000 (n + 1)` nodes: the blocks' sums join.
theorem poolAt_apply (c : Dev nD) (g : Fin 128) (d : Fin 320) : ∀ (n : ℕ) (hn : n < cfg11.N),
    poolAt (F := Ideal) V c n hn (ix2 g d) = ∑ k ∈ Finset.range (5000 * (n + 1)), poolTerm (ohOf V c) (hcOf V c) g d k
  | 0, hn => by
    refine (pay2_apply _ _ _ g d).trans ?_
    rw [pay1_apply, zero_add, block_sum V c ⟨0, hn⟩ g d]
    exact Finset.sum_congr rfl fun r _ => by show poolTerm _ _ g d (5000 * 0 + r) = _; rw [Nat.mul_zero, Nat.zero_add]
  | n + 1, hn => by
    refine (pay2_apply _ _ _ g d).trans ?_
    rw [poolAt_apply c g d n (Nat.lt_of_succ_lt hn), block_sum V c ⟨n + 1, hn⟩ g d,
      show 5000 * (n + 1 + 1) = 5000 * (n + 1) + 5000 by omega, Finset.sum_range_add]

theorem off11 (t : Fin cfg11.N) : (fun a => win11_2.index t a * main_v185.ty.shape.size a) = fun _ => 0 := by
  obtain ⟨-, -, -, -, e4, e5⟩ := idx_facts11 t
  funext a
  fin_cases a
  · show win11_2.index t (0 : Fin 2) * 128 = 0; rw [e4]
  · show win11_2.index t (1 : Fin 2) * 320 = 0; rw [e5]

-- At the last point the accumulator holds every node's addend, which is the pooled entry.
theorem flushed11_eq (c : Dev nD) (t : Fin cfg11.N) (hf : (cfg11.win 2).flush t = true) :
    (dat11 (F := Ideal) V c).flushed 2 t = ((cfg11.win 2).blk t).view.read (Elt Ideal) (poolG (ohOf V c) (hcOf V c)) := by
  have hN : cfg11.N = 20 := N_11
  have h19 : t.val = 19 := by have := (flush11_2 t).mp hf; have := t.isLt; omega
  show (cfg11.win 2).cut (grid11.coords t) ((dat11 V c).after 2 t) = _
  rw [after11_2]
  refine Eq.trans ?_ (Memref.read_access_unit_zero (Elt Ideal) main_v185 (off11 t)
    (fun a => by rw [congrFun (off11 t) a]; simp) (poolG (ohOf V c) (hcOf V c))).symm
  funext j
  obtain ⟨g, d, rfl⟩ : ∃ (g : Fin 128) (d : Fin 320), j = ix2 g d := ⟨j 0, j 1, eq_ix2 j⟩
  show poolAt V c t.val t.isLt (ix2 g d) = _
  rw [poolAt_apply V c g d t.val t.isLt, poolG_apply_range, h19]

theorem cover11 (i : S128x320.Idx) : ∃ t : Fin cfg11.N, (cfg11.win 2).flush t = true ∧ i ∈ ((cfg11.win 2).blk t).view.set := by
  have hN : cfg11.N = 20 := N_11
  obtain ⟨t, ht⟩ : ∃ t : Fin cfg11.N, t.val = 19 := ⟨⟨19, by omega⟩, rfl⟩
  refine ⟨t, (flush11_2 t).mpr (by omega), ?_⟩
  show i ∈ ((View.whole main_v185).slice (win11_2.rect t)).set
  rw [View.set_slice_whole]
  exact View.mem_set_unit_zero (off11 t) _ i

theorem final11 (c : Dev nD) :
    (dat11 (F := Ideal) V c).arrAt 2 cfg11.N = poolG (ohOf V c) (hcOf V c) :=
  (dat11 V c).arrAt_eq_of_cover 2 (poolG (ohOf V c) (hcOf V c)) (flushed11_eq V c) cover11

end Cert.Val.Pool

end
-- ==== Proof.Val.Proj.lean ====
import proofs.«406479_j78563541778981_1_alg».proof.Proof.KI.R12
import proofs.«406479_j78563541778981_1_alg».proof.Proof.Val.ProjSpec
import Idealize.ShloMosaic.Lib.Pipeline.Value

noncomputable section

open scoped BigOperators

namespace Cert.Val.Proj

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem zeroOff : (![0, 0] : Fin 2 → Nat) = fun _ => 0 := funext fun a => by fin_cases a <;> rfl

theorem out_eq (x0 : Vec Ideal S128x320 .f32) (x1 : Vec Ideal S320x320 .f32) (x2 : Vec Ideal S1x320 .f32)
    (x3 : Vec Ideal S320x320 .f32) (x4 : Vec Ideal S1x320 .f32) :
    out12_5 (F := Ideal) x0 x1 x2 x3 x4 = projG x0 x1 x2 x3 x4 := by
  unfold out12_5
  rw [View.canon_unit_zero zeroOff]
  simp only [View.ld_unit_zero (S := S128x320) zeroOff, View.ld_unit_zero (S := S320x320) zeroOff,
    View.ld_unit_zero (S := S1x320) zeroOff]
  exact kernel_proj x0 x1 x2 x3 x4

theorem iblk_0 (c : Dev nD) (t : Fin cfg12.N) : iblk12 V c 0 t = V c (Pipeline.arrRef spec12 0) :=
  Memref.read_access_unit_zero _ main_v185 (funext fun a => by fin_cases a <;> rfl) _ _

theorem iblk_1 (c : Dev nD) (t : Fin cfg12.N) : iblk12 V c 1 t = V c (Pipeline.arrRef spec12 1) :=
  Memref.read_access_unit_zero _ main_arg11 (funext fun a => by fin_cases a <;> rfl) _ _

theorem iblk_2 (c : Dev nD) (t : Fin cfg12.N) : iblk12 V c 2 t = V c (Pipeline.arrRef spec12 2) :=
  Memref.read_access_unit_zero _ main_v186 (funext fun a => by fin_cases a <;> rfl) _ _

theorem iblk_3 (c : Dev nD) (t : Fin cfg12.N) : iblk12 V c 3 t = V c (Pipeline.arrRef spec12 3) :=
  Memref.read_access_unit_zero _ main_arg13 (funext fun a => by fin_cases a <;> rfl) _ _

theorem iblk_4 (c : Dev nD) (t : Fin cfg12.N) : iblk12 V c 4 t = V c (Pipeline.arrRef spec12 4) :=
  Memref.read_access_unit_zero _ main_v187 (funext fun a => by fin_cases a <;> rfl) _ _

theorem cover (i : S128x320.Idx) :
    ∃ t : Fin cfg12.N, (cfg12.win 5).flush t = true ∧ i ∈ ((cfg12.win 5).blk t).view.set :=
  ⟨t12_0, flush12_5 t12_0, by
    show i ∈ ((View.whole main_v188).slice (win12_5.rect t12_0)).set
    rw [View.set_slice_whole]
    exact View.mem_set_unit_zero (funext fun a => by fin_cases a <;> rfl) _ i⟩

theorem read_oblk (t : Fin cfg12.N) (X : Vec Ideal S128x320 .f32) :
    ((cfg12.win 5).blk t).view.read (Elt Ideal) X = X :=
  Memref.read_access_unit_zero _ main_v188 (funext fun a => by fin_cases a <;> rfl) _ X

theorem flushed_eq (c : Dev nD) (t : Fin cfg12.N) :
    (dat12 V c).flushed 5 t = ((cfg12.win 5).blk t).view.read (Elt Ideal)
      (projG (V c (Pipeline.arrRef spec12 0)) (V c (Pipeline.arrRef spec12 1)) (V c (Pipeline.arrRef spec12 2))
        (V c (Pipeline.arrRef spec12 3)) (V c (Pipeline.arrRef spec12 4))) := by
  show (cfg12.win 5).cut (grid12.coords t) ((dat12 V c).after 5 t) = _
  rw [after12_5, read_oblk, iblk_0, iblk_1, iblk_2, iblk_3, iblk_4]
  exact out_eq _ _ _ _ _

theorem final12 (c : Dev nD) :
    (dat12 (F := Ideal) V c).arrAt 5 cfg12.N
      = projG (V c (Pipeline.arrRef spec12 0)) (V c (Pipeline.arrRef spec12 1)) (V c (Pipeline.arrRef spec12 2))
          (V c (Pipeline.arrRef spec12 3)) (V c (Pipeline.arrRef spec12 4)) :=
  (dat12 V c).arrAt_eq_of_cover 5 _ (fun t _ => flushed_eq V c t) cover

end Cert.Val.Proj

end
-- ==== Proof.KV.Tail.lean ====
import proofs.«406479_j78563541778981_1_alg».proof.Proof.KV.L4
import proofs.«406479_j78563541778981_1_alg».proof.Proof.Val.Pool
import proofs.«406479_j78563541778981_1_alg».proof.Proof.Val.Proj

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

-- The pooled features: the five layers' outputs, carried to the last layer's end, side by side under the node-to-graph table.
theorem W34_h : W34 m ρ c (Proc.devRef .tc main_v185) = pooledF (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine ((W34_arr m ρ c 2).trans (Cert.Val.Pool.final11 (X33 m ρ) c)).trans ?_
  show Cert.Val.Pool.poolG (W33 m ρ c (Proc.devRef .tc main_v184)) (W33 m ρ c (Proc.devRef .tc main_v177)) = _
  after_results_simp
  show Cert.Val.Pool.poolG (onehotF (W32 m ρ c (Proc.devRef .tc main_arg2))) (hcatF (W32 m ρ c (Proc.devRef .tc main_v39)) (W32 m ρ c (Proc.devRef .tc main_v73)) (W32 m ρ c (Proc.devRef .tc main_v107)) (W32 m ρ c (Proc.devRef .tc main_v141)) (W32 m ρ c (Proc.devRef .tc main_v175))) = _
  rw [W32_carry m ρ c main_v39, W26_carry m ρ c main_v39, W20_carry m ρ c main_v39, W14_carry m ρ c main_v39, W8_h,
    W32_carry m ρ c main_v73, W26_carry m ρ c main_v73, W20_carry m ρ c main_v73, W14_h, W32_carry m ρ c main_v107,
    W26_carry m ρ c main_v107, W20_h, W32_carry m ρ c main_v141, W26_h, W32_h, W32_un m ρ c main_arg2 (by decide)]
  rfl

end Cert.KernelIdeal.Hand

end
-- ==== Proof.KVal.lean ====
import proofs.«406479_j78563541778981_1_alg».proof.Proof.KV.Tail

noncomputable section

namespace Cert.KernelIdeal.Hand

open Idealize.ShloMosaic Idealize.ShloMosaic.TcCoe Idealize.ShloMosaic.Tactic Cert.KernelIdeal Cert.KernelIdeal.Gen Cert.Spec

variable (m : (ℓ : Loc nD τ sig) → Buf (Elt Ideal) ℓ) (ρ : Dev nD → PrngReg) (c : Dev nD)

theorem W37_out1 : W37 m ρ c (Proc.devRef .tc main_v204)
    = out1F (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps13 (W36 m ρ c) _ = _
  after_results_simp
  rw [W36_keep m ρ c main_v185 (by decide)]
  after_results_simp
  rw [W34_h]
  rfl

theorem W37_out0 : W37 m ρ c (Proc.devRef .tc main_v196)
    = out0F (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hp : W36 m ρ c (Proc.devRef .tc main_v188) = Cert.Val.Proj.projG (W35 m ρ c (Proc.devRef .tc main_v185)) (W35 m ρ c (Proc.devRef .tc main_arg11)) (W35 m ρ c (Proc.devRef .tc main_v186))
      (W35 m ρ c (Proc.devRef .tc main_arg13)) (W35 m ρ c (Proc.devRef .tc main_v187)) :=
    (W36_arr m ρ c 5).trans (Cert.Val.Proj.final12 (X35 m ρ) c)
  show StableHlo.after hostOps13 (W36 m ρ c) _ = _
  after_results_simp
  rw [hp]
  after_results_simp
  rw [W34_h, W34_keep m ρ c main_arg11 (by decide), W34_keep m ρ c main_arg12 (by decide), W34_keep m ρ c main_arg13 (by decide),
    W34_keep m ρ c main_arg14 (by decide)]
  after_results_simp
  simp (disch := decide) only [W32_un]
  rfl

end Cert.KernelIdeal.Hand

end
-- ==== Proof.RI.Ops.lean ====
import proofs.«406479_j78563541778981_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

abbrev opsInit : List (HloOp τ sig (Elt F)) :=
  [ StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.binary main_arg0 main_arg3 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)) ]
abbrev opsInit_W : List (Ref sig .tc) :=
  [ main_v0, main_v1, main_v2, main_v3, main_v4, main_v5, main_v6, main_v7 ]
theorem opsInit_sub : (opsInit : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub ..,
    StableHlo.unary_bufs_sub .., StableHlo.binary_bufs_sub ..⟩
theorem opsInit_fresh : (opsInit : List (HloOp τ sig (Elt F))).Forall fun op => op.fresh = ∅ :=
  ⟨rfl, rfl, rfl, rfl, rfl, rfl, rfl, rfl⟩
theorem opsInit_writes : (opsInit : List (HloOp τ sig (Elt F))).Forall fun op => op.writes ⊆ ((opsInit_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

abbrev opsL0a : List (HloOp τ sig (Elt F)) :=
  [ StableHlo.nullary main_c (constantI S_ 32 0#32),
    StableHlo.unary main_c main_v8 (broadcastInDim S1200000 ![] bcast_S_S1200000 : (⟨S_, .i32⟩ : BufTy).Contents (Elt F) → (⟨S1200000, .i32⟩ : BufTy).Contents (Elt F)),
    StableHlo.binary main_v1 main_v8 main_v9 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v10 (broadcastInDim S1200000 ![] bcast_S_S1200000 : (⟨S_, .i32⟩ : BufTy).Contents (Elt F) → (⟨S1200000, .i32⟩ : BufTy).Contents (Elt F)),
    StableHlo.binary main_v1 main_v10 main_v11 (addi : (⟨S1200000, .i32⟩ : BufTy).Contents (Elt F) → (⟨S1200000, .i32⟩ : BufTy).Contents (Elt F) → (⟨S1200000, .i32⟩ : BufTy).Contents (Elt F)),
    StableHlo.ternary main_v9 main_v11 main_v1 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v12 main_v13 (broadcastInDim S1200000x1 ![0] bcast_S1200000_S1200000x1_0 : (⟨S1200000, .i32⟩ : BufTy).Contents (Elt F) → (⟨S1200000x1, .i32⟩ : BufTy).Contents (Elt F)),
    StableHlo.binary main_v7 main_v13 main_v14 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst (constant S_ .f32 0x00000000#32),
    StableHlo.unary main_cst main_v15 (broadcastInDim S100000x64 ![] bcast_S_S100000x64 : (⟨S_, .f32⟩ : BufTy).Contents (Elt F) → (⟨S100000x64, .f32⟩ : BufTy).Contents (Elt F)),
    StableHlo.unary main_v3 main_v16 (broadcastInDim S1200000x1 ![0] bcast_S1200000_S1200000x1_0 : (⟨S1200000, .i32⟩ : BufTy).Contents (Elt F) → (⟨S1200000x1, .i32⟩ : BufTy).Contents (Elt F)),
    StableHlo.ternary main_v15 main_v16 main_v14 main_v17 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.binary main_v7 main_v17 main_v18 (addf : (⟨S100000x64, .f32⟩ : BufTy).Contents (Elt F) → (⟨S100000x64, .f32⟩ : BufTy).Contents (Elt F) → (⟨S100000x64, .f32⟩ : BufTy).Contents (Elt F)),
    StableHlo.unary main_arg5 main_v19 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v19 main_v20 rfl shapeCasts_S1x64x64_S64x64,
    StableHlo.binary main_v18 main_v20 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v22 ((extractStridedSlice S1x64 ![0, 0] · slices_S5x64_S1x64_0_0) : (⟨S5x64, .f32⟩ : BufTy).Contents (Elt F) → (⟨S1x64, .f32⟩ : BufTy).Contents (Elt F)),
    StableHlo.reshape main_v22 main_v23 rfl shapeCasts_S1x64_S64,
    StableHlo.unary main_v23 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v21 main_v25 main_v26 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.unary main_cst_1 main_v27 (broadcastInDim S100000x64 ![] bcast_S_S100000x64 : (⟨S_, .f32⟩ : BufTy).Contents (Elt F) → (⟨S100000x64, .f32⟩ : BufTy).Contents (Elt F)),
    StableHlo.binary main_v26 main_v27 main_v28 (maximumf : (⟨S100000x64, .f32⟩ : BufTy).Contents (Elt F) → (⟨S100000x64, .f32⟩ : BufTy).Contents (Elt F) → (⟨S100000x64, .f32⟩ : BufTy).Contents (Elt F)),
    StableHlo.unary main_arg7 main_v29 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v29 main_v30 rfl shapeCasts_S1x64x64_S64x64,
    StableHlo.binary main_v28 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v32 ((extractStridedSlice S1x64 ![0, 0] · slices_S5x64_S1x64_0_0) : (⟨S5x64, .f32⟩ : BufTy).Contents (Elt F) → (⟨S1x64, .f32⟩ : BufTy).Contents (Elt F)),
    StableHlo.reshape main_v32 main_v33 rfl shapeCasts_S1x64_S64,
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v35 main_v36 (addf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.unary main_cst_2 main_v37 (broadcastInDim S100000x64 ![] bcast_S_S100000x64 : (⟨S_, .f32⟩ : BufTy).Contents (Elt F) → (⟨S100000x64, .f32⟩ : BufTy).Contents (Elt F)),
    StableHlo.binary main_v36 main_v37 main_v38 (maximumf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x00000000#32),
    StableHlo.binary main_v38 main_cst_3 main_v39 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_4 (constant S_ .f32 0x47C35000#32),
    StableHlo.unary main_cst_4 main_v40 (broadcastInDim S64 ![] bcast_S_S64 : (⟨S_, .f32⟩ : BufTy).Contents (Elt F) → (⟨S64, .f32⟩ : BufTy).Contents (Elt F)),
    StableHlo.binary main_v39 main_v40 main_v41 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (.of main_v38 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v38 : StableHlo.TRef sig ⟨S100000x64, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_arg9 main_v43 ((extractStridedSlice S1x64 ![0, 0] · slices_S5x64_S1x64_0_0) : (⟨S5x64, .f32⟩ : BufTy).Contents (Elt F) → (⟨S1x64, .f32⟩ : BufTy).Contents (Elt F)),
    StableHlo.reshape main_v43 main_v44 rfl shapeCasts_S1x64_S64,
    StableHlo.unary main_v41 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v46 main_v47 (subf : (⟨S100000x64, .f32⟩ : BufTy).Contents (Elt F) → (⟨S100000x64, .f32⟩ : BufTy).Contents (Elt F) → (⟨S100000x64, .f32⟩ : BufTy).Contents (Elt F)),
    StableHlo.unary main_v44 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v47 main_v50 (mulf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3727C5AC#32) ]
abbrev opsL0a_W : List (Ref sig .tc) :=
  [ main_c, main_v8, main_v9, main_c_0, main_v10, main_v11, main_v12, main_v13, main_v14, main_cst,
    main_v15, main_v16, main_v17, main_v18, main_v19, main_v20, main_v21, main_v22, main_v23, main_v24,
    main_v25, main_v26, main_cst_1, main_v27, main_v28, main_v29, main_v30, main_v31, main_v32, main_v33,
    main_v34, main_v35, main_v36, main_cst_2, main_v37, main_v38, main_cst_3, main_v39, main_cst_4, main_v40,
    main_v41, main_c_5, main_call0.cst.ref, main_call0.v0.ref, main_call0.v1.ref, main_call0.cst_0.ref, main_call0.v2.ref, main_call0.v3.ref, main_call0.v4.ref, main_call0.v5.ref,
    main_call0.v6.ref, main_call0.v7.ref, main_call0.cst_1.ref, main_call0.v8.ref, main_call0.cst_2.ref, main_call0.v9.ref, main_call0.v10.ref, main_call0.v11.ref, main_call0.cst_3.ref, main_call0.v12.ref,
    main_call0.cst_4.ref, main_call0.call0.v0.ref, main_call0.call0.v1.ref, main_call0.call0.v2.ref, main_v43, main_v44, main_v45, main_v46, main_v47, main_v48,
    main_v49, main_v50, main_cst_6 ]
theorem opsL0a_sub : (opsL0a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.unary_bufs_sub .., StableHlo.reshape_bufs_sub .., StableHlo.binary_bufs_sub .., StableHlo.unary_bufs_sub ..,
    StableHlo.reshape_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.reshape_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub ..⟩
theorem opsL0a_fresh : (opsL0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩
theorem opsL0a_writes : (opsL0a : List (HloOp τ sig (Elt F))).Forall fun op => op.writes ⊆ ((opsL0a_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide)⟩

abbrev opsL0b : List (HloOp τ sig (Elt F)) :=
  [ StableHlo.unary main_cst_6 main_v51 (broadcastInDim S64 ![] bcast_S_S64 : (⟨S_, .f32⟩ : BufTy).Contents (Elt F) → (⟨S64, .f32⟩ : BufTy).Contents (Elt F)),
    StableHlo.binary main_v42 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v55 main_v56 (mulf : (⟨S100000x64, .f32⟩ : BufTy).Contents (Elt F) → (⟨S100000x64, .f32⟩ : BufTy).Contents (Elt F) → (⟨S100000x64, .f32⟩ : BufTy).Contents (Elt F)),
    StableHlo.unary main_arg10 main_v57 ((extractStridedSlice S1x64 ![0, 0] · slices_S5x64_S1x64_0_0) : (⟨S5x64, .f32⟩ : BufTy).Contents (Elt F) → (⟨S1x64, .f32⟩ : BufTy).Contents (Elt F)),
    StableHlo.reshape main_v57 main_v58 rfl shapeCasts_S1x64_S64,
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v60 main_v61 (addf : (⟨S100000x64, .f32⟩ : BufTy).Contents (Elt F) → (⟨S100000x64, .f32⟩ : BufTy).Contents (Elt F) → (⟨S100000x64, .f32⟩ : BufTy).Contents (Elt F)) ]
abbrev opsL0b_W : List (Ref sig .tc) :=
  [ main_v51, main_v52, main_v53, main_v54, main_v55, main_v56, main_v57, main_v58, main_v59, main_v60,
    main_v61 ]
theorem opsL0b_sub : (opsL0b : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.reshape_bufs_sub .., StableHlo.unary_bufs_sub .., StableHlo.unary_bufs_sub .., StableHlo.binary_bufs_sub ..⟩
theorem opsL0b_fresh : (opsL0b : List (HloOp τ sig (Elt F))).Forall fun op => op.fresh = ∅ :=
  ⟨rfl, rfl, rfl, rfl, rfl, rfl, rfl, rfl, rfl, rfl, rfl⟩
theorem opsL0b_writes : (opsL0b : List (HloOp τ sig (Elt F))).Forall fun op => op.writes ⊆ ((opsL0b_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

abbrev opsL1a : List (HloOp τ sig (Elt F)) :=
  [ StableHlo.nullary main_c_7 (constantI S_ 32 0#32),
    StableHlo.unary main_c_7 main_v62 (broadcastInDim S1200000 ![] bcast_S_S1200000 : (⟨S_, .i32⟩ : BufTy).Contents (Elt F) → (⟨S1200000, .i32⟩ : BufTy).Contents (Elt F)),
    StableHlo.binary main_v1 main_v62 main_v63 (cmpi .slt : (⟨S1200000, .i32⟩ : BufTy).Contents (Elt F) → (⟨S1200000, .i32⟩ : BufTy).Contents (Elt F) → (⟨S1200000, .i1⟩ : BufTy).Contents (Elt F)),
    StableHlo.nullary main_c_8 (constantI S_ 32 100000#32),
    StableHlo.unary main_c_8 main_v64 (broadcastInDim S1200000 ![] bcast_S_S1200000 : (⟨S_, .i32⟩ : BufTy).Contents (Elt F) → (⟨S1200000, .i32⟩ : BufTy).Contents (Elt F)),
    StableHlo.binary main_v1 main_v64 main_v65 (addi : (⟨S1200000, .i32⟩ : BufTy).Contents (Elt F) → (⟨S1200000, .i32⟩ : BufTy).Contents (Elt F) → (⟨S1200000, .i32⟩ : BufTy).Contents (Elt F)),
    StableHlo.ternary main_v63 main_v65 main_v1 main_v66 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v66 main_v67 (broadcastInDim S1200000x1 ![0] bcast_S1200000_S1200000x1_0 : (⟨S1200000, .i32⟩ : BufTy).Contents (Elt F) → (⟨S1200000x1, .i32⟩ : BufTy).Contents (Elt F)),
    StableHlo.binary main_v61 main_v67 main_v68 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_9 (constant S_ .f32 0x00000000#32),
    StableHlo.unary main_cst_9 main_v69 (broadcastInDim S100000x64 ![] bcast_S_S100000x64 : (⟨S_, .f32⟩ : BufTy).Contents (Elt F) → (⟨S100000x64, .f32⟩ : BufTy).Contents (Elt F)),
    StableHlo.unary main_v3 main_v70 (broadcastInDim S1200000x1 ![0] bcast_S1200000_S1200000x1_0 : (⟨S1200000, .i32⟩ : BufTy).Contents (Elt F) → (⟨S1200000x1, .i32⟩ : BufTy).Contents (Elt F)),
    StableHlo.ternary main_v69 main_v70 main_v68 main_v71 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.binary main_v61 main_v71 main_v72 (addf : (⟨S100000x64, .f32⟩ : BufTy).Contents (Elt F) → (⟨S100000x64, .f32⟩ : BufTy).Contents (Elt F) → (⟨S100000x64, .f32⟩ : BufTy).Contents (Elt F)),
    StableHlo.unary main_arg5 main_v73 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v73 main_v74 rfl shapeCasts_S1x64x64_S64x64,
    StableHlo.binary main_v72 main_v74 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v76 ((extractStridedSlice S1x64 ![1, 0] · slices_S5x64_S1x64_1_0) : (⟨S5x64, .f32⟩ : BufTy).Contents (Elt F) → (⟨S1x64, .f32⟩ : BufTy).Contents (Elt F)),
    StableHlo.reshape main_v76 main_v77 rfl shapeCasts_S1x64_S64,
    StableHlo.unary main_v77 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.unary main_cst_10 main_v81 (broadcastInDim S100000x64 ![] bcast_S_S100000x64 : (⟨S_, .f32⟩ : BufTy).Contents (Elt F) → (⟨S100000x64, .f32⟩ : BufTy).Contents (Elt F)),
    StableHlo.binary main_v80 main_v81 main_v82 (maximumf : (⟨S100000x64, .f32⟩ : BufTy).Contents (Elt F) → (⟨S100000x64, .f32⟩ : BufTy).Contents (Elt F) → (⟨S100000x64, .f32⟩ : BufTy).Contents (Elt F)),
    StableHlo.unary main_arg7 main_v83 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v83 main_v84 rfl shapeCasts_S1x64x64_S64x64,
    StableHlo.binary main_v82 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v86 ((extractStridedSlice S1x64 ![1, 0] · slices_S5x64_S1x64_1_0) : (⟨S5x64, .f32⟩ : BufTy).Contents (Elt F) → (⟨S1x64, .f32⟩ : BufTy).Contents (Elt F)),
    StableHlo.reshape main_v86 main_v87 rfl shapeCasts_S1x64_S64,
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v89 main_v90 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.unary main_cst_11 main_v91 (broadcastInDim S100000x64 ![] bcast_S_S100000x64 : (⟨S_, .f32⟩ : BufTy).Contents (Elt F) → (⟨S100000x64, .f32⟩ : BufTy).Contents (Elt F)),
    StableHlo.binary main_v90 main_v91 main_v92 (maximumf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v92 main_cst_12 main_v93 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v94 (broadcastInDim S64 ![] bcast_S_S64 : (⟨S_, .f32⟩ : BufTy).Contents (Elt F) → (⟨S64, .f32⟩ : BufTy).Contents (Elt F)),
    StableHlo.binary main_v93 main_v94 main_v95 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call1.cst (constant S_ .f32 0x00000000#32),
    StableHlo.TRef.binary (.of main_v92 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v92 : StableHlo.TRef sig ⟨S100000x64, .f32⟩) main_call1.v4 main_call1.v5 subf,
    StableHlo.TRef.binary main_call1.v5 main_call1.v5 main_call1.v6 mulf,
    StableHlo.TRef.unary (.of main_c_14 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_arg9 main_v97 ((extractStridedSlice S1x64 ![1, 0] · slices_S5x64_S1x64_1_0) : (⟨S5x64, .f32⟩ : BufTy).Contents (Elt F) → (⟨S1x64, .f32⟩ : BufTy).Contents (Elt F)),
    StableHlo.reshape main_v97 main_v98 rfl shapeCasts_S1x64_S64,
    StableHlo.unary main_v95 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v100 main_v101 (subf : (⟨S100000x64, .f32⟩ : BufTy).Contents (Elt F) → (⟨S100000x64, .f32⟩ : BufTy).Contents (Elt F) → (⟨S100000x64, .f32⟩ : BufTy).Contents (Elt F)),
    StableHlo.unary main_v98 main_v102 (broadcastInDim S1x64 ![1] bcast_S64_S1x64_1 : (⟨S64, .f32⟩ : BufTy).Contents (Elt F) → (⟨S1x64, .f32⟩ : BufTy).Contents (Elt F)) ]
abbrev opsL1a_W : List (Ref sig .tc) :=
  [ main_c_7, main_v62, main_v63, main_c_8, main_v64, main_v65, main_v66, main_v67, main_v68, main_cst_9,
    main_v69, main_v70, main_v71, main_v72, main_v73, main_v74, main_v75, main_v76, main_v77, main_v78,
    main_v79, main_v80, main_cst_10, main_v81, main_v82, main_v83, main_v84, main_v85, main_v86, main_v87,
    main_v88, main_v89, main_v90, main_cst_11, main_v91, main_v92, main_cst_12, main_v93, main_cst_13, main_v94,
    main_v95, main_c_14, main_call1.cst.ref, main_call1.v0.ref, main_call1.v1.ref, main_call1.cst_0.ref, main_call1.v2.ref, main_call1.v3.ref, main_call1.v4.ref, main_call1.v5.ref,
    main_call1.v6.ref, main_call1.v7.ref, main_call1.cst_1.ref, main_call1.v8.ref, main_call1.cst_2.ref, main_call1.v9.ref, main_call1.v10.ref, main_call1.v11.ref, main_call1.cst_3.ref, main_call1.v12.ref,
    main_call1.cst_4.ref, main_call1.call0.v0.ref, main_call1.call0.v1.ref, main_call1.call0.v2.ref, main_v97, main_v98, main_v99, main_v100, main_v101, main_v102 ]
theorem opsL1a_sub : (opsL1a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.unary_bufs_sub .., StableHlo.reshape_bufs_sub .., StableHlo.binary_bufs_sub .., StableHlo.unary_bufs_sub ..,
    StableHlo.reshape_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.reshape_bufs_sub ..,
    StableHlo.unary_bufs_sub .., StableHlo.unary_bufs_sub .., StableHlo.binary_bufs_sub .., StableHlo.unary_bufs_sub ..⟩
theorem opsL1a_fresh : (opsL1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
theorem opsL1a_writes : (opsL1a : List (HloOp τ sig (Elt F))).Forall fun op => op.writes ⊆ ((opsL1a_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide)⟩

abbrev opsL1b : List (HloOp τ sig (Elt F)) :=
  [ StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v101 main_v104 (mulf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v105 (broadcastInDim S64 ![] bcast_S_S64 : (⟨S_, .f32⟩ : BufTy).Contents (Elt F) → (⟨S64, .f32⟩ : BufTy).Contents (Elt F)),
    StableHlo.binary main_v96 main_v105 main_v106 (addf : (⟨S64, .f32⟩ : BufTy).Contents (Elt F) → (⟨S64, .f32⟩ : BufTy).Contents (Elt F) → (⟨S64, .f32⟩ : BufTy).Contents (Elt F)),
    StableHlo.unary main_v106 main_v107 (Host.rsqrt : (⟨S64, .f32⟩ : BufTy).Contents (Elt F) → (⟨S64, .f32⟩ : BufTy).Contents (Elt F)),
    StableHlo.unary main_v107 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v109 main_v110 (mulf : (⟨S100000x64, .f32⟩ : BufTy).Contents (Elt F) → (⟨S100000x64, .f32⟩ : BufTy).Contents (Elt F) → (⟨S100000x64, .f32⟩ : BufTy).Contents (Elt F)),
    StableHlo.unary main_arg10 main_v111 ((extractStridedSlice S1x64 ![1, 0] · slices_S5x64_S1x64_1_0) : (⟨S5x64, .f32⟩ : BufTy).Contents (Elt F) → (⟨S1x64, .f32⟩ : BufTy).Contents (Elt F)),
    StableHlo.reshape main_v111 main_v112 rfl shapeCasts_S1x64_S64,
    StableHlo.unary main_v112 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v114 main_v115 (addf : (⟨S100000x64, .f32⟩ : BufTy).Contents (Elt F) → (⟨S100000x64, .f32⟩ : BufTy).Contents (Elt F) → (⟨S100000x64, .f32⟩ : BufTy).Contents (Elt F)) ]
abbrev opsL1b_W : List (Ref sig .tc) :=
  [ main_v103, main_v104, main_cst_15, main_v105, main_v106, main_v107, main_v108, main_v109, main_v110, main_v111,
    main_v112, main_v113, main_v114, main_v115 ]
theorem opsL1b_sub : (opsL1b : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.reshape_bufs_sub .., StableHlo.unary_bufs_sub ..,
    StableHlo.unary_bufs_sub .., StableHlo.binary_bufs_sub ..⟩
theorem opsL1b_fresh : (opsL1b : List (HloOp τ sig (Elt F))).Forall fun op => op.fresh = ∅ :=
  ⟨rfl, rfl, rfl, rfl, rfl, rfl, rfl, rfl, rfl, rfl, rfl, rfl, rfl, rfl⟩
theorem opsL1b_writes : (opsL1b : List (HloOp τ sig (Elt F))).Forall fun op => op.writes ⊆ ((opsL1b_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide)⟩

abbrev opsL2a : List (HloOp τ sig (Elt F)) :=
  [ StableHlo.nullary main_c_16 (constantI S_ 32 0#32),
    StableHlo.unary main_c_16 main_v116 (broadcastInDim S1200000 ![] bcast_S_S1200000 : (⟨S_, .i32⟩ : BufTy).Contents (Elt F) → (⟨S1200000, .i32⟩ : BufTy).Contents (Elt F)),
    StableHlo.binary main_v1 main_v116 main_v117 (cmpi .slt : (⟨S1200000, .i32⟩ : BufTy).Contents (Elt F) → (⟨S1200000, .i32⟩ : BufTy).Contents (Elt F) → (⟨S1200000, .i1⟩ : BufTy).Contents (Elt F)),
    StableHlo.nullary main_c_17 (constantI S_ 32 100000#32),
    StableHlo.unary main_c_17 main_v118 (broadcastInDim S1200000 ![] bcast_S_S1200000 : (⟨S_, .i32⟩ : BufTy).Contents (Elt F) → (⟨S1200000, .i32⟩ : BufTy).Contents (Elt F)),
    StableHlo.binary main_v1 main_v118 main_v119 (addi : (⟨S1200000, .i32⟩ : BufTy).Contents (Elt F) → (⟨S1200000, .i32⟩ : BufTy).Contents (Elt F) → (⟨S1200000, .i32⟩ : BufTy).Contents (Elt F)),
    StableHlo.ternary main_v117 main_v119 main_v1 main_v120 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v120 main_v121 (broadcastInDim S1200000x1 ![0] bcast_S1200000_S1200000x1_0 : (⟨S1200000, .i32⟩ : BufTy).Contents (Elt F) → (⟨S1200000x1, .i32⟩ : BufTy).Contents (Elt F)),
    StableHlo.binary main_v115 main_v121 main_v122 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_18 (constant S_ .f32 0x00000000#32),
    StableHlo.unary main_cst_18 main_v123 (broadcastInDim S100000x64 ![] bcast_S_S100000x64 : (⟨S_, .f32⟩ : BufTy).Contents (Elt F) → (⟨S100000x64, .f32⟩ : BufTy).Contents (Elt F)),
    StableHlo.unary main_v3 main_v124 (broadcastInDim S1200000x1 ![0] bcast_S1200000_S1200000x1_0 : (⟨S1200000, .i32⟩ : BufTy).Contents (Elt F) → (⟨S1200000x1, .i32⟩ : BufTy).Contents (Elt F)),
    StableHlo.ternary main_v123 main_v124 main_v122 main_v125 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.binary main_v115 main_v125 main_v126 (addf : (⟨S100000x64, .f32⟩ : BufTy).Contents (Elt F) → (⟨S100000x64, .f32⟩ : BufTy).Contents (Elt F) → (⟨S100000x64, .f32⟩ : BufTy).Contents (Elt F)),
    StableHlo.unary main_arg5 main_v127 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v127 main_v128 rfl shapeCasts_S1x64x64_S64x64,
    StableHlo.binary main_v126 main_v128 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v130 ((extractStridedSlice S1x64 ![2, 0] · slices_S5x64_S1x64_2_0) : (⟨S5x64, .f32⟩ : BufTy).Contents (Elt F) → (⟨S1x64, .f32⟩ : BufTy).Contents (Elt F)),
    StableHlo.reshape main_v130 main_v131 rfl shapeCasts_S1x64_S64,
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v133 main_v134 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x00000000#32),
    StableHlo.unary main_cst_19 main_v135 (broadcastInDim S100000x64 ![] bcast_S_S100000x64 : (⟨S_, .f32⟩ : BufTy).Contents (Elt F) → (⟨S100000x64, .f32⟩ : BufTy).Contents (Elt F)),
    StableHlo.binary main_v134 main_v135 main_v136 (maximumf : (⟨S100000x64, .f32⟩ : BufTy).Contents (Elt F) → (⟨S100000x64, .f32⟩ : BufTy).Contents (Elt F) → (⟨S100000x64, .f32⟩ : BufTy).Contents (Elt F)),
    StableHlo.unary main_arg7 main_v137 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v137 main_v138 rfl shapeCasts_S1x64x64_S64x64,
    StableHlo.binary main_v136 main_v138 main_v139 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v140 ((extractStridedSlice S1x64 ![2, 0] · slices_S5x64_S1x64_2_0) : (⟨S5x64, .f32⟩ : BufTy).Contents (Elt F) → (⟨S1x64, .f32⟩ : BufTy).Contents (Elt F)),
    StableHlo.reshape main_v140 main_v141 rfl shapeCasts_S1x64_S64,
    StableHlo.unary main_v141 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S100000x64 ![0, 1] bcast_S1x64_S100000x64_0_1 : (⟨S1x64, .f32⟩ : BufTy).Contents (Elt F) → (⟨S100000x64, .f32⟩ : BufTy).Contents (Elt F)),
    StableHlo.binary main_v139 main_v143 main_v144 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.unary main_cst_20 main_v145 (broadcastInDim S100000x64 ![] bcast_S_S100000x64 : (⟨S_, .f32⟩ : BufTy).Contents (Elt F) → (⟨S100000x64, .f32⟩ : BufTy).Contents (Elt F)),
    StableHlo.binary main_v144 main_v145 main_v146 (maximumf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x00000000#32),
    StableHlo.binary main_v146 main_cst_21 main_v147 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_22 (constant S_ .f32 0x47C35000#32),
    StableHlo.unary main_cst_22 main_v148 (broadcastInDim S64 ![] bcast_S_S64 : (⟨S_, .f32⟩ : BufTy).Contents (Elt F) → (⟨S64, .f32⟩ : BufTy).Contents (Elt F)),
    StableHlo.binary main_v147 main_v148 main_v149 (Host.divf : (⟨S64, .f32⟩ : BufTy).Contents (Elt F) → (⟨S64, .f32⟩ : BufTy).Contents (Elt F) → (⟨S64, .f32⟩ : BufTy).Contents (Elt F)),
    StableHlo.nullary main_c_23 (constantI S_ 32 0#32),
    StableHlo.TRef.nullary main_call2.cst (constant S_ .f32 0x00000000#32),
    StableHlo.TRef.binary (.of main_v146 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v146 : StableHlo.TRef sig ⟨S100000x64, .f32⟩) main_call2.v4 main_call2.v5 subf,
    StableHlo.TRef.binary main_call2.v5 main_call2.v5 main_call2.v6 mulf,
    StableHlo.TRef.unary (.of main_c_23 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_arg9 main_v151 ((extractStridedSlice S1x64 ![2, 0] · slices_S5x64_S1x64_2_0) : (⟨S5x64, .f32⟩ : BufTy).Contents (Elt F) → (⟨S1x64, .f32⟩ : BufTy).Contents (Elt F)),
    StableHlo.reshape main_v151 main_v152 rfl shapeCasts_S1x64_S64,
    StableHlo.unary main_v149 main_v153 (broadcastInDim S1x64 ![1] bcast_S64_S1x64_1 : (⟨S64, .f32⟩ : BufTy).Contents (Elt F) → (⟨S1x64, .f32⟩ : BufTy).Contents (Elt F)) ]
abbrev opsL2a_W : List (Ref sig .tc) :=
  [ main_c_16, main_v116, main_v117, main_c_17, main_v118, main_v119, main_v120, main_v121, main_v122, main_cst_18,
    main_v123, main_v124, main_v125, main_v126, main_v127, main_v128, main_v129, main_v130, main_v131, main_v132,
    main_v133, main_v134, main_cst_19, main_v135, main_v136, main_v137, main_v138, main_v139, main_v140, main_v141,
    main_v142, main_v143, main_v144, main_cst_20, main_v145, main_v146, main_cst_21, main_v147, main_cst_22, main_v148,
    main_v149, main_c_23, main_call2.cst.ref, main_call2.v0.ref, main_call2.v1.ref, main_call2.cst_0.ref, main_call2.v2.ref, main_call2.v3.ref, main_call2.v4.ref, main_call2.v5.ref,
    main_call2.v6.ref, main_call2.v7.ref, main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v151, main_v152, main_v153 ]
theorem opsL2a_sub : (opsL2a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.unary_bufs_sub .., StableHlo.reshape_bufs_sub .., StableHlo.binary_bufs_sub .., StableHlo.unary_bufs_sub ..,
    StableHlo.reshape_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.reshape_bufs_sub ..,
    StableHlo.unary_bufs_sub ..⟩
theorem opsL2a_fresh : (opsL2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
theorem opsL2a_writes : (opsL2a : List (HloOp τ sig (Elt F))).Forall fun op => op.writes ⊆ ((opsL2a_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

abbrev opsL2b : List (HloOp τ sig (Elt F)) :=
  [ StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v154 main_v155 (subf : (⟨S100000x64, .f32⟩ : BufTy).Contents (Elt F) → (⟨S100000x64, .f32⟩ : BufTy).Contents (Elt F) → (⟨S100000x64, .f32⟩ : BufTy).Contents (Elt F)),
    StableHlo.unary main_v152 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S100000x64 ![0, 1] bcast_S1x64_S100000x64_0_1 : (⟨S1x64, .f32⟩ : BufTy).Contents (Elt F) → (⟨S100000x64, .f32⟩ : BufTy).Contents (Elt F)),
    StableHlo.binary main_v157 main_v155 main_v158 (mulf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3727C5AC#32),
    StableHlo.unary main_cst_24 main_v159 (broadcastInDim S64 ![] bcast_S_S64 : (⟨S_, .f32⟩ : BufTy).Contents (Elt F) → (⟨S64, .f32⟩ : BufTy).Contents (Elt F)),
    StableHlo.binary main_v150 main_v159 main_v160 (addf : (⟨S64, .f32⟩ : BufTy).Contents (Elt F) → (⟨S64, .f32⟩ : BufTy).Contents (Elt F) → (⟨S64, .f32⟩ : BufTy).Contents (Elt F)),
    StableHlo.unary main_v160 main_v161 (Host.rsqrt : (⟨S64, .f32⟩ : BufTy).Contents (Elt F) → (⟨S64, .f32⟩ : BufTy).Contents (Elt F)),
    StableHlo.unary main_v161 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S100000x64 ![0, 1] bcast_S1x64_S100000x64_0_1 : (⟨S1x64, .f32⟩ : BufTy).Contents (Elt F) → (⟨S100000x64, .f32⟩ : BufTy).Contents (Elt F)),
    StableHlo.binary main_v158 main_v163 main_v164 (mulf : (⟨S100000x64, .f32⟩ : BufTy).Contents (Elt F) → (⟨S100000x64, .f32⟩ : BufTy).Contents (Elt F) → (⟨S100000x64, .f32⟩ : BufTy).Contents (Elt F)),
    StableHlo.unary main_arg10 main_v165 ((extractStridedSlice S1x64 ![2, 0] · slices_S5x64_S1x64_2_0) : (⟨S5x64, .f32⟩ : BufTy).Contents (Elt F) → (⟨S1x64, .f32⟩ : BufTy).Contents (Elt F)),
    StableHlo.reshape main_v165 main_v166 rfl shapeCasts_S1x64_S64,
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S100000x64 ![0, 1] bcast_S1x64_S100000x64_0_1 : (⟨S1x64, .f32⟩ : BufTy).Contents (Elt F) → (⟨S100000x64, .f32⟩ : BufTy).Contents (Elt F)),
    StableHlo.binary main_v164 main_v168 main_v169 (addf : (⟨S100000x64, .f32⟩ : BufTy).Contents (Elt F) → (⟨S100000x64, .f32⟩ : BufTy).Contents (Elt F) → (⟨S100000x64, .f32⟩ : BufTy).Contents (Elt F)) ]
abbrev opsL2b_W : List (Ref sig .tc) :=
  [ main_v154, main_v155, main_v156, main_v157, main_v158, main_cst_24, main_v159, main_v160, main_v161, main_v162,
    main_v163, main_v164, main_v165, main_v166, main_v167, main_v168, main_v169 ]
theorem opsL2b_sub : (opsL2b : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.reshape_bufs_sub .., StableHlo.unary_bufs_sub .., StableHlo.unary_bufs_sub .., StableHlo.binary_bufs_sub ..⟩
theorem opsL2b_fresh : (opsL2b : List (HloOp τ sig (Elt F))).Forall fun op => op.fresh = ∅ :=
  ⟨rfl, rfl, rfl, rfl, rfl, rfl, rfl, rfl, rfl, rfl, rfl, rfl, rfl, rfl, rfl, rfl, rfl⟩
theorem opsL2b_writes : (opsL2b : List (HloOp τ sig (Elt F))).Forall fun op => op.writes ⊆ ((opsL2b_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide)⟩

abbrev opsL3a : List (HloOp τ sig (Elt F)) :=
  [ StableHlo.nullary main_c_25 (constantI S_ 32 0#32),
    StableHlo.unary main_c_25 main_v170 (broadcastInDim S1200000 ![] bcast_S_S1200000 : (⟨S_, .i32⟩ : BufTy).Contents (Elt F) → (⟨S1200000, .i32⟩ : BufTy).Contents (Elt F)),
    StableHlo.binary main_v1 main_v170 main_v171 (cmpi .slt : (⟨S1200000, .i32⟩ : BufTy).Contents (Elt F) → (⟨S1200000, .i32⟩ : BufTy).Contents (Elt F) → (⟨S1200000, .i1⟩ : BufTy).Contents (Elt F)),
    StableHlo.nullary main_c_26 (constantI S_ 32 100000#32),
    StableHlo.unary main_c_26 main_v172 (broadcastInDim S1200000 ![] bcast_S_S1200000 : (⟨S_, .i32⟩ : BufTy).Contents (Elt F) → (⟨S1200000, .i32⟩ : BufTy).Contents (Elt F)),
    StableHlo.binary main_v1 main_v172 main_v173 (addi : (⟨S1200000, .i32⟩ : BufTy).Contents (Elt F) → (⟨S1200000, .i32⟩ : BufTy).Contents (Elt F) → (⟨S1200000, .i32⟩ : BufTy).Contents (Elt F)),
    StableHlo.ternary main_v171 main_v173 main_v1 main_v174 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v174 main_v175 (broadcastInDim S1200000x1 ![0] bcast_S1200000_S1200000x1_0 : (⟨S1200000, .i32⟩ : BufTy).Contents (Elt F) → (⟨S1200000x1, .i32⟩ : BufTy).Contents (Elt F)),
    StableHlo.binary main_v169 main_v175 main_v176 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_27 (constant S_ .f32 0x00000000#32),
    StableHlo.unary main_cst_27 main_v177 (broadcastInDim S100000x64 ![] bcast_S_S100000x64 : (⟨S_, .f32⟩ : BufTy).Contents (Elt F) → (⟨S100000x64, .f32⟩ : BufTy).Contents (Elt F)),
    StableHlo.unary main_v3 main_v178 (broadcastInDim S1200000x1 ![0] bcast_S1200000_S1200000x1_0 : (⟨S1200000, .i32⟩ : BufTy).Contents (Elt F) → (⟨S1200000x1, .i32⟩ : BufTy).Contents (Elt F)),
    StableHlo.ternary main_v177 main_v178 main_v176 main_v179 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.binary main_v169 main_v179 main_v180 (addf : (⟨S100000x64, .f32⟩ : BufTy).Contents (Elt F) → (⟨S100000x64, .f32⟩ : BufTy).Contents (Elt F) → (⟨S100000x64, .f32⟩ : BufTy).Contents (Elt F)),
    StableHlo.unary main_arg5 main_v181 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v181 main_v182 rfl shapeCasts_S1x64x64_S64x64,
    StableHlo.binary main_v180 main_v182 main_v183 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v184 ((extractStridedSlice S1x64 ![3, 0] · slices_S5x64_S1x64_3_0) : (⟨S5x64, .f32⟩ : BufTy).Contents (Elt F) → (⟨S1x64, .f32⟩ : BufTy).Contents (Elt F)),
    StableHlo.reshape main_v184 main_v185 rfl shapeCasts_S1x64_S64,
    StableHlo.unary main_v185 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S100000x64 ![0, 1] bcast_S1x64_S100000x64_0_1 : (⟨S1x64, .f32⟩ : BufTy).Contents (Elt F) → (⟨S100000x64, .f32⟩ : BufTy).Contents (Elt F)),
    StableHlo.binary main_v183 main_v187 main_v188 (addf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.unary main_cst_28 main_v189 (broadcastInDim S100000x64 ![] bcast_S_S100000x64 : (⟨S_, .f32⟩ : BufTy).Contents (Elt F) → (⟨S100000x64, .f32⟩ : BufTy).Contents (Elt F)),
    StableHlo.binary main_v188 main_v189 main_v190 (maximumf : (⟨S100000x64, .f32⟩ : BufTy).Contents (Elt F) → (⟨S100000x64, .f32⟩ : BufTy).Contents (Elt F) → (⟨S100000x64, .f32⟩ : BufTy).Contents (Elt F)),
    StableHlo.unary main_arg7 main_v191 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v191 main_v192 rfl shapeCasts_S1x64x64_S64x64,
    StableHlo.binary main_v190 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v194 ((extractStridedSlice S1x64 ![3, 0] · slices_S5x64_S1x64_3_0) : (⟨S5x64, .f32⟩ : BufTy).Contents (Elt F) → (⟨S1x64, .f32⟩ : BufTy).Contents (Elt F)),
    StableHlo.reshape main_v194 main_v195 rfl shapeCasts_S1x64_S64,
    StableHlo.unary main_v195 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S100000x64 ![0, 1] bcast_S1x64_S100000x64_0_1 : (⟨S1x64, .f32⟩ : BufTy).Contents (Elt F) → (⟨S100000x64, .f32⟩ : BufTy).Contents (Elt F)),
    StableHlo.binary main_v193 main_v197 main_v198 (addf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x00000000#32),
    StableHlo.unary main_cst_29 main_v199 (broadcastInDim S100000x64 ![] bcast_S_S100000x64 : (⟨S_, .f32⟩ : BufTy).Contents (Elt F) → (⟨S100000x64, .f32⟩ : BufTy).Contents (Elt F)),
    StableHlo.binary main_v198 main_v199 main_v200 (maximumf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x00000000#32),
    StableHlo.binary main_v200 main_cst_30 main_v201 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32),
    StableHlo.unary main_cst_31 main_v202 (broadcastInDim S64 ![] bcast_S_S64 : (⟨S_, .f32⟩ : BufTy).Contents (Elt F) → (⟨S64, .f32⟩ : BufTy).Contents (Elt F)),
    StableHlo.binary main_v201 main_v202 main_v203 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32),
    StableHlo.TRef.nullary main_call3.cst (constant S_ .f32 0x00000000#32),
    StableHlo.TRef.binary (.of main_v200 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v200 : StableHlo.TRef sig ⟨S100000x64, .f32⟩) main_call3.v4 main_call3.v5 subf,
    StableHlo.TRef.binary main_call3.v5 main_call3.v5 main_call3.v6 mulf,
    StableHlo.TRef.unary (.of main_c_32 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]
abbrev opsL3a_W : List (Ref sig .tc) :=
  [ main_c_25, main_v170, main_v171, main_c_26, main_v172, main_v173, main_v174, main_v175, main_v176, main_cst_27,
    main_v177, main_v178, main_v179, main_v180, main_v181, main_v182, main_v183, main_v184, main_v185, main_v186,
    main_v187, main_v188, main_cst_28, main_v189, main_v190, main_v191, main_v192, main_v193, main_v194, main_v195,
    main_v196, main_v197, main_v198, main_cst_29, main_v199, main_v200, main_cst_30, main_v201, main_cst_31, main_v202,
    main_v203, main_c_32, main_call3.cst.ref, main_call3.v0.ref, main_call3.v1.ref, main_call3.cst_0.ref, main_call3.v2.ref, main_call3.v3.ref, main_call3.v4.ref, main_call3.v5.ref,
    main_call3.v6.ref, main_call3.v7.ref, main_call3.cst_1.ref, main_call3.v8.ref, main_call3.cst_2.ref, main_call3.v9.ref, main_call3.v10.ref, main_call3.v11.ref, main_call3.cst_3.ref, main_call3.v12.ref,
    main_call3.cst_4.ref, main_call3.call0.v0.ref, main_call3.call0.v1.ref, main_call3.call0.v2.ref ]
theorem opsL3a_sub : (opsL3a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.unary_bufs_sub .., StableHlo.reshape_bufs_sub .., StableHlo.binary_bufs_sub .., StableHlo.unary_bufs_sub ..,
    StableHlo.reshape_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..⟩
theorem opsL3a_fresh : (opsL3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl⟩
theorem opsL3a_writes : (opsL3a : List (HloOp τ sig (Elt F))).Forall fun op => op.writes ⊆ ((opsL3a_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

abbrev opsL3b : List (HloOp τ sig (Elt F)) :=
  [ StableHlo.unary main_arg9 main_v205 ((extractStridedSlice S1x64 ![3, 0] · slices_S5x64_S1x64_3_0) : (⟨S5x64, .f32⟩ : BufTy).Contents (Elt F) → (⟨S1x64, .f32⟩ : BufTy).Contents (Elt F)),
    StableHlo.reshape main_v205 main_v206 rfl shapeCasts_S1x64_S64,
    StableHlo.unary main_v203 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v208 main_v209 (subf : (⟨S100000x64, .f32⟩ : BufTy).Contents (Elt F) → (⟨S100000x64, .f32⟩ : BufTy).Contents (Elt F) → (⟨S100000x64, .f32⟩ : BufTy).Contents (Elt F)),
    StableHlo.unary main_v206 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S100000x64 ![0, 1] bcast_S1x64_S100000x64_0_1 : (⟨S1x64, .f32⟩ : BufTy).Contents (Elt F) → (⟨S100000x64, .f32⟩ : BufTy).Contents (Elt F)),
    StableHlo.binary main_v211 main_v209 main_v212 (mulf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v213 (broadcastInDim S64 ![] bcast_S_S64 : (⟨S_, .f32⟩ : BufTy).Contents (Elt F) → (⟨S64, .f32⟩ : BufTy).Contents (Elt F)),
    StableHlo.binary main_v204 main_v213 main_v214 (addf : (⟨S64, .f32⟩ : BufTy).Contents (Elt F) → (⟨S64, .f32⟩ : BufTy).Contents (Elt F) → (⟨S64, .f32⟩ : BufTy).Contents (Elt F)),
    StableHlo.unary main_v214 main_v215 (Host.rsqrt : (⟨S64, .f32⟩ : BufTy).Contents (Elt F) → (⟨S64, .f32⟩ : BufTy).Contents (Elt F)),
    StableHlo.unary main_v215 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S100000x64 ![0, 1] bcast_S1x64_S100000x64_0_1 : (⟨S1x64, .f32⟩ : BufTy).Contents (Elt F) → (⟨S100000x64, .f32⟩ : BufTy).Contents (Elt F)),
    StableHlo.binary main_v212 main_v217 main_v218 (mulf : (⟨S100000x64, .f32⟩ : BufTy).Contents (Elt F) → (⟨S100000x64, .f32⟩ : BufTy).Contents (Elt F) → (⟨S100000x64, .f32⟩ : BufTy).Contents (Elt F)),
    StableHlo.unary main_arg10 main_v219 ((extractStridedSlice S1x64 ![3, 0] · slices_S5x64_S1x64_3_0) : (⟨S5x64, .f32⟩ : BufTy).Contents (Elt F) → (⟨S1x64, .f32⟩ : BufTy).Contents (Elt F)),
    StableHlo.reshape main_v219 main_v220 rfl shapeCasts_S1x64_S64,
    StableHlo.unary main_v220 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v222 main_v223 (addf : (⟨S100000x64, .f32⟩ : BufTy).Contents (Elt F) → (⟨S100000x64, .f32⟩ : BufTy).Contents (Elt F) → (⟨S100000x64, .f32⟩ : BufTy).Contents (Elt F)) ]
abbrev opsL3b_W : List (Ref sig .tc) :=
  [ main_v205, main_v206, main_v207, main_v208, main_v209, main_v210, main_v211, main_v212, main_cst_33, main_v213,
    main_v214, main_v215, main_v216, main_v217, main_v218, main_v219, main_v220, main_v221, main_v222, main_v223 ]
theorem opsL3b_sub : (opsL3b : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.reshape_bufs_sub .., StableHlo.unary_bufs_sub ..,
    StableHlo.unary_bufs_sub .., StableHlo.binary_bufs_sub ..⟩
theorem opsL3b_fresh : (opsL3b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsL3b_writes : (opsL3b : List (HloOp τ sig (Elt F))).Forall fun op => op.writes ⊆ ((opsL3b_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

abbrev opsL4a : List (HloOp τ sig (Elt F)) :=
  [ StableHlo.nullary main_c_34 (constantI S_ 32 0#32),
    StableHlo.unary main_c_34 main_v224 (broadcastInDim S1200000 ![] bcast_S_S1200000 : (⟨S_, .i32⟩ : BufTy).Contents (Elt F) → (⟨S1200000, .i32⟩ : BufTy).Contents (Elt F)),
    StableHlo.binary main_v1 main_v224 main_v225 (cmpi .slt : (⟨S1200000, .i32⟩ : BufTy).Contents (Elt F) → (⟨S1200000, .i32⟩ : BufTy).Contents (Elt F) → (⟨S1200000, .i1⟩ : BufTy).Contents (Elt F)),
    StableHlo.nullary main_c_35 (constantI S_ 32 100000#32),
    StableHlo.unary main_c_35 main_v226 (broadcastInDim S1200000 ![] bcast_S_S1200000 : (⟨S_, .i32⟩ : BufTy).Contents (Elt F) → (⟨S1200000, .i32⟩ : BufTy).Contents (Elt F)),
    StableHlo.binary main_v1 main_v226 main_v227 (addi : (⟨S1200000, .i32⟩ : BufTy).Contents (Elt F) → (⟨S1200000, .i32⟩ : BufTy).Contents (Elt F) → (⟨S1200000, .i32⟩ : BufTy).Contents (Elt F)),
    StableHlo.ternary main_v225 main_v227 main_v1 main_v228 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v228 main_v229 (broadcastInDim S1200000x1 ![0] bcast_S1200000_S1200000x1_0 : (⟨S1200000, .i32⟩ : BufTy).Contents (Elt F) → (⟨S1200000x1, .i32⟩ : BufTy).Contents (Elt F)),
    StableHlo.binary main_v223 main_v229 main_v230 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_36 (constant S_ .f32 0x00000000#32),
    StableHlo.unary main_cst_36 main_v231 (broadcastInDim S100000x64 ![] bcast_S_S100000x64 : (⟨S_, .f32⟩ : BufTy).Contents (Elt F) → (⟨S100000x64, .f32⟩ : BufTy).Contents (Elt F)),
    StableHlo.unary main_v3 main_v232 (broadcastInDim S1200000x1 ![0] bcast_S1200000_S1200000x1_0 : (⟨S1200000, .i32⟩ : BufTy).Contents (Elt F) → (⟨S1200000x1, .i32⟩ : BufTy).Contents (Elt F)),
    StableHlo.ternary main_v231 main_v232 main_v230 main_v233 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.binary main_v223 main_v233 main_v234 (addf : (⟨S100000x64, .f32⟩ : BufTy).Contents (Elt F) → (⟨S100000x64, .f32⟩ : BufTy).Contents (Elt F) → (⟨S100000x64, .f32⟩ : BufTy).Contents (Elt F)),
    StableHlo.unary main_arg5 main_v235 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v235 main_v236 rfl shapeCasts_S1x64x64_S64x64,
    StableHlo.binary main_v234 main_v236 main_v237 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v238 ((extractStridedSlice S1x64 ![4, 0] · slices_S5x64_S1x64_4_0) : (⟨S5x64, .f32⟩ : BufTy).Contents (Elt F) → (⟨S1x64, .f32⟩ : BufTy).Contents (Elt F)),
    StableHlo.reshape main_v238 main_v239 rfl shapeCasts_S1x64_S64,
    StableHlo.unary main_v239 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S100000x64 ![0, 1] bcast_S1x64_S100000x64_0_1 : (⟨S1x64, .f32⟩ : BufTy).Contents (Elt F) → (⟨S100000x64, .f32⟩ : BufTy).Contents (Elt F)),
    StableHlo.binary main_v237 main_v241 main_v242 (addf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x00000000#32),
    StableHlo.unary main_cst_37 main_v243 (broadcastInDim S100000x64 ![] bcast_S_S100000x64 : (⟨S_, .f32⟩ : BufTy).Contents (Elt F) → (⟨S100000x64, .f32⟩ : BufTy).Contents (Elt F)),
    StableHlo.binary main_v242 main_v243 main_v244 (maximumf : (⟨S100000x64, .f32⟩ : BufTy).Contents (Elt F) → (⟨S100000x64, .f32⟩ : BufTy).Contents (Elt F) → (⟨S100000x64, .f32⟩ : BufTy).Contents (Elt F)),
    StableHlo.unary main_arg7 main_v245 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v245 main_v246 rfl shapeCasts_S1x64x64_S64x64,
    StableHlo.binary main_v244 main_v246 main_v247 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v248 ((extractStridedSlice S1x64 ![4, 0] · slices_S5x64_S1x64_4_0) : (⟨S5x64, .f32⟩ : BufTy).Contents (Elt F) → (⟨S1x64, .f32⟩ : BufTy).Contents (Elt F)),
    StableHlo.reshape main_v248 main_v249 rfl shapeCasts_S1x64_S64,
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S100000x64 ![0, 1] bcast_S1x64_S100000x64_0_1 : (⟨S1x64, .f32⟩ : BufTy).Contents (Elt F) → (⟨S100000x64, .f32⟩ : BufTy).Contents (Elt F)),
    StableHlo.binary main_v247 main_v251 main_v252 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x00000000#32),
    StableHlo.unary main_cst_38 main_v253 (broadcastInDim S100000x64 ![] bcast_S_S100000x64 : (⟨S_, .f32⟩ : BufTy).Contents (Elt F) → (⟨S100000x64, .f32⟩ : BufTy).Contents (Elt F)),
    StableHlo.binary main_v252 main_v253 main_v254 (maximumf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.binary main_v254 main_cst_39 main_v255 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_40 (constant S_ .f32 0x47C35000#32),
    StableHlo.unary main_cst_40 main_v256 (broadcastInDim S64 ![] bcast_S_S64 : (⟨S_, .f32⟩ : BufTy).Contents (Elt F) → (⟨S64, .f32⟩ : BufTy).Contents (Elt F)) ]
abbrev opsL4a_W : List (Ref sig .tc) :=
  [ main_c_34, main_v224, main_v225, main_c_35, main_v226, main_v227, main_v228, main_v229, main_v230, main_cst_36,
    main_v231, main_v232, main_v233, main_v234, main_v235, main_v236, main_v237, main_v238, main_v239, main_v240,
    main_v241, main_v242, main_cst_37, main_v243, main_v244, main_v245, main_v246, main_v247, main_v248, main_v249,
    main_v250, main_v251, main_v252, main_cst_38, main_v253, main_v254, main_cst_39, main_v255, main_cst_40, main_v256 ]
theorem opsL4a_sub : (opsL4a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.unary_bufs_sub .., StableHlo.reshape_bufs_sub .., StableHlo.binary_bufs_sub .., StableHlo.unary_bufs_sub ..,
    StableHlo.reshape_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.reshape_bufs_sub .., StableHlo.binary_bufs_sub .., StableHlo.unary_bufs_sub .., StableHlo.reshape_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub ..⟩
theorem opsL4a_fresh : (opsL4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
theorem opsL4a_writes : (opsL4a : List (HloOp τ sig (Elt F))).Forall fun op => op.writes ⊆ ((opsL4a_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

abbrev opsL4b : List (HloOp τ sig (Elt F)) :=
  [ StableHlo.binary main_v255 main_v256 main_v257 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call4.cst (constant S_ .f32 0x00000000#32),
    StableHlo.TRef.binary (.of main_v254 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v254 : StableHlo.TRef sig ⟨S100000x64, .f32⟩) main_call4.v4 main_call4.v5 subf,
    StableHlo.TRef.binary main_call4.v5 main_call4.v5 main_call4.v6 mulf,
    StableHlo.TRef.unary (.of main_c_41 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_arg9 main_v259 ((extractStridedSlice S1x64 ![4, 0] · slices_S5x64_S1x64_4_0) : (⟨S5x64, .f32⟩ : BufTy).Contents (Elt F) → (⟨S1x64, .f32⟩ : BufTy).Contents (Elt F)),
    StableHlo.reshape main_v259 main_v260 rfl shapeCasts_S1x64_S64,
    StableHlo.unary main_v257 main_v261 (broadcastInDim S1x64 ![1] bcast_S64_S1x64_1 : (⟨S64, .f32⟩ : BufTy).Contents (Elt F) → (⟨S1x64, .f32⟩ : BufTy).Contents (Elt F)),
    StableHlo.unary main_v261 main_v262 (broadcastInDim S100000x64 ![0, 1] bcast_S1x64_S100000x64_0_1 : (⟨S1x64, .f32⟩ : BufTy).Contents (Elt F) → (⟨S100000x64, .f32⟩ : BufTy).Contents (Elt F)),
    StableHlo.binary main_v254 main_v262 main_v263 (subf : (⟨S100000x64, .f32⟩ : BufTy).Contents (Elt F) → (⟨S100000x64, .f32⟩ : BufTy).Contents (Elt F) → (⟨S100000x64, .f32⟩ : BufTy).Contents (Elt F)),
    StableHlo.unary main_v260 main_v264 (broadcastInDim S1x64 ![1] bcast_S64_S1x64_1 : (⟨S64, .f32⟩ : BufTy).Contents (Elt F) → (⟨S1x64, .f32⟩ : BufTy).Contents (Elt F)),
    StableHlo.unary main_v264 main_v265 (broadcastInDim S100000x64 ![0, 1] bcast_S1x64_S100000x64_0_1 : (⟨S1x64, .f32⟩ : BufTy).Contents (Elt F) → (⟨S100000x64, .f32⟩ : BufTy).Contents (Elt F)),
    StableHlo.binary main_v265 main_v263 main_v266 (mulf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v267 (broadcastInDim S64 ![] bcast_S_S64 : (⟨S_, .f32⟩ : BufTy).Contents (Elt F) → (⟨S64, .f32⟩ : BufTy).Contents (Elt F)),
    StableHlo.binary main_v258 main_v267 main_v268 (addf : (⟨S64, .f32⟩ : BufTy).Contents (Elt F) → (⟨S64, .f32⟩ : BufTy).Contents (Elt F) → (⟨S64, .f32⟩ : BufTy).Contents (Elt F)),
    StableHlo.unary main_v268 main_v269 (Host.rsqrt : (⟨S64, .f32⟩ : BufTy).Contents (Elt F) → (⟨S64, .f32⟩ : BufTy).Contents (Elt F)),
    StableHlo.unary main_v269 main_v270 (broadcastInDim S1x64 ![1] bcast_S64_S1x64_1 : (⟨S64, .f32⟩ : BufTy).Contents (Elt F) → (⟨S1x64, .f32⟩ : BufTy).Contents (Elt F)),
    StableHlo.unary main_v270 main_v271 (broadcastInDim S100000x64 ![0, 1] bcast_S1x64_S100000x64_0_1 : (⟨S1x64, .f32⟩ : BufTy).Contents (Elt F) → (⟨S100000x64, .f32⟩ : BufTy).Contents (Elt F)),
    StableHlo.binary main_v266 main_v271 main_v272 (mulf : (⟨S100000x64, .f32⟩ : BufTy).Contents (Elt F) → (⟨S100000x64, .f32⟩ : BufTy).Contents (Elt F) → (⟨S100000x64, .f32⟩ : BufTy).Contents (Elt F)),
    StableHlo.unary main_arg10 main_v273 ((extractStridedSlice S1x64 ![4, 0] · slices_S5x64_S1x64_4_0) : (⟨S5x64, .f32⟩ : BufTy).Contents (Elt F) → (⟨S1x64, .f32⟩ : BufTy).Contents (Elt F)),
    StableHlo.reshape main_v273 main_v274 rfl shapeCasts_S1x64_S64,
    StableHlo.unary main_v274 main_v275 (broadcastInDim S1x64 ![1] bcast_S64_S1x64_1 : (⟨S64, .f32⟩ : BufTy).Contents (Elt F) → (⟨S1x64, .f32⟩ : BufTy).Contents (Elt F)),
    StableHlo.unary main_v275 main_v276 (broadcastInDim S100000x64 ![0, 1] bcast_S1x64_S100000x64_0_1 : (⟨S1x64, .f32⟩ : BufTy).Contents (Elt F) → (⟨S100000x64, .f32⟩ : BufTy).Contents (Elt F)),
    StableHlo.binary main_v272 main_v276 main_v277 (addf : (⟨S100000x64, .f32⟩ : BufTy).Contents (Elt F) → (⟨S100000x64, .f32⟩ : BufTy).Contents (Elt F) → (⟨S100000x64, .f32⟩ : BufTy).Contents (Elt F)) ]
abbrev opsL4b_W : List (Ref sig .tc) :=
  [ main_v257, main_c_41, main_call4.cst.ref, main_call4.v0.ref, main_call4.v1.ref, main_call4.cst_0.ref, main_call4.v2.ref, main_call4.v3.ref, main_call4.v4.ref, main_call4.v5.ref,
    main_call4.v6.ref, main_call4.v7.ref, main_call4.cst_1.ref, main_call4.v8.ref, main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v259, main_v260, main_v261, main_v262, main_v263, main_v264,
    main_v265, main_v266, main_cst_42, main_v267, main_v268, main_v269, main_v270, main_v271, main_v272, main_v273,
    main_v274, main_v275, main_v276, main_v277 ]
theorem opsL4b_sub : (opsL4b : List (HloOp τ sig (Elt F))).Forall fun op => op.bufs ⊆ StableHlo.tcRefs τ sig :=
  ⟨StableHlo.binary_bufs_sub .., StableHlo.nullary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.unary_bufs_sub .., StableHlo.reshape_bufs_sub .., StableHlo.unary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.reshape_bufs_sub .., StableHlo.unary_bufs_sub ..,
    StableHlo.unary_bufs_sub .., StableHlo.binary_bufs_sub ..⟩
theorem opsL4b_fresh : (opsL4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem opsL4b_writes : (opsL4b : List (HloOp τ sig (Elt F))).Forall fun op => op.writes ⊆ ((opsL4b_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

abbrev opsTaila : List (HloOp τ sig (Elt F)) :=
  [ StableHlo.nullary main_cst_43 (constant S_ .f32 0x00000000#32),
    StableHlo.unary main_cst_43 main_v278 (broadcastInDim S128x64 ![] bcast_S_S128x64 : (⟨S_, .f32⟩ : BufTy).Contents (Elt F) → (⟨S128x64, .f32⟩ : BufTy).Contents (Elt F)),
    StableHlo.unary main_arg2 main_v279 (broadcastInDim S100000x1 ![0] bcast_S100000_S100000x1_0 : (⟨S100000, .i32⟩ : BufTy).Contents (Elt F) → (⟨S100000x1, .i32⟩ : BufTy).Contents (Elt F)),
    StableHlo.ternary main_v278 main_v279 main_v61 main_v280 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nullary main_cst_44 (constant S_ .f32 0x00000000#32),
    StableHlo.unary main_cst_44 main_v281 (broadcastInDim S128x64 ![] bcast_S_S128x64 : (⟨S_, .f32⟩ : BufTy).Contents (Elt F) → (⟨S128x64, .f32⟩ : BufTy).Contents (Elt F)),
    StableHlo.unary main_arg2 main_v282 (broadcastInDim S100000x1 ![0] bcast_S100000_S100000x1_0 : (⟨S100000, .i32⟩ : BufTy).Contents (Elt F) → (⟨S100000x1, .i32⟩ : BufTy).Contents (Elt F)),
    StableHlo.ternary main_v281 main_v282 main_v115 main_v283 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nullary main_cst_45 (constant S_ .f32 0x00000000#32),
    StableHlo.unary main_cst_45 main_v284 (broadcastInDim S128x64 ![] bcast_S_S128x64 : (⟨S_, .f32⟩ : BufTy).Contents (Elt F) → (⟨S128x64, .f32⟩ : BufTy).Contents (Elt F)),
    StableHlo.unary main_arg2 main_v285 (broadcastInDim S100000x1 ![0] bcast_S100000_S100000x1_0 : (⟨S100000, .i32⟩ : BufTy).Contents (Elt F) → (⟨S100000x1, .i32⟩ : BufTy).Contents (Elt F)),
    StableHlo.ternary main_v284 main_v285 main_v169 main_v286 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nullary main_cst_46 (constant S_ .f32 0x00000000#32),
    StableHlo.unary main_cst_46 main_v287 (broadcastInDim S128x64 ![] bcast_S_S128x64 : (⟨S_, .f32⟩ : BufTy).Contents (Elt F) → (⟨S128x64, .f32⟩ : BufTy).Contents (Elt F)),
    StableHlo.unary main_arg2 main_v288 (broadcastInDim S100000x1 ![0] bcast_S100000_S100000x1_0 : (⟨S100000, .i32⟩ : BufTy).Contents (Elt F) → (⟨S100000x1, .i32⟩ : BufTy).Contents (Elt F)),
    StableHlo.ternary main_v287 main_v288 main_v223 main_v289 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nullary main_cst_47 (constant S_ .f32 0x00000000#32),
    StableHlo.unary main_cst_47 main_v290 (broadcastInDim S128x64 ![] bcast_S_S128x64 : (⟨S_, .f32⟩ : BufTy).Contents (Elt F) → (⟨S128x64, .f32⟩ : BufTy).Contents (Elt F)),
    StableHlo.unary main_arg2 main_v291 (broadcastInDim S100000x1 ![0] bcast_S100000_S100000x1_0 : (⟨S100000, .i32⟩ : BufTy).Contents (Elt F) → (⟨S100000x1, .i32⟩ : BufTy).Contents (Elt F)),
    StableHlo.ternary main_v290 main_v291 main_v277 main_v292 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nary ![main_v280, main_v283, main_v286, main_v289, main_v292] main_v293 (fun u => concatenate S128x320 1 [⟨S128x64, u 0⟩, ⟨S128x64, u 1⟩, ⟨S128x64, u 2⟩, ⟨S128x64, u 3⟩, ⟨S128x64, u 4⟩] concatenates_S128x64_S128x64_S128x64_S128x64_S128x64_S128x320_d1),
    StableHlo.binary main_v293 main_arg11 main_v294 ((fun l r => Host.dotGeneral dot_S128x320_S320x320_S128x320_1_0_0_1_n_n none l r) : (⟨S128x320, .f32⟩ : BufTy).Contents (Elt F) → (⟨S320x320, .f32⟩ : BufTy).Contents (Elt F) → (⟨S128x320, .f32⟩ : BufTy).Contents (Elt F)),
    StableHlo.unary main_arg12 main_v295 (broadcastInDim S1x320 ![1] bcast_S320_S1x320_1 : (⟨S320, .f32⟩ : BufTy).Contents (Elt F) → (⟨S1x320, .f32⟩ : BufTy).Contents (Elt F)),
    StableHlo.unary main_v295 main_v296 (broadcastInDim S128x320 ![0, 1] bcast_S1x320_S128x320_0_1 : (⟨S1x320, .f32⟩ : BufTy).Contents (Elt F) → (⟨S128x320, .f32⟩ : BufTy).Contents (Elt F)),
    StableHlo.binary main_v294 main_v296 main_v297 (addf : (⟨S128x320, .f32⟩ : BufTy).Contents (Elt F) → (⟨S128x320, .f32⟩ : BufTy).Contents (Elt F) → (⟨S128x320, .f32⟩ : BufTy).Contents (Elt F)),
    StableHlo.nullary main_cst_48 (constant S_ .f32 0x00000000#32),
    StableHlo.unary main_cst_48 main_v298 (broadcastInDim S128x320 ![] bcast_S_S128x320 : (⟨S_, .f32⟩ : BufTy).Contents (Elt F) → (⟨S128x320, .f32⟩ : BufTy).Contents (Elt F)),
    StableHlo.binary main_v297 main_v298 main_v299 (maximumf : (⟨S128x320, .f32⟩ : BufTy).Contents (Elt F) → (⟨S128x320, .f32⟩ : BufTy).Contents (Elt F) → (⟨S128x320, .f32⟩ : BufTy).Contents (Elt F)),
    StableHlo.binary main_v299 main_arg13 main_v300 ((fun l r => Host.dotGeneral dot_S128x320_S320x320_S128x320_1_0_0_1_n_n none l r) : (⟨S128x320, .f32⟩ : BufTy).Contents (Elt F) → (⟨S320x320, .f32⟩ : BufTy).Contents (Elt F) → (⟨S128x320, .f32⟩ : BufTy).Contents (Elt F)),
    StableHlo.unary main_arg14 main_v301 (broadcastInDim S1x320 ![1] bcast_S320_S1x320_1 : (⟨S320, .f32⟩ : BufTy).Contents (Elt F) → (⟨S1x320, .f32⟩ : BufTy).Contents (Elt F)),
    StableHlo.unary main_v301 main_v302 (broadcastInDim S128x320 ![0, 1] bcast_S1x320_S128x320_0_1 : (⟨S1x320, .f32⟩ : BufTy).Contents (Elt F) → (⟨S128x320, .f32⟩ : BufTy).Contents (Elt F)),
    StableHlo.binary main_v300 main_v302 main_v303 (addf : (⟨S128x320, .f32⟩ : BufTy).Contents (Elt F) → (⟨S128x320, .f32⟩ : BufTy).Contents (Elt F) → (⟨S128x320, .f32⟩ : BufTy).Contents (Elt F)),
    StableHlo.binary main_v303 main_v303 main_v304 (mulf : (⟨S128x320, .f32⟩ : BufTy).Contents (Elt F) → (⟨S128x320, .f32⟩ : BufTy).Contents (Elt F) → (⟨S128x320, .f32⟩ : BufTy).Contents (Elt F)),
    StableHlo.nullary main_cst_49 (constant S_ .f32 0x00000000#32),
    StableHlo.binary main_v304 main_cst_49 main_v305 ((fun x v => Host.reduceAdd x v reducesTo_S128x320_S128_d1 h_S_) : (⟨S128x320, .f32⟩ : BufTy).Contents (Elt F) → (⟨S_, .f32⟩ : BufTy).Contents (Elt F) → (⟨S128, .f32⟩ : BufTy).Contents (Elt F)),
    StableHlo.unary main_v305 main_v306 (broadcastInDim S128x1 ![0] bcast_S128_S128x1_0 : (⟨S128, .f32⟩ : BufTy).Contents (Elt F) → (⟨S128x1, .f32⟩ : BufTy).Contents (Elt F)),
    StableHlo.unary main_v306 main_v307 (Host.sqrt : (⟨S128x1, .f32⟩ : BufTy).Contents (Elt F) → (⟨S128x1, .f32⟩ : BufTy).Contents (Elt F)) ]
abbrev opsTaila_W : List (Ref sig .tc) :=
  [ main_cst_43, main_v278, main_v279, main_v280, main_cst_44, main_v281, main_v282, main_v283, main_cst_45, main_v284,
    main_v285, main_v286, main_cst_46, main_v287, main_v288, main_v289, main_cst_47, main_v290, main_v291, main_v292,
    main_v293, main_v294, main_v295, main_v296, main_v297, main_cst_48, main_v298, main_v299, main_v300, main_v301,
    main_v302, main_v303, main_v304, main_cst_49, main_v305, main_v306, main_v307 ]
theorem opsTaila_sub : (opsTaila : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub ..,
    StableHlo.unary_bufs_sub .., StableHlo.ternary_bufs_sub .., StableHlo.nullary_bufs_sub .., StableHlo.unary_bufs_sub .., StableHlo.unary_bufs_sub .., StableHlo.ternary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.unary_bufs_sub .., StableHlo.ternary_bufs_sub .., StableHlo.nary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub .., StableHlo.unary_bufs_sub ..,
    StableHlo.unary_bufs_sub .., StableHlo.binary_bufs_sub .., StableHlo.binary_bufs_sub .., StableHlo.nullary_bufs_sub .., StableHlo.binary_bufs_sub .., StableHlo.unary_bufs_sub ..,
    StableHlo.unary_bufs_sub ..⟩
theorem opsTaila_fresh : (opsTaila : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
theorem opsTaila_writes : (opsTaila : List (HloOp τ sig (Elt F))).Forall fun op => op.writes ⊆ ((opsTaila_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide)⟩

abbrev opsTailb : List (HloOp τ sig (Elt F)) :=
  [ StableHlo.nullary main_cst_50 (constant S_ .f32 0x2B8CBCCC#32),
    StableHlo.unary main_cst_50 main_v308 (broadcastInDim S128x1 ![] bcast_S_S128x1 : (⟨S_, .f32⟩ : BufTy).Contents (Elt F) → (⟨S128x1, .f32⟩ : BufTy).Contents (Elt F)),
    StableHlo.binary main_v307 main_v308 main_v309 (maximumf : (⟨S128x1, .f32⟩ : BufTy).Contents (Elt F) → (⟨S128x1, .f32⟩ : BufTy).Contents (Elt F) → (⟨S128x1, .f32⟩ : BufTy).Contents (Elt F)),
    StableHlo.unary main_v309 main_v310 (broadcastInDim S128x320 ![0, 1] bcast_S128x1_S128x320_0_1 : (⟨S128x1, .f32⟩ : BufTy).Contents (Elt F) → (⟨S128x320, .f32⟩ : BufTy).Contents (Elt F)),
    StableHlo.binary main_v303 main_v310 main_v311 (Host.divf : (⟨S128x320, .f32⟩ : BufTy).Contents (Elt F) → (⟨S128x320, .f32⟩ : BufTy).Contents (Elt F) → (⟨S128x320, .f32⟩ : BufTy).Contents (Elt F)),
    StableHlo.binary main_v293 main_v293 main_v312 (mulf : (⟨S128x320, .f32⟩ : BufTy).Contents (Elt F) → (⟨S128x320, .f32⟩ : BufTy).Contents (Elt F) → (⟨S128x320, .f32⟩ : BufTy).Contents (Elt F)),
    StableHlo.nullary main_cst_51 (constant S_ .f32 0x00000000#32),
    StableHlo.binary main_v312 main_cst_51 main_v313 ((fun x v => Host.reduceAdd x v reducesTo_S128x320_S128_d1 h_S_) : (⟨S128x320, .f32⟩ : BufTy).Contents (Elt F) → (⟨S_, .f32⟩ : BufTy).Contents (Elt F) → (⟨S128, .f32⟩ : BufTy).Contents (Elt F)),
    StableHlo.unary main_v313 main_v314 (broadcastInDim S128x1 ![0] bcast_S128_S128x1_0 : (⟨S128, .f32⟩ : BufTy).Contents (Elt F) → (⟨S128x1, .f32⟩ : BufTy).Contents (Elt F)),
    StableHlo.unary main_v314 main_v315 (Host.sqrt : (⟨S128x1, .f32⟩ : BufTy).Contents (Elt F) → (⟨S128x1, .f32⟩ : BufTy).Contents (Elt F)),
    StableHlo.nullary main_cst_52 (constant S_ .f32 0x2B8CBCCC#32),
    StableHlo.unary main_cst_52 main_v316 (broadcastInDim S128x1 ![] bcast_S_S128x1 : (⟨S_, .f32⟩ : BufTy).Contents (Elt F) → (⟨S128x1, .f32⟩ : BufTy).Contents (Elt F)),
    StableHlo.binary main_v315 main_v316 main_v317 (maximumf : (⟨S128x1, .f32⟩ : BufTy).Contents (Elt F) → (⟨S128x1, .f32⟩ : BufTy).Contents (Elt F) → (⟨S128x1, .f32⟩ : BufTy).Contents (Elt F)),
    StableHlo.unary main_v317 main_v318 (broadcastInDim S128x320 ![0, 1] bcast_S128x1_S128x320_0_1 : (⟨S128x1, .f32⟩ : BufTy).Contents (Elt F) → (⟨S128x320, .f32⟩ : BufTy).Contents (Elt F)),
    StableHlo.binary main_v293 main_v318 main_v319 (Host.divf : (⟨S128x320, .f32⟩ : BufTy).Contents (Elt F) → (⟨S128x320, .f32⟩ : BufTy).Contents (Elt F) → (⟨S128x320, .f32⟩ : BufTy).Contents (Elt F)) ]
abbrev opsTailb_W : List (Ref sig .tc) :=
  [ main_cst_50, main_v308, main_v309, main_v310, main_v311, main_v312, main_cst_51, main_v313, main_v314, main_v315,
    main_cst_52, main_v316, main_v317, main_v318, main_v319 ]
theorem opsTailb_sub : (opsTailb : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub ..,
    StableHlo.nullary_bufs_sub .., StableHlo.binary_bufs_sub .., StableHlo.unary_bufs_sub .., StableHlo.unary_bufs_sub .., StableHlo.nullary_bufs_sub .., StableHlo.unary_bufs_sub ..,
    StableHlo.binary_bufs_sub .., StableHlo.unary_bufs_sub .., StableHlo.binary_bufs_sub ..⟩
theorem opsTailb_fresh : (opsTailb : List (HloOp τ sig (Elt F))).Forall fun op => op.fresh = ∅ :=
  ⟨rfl, rfl, rfl, rfl, rfl, rfl, rfl, rfl, rfl, rfl, rfl, rfl, rfl, rfl, rfl⟩
theorem opsTailb_writes : (opsTailb : List (HloOp τ sig (Elt F))).Forall fun op => op.writes ⊆ ((opsTailb_W).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

end Cert.ReferenceIdeal.Hand

end
-- ==== Proof.RI.Run.lean ====
import proofs.«406479_j78563541778981_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih _

-- A property of every element of every list holds of every element of the lists laid end to end.
theorem forall_flatten {α : Type} {p : α → Prop} {L : List (List α)} (h : L.Forall (List.Forall p)) : L.flatten.Forall p :=
  List.forall_iff_forall_mem.2 fun x hx =>
    let ⟨l, hl, hxl⟩ := List.mem_flatten.1 hx
    List.forall_iff_forall_mem.1 (List.forall_iff_forall_mem.1 h l hl) x hxl

abbrev ops : List (HloOp τ sig (Elt F)) :=
  List.flatten [opsInit, opsL0a, opsL0b, opsL1a, opsL1b, opsL2a, opsL2b, opsL3a, opsL3b, opsL4a, opsL4b, opsTaila, opsTailb]

theorem after_ops (V : Valuation τ sig (Elt F)) :
    after ops V = after opsTailb (after opsTaila (after opsL4b (after opsL4a (after opsL3b (after opsL3a (after opsL2b (after opsL2a (after opsL1b (after opsL1a (after opsL0b (after opsL0a (after opsInit (V))))))))))))) := by
  simp only [ops, List.flatten_cons, List.flatten_nil, after_append, after_nil]

set_option maxRecDepth 8192 in
set_option maxHeartbeats 4000000 in
theorem part0_eq (d : Dev nD) : main_part0 (F := F) d = (seq opsInit >>= fun _ => seq opsL0a) := by
  simp only [main_part0, fn_var.body, fn_where.body, opsInit, opsL0a, seq, bind_assoc, pure_bind]
  rfl

set_option maxRecDepth 8192 in
set_option maxHeartbeats 4000000 in
theorem part1_eq (d : Dev nD) : main_part1 (F := F) d = (seq opsL0b >>= fun _ => seq opsL1a) := by
  simp only [main_part1, fn_var.body, fn_where.body, opsL0b, opsL1a, seq, bind_assoc, pure_bind]
  rfl

set_option maxRecDepth 8192 in
set_option maxHeartbeats 4000000 in
theorem part2_eq (d : Dev nD) : main_part2 (F := F) d = (seq opsL1b >>= fun _ => seq opsL2a) := by
  simp only [main_part2, fn_var.body, fn_where.body, opsL1b, opsL2a, seq, bind_assoc, pure_bind]
  rfl

set_option maxRecDepth 8192 in
set_option maxHeartbeats 4000000 in
theorem part3_eq (d : Dev nD) : main_part3 (F := F) d = (seq opsL2b >>= fun _ => seq opsL3a) := by
  simp only [main_part3, fn_var.body, fn_where.body, opsL2b, opsL3a, seq, bind_assoc, pure_bind]

set_option maxRecDepth 8192 in
set_option maxHeartbeats 4000000 in
theorem part4_eq (d : Dev nD) : main_part4 (F := F) d = (seq opsL3b >>= fun _ => seq opsL4a) := by
  simp only [main_part4, fn_var.body, fn_where.body, opsL3b, opsL4a, seq, bind_assoc, pure_bind]
  rfl

set_option maxRecDepth 8192 in
set_option maxHeartbeats 4000000 in
theorem part5_eq (d : Dev nD) : main_part5 (F := F) d = (seq opsL4b >>= fun _ => seq opsTaila) := by
  simp only [main_part5, fn_var.body, fn_where.body, opsL4b, opsTaila, seq, bind_assoc, pure_bind]
  rfl

set_option maxRecDepth 8192 in
theorem part6_eq (d : Dev nD) : main_part6 (F := F) d = seq opsTailb := by
  simp only [main_part6, opsTailb, seq]

theorem main_eq (c : Dev nD) : main (F := F) c = seq ops := by
  simp only [main, part0_eq, part1_eq, part2_eq, part3_eq, part4_eq, part5_eq, part6_eq, ops, List.flatten_cons,
    List.flatten_nil, List.append_nil, seq_append, bind_assoc]

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq (by decide) (by decide) defs main (fun _ => ops) main_eq
    (fun _ => forall_flatten ⟨opsInit_sub, opsL0a_sub, opsL0b_sub, opsL1a_sub, opsL1b_sub, opsL2a_sub, opsL2b_sub, opsL3a_sub, opsL3b_sub, opsL4a_sub, opsL4b_sub, opsTaila_sub, opsTailb_sub⟩) m ρ
    (fun _ => List.forall_iff_forall_mem.1 (forall_flatten ⟨opsInit_fresh, opsL0a_fresh, opsL0b_fresh, opsL1a_fresh, opsL1b_fresh, opsL2a_fresh, opsL2b_fresh, opsL3a_fresh, opsL3b_fresh, opsL4a_fresh, opsL4b_fresh, opsTaila_fresh, opsTailb_fresh⟩))

abbrev argRefs : List (Ref sig .tc) :=
  [main_arg0, main_arg1, main_arg2, main_arg3, main_arg4, main_arg5, main_arg6, main_arg7, main_arg8, main_arg9,
    main_arg10, main_arg11, main_arg12, main_arg13, main_arg14]

theorem opsInit_args : ∀ r ∈ argRefs, r ∉ opsInit_W := by decide

-- No stretch after the first writes an argument.
theorem later_args : ∀ r ∈ argRefs, r ∉ opsL0a_W ∧ r ∉ opsL0b_W ∧ r ∉ opsL1a_W ∧ r ∉ opsL1b_W ∧ r ∉ opsL2a_W ∧ r ∉ opsL2b_W ∧ r ∉ opsL3a_W ∧ r ∉ opsL3b_W ∧ r ∉ opsL4a_W ∧ r ∉ opsL4b_W ∧ r ∉ opsTaila_W ∧ r ∉ opsTailb_W := by
  decide

theorem after_ops_arg (V : Valuation τ sig (Elt F)) {r : Ref sig .tc} (hr : r ∈ argRefs) :
    after ops V (r : DevRef τ sig) = V (r : DevRef τ sig) := by
  obtain ⟨h1, h2, h3, h4, h5, h6, h7, h8, h9, h10, h11, h12⟩ := later_args r hr
  rw [after_ops, after_of_writes_sub _ _ opsTailb_writes h12,
    after_of_writes_sub _ _ opsTaila_writes h11,
    after_of_writes_sub _ _ opsL4b_writes h10,
    after_of_writes_sub _ _ opsL4a_writes h9,
    after_of_writes_sub _ _ opsL3b_writes h8,
    after_of_writes_sub _ _ opsL3a_writes h7,
    after_of_writes_sub _ _ opsL2b_writes h6,
    after_of_writes_sub _ _ opsL2a_writes h5,
    after_of_writes_sub _ _ opsL1b_writes h4,
    after_of_writes_sub _ _ opsL1a_writes h3,
    after_of_writes_sub _ _ opsL0b_writes h2,
    after_of_writes_sub _ _ opsL0a_writes h1,
    after_of_writes_sub _ _ opsInit_writes (opsInit_args r hr)]

-- Every weakly fair execution of @main ends with each argument as launched.
theorem frame (m : (ℓ : Loc nD τ sig) → Buf (Elt F) ℓ) (ρ : Dev nD → PrngReg) :
    θ_run defs (onTc (τ := τ) (main (F := F))) ⟨m, fun _ => 0, ρ⟩ fun r => ∀ c : Dev nD,
      argRefs.Forall fun a => r.2.mem ((c.tc : Thread nD τ).loc a) = m ((c.tc : Thread nD τ).loc a) :=
  (θ_run defs _ _).mono
    (fun _ h c => List.forall_iff_forall_mem.2 fun a ha => (h c a).trans (after_ops_arg _ ha)) (run m ρ)

end Cert.ReferenceIdeal.Hand

end
-- ==== Proof.Val.PoolRef.lean ====
import proofs.«406479_j78563541778981_1_alg».proof.KernelIdeal
import proofs.«406479_j78563541778981_1_alg».proof.ReferenceIdeal
import Idealize.ShloMosaic.PureOps.Ideal.Laws
import proofs.«406479_j78563541778981_1_alg».proof.Proof.Val.PoolSpec
import Idealize.ShloMosaic.Lib.ValueIdx
import Idealize.ShloMosaic.Lib.Pipeline.Value
import Idealize.ShloMosaic.Lib.StableHlo.Predicate

noncomputable section

namespace Cert.Val.PoolRef

open Idealize.ShloMosaic Idealize.ShloMosaic.ValueIdx
open scoped BigOperators

theorem concat5_apply {α : Type} {R : Nat} (p0 p1 p2 p3 p4 : (⟨2, ![R, 64]⟩ : Shape).Idx → α)
    (h : Shape.Concatenates
      (([⟨⟨2, ![R, 64]⟩, p0⟩, ⟨⟨2, ![R, 64]⟩, p1⟩, ⟨⟨2, ![R, 64]⟩, p2⟩, ⟨⟨2, ![R, 64]⟩, p3⟩, ⟨⟨2, ![R, 64]⟩, p4⟩] :
        List ((s : Shape) × (s.Idx → α))).map (·.1)) ⟨2, ![R, 320]⟩ 1)
    (r : Fin R) (l : Fin 5) (d : Fin 64) (hc : l.val * 64 + d.val < 320) :
    concatenate (⟨2, ![R, 320]⟩ : Shape) 1
      [⟨⟨2, ![R, 64]⟩, p0⟩, ⟨⟨2, ![R, 64]⟩, p1⟩, ⟨⟨2, ![R, 64]⟩, p2⟩, ⟨⟨2, ![R, 64]⟩, p3⟩, ⟨⟨2, ![R, 64]⟩, p4⟩] h
      (ix2 r (⟨l.val * 64 + d.val, hc⟩ : Fin 320)) = (![p0, p1, p2, p3, p4] l) (ix2 r d) := by
  have := d.isLt
  refine concatenate_ofFn_apply (t := ⟨2, ![R, 320]⟩) (s₁ := ⟨2, ![R, 64]⟩) 1 ![p0, p1, p2, p3, p4] h rfl 64 rfl
    (ix2 r (⟨l.val * 64 + d.val, hc⟩ : Fin 320)) l ?_ (ix2 r d) ?_ fun b hb => ?_
  · show (l.val * 64 + d.val) / 64 = l.val
    omega
  · show d.val = (l.val * 64 + d.val) % 64
    omega
  · fin_cases b
    · rfl
    · exact absurd rfl hb

theorem vec5_map {α β : Type} (f : α → β) (a0 a1 a2 a3 a4 : α) (l : Fin 5) :
    ![f a0, f a1, f a2, f a3, f a4] l = f (![a0, a1, a2, a3, a4] l) := by
  fin_cases l <;> rfl

-- An update lands on an element exactly when its start plus its window coordinate is that element's coordinate on every axis.
theorem resultIdx?_eq_some {s si u : Shape} (D : ScatterDims s si u) {w : Nat} (j : u.Idx) (idx : IVec si w) (i : s.Idx) :
    D.resultIdx? j idx = some i ↔ ∀ a, D.start j idx a + D.window j a = ((i a).val : ℤ) := by
  unfold ScatterDims.resultIdx?
  split
  · next h =>
    rw [Option.some.injEq]
    refine ⟨?_, fun hh => funext fun a => Fin.ext ?_⟩
    · rintro rfl a
      exact (Int.toNat_of_nonneg (h a).1).symm
    · show (D.start j idx a + D.window j a).toNat = _
      rw [hh a, Int.toNat_natCast]
  · next h =>
    refine ⟨fun hf => (nomatch hf), fun hh => absurd (fun a => ?_) h⟩
    rw [hh a]
    exact ⟨Int.natCast_nonneg _, Int.ofNat_lt.2 (i a).isLt⟩

section Reference
open Cert.ReferenceIdeal Cert.ReferenceIdeal.Facts₀
variable [Cert.ReferenceIdeal.Facts₀]

-- The row comes from the segment word read signed, the column from the update's own column.
theorem sd_result_iff (jj : S100000x64.Idx) (idx : IVec S100000x1 32) (i : S128x64.Idx) :
    scatter_S128x64_S100000x1_S100000x64_1_0_0_1.resultIdx? jj idx = some i ↔
      (idx (ix2 (jj 0) (0 : Fin 1))).toInt = ((i 0).val : ℤ) ∧ (jj 1).val = (i 1).val := by
  have e : scatter_S128x64_S100000x1_S100000x64_1_0_0_1.siIdx jj ⟨0, Nat.one_pos⟩ = ix2 (jj 0) (0 : Fin 1) :=
    funext fun b => by fin_cases b <;> rfl
  rw [resultIdx?_eq_some, Fin.forall_fin_two, ← Int.ofNat_inj (m := (jj 1).val)]
  show ((idx (scatter_S128x64_S100000x1_S100000x64_1_0_0_1.siIdx jj ⟨0, Nat.one_pos⟩)).toInt + ((0 : ℕ) : ℤ) = _
    ∧ (0 : ℤ) + ((jj 1).val : ℤ) = _) ↔ _
  rw [e, Nat.cast_zero, add_zero, zero_add]
  exact Iff.rfl

-- A scatter-add into a zero table sums, at row `g`, the nodes whose segment word read signed is `g`.
theorem scatter_apply (batch : (⟨S100000, .i32⟩ : BufTy).Contents (Elt Ideal)) (h : Vec Ideal S100000x64 .f32)
    (g : Fin 128) (d : Fin 64) :
    Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h (ix2 g d)
      = ∑ n : Fin 100000, if (batch (ix1 n)).toInt = (g.val : ℤ) then h (ix2 n d) else 0 := by
  show Ideal.ofBits .f32 0x00000000#32 + ∑ j ∈ Finset.univ.filter _, h j = _
  rw [Ideal.ofBits_zero_f32, zero_add, Finset.sum_filter, sum_idx2]
  refine Finset.sum_congr rfl fun n _ => ?_
  have key : ∀ e : Fin 64, scatter_S128x64_S100000x1_S100000x64_1_0_0_1.resultIdx? (ix2 n e)
      (broadcastInDim S100000x1 ![0] bcast_S100000_S100000x1_0 batch) = some (ix2 g d) ↔
        ((batch (ix1 n)).toInt = (g.val : ℤ) ∧ e = d) := fun e =>
    (sd_result_iff _ _ _).trans (and_congr (by
      rw [broadcastInDim_apply _ _ batch (ix2 n (0 : Fin 1)) (ix1 n) fun a => by fin_cases a; rfl]) Fin.val_inj)
  by_cases hA : (batch (ix1 n)).toInt = (g.val : ℤ) <;> simp [key, hA]

end Reference

theorem toInt_eq_small_iff (w : BitVec 32) (g : ℕ) (hg : g < 2 ^ 31) :
    w.toInt = (g : ℤ) ↔ w = BitVec.ofNat 32 g := by
  rw [← StableHlo.Predicate.toInt_ofNat_small g hg, BitVec.toInt_inj]

theorem uitofp_cmpi_eq (a b : BitVec 32) :
    (FloatOps.uitofp (F := Ideal) .bf16 (IntOp.cmpi .eq a b) : Ideal .bf16) = if a = b then 1 else 0 := by
  by_cases hab : a = b
  · rw [if_pos hab, StableHlo.Predicate.cmpi_eq_iff.2 hab]
    show (((1#1 : BitVec 1).toNat : ℝ) : EReal) = 1
    simp
  · rw [if_neg hab, eq_zero_of_ne_one (fun h => hab (StableHlo.Predicate.cmpi_eq_iff.1 h))]
    show (((0#1 : BitVec 1).toNat : ℝ) : EReal) = 0
    simp

section Kernel
open Cert.KernelIdeal Cert.KernelIdeal.Facts₀
variable [Cert.KernelIdeal.Facts₀]

-- The node-by-graph table holds a one where the node's segment word is the word of `g`, a zero elsewhere.
theorem onehot_apply (batch : (⟨S100000, .i32⟩ : BufTy).Contents (Elt Ideal)) (n : Fin 100000) (g : Fin 128) :
    (uitofp (F := Ideal) .bf16 (cmpi .eq
        (broadcastInDim S100000x128 ![0, 1] bcast_S100000x1_S100000x128_0_1
          (broadcastInDim S100000x1 ![0] bcast_S100000_S100000x1_0 batch))
        (broadcastInDim S100000x128 ![0, 1] bcast_S1x128_S100000x128_0_1
          (broadcastInDim S1x128 ![1] bcast_S128_S1x128_1 (iotaInDim S128 32 0))))) (ix2 n g)
      = if batch (ix1 n) = BitVec.ofNat 32 g.val then 1 else 0 := by
  refine Eq.trans ?_ (uitofp_cmpi_eq _ _)
  show FloatOps.uitofp (F := Ideal) .bf16 (IntOp.cmpi .eq _ _) = _
  rw [broadcastInDim_apply _ _ _ (ix2 n g) (ix2 n (0 : Fin 1)) fun a => by fin_cases a <;> rfl,
    broadcastInDim_apply _ _ batch _ (ix1 n) fun a => by fin_cases a; rfl,
    broadcastInDim_apply _ _ _ (ix2 n g) (ix2 (0 : Fin 1) g) fun a => by fin_cases a <;> rfl,
    broadcastInDim_apply _ _ _ _ (ix1 g) fun a => by fin_cases a; rfl]
  rfl

end Kernel

theorem ref_pool [Cert.ReferenceIdeal.Facts₀] [Cert.KernelIdeal.Facts₀]
    (batch : (⟨Cert.KernelIdeal.S100000, .i32⟩ : BufTy).Contents (Elt Ideal))
    (h0 h1 h2 h3 h4 : Vec Ideal Cert.KernelIdeal.S100000x64 .f32) :
    (open Cert.ReferenceIdeal Cert.ReferenceIdeal.Facts₀ in
      concatenate S128x320 1
        [⟨S128x64, Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h0⟩,
         ⟨S128x64, Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h1⟩,
         ⟨S128x64, Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h2⟩,
         ⟨S128x64, Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h3⟩,
         ⟨S128x64, Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h4⟩]
        concatenates_S128x64_S128x64_S128x64_S128x64_S128x64_S128x320_d1) =
    Cert.Val.Pool.poolG
      (open Cert.KernelIdeal Cert.KernelIdeal.Facts₀ in
        uitofp (F := Ideal) .bf16 (cmpi .eq
          (broadcastInDim S100000x128 ![0, 1] bcast_S100000x1_S100000x128_0_1
            (broadcastInDim S100000x1 ![0] bcast_S100000_S100000x1_0 batch))
          (broadcastInDim S100000x128 ![0, 1] bcast_S1x128_S100000x128_0_1
            (broadcastInDim S1x128 ![1] bcast_S128_S1x128_1 (iotaInDim S128 32 0)))))
      (open Cert.KernelIdeal Cert.KernelIdeal.Facts₀ in
        truncf (F := Ideal) .bf16 (concatenate S100000x320 1
          [⟨S100000x64, h0⟩, ⟨S100000x64, h1⟩, ⟨S100000x64, h2⟩, ⟨S100000x64, h3⟩, ⟨S100000x64, h4⟩]
          concatenates_S100000x64_S100000x64_S100000x64_S100000x64_S100000x64_S100000x320_d1) bitsLt_bf16_f32) := by
  funext j
  obtain ⟨g, c, rfl⟩ : ∃ (g : Fin 128) (c : Fin 320), j = ix2 g c := ⟨j 0, j 1, eq_ix2 j⟩
  have hc := c.isLt
  have hg := g.isLt
  obtain ⟨l, d, hcd, rfl⟩ : ∃ (l : Fin 5) (d : Fin 64) (hcd : l.val * 64 + d.val < 320),
      c = (⟨l.val * 64 + d.val, hcd⟩ : Fin 320) :=
    ⟨⟨c.val / 64, by omega⟩, ⟨c.val % 64, Nat.mod_lt _ (by decide)⟩,
      by show c.val / 64 * 64 + c.val % 64 < 320; omega,
      Fin.ext (by show c.val = c.val / 64 * 64 + c.val % 64; omega)⟩
  refine (concat5_apply _ _ _ _ _ _ g l d hcd).trans ?_
  rw [vec5_map (fun h => Host.scatterAdd (F := Ideal) _ _ _ h), scatter_apply, Cert.Val.Pool.poolG_apply]
  refine Finset.sum_congr rfl fun n _ => ?_
  rw [onehot_apply batch n g]
  refine Eq.trans ?_ (congrArg (_ * ·) (concat5_apply h0 h1 h2 h3 h4
    Cert.KernelIdeal.Facts₀.concatenates_S100000x64_S100000x64_S100000x64_S100000x64_S100000x64_S100000x320_d1 n l d hcd).symm)
  simp only [toInt_eq_small_iff _ _ (show g.val < 2 ^ 31 by omega), ite_mul, one_mul, zero_mul]

end Cert.Val.PoolRef
-- ==== Proof.RVal.lean ====
import proofs.«406479_j78563541778981_1_alg».proof.Proof.RI.Run
import proofs.«406479_j78563541778981_1_alg».proof.Proof.Spec
import proofs.«406479_j78563541778981_1_alg».proof.Proof.Val.LinSpec
import proofs.«406479_j78563541778981_1_alg».proof.Proof.Val.GinSpec
import proofs.«406479_j78563541778981_1_alg».proof.Proof.Val.BnSpec
import proofs.«406479_j78563541778981_1_alg».proof.Proof.Val.PoolRef
import proofs.«406479_j78563541778981_1_alg».proof.Proof.Val.ProjSpec

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

local notation "𝕍" => Valuation τ sig (Elt Ideal)
local notation:max "⟪" V ", " r "⟫" => V (Proc.devRef Proc.tc r)

-- Contents that still hold the launch's arguments and the two rows of its edge list.
structure Keeps (V0 V : 𝕍) : Prop where
  arg : ∀ r ∈ argRefs, ⟪V, r⟫ = ⟪V0, r⟫
  src : ⟪V, main_v1⟫ = srcF ⟪V0, main_arg1⟫
  dst : ⟪V, main_v3⟫ = dstF ⟪V0, main_arg1⟫

section Frame

variable {a b : List (HloOp τ sig (Elt Ideal))} {A B : List (Ref sig .tc)}
  (ha : a.Forall fun op => op.writes ⊆ (A.map (Proc.devRef (τ := τ) .tc)).toFinset)
  (hb : b.Forall fun op => op.writes ⊆ (B.map (Proc.devRef (τ := τ) .tc)).toFinset)
include ha hb

-- Two stretches run in turn leave alone what neither writes.
theorem keep2 (V : 𝕍) {r : Ref sig .tc} (hr : r ∉ A ++ B) : ⟪after b (after a V), r⟫ = ⟪V, r⟫ := by
  rw [after_of_writes_sub b _ hb fun h => hr (List.mem_append_right _ h),
    after_of_writes_sub a V ha fun h => hr (List.mem_append_left _ h)]

theorem Keeps.layer {V0 V : 𝕍} (h : Keeps V0 V) (hk : ∀ r ∈ argRefs ++ [main_v1, main_v3], r ∉ A ++ B) :
    Keeps V0 (after b (after a V)) :=
  ⟨fun r hr => (keep2 ha hb V (hk r (List.mem_append_left _ hr))).trans (h.arg r hr),
    (keep2 ha hb V (hk _ (by decide))).trans h.src, (keep2 ha hb V (hk _ (by decide))).trans h.dst⟩

end Frame

-- A layer's function with its six parameters sliced from arguments 5 to 10 of the contents.
def layerAt (w : Vec Ideal Cert.KernelIdeal.S5x64x64 .f32 → Vec Ideal Cert.KernelIdeal.S64x64 .f32)
    (v : Vec Ideal Cert.KernelIdeal.S5x64 .f32 → Vec Ideal Cert.KernelIdeal.S64 .f32) (V : 𝕍)
    (x : Vec Ideal Cert.KernelIdeal.S100000x64 .f32) (ei : Vec Ideal Cert.KernelIdeal.S2x1200000 .i32) :=
  layerF x ei (w ⟪V, main_arg5⟫) (v ⟪V, main_arg6⟫) (w ⟪V, main_arg7⟫) (v ⟪V, main_arg8⟫) (v ⟪V, main_arg9⟫) (v ⟪V, main_arg10⟫)

theorem layerAt_congr {V0 V : 𝕍} (h : ∀ r ∈ argRefs, ⟪V, r⟫ = ⟪V0, r⟫) (w v x ei) :
    layerAt w v V x ei = layerAt w v V0 x ei := by
  unfold layerAt
  rw [h main_arg5 (by decide), h main_arg6 (by decide), h main_arg7 (by decide), h main_arg8 (by decide),
    h main_arg9 (by decide), h main_arg10 (by decide)]

set_option maxHeartbeats 8000000 in
-- Each layer's last addition holds the layer function of the previous features and of the layer's parameter slices.
theorem L_out {V0 V : 𝕍} (h : Keeps V0 V) :
    ⟪after opsL0b (after opsL0a V), main_v61⟫ = layerAt w64F0 v64F0 V ⟪V, main_v7⟫ ⟪V0, main_arg1⟫
    ∧ ⟪after opsL1b (after opsL1a V), main_v115⟫ = layerAt w64F1 v64F1 V ⟪V, main_v61⟫ ⟪V0, main_arg1⟫
    ∧ ⟪after opsL2b (after opsL2a V), main_v169⟫ = layerAt w64F2 v64F2 V ⟪V, main_v115⟫ ⟪V0, main_arg1⟫
    ∧ ⟪after opsL3b (after opsL3a V), main_v223⟫ = layerAt w64F3 v64F3 V ⟪V, main_v169⟫ ⟪V0, main_arg1⟫
    ∧ ⟪after opsL4b (after opsL4a V), main_v277⟫ = layerAt w64F4 v64F4 V ⟪V, main_v223⟫ ⟪V0, main_arg1⟫ := by
  refine ⟨?_, ?_, ?_, ?_, ?_⟩ <;>
    (after_results_simp
     rw [h.src, h.dst, Cert.Val.Gin.ref_gin _ _ _ _ _ _ Cert.KernelIdeal.Gen.shapeCasts_S64_S1x64,
       Cert.Val.ref_bn bcast_S64_S1x64_1 bcast_S1x64_S100000x64_0_1 bcast_S_S64 Cert.KernelIdeal.Gen.shapeCasts_S64_S1x64]
     rfl)

def cat5 (a b c d e : Vec Ideal S128x64 .f32) : Vec Ideal S128x320 .f32 :=
  concatenate S128x320 1 [⟨S128x64, a⟩, ⟨S128x64, b⟩, ⟨S128x64, c⟩, ⟨S128x64, d⟩, ⟨S128x64, e⟩]
    concatenates_S128x64_S128x64_S128x64_S128x64_S128x64_S128x320_d1

theorem concat_result (V : 𝕍) :
    (StableHlo.nary ![main_v280, main_v283, main_v286, main_v289, main_v292] main_v293 (fun u => concatenate S128x320 1 [⟨S128x64, u 0⟩, ⟨S128x64, u 1⟩, ⟨S128x64, u 2⟩, ⟨S128x64, u 3⟩, ⟨S128x64, u 4⟩] concatenates_S128x64_S128x64_S128x64_S128x64_S128x64_S128x320_d1) : HloOp τ sig (Elt Ideal)).result V
        (no_index (Proc.devRef .tc main_v293))
      = cat5 ⟪V, main_v280⟫ ⟪V, main_v283⟫ ⟪V, main_v286⟫ ⟪V, main_v289⟫ ⟪V, main_v292⟫ :=
  nary_result _ _ _ _ _ V

macro "tail_results" : tactic =>
  `(tactic| (simp (disch := decide) only [after_cons, after_nil,
      nullary_result', unary_result', binary_result', ternary_result', reshape_result', concat_result,
      nullary_result_ne', unary_result_ne', binary_result_ne', ternary_result_ne', reshape_result_ne', nary_result_ne']))

-- The pooling product of the node-to-graph table with the five layers' features side by side.
def pooledAt (V : 𝕍) :=
  Cert.Val.Pool.poolG (onehotF ⟪V, main_arg2⟫)
    (hcatF ⟪V, main_v61⟫ ⟪V, main_v115⟫ ⟪V, main_v169⟫ ⟪V, main_v223⟫ ⟪V, main_v277⟫)

set_option maxHeartbeats 4000000 in
theorem tail_out0 (V : 𝕍) :
    ⟪after opsTailb (after opsTaila V), main_v311⟫
      = l2normF (Cert.Val.Proj.projG (pooledAt V) ⟪V, main_arg11⟫ (rs320 ⟪V, main_arg12⟫) ⟪V, main_arg13⟫
          (rs320 ⟪V, main_arg14⟫)) := by
  tail_results
  unfold cat5
  rw [Cert.Val.PoolRef.ref_pool, Cert.Val.Proj.ref_proj]
  rfl

set_option maxHeartbeats 4000000 in
theorem tail_out1 (V : 𝕍) : ⟪after opsTailb (after opsTaila V), main_v319⟫ = l2normF (pooledAt V) := by
  tail_results
  unfold cat5
  rw [Cert.Val.PoolRef.ref_pool]
  rfl

def U1 (V0 : 𝕍) : 𝕍 := after opsInit V0
def U2 (V0 : 𝕍) : 𝕍 := after opsL0b (after opsL0a (U1 V0))
def U3 (V0 : 𝕍) : 𝕍 := after opsL1b (after opsL1a (U2 V0))
def U4 (V0 : 𝕍) : 𝕍 := after opsL2b (after opsL2a (U3 V0))
def U5 (V0 : 𝕍) : 𝕍 := after opsL3b (after opsL3a (U4 V0))
def U6 (V0 : 𝕍) : 𝕍 := after opsL4b (after opsL4a (U5 V0))

theorem after_ops_stages (V0 : 𝕍) : after ops V0 = after opsTailb (after opsTaila (U6 V0)) := after_ops V0

theorem K1 (V0 : 𝕍) : Keeps V0 (U1 V0) :=
  ⟨fun r hr => after_of_writes_sub opsInit V0 opsInit_writes (opsInit_args r hr),
    by unfold U1; after_results_simp; rfl, by unfold U1; after_results_simp; rfl⟩
theorem K2 (V0 : 𝕍) : Keeps V0 (U2 V0) := (K1 V0).layer opsL0a_writes opsL0b_writes (by decide)
theorem K3 (V0 : 𝕍) : Keeps V0 (U3 V0) := (K2 V0).layer opsL1a_writes opsL1b_writes (by decide)
theorem K4 (V0 : 𝕍) : Keeps V0 (U4 V0) := (K3 V0).layer opsL2a_writes opsL2b_writes (by decide)
theorem K5 (V0 : 𝕍) : Keeps V0 (U5 V0) := (K4 V0).layer opsL3a_writes opsL3b_writes (by decide)
theorem K6 (V0 : 𝕍) : Keeps V0 (U6 V0) := (K5 V0).layer opsL4a_writes opsL4b_writes (by decide)

-- The specification's features after each layer, at the launch's arguments.
def H1 (V0 : 𝕍) :=
  layerAt w64F0 v64F0 V0 (h0F ⟪V0, main_arg0⟫ ⟪V0, main_arg3⟫ ⟪V0, main_arg4⟫) ⟪V0, main_arg1⟫
def H2 (V0 : 𝕍) := layerAt w64F1 v64F1 V0 (H1 V0) ⟪V0, main_arg1⟫
def H3 (V0 : 𝕍) := layerAt w64F2 v64F2 V0 (H2 V0) ⟪V0, main_arg1⟫
def H4 (V0 : 𝕍) := layerAt w64F3 v64F3 V0 (H3 V0) ⟪V0, main_arg1⟫
def H5 (V0 : 𝕍) := layerAt w64F4 v64F4 V0 (H4 V0) ⟪V0, main_arg1⟫

theorem U1_v7 (V0 : 𝕍) : ⟪U1 V0, main_v7⟫ = h0F ⟪V0, main_arg0⟫ ⟪V0, main_arg3⟫ ⟪V0, main_arg4⟫ := by
  unfold U1
  after_results_simp
  rw [Cert.Val.Lin.ref_lin]
  rfl

theorem U2_v61 (V0 : 𝕍) : ⟪U2 V0, main_v61⟫ = H1 V0 := by
  rw [U2, (L_out (K1 V0)).1, layerAt_congr (K1 V0).arg, U1_v7]
  rfl

theorem U3_v115 (V0 : 𝕍) : ⟪U3 V0, main_v115⟫ = H2 V0 := by
  rw [U3, (L_out (K2 V0)).2.1, layerAt_congr (K2 V0).arg, U2_v61]
  rfl

theorem U4_v169 (V0 : 𝕍) : ⟪U4 V0, main_v169⟫ = H3 V0 := by
  rw [U4, (L_out (K3 V0)).2.2.1, layerAt_congr (K3 V0).arg, U3_v115]
  rfl

theorem U5_v223 (V0 : 𝕍) : ⟪U5 V0, main_v223⟫ = H4 V0 := by
  rw [U5, (L_out (K4 V0)).2.2.2.1, layerAt_congr (K4 V0).arg, U4_v169]
  rfl

theorem U6_v277 (V0 : 𝕍) : ⟪U6 V0, main_v277⟫ = H5 V0 := by
  rw [U6, (L_out (K5 V0)).2.2.2.2, layerAt_congr (K5 V0).arg, U5_v223]
  rfl

theorem U6_v61 (V0 : 𝕍) : ⟪U6 V0, main_v61⟫ = H1 V0 :=
  (keep2 opsL4a_writes opsL4b_writes _ (by decide)).trans <|
    (keep2 opsL3a_writes opsL3b_writes _ (by decide)).trans <|
    (keep2 opsL2a_writes opsL2b_writes _ (by decide)).trans <|
    (keep2 opsL1a_writes opsL1b_writes _ (by decide)).trans (U2_v61 V0)

theorem U6_v115 (V0 : 𝕍) : ⟪U6 V0, main_v115⟫ = H2 V0 :=
  (keep2 opsL4a_writes opsL4b_writes _ (by decide)).trans <|
    (keep2 opsL3a_writes opsL3b_writes _ (by decide)).trans <|
    (keep2 opsL2a_writes opsL2b_writes _ (by decide)).trans (U3_v115 V0)

theorem U6_v169 (V0 : 𝕍) : ⟪U6 V0, main_v169⟫ = H3 V0 :=
  (keep2 opsL4a_writes opsL4b_writes _ (by decide)).trans <|
    (keep2 opsL3a_writes opsL3b_writes _ (by decide)).trans (U4_v169 V0)

theorem U6_v223 (V0 : 𝕍) : ⟪U6 V0, main_v223⟫ = H4 V0 :=
  (keep2 opsL4a_writes opsL4b_writes _ (by decide)).trans (U5_v223 V0)

theorem pooled6 (V0 : 𝕍) :
    pooledAt (U6 V0) = Cert.Val.Pool.poolG (onehotF ⟪V0, main_arg2⟫) (hcatF (H1 V0) (H2 V0) (H3 V0) (H4 V0) (H5 V0)) := by
  rw [pooledAt, U6_v61, U6_v115, U6_v169, U6_v223, U6_v277, (K6 V0).arg main_arg2 (by decide)]

theorem ref_out0 (V0 : 𝕍) :
    after ops V0 (Proc.devRef .tc main_v311)
      = out0F ⟪V0, main_arg0⟫ ⟪V0, main_arg1⟫ ⟪V0, main_arg2⟫ ⟪V0, main_arg3⟫ ⟪V0, main_arg4⟫ ⟪V0, main_arg5⟫
          ⟪V0, main_arg6⟫ ⟪V0, main_arg7⟫ ⟪V0, main_arg8⟫ ⟪V0, main_arg9⟫ ⟪V0, main_arg10⟫ ⟪V0, main_arg11⟫
          ⟪V0, main_arg12⟫ ⟪V0, main_arg13⟫ ⟪V0, main_arg14⟫ := by
  rw [after_ops_stages, tail_out0, pooled6, (K6 V0).arg main_arg11 (by decide), (K6 V0).arg main_arg12 (by decide),
    (K6 V0).arg main_arg13 (by decide), (K6 V0).arg main_arg14 (by decide)]
  rfl

theorem ref_out1 (V0 : 𝕍) :
    after ops V0 (Proc.devRef .tc main_v319)
      = out1F ⟪V0, main_arg0⟫ ⟪V0, main_arg1⟫ ⟪V0, main_arg2⟫ ⟪V0, main_arg3⟫ ⟪V0, main_arg4⟫ ⟪V0, main_arg5⟫
          ⟪V0, main_arg6⟫ ⟪V0, main_arg7⟫ ⟪V0, main_arg8⟫ ⟪V0, main_arg9⟫ ⟪V0, main_arg10⟫ := by
  rw [after_ops_stages, tail_out1, pooled6]
  rfl

end Cert.ReferenceIdeal.Hand

end
-- ==== Proof.lean ====
import proofs.«406479_j78563541778981_1_alg».proof.Defs
import proofs.«406479_j78563541778981_1_alg».proof.Proof.Gen.Kernel
import proofs.«406479_j78563541778981_1_alg».proof.Proof.Gen.KernelIdeal
import proofs.«406479_j78563541778981_1_alg».proof.Proof.Gen.ReferenceIdeal
import proofs.«406479_j78563541778981_1_alg».proof.Proof.Gen.Pre_finite_inputs
import proofs.«406479_j78563541778981_1_alg».proof.Proof.K.Run
import proofs.«406479_j78563541778981_1_alg».proof.Proof.K.KeepArgs
import proofs.«406479_j78563541778981_1_alg».proof.Proof.KI.Run
import proofs.«406479_j78563541778981_1_alg».proof.Proof.KI.KeepArgs
import proofs.«406479_j78563541778981_1_alg».proof.Proof.KVal
import proofs.«406479_j78563541778981_1_alg».proof.Proof.RI.Run
import proofs.«406479_j78563541778981_1_alg».proof.Proof.RVal

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_of_run m ρ (Cert.Kernel.Hand.run_all (F := Bits) m ρ)

theorem frame_ki : Cert.frame_KernelIdeal (hKernelIdeal := Cert.KernelIdeal.Gen.facts) (hPre_finite_inputs := Cert.Pre_finite_inputs.Gen.facts) :=
  fun m ρ _ => Cert.KernelIdeal.Hand.frame_of_run m ρ (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- Both idealized programs end at the specification's two outputs of their agreeing arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.out0F (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.out1F (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v196 (by decide))).trans (Cert.KernelIdeal.Hand.W37_out0 m ρ c),
      (h c _ (Cert.KernelIdeal.Hand.mem_uc Cert.KernelIdeal.main_v204 (by decide))).trans (Cert.KernelIdeal.Hand.W37_out1 m ρ c),
      (h c _ (Cert.KernelIdeal.Hand.mem_uc Cert.KernelIdeal.main_arg0 (by decide))).trans (Cert.KernelIdeal.Hand.W37_main_arg0 m ρ c),
      (h c _ (Cert.KernelIdeal.Hand.mem_uc Cert.KernelIdeal.main_arg1 (by decide))).trans (Cert.KernelIdeal.Hand.W37_main_arg1 m ρ c),
      (h c _ (Cert.KernelIdeal.Hand.mem_uc Cert.KernelIdeal.main_arg2 (by decide))).trans (Cert.KernelIdeal.Hand.W37_main_arg2 m ρ c),
      (h c _ (Cert.KernelIdeal.Hand.mem_uc Cert.KernelIdeal.main_arg3 (by decide))).trans (Cert.KernelIdeal.Hand.W37_main_arg3 m ρ c),
      (h c _ (Cert.KernelIdeal.Hand.mem_uc Cert.KernelIdeal.main_arg4 (by decide))).trans (Cert.KernelIdeal.Hand.W37_main_arg4 m ρ c),
      (h c _ (Cert.KernelIdeal.Hand.mem_uc Cert.KernelIdeal.main_arg5 (by decide))).trans (Cert.KernelIdeal.Hand.W37_main_arg5 m ρ c),
      (h c _ (Cert.KernelIdeal.Hand.mem_uc Cert.KernelIdeal.main_arg6 (by decide))).trans (Cert.KernelIdeal.Hand.W37_main_arg6 m ρ c),
      (h c _ (Cert.KernelIdeal.Hand.mem_uc Cert.KernelIdeal.main_arg7 (by decide))).trans (Cert.KernelIdeal.Hand.W37_main_arg7 m ρ c),
      (h c _ (Cert.KernelIdeal.Hand.mem_uc Cert.KernelIdeal.main_arg8 (by decide))).trans (Cert.KernelIdeal.Hand.W37_main_arg8 m ρ c),
      (h c _ (Cert.KernelIdeal.Hand.mem_uc Cert.KernelIdeal.main_arg9 (by decide))).trans (Cert.KernelIdeal.Hand.W37_main_arg9 m ρ c),
      (h c _ (Cert.KernelIdeal.Hand.mem_uc Cert.KernelIdeal.main_arg10 (by decide))).trans (Cert.KernelIdeal.Hand.W37_main_arg10 m ρ c),
      (h c _ (Cert.KernelIdeal.Hand.mem_uc Cert.KernelIdeal.main_arg11 (by decide))).trans (Cert.KernelIdeal.Hand.W37_main_arg11 m ρ c),
      (h c _ (Cert.KernelIdeal.Hand.mem_uc Cert.KernelIdeal.main_arg12 (by decide))).trans (Cert.KernelIdeal.Hand.W37_main_arg12 m ρ c),
      (h c _ (Cert.KernelIdeal.Hand.mem_uc Cert.KernelIdeal.main_arg13 (by decide))).trans (Cert.KernelIdeal.Hand.W37_main_arg13 m ρ c),
      (h c _ (Cert.KernelIdeal.Hand.mem_uc Cert.KernelIdeal.main_arg14 (by decide))).trans (Cert.KernelIdeal.Hand.W37_main_arg14 m ρ c)⟩
  · refine (θ_run Cert.ReferenceIdeal.defs _ _).mono (fun r h c => ?_) (Cert.ReferenceIdeal.Hand.run (F := Ideal) m' ρ')
    obtain ⟨e0, e1, e2, e3, e4, e5, e6, e7, e8, e9, e10, e11, e12, e13, e14⟩ := hagree c
    refine ⟨(h c Cert.ReferenceIdeal.main_v311).trans ((Cert.ReferenceIdeal.Hand.ref_out0 (StableHlo.launchContents m' c)).trans ?_),
      (h c Cert.ReferenceIdeal.main_v319).trans ((Cert.ReferenceIdeal.Hand.ref_out1 (StableHlo.launchContents m' c)).trans ?_),
      (h c Cert.ReferenceIdeal.main_arg0).trans (Cert.ReferenceIdeal.Hand.after_ops_arg _ (by decide)),
      (h c Cert.ReferenceIdeal.main_arg1).trans (Cert.ReferenceIdeal.Hand.after_ops_arg _ (by decide)),
      (h c Cert.ReferenceIdeal.main_arg2).trans (Cert.ReferenceIdeal.Hand.after_ops_arg _ (by decide)),
      (h c Cert.ReferenceIdeal.main_arg3).trans (Cert.ReferenceIdeal.Hand.after_ops_arg _ (by decide)),
      (h c Cert.ReferenceIdeal.main_arg4).trans (Cert.ReferenceIdeal.Hand.after_ops_arg _ (by decide)),
      (h c Cert.ReferenceIdeal.main_arg5).trans (Cert.ReferenceIdeal.Hand.after_ops_arg _ (by decide)),
      (h c Cert.ReferenceIdeal.main_arg6).trans (Cert.ReferenceIdeal.Hand.after_ops_arg _ (by decide)),
      (h c Cert.ReferenceIdeal.main_arg7).trans (Cert.ReferenceIdeal.Hand.after_ops_arg _ (by decide)),
      (h c Cert.ReferenceIdeal.main_arg8).trans (Cert.ReferenceIdeal.Hand.after_ops_arg _ (by decide)),
      (h c Cert.ReferenceIdeal.main_arg9).trans (Cert.ReferenceIdeal.Hand.after_ops_arg _ (by decide)),
      (h c Cert.ReferenceIdeal.main_arg10).trans (Cert.ReferenceIdeal.Hand.after_ops_arg _ (by decide)),
      (h c Cert.ReferenceIdeal.main_arg11).trans (Cert.ReferenceIdeal.Hand.after_ops_arg _ (by decide)),
      (h c Cert.ReferenceIdeal.main_arg12).trans (Cert.ReferenceIdeal.Hand.after_ops_arg _ (by decide)),
      (h c Cert.ReferenceIdeal.main_arg13).trans (Cert.ReferenceIdeal.Hand.after_ops_arg _ (by decide)),
      (h c Cert.ReferenceIdeal.main_arg14).trans (Cert.ReferenceIdeal.Hand.after_ops_arg _ (by decide))⟩
    · beta_reduce; rw [← e0, ← e1, ← e2, ← e3, ← e4, ← e5, ← e6, ← e7, ← e8, ← e9, ← e10, ← e11, ← e12, ← e13, ← e14]
    · beta_reduce; rw [← e0, ← e1, ← e2, ← e3, ← e4, ← e5, ← e6, ← e7, ← e8, ← e9, ← e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
